-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![1536, 6144]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 1536]⟩ ⟨2, ![6144, 1536]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1536x768 : Shape := ⟨2, ![1536, 768]⟩
abbrev S768x1536 : Shape := ⟨2, ![768, 1536]⟩
abbrev S_ : Shape := ⟨0, ![]⟩

class Facts : Prop where
  bcast_S_S1536x768 : S_.BroadcastsInDim S1536x768 (![] : Fin 0 → Fin S1536x768.rank)
  reducesTo_S1536x768_S_d0_1 : S1536x768.ReducesTo [0, 1] S_
  h_S_ : 0 < S_.numel
  bcast_S_S768x1536 : S_.BroadcastsInDim S768x1536 (![] : Fin 0 → Fin S768x1536.rank)
  reducesTo_S768x1536_S_d0_1 : S768x1536.ReducesTo [0, 1] S_

variable [Facts]

def fn {F : FTy → Type} [FloatOps F] (main_arg0 : FVec F S1536x768 .f32) (main_arg1 : FVec F S768x1536 .f32) : IVec S_ 1 :=
  let main_v0 : FVec F S1536x768 .f32 := Host.absf main_arg0
  let main_cst : FVec F S_ .f32 := constant S_ .f32 0x7F800000#32
  let main_v1 : FVec F S1536x768 .f32 := broadcastInDim S1536x768 ![] bcast_S_S1536x768 main_cst
  let main_v2 : IVec S1536x768 1 := cmpf .olt main_v0 main_v1
  let main_c : IVec S_ 1 := constantI S_ 1 1#1
  let main_v3 : IVec S_ 1 := (fun x v => Host.reduce IntOp.andi x v reducesTo_S1536x768_S_d0_1 h_S_) main_v2 main_c
  let main_v4 : FVec F S768x1536 .f32 := Host.absf main_arg1
  let main_cst_0 : FVec F S_ .f32 := constant S_ .f32 0x7F800000#32
  let main_v5 : FVec F S768x1536 .f32 := broadcastInDim S768x1536 ![] bcast_S_S768x1536 main_cst_0
  let main_v6 : IVec S768x1536 1 := cmpf .olt main_v4 main_v5
  let main_c_1 : IVec S_ 1 := constantI S_ 1 1#1
  let main_v7 : IVec S_ 1 := (fun x v => Host.reduce IntOp.andi x v reducesTo_S768x1536_S_d0_1 h_S_) main_v6 main_c_1
  let main_v8 : IVec S_ 1 := andi main_v3 main_v7
  main_v8
-- ==== Pre_finite_inputs_ReferenceIdeal.lean ====
abbrev S1536x6144 : Shape := ⟨2, ![1536, 6144]⟩
abbrev S6144x1536 : Shape := ⟨2, ![6144, 1536]⟩
abbrev S_ : Shape := ⟨0, ![]⟩

class Facts : Prop where
  bcast_S_S1536x6144 : S_.BroadcastsInDim S1536x6144 (![] : Fin 0 → Fin S1536x6144.rank)
  reducesTo_S1536x6144_S_d0_1 : S1536x6144.ReducesTo [0, 1] S_
  h_S_ : 0 < S_.numel
  bcast_S_S6144x1536 : S_.BroadcastsInDim S6144x1536 (![] : Fin 0 → Fin S6144x1536.rank)
  reducesTo_S6144x1536_S_d0_1 : S6144x1536.ReducesTo [0, 1] S_

variable [Facts]

def fn {F : FTy → Type} [FloatOps F] (main_arg0 : FVec F S1536x6144 .f32) (main_arg1 : FVec F S6144x1536 .f32) : IVec S_ 1 :=
  let main_v0 : FVec F S1536x6144 .f32 := Host.absf main_arg0
  let main_cst : FVec F S_ .f32 := constant S_ .f32 0x7F800000#32
  let main_v1 : FVec F S1536x6144 .f32 := broadcastInDim S1536x6144 ![] bcast_S_S1536x6144 main_cst
  let main_v2 : IVec S1536x6144 1 := cmpf .olt main_v0 main_v1
  let main_c : IVec S_ 1 := constantI S_ 1 1#1
  let main_v3 : IVec S_ 1 := (fun x v => Host.reduce IntOp.andi x v reducesTo_S1536x6144_S_d0_1 h_S_) main_v2 main_c
  let main_v4 : FVec F S6144x1536 .f32 := Host.absf main_arg1
  let main_cst_0 : FVec F S_ .f32 := constant S_ .f32 0x7F800000#32
  let main_v5 : FVec F S6144x1536 .f32 := broadcastInDim S6144x1536 ![] bcast_S_S6144x1536 main_cst_0
  let main_v6 : IVec S6144x1536 1 := cmpf .olt main_v4 main_v5
  let main_c_1 : IVec S_ 1 := constantI S_ 1 1#1
  let main_v7 : IVec S_ 1 := (fun x v => Host.reduce IntOp.andi x v reducesTo_S6144x1536_S_d0_1 h_S_) main_v6 main_c_1
  let main_v8 : IVec S_ 1 := andi main_v3 main_v7
  main_v8
-- ==== Kernel.lean ====
abbrev S1536x768 : Shape := ⟨2, ![1536, 768]⟩
abbrev S768x1536 : Shape := ⟨2, ![768, 1536]⟩
abbrev S1536x1536 : Shape := ⟨2, ![1536, 1536]⟩
abbrev S3x256x1536 : Shape := ⟨3, ![3, 256, 1536]⟩
abbrev S3x128x1536 : Shape := ⟨3, ![3, 128, 1536]⟩
abbrev S3x64x1536 : Shape := ⟨3, ![3, 64, 1536]⟩
abbrev S7x3 : Shape := ⟨2, ![7, 3]⟩
abbrev S_ : Shape := ⟨0, ![]⟩
abbrev S64x768 : Shape := ⟨2, ![64, 768]⟩
abbrev S64x1536 : Shape := ⟨2, ![64, 1536]⟩
abbrev S1x64x1536 : Shape := ⟨3, ![1, 64, 1536]⟩
abbrev S1x1 : Shape := ⟨2, ![1, 1]⟩
abbrev S256x768 : Shape := ⟨2, ![256, 768]⟩
abbrev S256x1536 : Shape := ⟨2, ![256, 1536]⟩
abbrev S1x256x1536 : Shape := ⟨3, ![1, 256, 1536]⟩

abbrev nBuf : Space → Nat
  | .hbm => 3
  | .vmem => 11
  | .smem => 0
  | _ => 0

abbrev bufTy : (tb : Table) → Fin (tcTables nBuf tb) → BufTy
  | .hbm, ⟨0, _⟩ => ⟨S1536x768, .f32⟩
  | .hbm, ⟨1, _⟩ => ⟨S768x1536, .f32⟩
  | .hbm, ⟨2, _⟩ => ⟨S1536x1536, .bf16⟩
  | .local _ .vmem, ⟨0, _⟩ => ⟨S1536x768, .f32⟩
  | .local _ .vmem, ⟨1, _⟩ => ⟨S768x1536, .f32⟩
  | .local _ .vmem, ⟨2, _⟩ => ⟨S1536x1536, .bf16⟩
  | .local _ .vmem, ⟨3, _⟩ => ⟨S768x1536, .bf16⟩
  | .local _ .vmem, ⟨4, _⟩ => ⟨S3x256x1536, .f32⟩
  | .local _ .vmem, ⟨5, _⟩ => ⟨S3x256x1536, .bf16⟩
  | .local _ .vmem, ⟨6, _⟩ => ⟨S3x256x1536, .bf16⟩
  | .local _ .vmem, ⟨7, _⟩ => ⟨S3x128x1536, .bf16⟩
  | .local _ .vmem, ⟨8, _⟩ => ⟨S3x128x1536, .bf16⟩
  | .local _ .vmem, ⟨9, _⟩ => ⟨S3x64x1536, .bf16⟩
  | .local _ .vmem, ⟨10, _⟩ => ⟨S3x64x1536, .bf16⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 87 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | _ => false

abbrev sig : RefSig :=
  (ofTc nBuf bufTy 1 87 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v11 : BitVec 32 := Scalar.xori v2 c1_i32_5
  let c1_i32_8 : BitVec 32 := 1#32
  let v15 : BitVec 32 := Scalar.muli v11 c1_i32_8
  let v16 : BitVec 32 := Scalar.addi c0_i32 v15
  v16.toNat
def k0_dev2 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_6 : BitVec 32 := 3#32
  let v12 : BitVec 32 := Scalar.xori v2 c3_i32_6
  let c1_i32_10 : BitVec 32 := 1#32
  let v17 : BitVec 32 := Scalar.muli v12 c1_i32_10
  let v18 : BitVec 32 := Scalar.addi c0_i32_11 v17
  v18.toNat
def k0_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v13 : BitVec 32 := Scalar.xori v2 c4_i32
  let c1_i32_13 : BitVec 32 := 1#32
  let v19 : BitVec 32 := Scalar.muli v13 c1_i32_13
  let v20 : BitVec 32 := Scalar.addi c0_i32_14 v19
  v20.toNat
def k0_off1 (d0 : Dev nD) : Fin 2 → Nat :=
  let c0_i32_20 : BitVec 32 := 0#32
  let c1_i32_19 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let v27 : BitVec 32 := Scalar.subi c1_i32_19 v6
  let c256_i32 : BitVec 32 := 256#32
  let v28 : BitVec 32 := Scalar.muli v27 c256_i32
  let v29 : BitVec 32 := Scalar.addi c0_i32_20 v28
  let c1_i32_35 : BitVec 32 := 1#32
  let c1_i32_2 : BitVec 32 := 1#32
  let v7 : BitVec 32 := Scalar.shrsi v5 c1_i32_2
  let c1_i32_3 : BitVec 32 := 1#32
  let v8 : BitVec 32 := Scalar.andi v7 c1_i32_3
  let v54 : BitVec 32 := Scalar.subi c1_i32_35 v8
  let c2_i32_36 : BitVec 32 := 2#32
  let v55 : BitVec 32 := Scalar.muli v54 c2_i32_36
  let c1_i32_37 : BitVec 32 := 1#32
  let c2_i32 : BitVec 32 := 2#32
  let v9 : BitVec 32 := Scalar.shrsi v2 c2_i32
  let c1_i32_4 : BitVec 32 := 1#32
  let v10 : BitVec 32 := Scalar.andi v9 c1_i32_4
  let v56 : BitVec 32 := Scalar.subi c1_i32_37 v10
  let v57 : BitVec 32 := Scalar.addi v55 v56
  let c64_i32_77 : BitVec 32 := 64#32
  let v108 : BitVec 32 := Scalar.muli v57 c64_i32_77
  let v109 : BitVec 32 := Scalar.addi v29 v108
  let v110 : Index := Scalar.indexCast v109
  let c0_78 : Index := 0#32
  ![v110.toNat, 0]
def k0_off2 (d0 : Dev nD) : Fin 3 → Nat :=
  let c0_82 : Index := 0#32
  let c1_i32_35 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_2 : BitVec 32 := 1#32
  let v7 : BitVec 32 := Scalar.shrsi v5 c1_i32_2
  let c1_i32_3 : BitVec 32 := 1#32
  let v8 : BitVec 32 := Scalar.andi v7 c1_i32_3
  let v54 : BitVec 32 := Scalar.subi c1_i32_35 v8
  let c2_i32_36 : BitVec 32 := 2#32
  let v55 : BitVec 32 := Scalar.muli v54 c2_i32_36
  let c1_i32_37 : BitVec 32 := 1#32
  let c2_i32 : BitVec 32 := 2#32
  let v9 : BitVec 32 := Scalar.shrsi v2 c2_i32
  let c1_i32_4 : BitVec 32 := 1#32
  let v10 : BitVec 32 := Scalar.andi v9 c1_i32_4
  let v56 : BitVec 32 := Scalar.subi c1_i32_37 v10
  let v57 : BitVec 32 := Scalar.addi v55 v56
  let c64_i32_81 : BitVec 32 := 64#32
  let v117 : BitVec 32 := Scalar.muli v57 c64_i32_81
  let v118 : Index := Scalar.indexCast v117
  let c0_83 : Index := 0#32
  ![0, v118.toNat, 0]
def k0_off3 (d0 : Dev nD) : Fin 3 → Nat :=
  let c0_i32_87 : BitVec 32 := 0#32
  let c1_i32_35 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_2 : BitVec 32 := 1#32
  let v7 : BitVec 32 := Scalar.shrsi v5 c1_i32_2
  let c1_i32_3 : BitVec 32 := 1#32
  let v8 : BitVec 32 := Scalar.andi v7 c1_i32_3
  let v54 : BitVec 32 := Scalar.subi c1_i32_35 v8
  let c2_i32_36 : BitVec 32 := 2#32
  let v55 : BitVec 32 := Scalar.muli v54 c2_i32_36
  let c1_i32_37 : BitVec 32 := 1#32
  let c2_i32 : BitVec 32 := 2#32
  let v9 : BitVec 32 := Scalar.shrsi v2 c2_i32
  let c1_i32_4 : BitVec 32 := 1#32
  let v10 : BitVec 32 := Scalar.andi v9 c1_i32_4
  let v56 : BitVec 32 := Scalar.subi c1_i32_37 v10
  let v57 : BitVec 32 := Scalar.addi v55 v56
  let c64_i32_85 : BitVec 32 := 64#32
  let v123 : BitVec 32 := Scalar.muli v57 c64_i32_85
  let c0_i32_94 : BitVec 32 := 0#32
  ![0, v123.toNat, 0]
def k0_dev4 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v11 : BitVec 32 := Scalar.xori v2 c1_i32_5
  let c1_i32_92 : BitVec 32 := 1#32
  let v124 : BitVec 32 := Scalar.muli v11 c1_i32_92
  let v125 : BitVec 32 := Scalar.addi c0_i32_93 v124
  v125.toNat
def k0_off4 (d0 : Dev nD) : Fin 2 → Nat :=
  let c512_i32 : BitVec 32 := 512#32
  let c1_i32_21 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_2 : BitVec 32 := 1#32
  let v7 : BitVec 32 := Scalar.shrsi v5 c1_i32_2
  let c1_i32_3 : BitVec 32 := 1#32
  let v8 : BitVec 32 := Scalar.andi v7 c1_i32_3
  let v30 : BitVec 32 := Scalar.subi c1_i32_21 v8
  let c256_i32_22 : BitVec 32 := 256#32
  let v31 : BitVec 32 := Scalar.muli v30 c256_i32_22
  let v32 : BitVec 32 := Scalar.addi c512_i32 v31
  let c1_i32_43 : BitVec 32 := 1#32
  let c2_i32 : BitVec 32 := 2#32
  let v9 : BitVec 32 := Scalar.shrsi v2 c2_i32
  let c1_i32_4 : BitVec 32 := 1#32
  let v10 : BitVec 32 := Scalar.andi v9 c1_i32_4
  let v66 : BitVec 32 := Scalar.subi c1_i32_43 v10
  let c2_i32_44 : BitVec 32 := 2#32
  let v67 : BitVec 32 := Scalar.muli v66 c2_i32_44
  let c1_i32_45 : BitVec 32 := 1#32
  let c1_i32_1 : BitVec 32 := 1#32
  let v6 : BitVec 32 := Scalar.andi v5 c1_i32_1
  let v68 : BitVec 32 := Scalar.subi c1_i32_45 v6
  let v69 : BitVec 32 := Scalar.addi v67 v68
  let c64_i32_96 : BitVec 32 := 64#32
  let v134 : BitVec 32 := Scalar.muli v69 c64_i32_96
  let v135 : BitVec 32 := Scalar.addi v32 v134
  let v136 : Index := Scalar.indexCast v135
  let c0_97 : Index := 0#32
  ![v136.toNat, 0]
def k0_off5 (d0 : Dev nD) : Fin 3 → Nat :=
  let c1 : Index := 1#32
  let c1_i32_43 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_4 : BitVec 32 := 1#32
  let v10 : BitVec 32 := Scalar.andi v9 c1_i32_4
  let v66 : BitVec 32 := Scalar.subi c1_i32_43 v10
  let c2_i32_44 : BitVec 32 := 2#32
  let v67 : BitVec 32 := Scalar.muli v66 c2_i32_44
  let c1_i32_45 : BitVec 32 := 1#32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let v68 : BitVec 32 := Scalar.subi c1_i32_45 v6
  let v69 : BitVec 32 := Scalar.addi v67 v68
  let c64_i32_101 : BitVec 32 := 64#32
  let v143 : BitVec 32 := Scalar.muli v69 c64_i32_101
  let v144 : Index := Scalar.indexCast v143
  let c0_102 : Index := 0#32
  ![1, v144.toNat, 0]
def k0_off6 (d0 : Dev nD) : Fin 3 → Nat :=
  let c1_i32_106 : BitVec 32 := 1#32
  let c1_i32_43 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_4 : BitVec 32 := 1#32
  let v10 : BitVec 32 := Scalar.andi v9 c1_i32_4
  let v66 : BitVec 32 := Scalar.subi c1_i32_43 v10
  let c2_i32_44 : BitVec 32 := 2#32
  let v67 : BitVec 32 := Scalar.muli v66 c2_i32_44
  let c1_i32_45 : BitVec 32 := 1#32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let v68 : BitVec 32 := Scalar.subi c1_i32_45 v6
  let v69 : BitVec 32 := Scalar.addi v67 v68
  let c64_i32_104 : BitVec 32 := 64#32
  let v149 : BitVec 32 := Scalar.muli v69 c64_i32_104
  let c0_i32_113 : BitVec 32 := 0#32
  ![1, v149.toNat, 0]
def k0_dev5 (d0 : Dev nD) : Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_6 : BitVec 32 := 3#32
  let v12 : BitVec 32 := Scalar.xori v2 c3_i32_6
  let c1_i32_111 : BitVec 32 := 1#32
  let v150 : BitVec 32 := Scalar.muli v12 c1_i32_111
  let v151 : BitVec 32 := Scalar.addi c0_i32_112 v150
  v151.toNat
def k0_off7 (d0 : Dev nD) : Fin 2 → Nat :=
  let c1024_i32 : BitVec 32 := 1024#32
  let c1_i32_23 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_4 : BitVec 32 := 1#32
  let v10 : BitVec 32 := Scalar.andi v9 c1_i32_4
  let v33 : BitVec 32 := Scalar.subi c1_i32_23 v10
  let c256_i32_24 : BitVec 32 := 256#32
  let v34 : BitVec 32 := Scalar.muli v33 c256_i32_24
  let v35 : BitVec 32 := Scalar.addi c1024_i32 v34
  let c1_i32_51 : BitVec 32 := 1#32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let v78 : BitVec 32 := Scalar.subi c1_i32_51 v6
  let c2_i32_52 : BitVec 32 := 2#32
  let v79 : BitVec 32 := Scalar.muli v78 c2_i32_52
  let c1_i32_53 : BitVec 32 := 1#32
  let c1_i32_2 : BitVec 32 := 1#32
  let v7 : BitVec 32 := Scalar.shrsi v5 c1_i32_2
  let c1_i32_3 : BitVec 32 := 1#32
  let v8 : BitVec 32 := Scalar.andi v7 c1_i32_3
  let v80 : BitVec 32 := Scalar.subi c1_i32_53 v8
  let v81 : BitVec 32 := Scalar.addi v79 v80
  let c64_i32_115 : BitVec 32 := 64#32
  let v160 : BitVec 32 := Scalar.muli v81 c64_i32_115
  let v161 : BitVec 32 := Scalar.addi v35 v160
  let v162 : Index := Scalar.indexCast v161
  let c0_116 : Index := 0#32
  ![v162.toNat, 0]
def k0_off8 (d0 : Dev nD) : Fin 3 → Nat :=
  let c2 : Index := 2#32
  let c1_i32_51 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let v78 : BitVec 32 := Scalar.subi c1_i32_51 v6
  let c2_i32_52 : BitVec 32 := 2#32
  let v79 : BitVec 32 := Scalar.muli v78 c2_i32_52
  let c1_i32_53 : BitVec 32 := 1#32
  let c1_i32_2 : BitVec 32 := 1#32
  let v7 : BitVec 32 := Scalar.shrsi v5 c1_i32_2
  let c1_i32_3 : BitVec 32 := 1#32
  let v8 : BitVec 32 := Scalar.andi v7 c1_i32_3
  let v80 : BitVec 32 := Scalar.subi c1_i32_53 v8
  let v81 : BitVec 32 := Scalar.addi v79 v80
  let c64_i32_120 : BitVec 32 := 64#32
  let v169 : BitVec 32 := Scalar.muli v81 c64_i32_120
  let v170 : Index := Scalar.indexCast v169
  let c0_121 : Index := 0#32
  ![2, v170.toNat, 0]
def k0_off9 (d0 : Dev nD) : Fin 3 → Nat :=
  let c2_i32_125 : BitVec 32 := 2#32
  let c1_i32_51 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let v78 : BitVec 32 := Scalar.subi c1_i32_51 v6
  let c2_i32_52 : BitVec 32 := 2#32
  let v79 : BitVec 32 := Scalar.muli v78 c2_i32_52
  let c1_i32_53 : BitVec 32 := 1#32
  let c1_i32_2 : BitVec 32 := 1#32
  let v7 : BitVec 32 := Scalar.shrsi v5 c1_i32_2
  let c1_i32_3 : BitVec 32 := 1#32
  let v8 : BitVec 32 := Scalar.andi v7 c1_i32_3
  let v80 : BitVec 32 := Scalar.subi c1_i32_53 v8
  let v81 : BitVec 32 := Scalar.addi v79 v80
  let c64_i32_123 : BitVec 32 := 64#32
  let v175 : BitVec 32 := Scalar.muli v81 c64_i32_123
  let c0_i32_132 : BitVec 32 := 0#32
  ![2, v175.toNat, 0]
def k0_dev6 (d0 : Dev nD) : Nat :=
  let c0_i32_131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v13 : BitVec 32 := Scalar.xori v2 c4_i32
  let c1_i32_130 : BitVec 32 := 1#32
  let v176 : BitVec 32 := Scalar.muli v13 c1_i32_130
  let v177 : BitVec 32 := Scalar.addi c0_i32_131 v176
  v177.toNat
def k0_off10 (d0 : Dev nD) : Fin 2 → Nat :=
  let c0_i32_20 : BitVec 32 := 0#32
  let c1_i32_19 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let v27 : BitVec 32 := Scalar.subi c1_i32_19 v6
  let c256_i32 : BitVec 32 := 256#32
  let v28 : BitVec 32 := Scalar.muli v27 c256_i32
  let v29 : BitVec 32 := Scalar.addi c0_i32_20 v28
  let c1_i32_38 : BitVec 32 := 1#32
  let c1_i32_2 : BitVec 32 := 1#32
  let v7 : BitVec 32 := Scalar.shrsi v5 c1_i32_2
  let c1_i32_3 : BitVec 32 := 1#32
  let v8 : BitVec 32 := Scalar.andi v7 c1_i32_3
  let v58 : BitVec 32 := Scalar.subi c1_i32_38 v8
  let c2_i32_39 : BitVec 32 := 2#32
  let v59 : BitVec 32 := Scalar.muli v58 c2_i32_39
  let c2_i32 : BitVec 32 := 2#32
  let v9 : BitVec 32 := Scalar.shrsi v2 c2_i32
  let c1_i32_4 : BitVec 32 := 1#32
  let v10 : BitVec 32 := Scalar.andi v9 c1_i32_4
  let v60 : BitVec 32 := Scalar.addi v59 v10
  let c64_i32_134 : BitVec 32 := 64#32
  let v186 : BitVec 32 := Scalar.muli v60 c64_i32_134
  let v187 : BitVec 32 := Scalar.addi v29 v186
  let v188 : Index := Scalar.indexCast v187
  let c0_135 : Index := 0#32
  ![v188.toNat, 0]
def k0_off11 (d0 : Dev nD) : Fin 3 → Nat :=
  let c0_140 : Index := 0#32
  let c1_i32_38 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_2 : BitVec 32 := 1#32
  let v7 : BitVec 32 := Scalar.shrsi v5 c1_i32_2
  let c1_i32_3 : BitVec 32 := 1#32
  let v8 : BitVec 32 := Scalar.andi v7 c1_i32_3
  let v58 : BitVec 32 := Scalar.subi c1_i32_38 v8
  let c2_i32_39 : BitVec 32 := 2#32
  let v59 : BitVec 32 := Scalar.muli v58 c2_i32_39
  let c2_i32 : BitVec 32 := 2#32
  let v9 : BitVec 32 := Scalar.shrsi v2 c2_i32
  let c1_i32_4 : BitVec 32 := 1#32
  let v10 : BitVec 32 := Scalar.andi v9 c1_i32_4
  let v60 : BitVec 32 := Scalar.addi v59 v10
  let c64_i32_139 : BitVec 32 := 64#32
  let v195 : BitVec 32 := Scalar.muli v60 c64_i32_139
  let v196 : Index := Scalar.indexCast v195
  let c0_141 : Index := 0#32
  ![0, v196.toNat, 0]
def k0_off12 (d0 : Dev nD) : Fin 3 → Nat :=
  let c0_i32_145 : BitVec 32 := 0#32
  let c1_i32_38 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_2 : BitVec 32 := 1#32
  let v7 : BitVec 32 := Scalar.shrsi v5 c1_i32_2
  let c1_i32_3 : BitVec 32 := 1#32
  let v8 : BitVec 32 := Scalar.andi v7 c1_i32_3
  let v58 : BitVec 32 := Scalar.subi c1_i32_38 v8
  let c2_i32_39 : BitVec 32 := 2#32
  let v59 : BitVec 32 := Scalar.muli v58 c2_i32_39
  let c2_i32 : BitVec 32 := 2#32
  let v9 : BitVec 32 := Scalar.shrsi v2 c2_i32
  let c1_i32_4 : BitVec 32 := 1#32
  let v10 : BitVec 32 := Scalar.andi v9 c1_i32_4
  let v60 : BitVec 32 := Scalar.addi v59 v10
  let c64_i32_143 : BitVec 32 := 64#32
  let v201 : BitVec 32 := Scalar.muli v60 c64_i32_143
  let c0_i32_152 : BitVec 32 := 0#32
  ![0, v201.toNat, 0]
def k0_dev7 (d0 : Dev nD) : Nat :=
  let c0_i32_151 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v11 : BitVec 32 := Scalar.xori v2 c1_i32_5
  let c1_i32_150 : BitVec 32 := 1#32
  let v202 : BitVec 32 := Scalar.muli v11 c1_i32_150
  let v203 : BitVec 32 := Scalar.addi c0_i32_151 v202
  v203.toNat
def k0_off13 (d0 : Dev nD) : Fin 2 → Nat :=
  let c512_i32 : BitVec 32 := 512#32
  let c1_i32_21 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_2 : BitVec 32 := 1#32
  let v7 : BitVec 32 := Scalar.shrsi v5 c1_i32_2
  let c1_i32_3 : BitVec 32 := 1#32
  let v8 : BitVec 32 := Scalar.andi v7 c1_i32_3
  let v30 : BitVec 32 := Scalar.subi c1_i32_21 v8
  let c256_i32_22 : BitVec 32 := 256#32
  let v31 : BitVec 32 := Scalar.muli v30 c256_i32_22
  let v32 : BitVec 32 := Scalar.addi c512_i32 v31
  let c1_i32_46 : BitVec 32 := 1#32
  let c2_i32 : BitVec 32 := 2#32
  let v9 : BitVec 32 := Scalar.shrsi v2 c2_i32
  let c1_i32_4 : BitVec 32 := 1#32
  let v10 : BitVec 32 := Scalar.andi v9 c1_i32_4
  let v70 : BitVec 32 := Scalar.subi c1_i32_46 v10
  let c2_i32_47 : BitVec 32 := 2#32
  let v71 : BitVec 32 := Scalar.muli v70 c2_i32_47
  let c1_i32_1 : BitVec 32 := 1#32
  let v6 : BitVec 32 := Scalar.andi v5 c1_i32_1
  let v72 : BitVec 32 := Scalar.addi v71 v6
  let c64_i32_154 : BitVec 32 := 64#32
  let v212 : BitVec 32 := Scalar.muli v72 c64_i32_154
  let v213 : BitVec 32 := Scalar.addi v32 v212
  let v214 : Index := Scalar.indexCast v213
  let c0_155 : Index := 0#32
  ![v214.toNat, 0]
def k0_off14 (d0 : Dev nD) : Fin 3 → Nat :=
  let c1_160 : Index := 1#32
  let c1_i32_46 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_4 : BitVec 32 := 1#32
  let v10 : BitVec 32 := Scalar.andi v9 c1_i32_4
  let v70 : BitVec 32 := Scalar.subi c1_i32_46 v10
  let c2_i32_47 : BitVec 32 := 2#32
  let v71 : BitVec 32 := Scalar.muli v70 c2_i32_47
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let v72 : BitVec 32 := Scalar.addi v71 v6
  let c64_i32_159 : BitVec 32 := 64#32
  let v221 : BitVec 32 := Scalar.muli v72 c64_i32_159
  let v222 : Index := Scalar.indexCast v221
  let c0_161 : Index := 0#32
  ![1, v222.toNat, 0]
def k0_off15 (d0 : Dev nD) : Fin 3 → Nat :=
  let c1_i32_165 : BitVec 32 := 1#32
  let c1_i32_46 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_4 : BitVec 32 := 1#32
  let v10 : BitVec 32 := Scalar.andi v9 c1_i32_4
  let v70 : BitVec 32 := Scalar.subi c1_i32_46 v10
  let c2_i32_47 : BitVec 32 := 2#32
  let v71 : BitVec 32 := Scalar.muli v70 c2_i32_47
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let v72 : BitVec 32 := Scalar.addi v71 v6
  let c64_i32_163 : BitVec 32 := 64#32
  let v227 : BitVec 32 := Scalar.muli v72 c64_i32_163
  let c0_i32_172 : BitVec 32 := 0#32
  ![1, v227.toNat, 0]
def k0_dev8 (d0 : Dev nD) : Nat :=
  let c0_i32_171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_6 : BitVec 32 := 3#32
  let v12 : BitVec 32 := Scalar.xori v2 c3_i32_6
  let c1_i32_170 : BitVec 32 := 1#32
  let v228 : BitVec 32 := Scalar.muli v12 c1_i32_170
  let v229 : BitVec 32 := Scalar.addi c0_i32_171 v228
  v229.toNat
def k0_off16 (d0 : Dev nD) : Fin 2 → Nat :=
  let c1024_i32 : BitVec 32 := 1024#32
  let c1_i32_23 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_4 : BitVec 32 := 1#32
  let v10 : BitVec 32 := Scalar.andi v9 c1_i32_4
  let v33 : BitVec 32 := Scalar.subi c1_i32_23 v10
  let c256_i32_24 : BitVec 32 := 256#32
  let v34 : BitVec 32 := Scalar.muli v33 c256_i32_24
  let v35 : BitVec 32 := Scalar.addi c1024_i32 v34
  let c1_i32_54 : BitVec 32 := 1#32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let v82 : BitVec 32 := Scalar.subi c1_i32_54 v6
  let c2_i32_55 : BitVec 32 := 2#32
  let v83 : BitVec 32 := Scalar.muli v82 c2_i32_55
  let c1_i32_2 : BitVec 32 := 1#32
  let v7 : BitVec 32 := Scalar.shrsi v5 c1_i32_2
  let c1_i32_3 : BitVec 32 := 1#32
  let v8 : BitVec 32 := Scalar.andi v7 c1_i32_3
  let v84 : BitVec 32 := Scalar.addi v83 v8
  let c64_i32_174 : BitVec 32 := 64#32
  let v238 : BitVec 32 := Scalar.muli v84 c64_i32_174
  let v239 : BitVec 32 := Scalar.addi v35 v238
  let v240 : Index := Scalar.indexCast v239
  let c0_175 : Index := 0#32
  ![v240.toNat, 0]
def k0_off17 (d0 : Dev nD) : Fin 3 → Nat :=
  let c2_180 : Index := 2#32
  let c1_i32_54 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let v82 : BitVec 32 := Scalar.subi c1_i32_54 v6
  let c2_i32_55 : BitVec 32 := 2#32
  let v83 : BitVec 32 := Scalar.muli v82 c2_i32_55
  let c1_i32_2 : BitVec 32 := 1#32
  let v7 : BitVec 32 := Scalar.shrsi v5 c1_i32_2
  let c1_i32_3 : BitVec 32 := 1#32
  let v8 : BitVec 32 := Scalar.andi v7 c1_i32_3
  let v84 : BitVec 32 := Scalar.addi v83 v8
  let c64_i32_179 : BitVec 32 := 64#32
  let v247 : BitVec 32 := Scalar.muli v84 c64_i32_179
  let v248 : Index := Scalar.indexCast v247
  let c0_181 : Index := 0#32
  ![2, v248.toNat, 0]
def k0_off18 (d0 : Dev nD) : Fin 3 → Nat :=
  let c2_i32_185 : BitVec 32 := 2#32
  let c1_i32_54 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let v82 : BitVec 32 := Scalar.subi c1_i32_54 v6
  let c2_i32_55 : BitVec 32 := 2#32
  let v83 : BitVec 32 := Scalar.muli v82 c2_i32_55
  let c1_i32_2 : BitVec 32 := 1#32
  let v7 : BitVec 32 := Scalar.shrsi v5 c1_i32_2
  let c1_i32_3 : BitVec 32 := 1#32
  let v8 : BitVec 32 := Scalar.andi v7 c1_i32_3
  let v84 : BitVec 32 := Scalar.addi v83 v8
  let c64_i32_183 : BitVec 32 := 64#32
  let v253 : BitVec 32 := Scalar.muli v84 c64_i32_183
  let c0_i32_192 : BitVec 32 := 0#32
  ![2, v253.toNat, 0]
def k0_dev9 (d0 : Dev nD) : Nat :=
  let c0_i32_191 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v13 : BitVec 32 := Scalar.xori v2 c4_i32
  let c1_i32_190 : BitVec 32 := 1#32
  let v254 : BitVec 32 := Scalar.muli v13 c1_i32_190
  let v255 : BitVec 32 := Scalar.addi c0_i32_191 v254
  v255.toNat
def k0_off19 (d0 : Dev nD) : Fin 2 → Nat :=
  let c0_i32_20 : BitVec 32 := 0#32
  let c1_i32_19 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let v27 : BitVec 32 := Scalar.subi c1_i32_19 v6
  let c256_i32 : BitVec 32 := 256#32
  let v28 : BitVec 32 := Scalar.muli v27 c256_i32
  let v29 : BitVec 32 := Scalar.addi c0_i32_20 v28
  let c1_i32_2 : BitVec 32 := 1#32
  let v7 : BitVec 32 := Scalar.shrsi v5 c1_i32_2
  let c1_i32_3 : BitVec 32 := 1#32
  let v8 : BitVec 32 := Scalar.andi v7 c1_i32_3
  let c2_i32_40 : BitVec 32 := 2#32
  let v61 : BitVec 32 := Scalar.muli v8 c2_i32_40
  let c1_i32_41 : BitVec 32 := 1#32
  let c2_i32 : BitVec 32 := 2#32
  let v9 : BitVec 32 := Scalar.shrsi v2 c2_i32
  let c1_i32_4 : BitVec 32 := 1#32
  let v10 : BitVec 32 := Scalar.andi v9 c1_i32_4
  let v62 : BitVec 32 := Scalar.subi c1_i32_41 v10
  let v63 : BitVec 32 := Scalar.addi v61 v62
  let c64_i32_194 : BitVec 32 := 64#32
  let v264 : BitVec 32 := Scalar.muli v63 c64_i32_194
  let v265 : BitVec 32 := Scalar.addi v29 v264
  let v266 : Index := Scalar.indexCast v265
  let c0_195 : Index := 0#32
  ![v266.toNat, 0]
def k0_off20 (d0 : Dev nD) : Fin 3 → Nat :=
  let c0_200 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_2 : BitVec 32 := 1#32
  let v7 : BitVec 32 := Scalar.shrsi v5 c1_i32_2
  let c1_i32_3 : BitVec 32 := 1#32
  let v8 : BitVec 32 := Scalar.andi v7 c1_i32_3
  let c2_i32_40 : BitVec 32 := 2#32
  let v61 : BitVec 32 := Scalar.muli v8 c2_i32_40
  let c1_i32_41 : BitVec 32 := 1#32
  let c2_i32 : BitVec 32 := 2#32
  let v9 : BitVec 32 := Scalar.shrsi v2 c2_i32
  let c1_i32_4 : BitVec 32 := 1#32
  let v10 : BitVec 32 := Scalar.andi v9 c1_i32_4
  let v62 : BitVec 32 := Scalar.subi c1_i32_41 v10
  let v63 : BitVec 32 := Scalar.addi v61 v62
  let c64_i32_199 : BitVec 32 := 64#32
  let v273 : BitVec 32 := Scalar.muli v63 c64_i32_199
  let v274 : Index := Scalar.indexCast v273
  let c0_201 : Index := 0#32
  ![0, v274.toNat, 0]
def k0_off21 (d0 : Dev nD) : Fin 3 → Nat :=
  let c0_i32_205 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_2 : BitVec 32 := 1#32
  let v7 : BitVec 32 := Scalar.shrsi v5 c1_i32_2
  let c1_i32_3 : BitVec 32 := 1#32
  let v8 : BitVec 32 := Scalar.andi v7 c1_i32_3
  let c2_i32_40 : BitVec 32 := 2#32
  let v61 : BitVec 32 := Scalar.muli v8 c2_i32_40
  let c1_i32_41 : BitVec 32 := 1#32
  let c2_i32 : BitVec 32 := 2#32
  let v9 : BitVec 32 := Scalar.shrsi v2 c2_i32
  let c1_i32_4 : BitVec 32 := 1#32
  let v10 : BitVec 32 := Scalar.andi v9 c1_i32_4
  let v62 : BitVec 32 := Scalar.subi c1_i32_41 v10
  let v63 : BitVec 32 := Scalar.addi v61 v62
  let c64_i32_203 : BitVec 32 := 64#32
  let v279 : BitVec 32 := Scalar.muli v63 c64_i32_203
  let c0_i32_212 : BitVec 32 := 0#32
  ![0, v279.toNat, 0]
def k0_dev10 (d0 : Dev nD) : Nat :=
  let c0_i32_211 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v11 : BitVec 32 := Scalar.xori v2 c1_i32_5
  let c1_i32_210 : BitVec 32 := 1#32
  let v280 : BitVec 32 := Scalar.muli v11 c1_i32_210
  let v281 : BitVec 32 := Scalar.addi c0_i32_211 v280
  v281.toNat
def k0_off22 (d0 : Dev nD) : Fin 2 → Nat :=
  let c512_i32 : BitVec 32 := 512#32
  let c1_i32_21 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_2 : BitVec 32 := 1#32
  let v7 : BitVec 32 := Scalar.shrsi v5 c1_i32_2
  let c1_i32_3 : BitVec 32 := 1#32
  let v8 : BitVec 32 := Scalar.andi v7 c1_i32_3
  let v30 : BitVec 32 := Scalar.subi c1_i32_21 v8
  let c256_i32_22 : BitVec 32 := 256#32
  let v31 : BitVec 32 := Scalar.muli v30 c256_i32_22
  let v32 : BitVec 32 := Scalar.addi c512_i32 v31
  let c2_i32 : BitVec 32 := 2#32
  let v9 : BitVec 32 := Scalar.shrsi v2 c2_i32
  let c1_i32_4 : BitVec 32 := 1#32
  let v10 : BitVec 32 := Scalar.andi v9 c1_i32_4
  let c2_i32_48 : BitVec 32 := 2#32
  let v73 : BitVec 32 := Scalar.muli v10 c2_i32_48
  let c1_i32_49 : BitVec 32 := 1#32
  let c1_i32_1 : BitVec 32 := 1#32
  let v6 : BitVec 32 := Scalar.andi v5 c1_i32_1
  let v74 : BitVec 32 := Scalar.subi c1_i32_49 v6
  let v75 : BitVec 32 := Scalar.addi v73 v74
  let c64_i32_214 : BitVec 32 := 64#32
  let v290 : BitVec 32 := Scalar.muli v75 c64_i32_214
  let v291 : BitVec 32 := Scalar.addi v32 v290
  let v292 : Index := Scalar.indexCast v291
  let c0_215 : Index := 0#32
  ![v292.toNat, 0]
def k0_off23 (d0 : Dev nD) : Fin 3 → Nat :=
  let c1_220 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_4 : BitVec 32 := 1#32
  let v10 : BitVec 32 := Scalar.andi v9 c1_i32_4
  let c2_i32_48 : BitVec 32 := 2#32
  let v73 : BitVec 32 := Scalar.muli v10 c2_i32_48
  let c1_i32_49 : BitVec 32 := 1#32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let v74 : BitVec 32 := Scalar.subi c1_i32_49 v6
  let v75 : BitVec 32 := Scalar.addi v73 v74
  let c64_i32_219 : BitVec 32 := 64#32
  let v299 : BitVec 32 := Scalar.muli v75 c64_i32_219
  let v300 : Index := Scalar.indexCast v299
  let c0_221 : Index := 0#32
  ![1, v300.toNat, 0]
def k0_off24 (d0 : Dev nD) : Fin 3 → Nat :=
  let c1_i32_225 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_4 : BitVec 32 := 1#32
  let v10 : BitVec 32 := Scalar.andi v9 c1_i32_4
  let c2_i32_48 : BitVec 32 := 2#32
  let v73 : BitVec 32 := Scalar.muli v10 c2_i32_48
  let c1_i32_49 : BitVec 32 := 1#32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let v74 : BitVec 32 := Scalar.subi c1_i32_49 v6
  let v75 : BitVec 32 := Scalar.addi v73 v74
  let c64_i32_223 : BitVec 32 := 64#32
  let v305 : BitVec 32 := Scalar.muli v75 c64_i32_223
  let c0_i32_232 : BitVec 32 := 0#32
  ![1, v305.toNat, 0]
def k0_dev11 (d0 : Dev nD) : Nat :=
  let c0_i32_231 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_6 : BitVec 32 := 3#32
  let v12 : BitVec 32 := Scalar.xori v2 c3_i32_6
  let c1_i32_230 : BitVec 32 := 1#32
  let v306 : BitVec 32 := Scalar.muli v12 c1_i32_230
  let v307 : BitVec 32 := Scalar.addi c0_i32_231 v306
  v307.toNat
def k0_off25 (d0 : Dev nD) : Fin 2 → Nat :=
  let c1024_i32 : BitVec 32 := 1024#32
  let c1_i32_23 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_4 : BitVec 32 := 1#32
  let v10 : BitVec 32 := Scalar.andi v9 c1_i32_4
  let v33 : BitVec 32 := Scalar.subi c1_i32_23 v10
  let c256_i32_24 : BitVec 32 := 256#32
  let v34 : BitVec 32 := Scalar.muli v33 c256_i32_24
  let v35 : BitVec 32 := Scalar.addi c1024_i32 v34
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c2_i32_56 : BitVec 32 := 2#32
  let v85 : BitVec 32 := Scalar.muli v6 c2_i32_56
  let c1_i32_57 : BitVec 32 := 1#32
  let c1_i32_2 : BitVec 32 := 1#32
  let v7 : BitVec 32 := Scalar.shrsi v5 c1_i32_2
  let c1_i32_3 : BitVec 32 := 1#32
  let v8 : BitVec 32 := Scalar.andi v7 c1_i32_3
  let v86 : BitVec 32 := Scalar.subi c1_i32_57 v8
  let v87 : BitVec 32 := Scalar.addi v85 v86
  let c64_i32_234 : BitVec 32 := 64#32
  let v316 : BitVec 32 := Scalar.muli v87 c64_i32_234
  let v317 : BitVec 32 := Scalar.addi v35 v316
  let v318 : Index := Scalar.indexCast v317
  let c0_235 : Index := 0#32
  ![v318.toNat, 0]
def k0_off26 (d0 : Dev nD) : Fin 3 → Nat :=
  let c2_240 : Index := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c2_i32_56 : BitVec 32 := 2#32
  let v85 : BitVec 32 := Scalar.muli v6 c2_i32_56
  let c1_i32_57 : BitVec 32 := 1#32
  let c1_i32_2 : BitVec 32 := 1#32
  let v7 : BitVec 32 := Scalar.shrsi v5 c1_i32_2
  let c1_i32_3 : BitVec 32 := 1#32
  let v8 : BitVec 32 := Scalar.andi v7 c1_i32_3
  let v86 : BitVec 32 := Scalar.subi c1_i32_57 v8
  let v87 : BitVec 32 := Scalar.addi v85 v86
  let c64_i32_239 : BitVec 32 := 64#32
  let v325 : BitVec 32 := Scalar.muli v87 c64_i32_239
  let v326 : Index := Scalar.indexCast v325
  let c0_241 : Index := 0#32
  ![2, v326.toNat, 0]
def k0_off27 (d0 : Dev nD) : Fin 3 → Nat :=
  let c2_i32_245 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c2_i32_56 : BitVec 32 := 2#32
  let v85 : BitVec 32 := Scalar.muli v6 c2_i32_56
  let c1_i32_57 : BitVec 32 := 1#32
  let c1_i32_2 : BitVec 32 := 1#32
  let v7 : BitVec 32 := Scalar.shrsi v5 c1_i32_2
  let c1_i32_3 : BitVec 32 := 1#32
  let v8 : BitVec 32 := Scalar.andi v7 c1_i32_3
  let v86 : BitVec 32 := Scalar.subi c1_i32_57 v8
  let v87 : BitVec 32 := Scalar.addi v85 v86
  let c64_i32_243 : BitVec 32 := 64#32
  let v331 : BitVec 32 := Scalar.muli v87 c64_i32_243
  let c0_i32_252 : BitVec 32 := 0#32
  ![2, v331.toNat, 0]
def k0_dev12 (d0 : Dev nD) : Nat :=
  let c0_i32_251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v13 : BitVec 32 := Scalar.xori v2 c4_i32
  let c1_i32_250 : BitVec 32 := 1#32
  let v332 : BitVec 32 := Scalar.muli v13 c1_i32_250
  let v333 : BitVec 32 := Scalar.addi c0_i32_251 v332
  v333.toNat
def k0_off28 (d0 : Dev nD) : Fin 2 → Nat :=
  let c0_i32_20 : BitVec 32 := 0#32
  let c1_i32_19 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let v27 : BitVec 32 := Scalar.subi c1_i32_19 v6
  let c256_i32 : BitVec 32 := 256#32
  let v28 : BitVec 32 := Scalar.muli v27 c256_i32
  let v29 : BitVec 32 := Scalar.addi c0_i32_20 v28
  let c1_i32_2 : BitVec 32 := 1#32
  let v7 : BitVec 32 := Scalar.shrsi v5 c1_i32_2
  let c1_i32_3 : BitVec 32 := 1#32
  let v8 : BitVec 32 := Scalar.andi v7 c1_i32_3
  let c2_i32_42 : BitVec 32 := 2#32
  let v64 : BitVec 32 := Scalar.muli v8 c2_i32_42
  let c2_i32 : BitVec 32 := 2#32
  let v9 : BitVec 32 := Scalar.shrsi v2 c2_i32
  let c1_i32_4 : BitVec 32 := 1#32
  let v10 : BitVec 32 := Scalar.andi v9 c1_i32_4
  let v65 : BitVec 32 := Scalar.addi v64 v10
  let c64_i32_254 : BitVec 32 := 64#32
  let v342 : BitVec 32 := Scalar.muli v65 c64_i32_254
  let v343 : BitVec 32 := Scalar.addi v29 v342
  let v344 : Index := Scalar.indexCast v343
  let c0_255 : Index := 0#32
  ![v344.toNat, 0]
def k0_off29 (d0 : Dev nD) : Fin 3 → Nat :=
  let c0_260 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_2 : BitVec 32 := 1#32
  let v7 : BitVec 32 := Scalar.shrsi v5 c1_i32_2
  let c1_i32_3 : BitVec 32 := 1#32
  let v8 : BitVec 32 := Scalar.andi v7 c1_i32_3
  let c2_i32_42 : BitVec 32 := 2#32
  let v64 : BitVec 32 := Scalar.muli v8 c2_i32_42
  let c2_i32 : BitVec 32 := 2#32
  let v9 : BitVec 32 := Scalar.shrsi v2 c2_i32
  let c1_i32_4 : BitVec 32 := 1#32
  let v10 : BitVec 32 := Scalar.andi v9 c1_i32_4
  let v65 : BitVec 32 := Scalar.addi v64 v10
  let c64_i32_259 : BitVec 32 := 64#32
  let v351 : BitVec 32 := Scalar.muli v65 c64_i32_259
  let v352 : Index := Scalar.indexCast v351
  let c0_261 : Index := 0#32
  ![0, v352.toNat, 0]
def k0_off30 (d0 : Dev nD) : Fin 3 → Nat :=
  let c0_i32_265 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_2 : BitVec 32 := 1#32
  let v7 : BitVec 32 := Scalar.shrsi v5 c1_i32_2
  let c1_i32_3 : BitVec 32 := 1#32
  let v8 : BitVec 32 := Scalar.andi v7 c1_i32_3
  let c2_i32_42 : BitVec 32 := 2#32
  let v64 : BitVec 32 := Scalar.muli v8 c2_i32_42
  let c2_i32 : BitVec 32 := 2#32
  let v9 : BitVec 32 := Scalar.shrsi v2 c2_i32
  let c1_i32_4 : BitVec 32 := 1#32
  let v10 : BitVec 32 := Scalar.andi v9 c1_i32_4
  let v65 : BitVec 32 := Scalar.addi v64 v10
  let c64_i32_263 : BitVec 32 := 64#32
  let v357 : BitVec 32 := Scalar.muli v65 c64_i32_263
  let c0_i32_272 : BitVec 32 := 0#32
  ![0, v357.toNat, 0]
def k0_dev13 (d0 : Dev nD) : Nat :=
  let c0_i32_271 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v11 : BitVec 32 := Scalar.xori v2 c1_i32_5
  let c1_i32_270 : BitVec 32 := 1#32
  let v358 : BitVec 32 := Scalar.muli v11 c1_i32_270
  let v359 : BitVec 32 := Scalar.addi c0_i32_271 v358
  v359.toNat
def k0_off31 (d0 : Dev nD) : Fin 2 → Nat :=
  let c512_i32 : BitVec 32 := 512#32
  let c1_i32_21 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_2 : BitVec 32 := 1#32
  let v7 : BitVec 32 := Scalar.shrsi v5 c1_i32_2
  let c1_i32_3 : BitVec 32 := 1#32
  let v8 : BitVec 32 := Scalar.andi v7 c1_i32_3
  let v30 : BitVec 32 := Scalar.subi c1_i32_21 v8
  let c256_i32_22 : BitVec 32 := 256#32
  let v31 : BitVec 32 := Scalar.muli v30 c256_i32_22
  let v32 : BitVec 32 := Scalar.addi c512_i32 v31
  let c2_i32 : BitVec 32 := 2#32
  let v9 : BitVec 32 := Scalar.shrsi v2 c2_i32
  let c1_i32_4 : BitVec 32 := 1#32
  let v10 : BitVec 32 := Scalar.andi v9 c1_i32_4
  let c2_i32_50 : BitVec 32 := 2#32
  let v76 : BitVec 32 := Scalar.muli v10 c2_i32_50
  let c1_i32_1 : BitVec 32 := 1#32
  let v6 : BitVec 32 := Scalar.andi v5 c1_i32_1
  let v77 : BitVec 32 := Scalar.addi v76 v6
  let c64_i32_274 : BitVec 32 := 64#32
  let v368 : BitVec 32 := Scalar.muli v77 c64_i32_274
  let v369 : BitVec 32 := Scalar.addi v32 v368
  let v370 : Index := Scalar.indexCast v369
  let c0_275 : Index := 0#32
  ![v370.toNat, 0]
def k0_off32 (d0 : Dev nD) : Fin 3 → Nat :=
  let c1_280 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_4 : BitVec 32 := 1#32
  let v10 : BitVec 32 := Scalar.andi v9 c1_i32_4
  let c2_i32_50 : BitVec 32 := 2#32
  let v76 : BitVec 32 := Scalar.muli v10 c2_i32_50
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let v77 : BitVec 32 := Scalar.addi v76 v6
  let c64_i32_279 : BitVec 32 := 64#32
  let v377 : BitVec 32 := Scalar.muli v77 c64_i32_279
  let v378 : Index := Scalar.indexCast v377
  let c0_281 : Index := 0#32
  ![1, v378.toNat, 0]
def k0_off33 (d0 : Dev nD) : Fin 3 → Nat :=
  let c1_i32_285 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_4 : BitVec 32 := 1#32
  let v10 : BitVec 32 := Scalar.andi v9 c1_i32_4
  let c2_i32_50 : BitVec 32 := 2#32
  let v76 : BitVec 32 := Scalar.muli v10 c2_i32_50
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let v77 : BitVec 32 := Scalar.addi v76 v6
  let c64_i32_283 : BitVec 32 := 64#32
  let v383 : BitVec 32 := Scalar.muli v77 c64_i32_283
  let c0_i32_292 : BitVec 32 := 0#32
  ![1, v383.toNat, 0]
def k0_dev14 (d0 : Dev nD) : Nat :=
  let c0_i32_291 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_6 : BitVec 32 := 3#32
  let v12 : BitVec 32 := Scalar.xori v2 c3_i32_6
  let c1_i32_290 : BitVec 32 := 1#32
  let v384 : BitVec 32 := Scalar.muli v12 c1_i32_290
  let v385 : BitVec 32 := Scalar.addi c0_i32_291 v384
  v385.toNat
def k0_off34 (d0 : Dev nD) : Fin 2 → Nat :=
  let c1024_i32 : BitVec 32 := 1024#32
  let c1_i32_23 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_4 : BitVec 32 := 1#32
  let v10 : BitVec 32 := Scalar.andi v9 c1_i32_4
  let v33 : BitVec 32 := Scalar.subi c1_i32_23 v10
  let c256_i32_24 : BitVec 32 := 256#32
  let v34 : BitVec 32 := Scalar.muli v33 c256_i32_24
  let v35 : BitVec 32 := Scalar.addi c1024_i32 v34
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c2_i32_58 : BitVec 32 := 2#32
  let v88 : BitVec 32 := Scalar.muli v6 c2_i32_58
  let c1_i32_2 : BitVec 32 := 1#32
  let v7 : BitVec 32 := Scalar.shrsi v5 c1_i32_2
  let c1_i32_3 : BitVec 32 := 1#32
  let v8 : BitVec 32 := Scalar.andi v7 c1_i32_3
  let v89 : BitVec 32 := Scalar.addi v88 v8
  let c64_i32_294 : BitVec 32 := 64#32
  let v394 : BitVec 32 := Scalar.muli v89 c64_i32_294
  let v395 : BitVec 32 := Scalar.addi v35 v394
  let v396 : Index := Scalar.indexCast v395
  let c0_295 : Index := 0#32
  ![v396.toNat, 0]
def k0_off35 (d0 : Dev nD) : Fin 3 → Nat :=
  let c2_300 : Index := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c2_i32_58 : BitVec 32 := 2#32
  let v88 : BitVec 32 := Scalar.muli v6 c2_i32_58
  let c1_i32_2 : BitVec 32 := 1#32
  let v7 : BitVec 32 := Scalar.shrsi v5 c1_i32_2
  let c1_i32_3 : BitVec 32 := 1#32
  let v8 : BitVec 32 := Scalar.andi v7 c1_i32_3
  let v89 : BitVec 32 := Scalar.addi v88 v8
  let c64_i32_299 : BitVec 32 := 64#32
  let v403 : BitVec 32 := Scalar.muli v89 c64_i32_299
  let v404 : Index := Scalar.indexCast v403
  let c0_301 : Index := 0#32
  ![2, v404.toNat, 0]
def k0_off36 (d0 : Dev nD) : Fin 3 → Nat :=
  let c2_i32_305 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c2_i32_58 : BitVec 32 := 2#32
  let v88 : BitVec 32 := Scalar.muli v6 c2_i32_58
  let c1_i32_2 : BitVec 32 := 1#32
  let v7 : BitVec 32 := Scalar.shrsi v5 c1_i32_2
  let c1_i32_3 : BitVec 32 := 1#32
  let v8 : BitVec 32 := Scalar.andi v7 c1_i32_3
  let v89 : BitVec 32 := Scalar.addi v88 v8
  let c64_i32_303 : BitVec 32 := 64#32
  let v409 : BitVec 32 := Scalar.muli v89 c64_i32_303
  let c0_i32_312 : BitVec 32 := 0#32
  ![2, v409.toNat, 0]
def k0_dev15 (d0 : Dev nD) : Nat :=
  let c0_i32_311 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v13 : BitVec 32 := Scalar.xori v2 c4_i32
  let c1_i32_310 : BitVec 32 := 1#32
  let v410 : BitVec 32 := Scalar.muli v13 c1_i32_310
  let v411 : BitVec 32 := Scalar.addi c0_i32_311 v410
  v411.toNat
def k0_off37 (d0 : Dev nD) : Fin 2 → Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c256_i32_25 : BitVec 32 := 256#32
  let v36 : BitVec 32 := Scalar.muli v6 c256_i32_25
  let v37 : BitVec 32 := Scalar.addi c0_i32_26 v36
  let v420 : Index := Scalar.indexCast v37
  let c0_314 : Index := 0#32
  ![v420.toNat, 0]
def k0_off38 (d0 : Dev nD) : Fin 2 → Nat :=
  let c512_i32_28 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_2 : BitVec 32 := 1#32
  let v7 : BitVec 32 := Scalar.shrsi v5 c1_i32_2
  let c1_i32_3 : BitVec 32 := 1#32
  let v8 : BitVec 32 := Scalar.andi v7 c1_i32_3
  let c256_i32_27 : BitVec 32 := 256#32
  let v38 : BitVec 32 := Scalar.muli v8 c256_i32_27
  let v39 : BitVec 32 := Scalar.addi c512_i32_28 v38
  let v429 : Index := Scalar.indexCast v39
  let c0_321 : Index := 0#32
  ![v429.toNat, 0]
def k0_off39 (d0 : Dev nD) : Fin 2 → Nat :=
  let c1024_i32_30 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_4 : BitVec 32 := 1#32
  let v10 : BitVec 32 := Scalar.andi v9 c1_i32_4
  let c256_i32_29 : BitVec 32 := 256#32
  let v40 : BitVec 32 := Scalar.muli v10 c256_i32_29
  let v41 : BitVec 32 := Scalar.addi c1024_i32_30 v40
  let v438 : Index := Scalar.indexCast v41
  let c0_328 : Index := 0#32
  ![v438.toNat, 0]
def k0_off40 (d0 : Dev nD) : Fin 3 → Nat :=
  let c0_362 : Index := 0#32
  let c1_i32_354 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_4 : BitVec 32 := 1#32
  let v10 : BitVec 32 := Scalar.andi v9 c1_i32_4
  let v461 : BitVec 32 := Scalar.subi c1_i32_354 v10
  let c64_i32_355 : BitVec 32 := 64#32
  let v462 : BitVec 32 := Scalar.muli v461 c64_i32_355
  let v474 : Index := Scalar.indexCast v462
  let c0_363 : Index := 0#32
  ![0, v474.toNat, 0]
def k0_off41 (d0 : Dev nD) : Fin 3 → Nat :=
  let c0_i32_365 : BitVec 32 := 0#32
  let c1_i32_354 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_4 : BitVec 32 := 1#32
  let v10 : BitVec 32 := Scalar.andi v9 c1_i32_4
  let v461 : BitVec 32 := Scalar.subi c1_i32_354 v10
  let c64_i32_355 : BitVec 32 := 64#32
  let v462 : BitVec 32 := Scalar.muli v461 c64_i32_355
  let c0_i32_372 : BitVec 32 := 0#32
  ![0, v462.toNat, 0]
def k0_dev16 (d0 : Dev nD) : Nat :=
  let c0_i32_371 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_6 : BitVec 32 := 3#32
  let v12 : BitVec 32 := Scalar.xori v2 c3_i32_6
  let c1_i32_370 : BitVec 32 := 1#32
  let v478 : BitVec 32 := Scalar.muli v12 c1_i32_370
  let v479 : BitVec 32 := Scalar.addi c0_i32_371 v478
  v479.toNat
def k0_off42 (d0 : Dev nD) : Fin 3 → Nat :=
  let c1_401 : Index := 1#32
  let c1_i32_393 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let v502 : BitVec 32 := Scalar.subi c1_i32_393 v6
  let c64_i32_394 : BitVec 32 := 64#32
  let v503 : BitVec 32 := Scalar.muli v502 c64_i32_394
  let v515 : Index := Scalar.indexCast v503
  let c0_402 : Index := 0#32
  ![1, v515.toNat, 0]
def k0_off43 (d0 : Dev nD) : Fin 3 → Nat :=
  let c1_i32_404 : BitVec 32 := 1#32
  let c1_i32_393 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let v502 : BitVec 32 := Scalar.subi c1_i32_393 v6
  let c64_i32_394 : BitVec 32 := 64#32
  let v503 : BitVec 32 := Scalar.muli v502 c64_i32_394
  let c0_i32_411 : BitVec 32 := 0#32
  ![1, v503.toNat, 0]
def k0_dev17 (d0 : Dev nD) : Nat :=
  let c0_i32_410 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v13 : BitVec 32 := Scalar.xori v2 c4_i32
  let c1_i32_409 : BitVec 32 := 1#32
  let v519 : BitVec 32 := Scalar.muli v13 c1_i32_409
  let v520 : BitVec 32 := Scalar.addi c0_i32_410 v519
  v520.toNat
def k0_off44 (d0 : Dev nD) : Fin 3 → Nat :=
  let c2_440 : Index := 2#32
  let c1_i32_432 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_2 : BitVec 32 := 1#32
  let v7 : BitVec 32 := Scalar.shrsi v5 c1_i32_2
  let c1_i32_3 : BitVec 32 := 1#32
  let v8 : BitVec 32 := Scalar.andi v7 c1_i32_3
  let v543 : BitVec 32 := Scalar.subi c1_i32_432 v8
  let c64_i32_433 : BitVec 32 := 64#32
  let v544 : BitVec 32 := Scalar.muli v543 c64_i32_433
  let v556 : Index := Scalar.indexCast v544
  let c0_441 : Index := 0#32
  ![2, v556.toNat, 0]
def k0_off45 (d0 : Dev nD) : Fin 3 → Nat :=
  let c2_i32_443 : BitVec 32 := 2#32
  let c1_i32_432 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_2 : BitVec 32 := 1#32
  let v7 : BitVec 32 := Scalar.shrsi v5 c1_i32_2
  let c1_i32_3 : BitVec 32 := 1#32
  let v8 : BitVec 32 := Scalar.andi v7 c1_i32_3
  let v543 : BitVec 32 := Scalar.subi c1_i32_432 v8
  let c64_i32_433 : BitVec 32 := 64#32
  let v544 : BitVec 32 := Scalar.muli v543 c64_i32_433
  let c0_i32_450 : BitVec 32 := 0#32
  ![2, v544.toNat, 0]
def k0_dev18 (d0 : Dev nD) : Nat :=
  let c0_i32_449 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v11 : BitVec 32 := Scalar.xori v2 c1_i32_5
  let c1_i32_448 : BitVec 32 := 1#32
  let v560 : BitVec 32 := Scalar.muli v11 c1_i32_448
  let v561 : BitVec 32 := Scalar.addi c0_i32_449 v560
  v561.toNat
def k0_off46 (d0 : Dev nD) : Fin 3 → Nat :=
  let c0_478 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_4 : BitVec 32 := 1#32
  let v10 : BitVec 32 := Scalar.andi v9 c1_i32_4
  let c64_i32_471 : BitVec 32 := 64#32
  let v584 : BitVec 32 := Scalar.muli v10 c64_i32_471
  let v596 : Index := Scalar.indexCast v584
  let c0_479 : Index := 0#32
  ![0, v596.toNat, 0]
def k0_off47 (d0 : Dev nD) : Fin 3 → Nat :=
  let c0_i32_481 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_4 : BitVec 32 := 1#32
  let v10 : BitVec 32 := Scalar.andi v9 c1_i32_4
  let c64_i32_471 : BitVec 32 := 64#32
  let v584 : BitVec 32 := Scalar.muli v10 c64_i32_471
  let c0_i32_487 : BitVec 32 := 0#32
  ![0, v584.toNat, 0]
def k0_dev19 (d0 : Dev nD) : Nat :=
  let c0_i32_486 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_6 : BitVec 32 := 3#32
  let v12 : BitVec 32 := Scalar.xori v2 c3_i32_6
  let c1_i32_485 : BitVec 32 := 1#32
  let v600 : BitVec 32 := Scalar.muli v12 c1_i32_485
  let v601 : BitVec 32 := Scalar.addi c0_i32_486 v600
  v601.toNat
def k0_off48 (d0 : Dev nD) : Fin 3 → Nat :=
  let c1_515 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c64_i32_508 : BitVec 32 := 64#32
  let v624 : BitVec 32 := Scalar.muli v6 c64_i32_508
  let v636 : Index := Scalar.indexCast v624
  let c0_516 : Index := 0#32
  ![1, v636.toNat, 0]
def k0_off49 (d0 : Dev nD) : Fin 3 → Nat :=
  let c1_i32_518 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c64_i32_508 : BitVec 32 := 64#32
  let v624 : BitVec 32 := Scalar.muli v6 c64_i32_508
  let c0_i32_525 : BitVec 32 := 0#32
  ![1, v624.toNat, 0]
def k0_dev20 (d0 : Dev nD) : Nat :=
  let c0_i32_524 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v13 : BitVec 32 := Scalar.xori v2 c4_i32
  let c1_i32_523 : BitVec 32 := 1#32
  let v640 : BitVec 32 := Scalar.muli v13 c1_i32_523
  let v641 : BitVec 32 := Scalar.addi c0_i32_524 v640
  v641.toNat
def k0_off50 (d0 : Dev nD) : Fin 3 → Nat :=
  let c2_553 : Index := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_2 : BitVec 32 := 1#32
  let v7 : BitVec 32 := Scalar.shrsi v5 c1_i32_2
  let c1_i32_3 : BitVec 32 := 1#32
  let v8 : BitVec 32 := Scalar.andi v7 c1_i32_3
  let c64_i32_546 : BitVec 32 := 64#32
  let v664 : BitVec 32 := Scalar.muli v8 c64_i32_546
  let v676 : Index := Scalar.indexCast v664
  let c0_554 : Index := 0#32
  ![2, v676.toNat, 0]
def k0_off51 (d0 : Dev nD) : Fin 3 → Nat :=
  let c2_i32_556 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_2 : BitVec 32 := 1#32
  let v7 : BitVec 32 := Scalar.shrsi v5 c1_i32_2
  let c1_i32_3 : BitVec 32 := 1#32
  let v8 : BitVec 32 := Scalar.andi v7 c1_i32_3
  let c64_i32_546 : BitVec 32 := 64#32
  let v664 : BitVec 32 := Scalar.muli v8 c64_i32_546
  let c0_i32_563 : BitVec 32 := 0#32
  ![2, v664.toNat, 0]
def k0_dev21 (d0 : Dev nD) : Nat :=
  let c0_i32_562 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v11 : BitVec 32 := Scalar.xori v2 c1_i32_5
  let c1_i32_561 : BitVec 32 := 1#32
  let v680 : BitVec 32 := Scalar.muli v11 c1_i32_561
  let v681 : BitVec 32 := Scalar.addi c0_i32_562 v680
  v681.toNat
def k0_dev22 (d0 : Dev nD) : Nat :=
  let c0_i32_622 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v13 : BitVec 32 := Scalar.xori v2 c4_i32
  let c1_i32_621 : BitVec 32 := 1#32
  let v739 : BitVec 32 := Scalar.muli v13 c1_i32_621
  let v740 : BitVec 32 := Scalar.addi c0_i32_622 v739
  v740.toNat
def k0_dev23 (d0 : Dev nD) : Nat :=
  let c0_i32_685 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v11 : BitVec 32 := Scalar.xori v2 c1_i32_5
  let c1_i32_684 : BitVec 32 := 1#32
  let v798 : BitVec 32 := Scalar.muli v11 c1_i32_684
  let v799 : BitVec 32 := Scalar.addi c0_i32_685 v798
  v799.toNat
def k0_dev24 (d0 : Dev nD) : Nat :=
  let c0_i32_748 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_6 : BitVec 32 := 3#32
  let v12 : BitVec 32 := Scalar.xori v2 c3_i32_6
  let c1_i32_747 : BitVec 32 := 1#32
  let v857 : BitVec 32 := Scalar.muli v12 c1_i32_747
  let v858 : BitVec 32 := Scalar.addi c0_i32_748 v857
  v858.toNat
def k0_off52 (d0 : Dev nD) : Fin 2 → Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c256_i32_25 : BitVec 32 := 256#32
  let v36 : BitVec 32 := Scalar.muli v6 c256_i32_25
  let v37 : BitVec 32 := Scalar.addi c0_i32_26 v36
  let c1_i32_2 : BitVec 32 := 1#32
  let v7 : BitVec 32 := Scalar.shrsi v5 c1_i32_2
  let c1_i32_3 : BitVec 32 := 1#32
  let v8 : BitVec 32 := Scalar.andi v7 c1_i32_3
  let c128_i32 : BitVec 32 := 128#32
  let v42 : BitVec 32 := Scalar.muli v8 c128_i32
  let v43 : BitVec 32 := Scalar.addi v37 v42
  let c2_i32 : BitVec 32 := 2#32
  let v9 : BitVec 32 := Scalar.shrsi v2 c2_i32
  let c1_i32_4 : BitVec 32 := 1#32
  let v10 : BitVec 32 := Scalar.andi v9 c1_i32_4
  let c64_i32 : BitVec 32 := 64#32
  let v44 : BitVec 32 := Scalar.muli v10 c64_i32
  let v45 : BitVec 32 := Scalar.addi v43 v44
  let v930 : Index := Scalar.indexCast v45
  let c0_826 : Index := 0#32
  ![v930.toNat, 0]
def k0_off53 (d0 : Dev nD) : Fin 2 → Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c256_i32_25 : BitVec 32 := 256#32
  let v36 : BitVec 32 := Scalar.muli v6 c256_i32_25
  let v37 : BitVec 32 := Scalar.addi c0_i32_26 v36
  let c1_i32_2 : BitVec 32 := 1#32
  let v7 : BitVec 32 := Scalar.shrsi v5 c1_i32_2
  let c1_i32_3 : BitVec 32 := 1#32
  let v8 : BitVec 32 := Scalar.andi v7 c1_i32_3
  let c128_i32 : BitVec 32 := 128#32
  let v42 : BitVec 32 := Scalar.muli v8 c128_i32
  let v43 : BitVec 32 := Scalar.addi v37 v42
  let c2_i32 : BitVec 32 := 2#32
  let v9 : BitVec 32 := Scalar.shrsi v2 c2_i32
  let c1_i32_4 : BitVec 32 := 1#32
  let v10 : BitVec 32 := Scalar.andi v9 c1_i32_4
  let c64_i32 : BitVec 32 := 64#32
  let v44 : BitVec 32 := Scalar.muli v10 c64_i32
  let v45 : BitVec 32 := Scalar.addi v43 v44
  let c0_i32_833 : BitVec 32 := 0#32
  ![v45.toNat, 0]
def k0_dev25 (d0 : Dev nD) : Nat :=
  let c0_i32_832 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v13 : BitVec 32 := Scalar.xori v2 c4_i32
  let c1_i32_831 : BitVec 32 := 1#32
  let v932 : BitVec 32 := Scalar.muli v13 c1_i32_831
  let v933 : BitVec 32 := Scalar.addi c0_i32_832 v932
  v933.toNat
def k0_dev26 (d0 : Dev nD) : Nat :=
  let c0_i32_840 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_6 : BitVec 32 := 3#32
  let v12 : BitVec 32 := Scalar.xori v2 c3_i32_6
  let c1_i32_839 : BitVec 32 := 1#32
  let v940 : BitVec 32 := Scalar.muli v12 c1_i32_839
  let v941 : BitVec 32 := Scalar.addi c0_i32_840 v940
  v941.toNat
def k0_dev27 (d0 : Dev nD) : Nat :=
  let c0_i32_848 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v11 : BitVec 32 := Scalar.xori v2 c1_i32_5
  let c1_i32_847 : BitVec 32 := 1#32
  let v948 : BitVec 32 := Scalar.muli v11 c1_i32_847
  let v949 : BitVec 32 := Scalar.addi c0_i32_848 v948
  v949.toNat
def k0_off54 (d0 : Dev nD) : Fin 2 → Nat :=
  let c512_i32_28 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_2 : BitVec 32 := 1#32
  let v7 : BitVec 32 := Scalar.shrsi v5 c1_i32_2
  let c1_i32_3 : BitVec 32 := 1#32
  let v8 : BitVec 32 := Scalar.andi v7 c1_i32_3
  let c256_i32_27 : BitVec 32 := 256#32
  let v38 : BitVec 32 := Scalar.muli v8 c256_i32_27
  let v39 : BitVec 32 := Scalar.addi c512_i32_28 v38
  let c2_i32 : BitVec 32 := 2#32
  let v9 : BitVec 32 := Scalar.shrsi v2 c2_i32
  let c1_i32_4 : BitVec 32 := 1#32
  let v10 : BitVec 32 := Scalar.andi v9 c1_i32_4
  let c128_i32_31 : BitVec 32 := 128#32
  let v46 : BitVec 32 := Scalar.muli v10 c128_i32_31
  let v47 : BitVec 32 := Scalar.addi v39 v46
  let c1_i32_1 : BitVec 32 := 1#32
  let v6 : BitVec 32 := Scalar.andi v5 c1_i32_1
  let c64_i32_32 : BitVec 32 := 64#32
  let v48 : BitVec 32 := Scalar.muli v6 c64_i32_32
  let v49 : BitVec 32 := Scalar.addi v47 v48
  let v1019 : Index := Scalar.indexCast v49
  let c0_924 : Index := 0#32
  ![v1019.toNat, 0]
def k0_off55 (d0 : Dev nD) : Fin 2 → Nat :=
  let c512_i32_28 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_2 : BitVec 32 := 1#32
  let v7 : BitVec 32 := Scalar.shrsi v5 c1_i32_2
  let c1_i32_3 : BitVec 32 := 1#32
  let v8 : BitVec 32 := Scalar.andi v7 c1_i32_3
  let c256_i32_27 : BitVec 32 := 256#32
  let v38 : BitVec 32 := Scalar.muli v8 c256_i32_27
  let v39 : BitVec 32 := Scalar.addi c512_i32_28 v38
  let c2_i32 : BitVec 32 := 2#32
  let v9 : BitVec 32 := Scalar.shrsi v2 c2_i32
  let c1_i32_4 : BitVec 32 := 1#32
  let v10 : BitVec 32 := Scalar.andi v9 c1_i32_4
  let c128_i32_31 : BitVec 32 := 128#32
  let v46 : BitVec 32 := Scalar.muli v10 c128_i32_31
  let v47 : BitVec 32 := Scalar.addi v39 v46
  let c1_i32_1 : BitVec 32 := 1#32
  let v6 : BitVec 32 := Scalar.andi v5 c1_i32_1
  let c64_i32_32 : BitVec 32 := 64#32
  let v48 : BitVec 32 := Scalar.muli v6 c64_i32_32
  let v49 : BitVec 32 := Scalar.addi v47 v48
  let c0_i32_931 : BitVec 32 := 0#32
  ![v49.toNat, 0]
def k0_dev28 (d0 : Dev nD) : Nat :=
  let c0_i32_930 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v11 : BitVec 32 := Scalar.xori v2 c1_i32_5
  let c1_i32_929 : BitVec 32 := 1#32
  let v1021 : BitVec 32 := Scalar.muli v11 c1_i32_929
  let v1022 : BitVec 32 := Scalar.addi c0_i32_930 v1021
  v1022.toNat
def k0_dev29 (d0 : Dev nD) : Nat :=
  let c0_i32_938 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v13 : BitVec 32 := Scalar.xori v2 c4_i32
  let c1_i32_937 : BitVec 32 := 1#32
  let v1029 : BitVec 32 := Scalar.muli v13 c1_i32_937
  let v1030 : BitVec 32 := Scalar.addi c0_i32_938 v1029
  v1030.toNat
def k0_dev30 (d0 : Dev nD) : Nat :=
  let c0_i32_946 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_6 : BitVec 32 := 3#32
  let v12 : BitVec 32 := Scalar.xori v2 c3_i32_6
  let c1_i32_945 : BitVec 32 := 1#32
  let v1037 : BitVec 32 := Scalar.muli v12 c1_i32_945
  let v1038 : BitVec 32 := Scalar.addi c0_i32_946 v1037
  v1038.toNat
def k0_off56 (d0 : Dev nD) : Fin 2 → Nat :=
  let c1024_i32_30 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_4 : BitVec 32 := 1#32
  let v10 : BitVec 32 := Scalar.andi v9 c1_i32_4
  let c256_i32_29 : BitVec 32 := 256#32
  let v40 : BitVec 32 := Scalar.muli v10 c256_i32_29
  let v41 : BitVec 32 := Scalar.addi c1024_i32_30 v40
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c128_i32_33 : BitVec 32 := 128#32
  let v50 : BitVec 32 := Scalar.muli v6 c128_i32_33
  let v51 : BitVec 32 := Scalar.addi v41 v50
  let c1_i32_2 : BitVec 32 := 1#32
  let v7 : BitVec 32 := Scalar.shrsi v5 c1_i32_2
  let c1_i32_3 : BitVec 32 := 1#32
  let v8 : BitVec 32 := Scalar.andi v7 c1_i32_3
  let c64_i32_34 : BitVec 32 := 64#32
  let v52 : BitVec 32 := Scalar.muli v8 c64_i32_34
  let v53 : BitVec 32 := Scalar.addi v51 v52
  let v1108 : Index := Scalar.indexCast v53
  let c0_1022 : Index := 0#32
  ![v1108.toNat, 0]
def k0_off57 (d0 : Dev nD) : Fin 2 → Nat :=
  let c1024_i32_30 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_4 : BitVec 32 := 1#32
  let v10 : BitVec 32 := Scalar.andi v9 c1_i32_4
  let c256_i32_29 : BitVec 32 := 256#32
  let v40 : BitVec 32 := Scalar.muli v10 c256_i32_29
  let v41 : BitVec 32 := Scalar.addi c1024_i32_30 v40
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c128_i32_33 : BitVec 32 := 128#32
  let v50 : BitVec 32 := Scalar.muli v6 c128_i32_33
  let v51 : BitVec 32 := Scalar.addi v41 v50
  let c1_i32_2 : BitVec 32 := 1#32
  let v7 : BitVec 32 := Scalar.shrsi v5 c1_i32_2
  let c1_i32_3 : BitVec 32 := 1#32
  let v8 : BitVec 32 := Scalar.andi v7 c1_i32_3
  let c64_i32_34 : BitVec 32 := 64#32
  let v52 : BitVec 32 := Scalar.muli v8 c64_i32_34
  let v53 : BitVec 32 := Scalar.addi v51 v52
  let c0_i32_1029 : BitVec 32 := 0#32
  ![v53.toNat, 0]
def k0_dev31 (d0 : Dev nD) : Nat :=
  let c0_i32_1028 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_6 : BitVec 32 := 3#32
  let v12 : BitVec 32 := Scalar.xori v2 c3_i32_6
  let c1_i32_1027 : BitVec 32 := 1#32
  let v1110 : BitVec 32 := Scalar.muli v12 c1_i32_1027
  let v1111 : BitVec 32 := Scalar.addi c0_i32_1028 v1110
  v1111.toNat
def k0_dev32 (d0 : Dev nD) : Nat :=
  let c0_i32_1036 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v11 : BitVec 32 := Scalar.xori v2 c1_i32_5
  let c1_i32_1035 : BitVec 32 := 1#32
  let v1118 : BitVec 32 := Scalar.muli v11 c1_i32_1035
  let v1119 : BitVec 32 := Scalar.addi c0_i32_1036 v1118
  v1119.toNat
def k0_dev33 (d0 : Dev nD) : Nat :=
  let c0_i32_1044 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v13 : BitVec 32 := Scalar.xori v2 c4_i32
  let c1_i32_1043 : BitVec 32 := 1#32
  let v1126 : BitVec 32 := Scalar.muli v13 c1_i32_1043
  let v1127 : BitVec 32 := Scalar.addi c0_i32_1044 v1126
  v1127.toNat
def k0_off58 (d0 : Dev nD) : Fin 2 → Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c256_i32_25 : BitVec 32 := 256#32
  let v36 : BitVec 32 := Scalar.muli v6 c256_i32_25
  let v37 : BitVec 32 := Scalar.addi c0_i32_26 v36
  let c1_i32_2 : BitVec 32 := 1#32
  let v7 : BitVec 32 := Scalar.shrsi v5 c1_i32_2
  let c1_i32_3 : BitVec 32 := 1#32
  let v8 : BitVec 32 := Scalar.andi v7 c1_i32_3
  let c128_i32 : BitVec 32 := 128#32
  let v42 : BitVec 32 := Scalar.muli v8 c128_i32
  let v43 : BitVec 32 := Scalar.addi v37 v42
  let c2_i32 : BitVec 32 := 2#32
  let v9 : BitVec 32 := Scalar.shrsi v2 c2_i32
  let c1_i32_4 : BitVec 32 := 1#32
  let v10 : BitVec 32 := Scalar.andi v9 c1_i32_4
  let c64_i32 : BitVec 32 := 64#32
  let v44 : BitVec 32 := Scalar.muli v10 c64_i32
  let v45 : BitVec 32 := Scalar.addi v43 v44
  let c1_i32_60 : BitVec 32 := 1#32
  let c2_i32_59 : BitVec 32 := 2#32
  let v90 : BitVec 32 := Scalar.muli c2_i32_59 v10
  let v91 : BitVec 32 := Scalar.subi c1_i32_60 v90
  let c64_i32_61 : BitVec 32 := 64#32
  let v92 : BitVec 32 := Scalar.muli v91 c64_i32_61
  let v1144 : BitVec 32 := Scalar.addi v45 v92
  let c0_i32_1068 : BitVec 32 := 0#32
  ![v1144.toNat, 0]
def k0_dev34 (d0 : Dev nD) : Nat :=
  let c0_i32_1067 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_6 : BitVec 32 := 3#32
  let v12 : BitVec 32 := Scalar.xori v2 c3_i32_6
  let c1_i32_1066 : BitVec 32 := 1#32
  let v1145 : BitVec 32 := Scalar.muli v12 c1_i32_1066
  let v1146 : BitVec 32 := Scalar.addi c0_i32_1067 v1145
  v1146.toNat
def k0_dev35 (d0 : Dev nD) : Nat :=
  let c0_i32_1075 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v11 : BitVec 32 := Scalar.xori v2 c1_i32_5
  let c1_i32_1074 : BitVec 32 := 1#32
  let v1154 : BitVec 32 := Scalar.muli v11 c1_i32_1074
  let v1155 : BitVec 32 := Scalar.addi c0_i32_1075 v1154
  v1155.toNat
def k0_off59 (d0 : Dev nD) : Fin 2 → Nat :=
  let c512_i32_28 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_2 : BitVec 32 := 1#32
  let v7 : BitVec 32 := Scalar.shrsi v5 c1_i32_2
  let c1_i32_3 : BitVec 32 := 1#32
  let v8 : BitVec 32 := Scalar.andi v7 c1_i32_3
  let c256_i32_27 : BitVec 32 := 256#32
  let v38 : BitVec 32 := Scalar.muli v8 c256_i32_27
  let v39 : BitVec 32 := Scalar.addi c512_i32_28 v38
  let c2_i32 : BitVec 32 := 2#32
  let v9 : BitVec 32 := Scalar.shrsi v2 c2_i32
  let c1_i32_4 : BitVec 32 := 1#32
  let v10 : BitVec 32 := Scalar.andi v9 c1_i32_4
  let c128_i32_31 : BitVec 32 := 128#32
  let v46 : BitVec 32 := Scalar.muli v10 c128_i32_31
  let v47 : BitVec 32 := Scalar.addi v39 v46
  let c1_i32_1 : BitVec 32 := 1#32
  let v6 : BitVec 32 := Scalar.andi v5 c1_i32_1
  let c64_i32_32 : BitVec 32 := 64#32
  let v48 : BitVec 32 := Scalar.muli v6 c64_i32_32
  let v49 : BitVec 32 := Scalar.addi v47 v48
  let c1_i32_63 : BitVec 32 := 1#32
  let c2_i32_62 : BitVec 32 := 2#32
  let v93 : BitVec 32 := Scalar.muli c2_i32_62 v6
  let v94 : BitVec 32 := Scalar.subi c1_i32_63 v93
  let c64_i32_64 : BitVec 32 := 64#32
  let v95 : BitVec 32 := Scalar.muli v94 c64_i32_64
  let v1172 : BitVec 32 := Scalar.addi v49 v95
  let c0_i32_1099 : BitVec 32 := 0#32
  ![v1172.toNat, 0]
def k0_dev36 (d0 : Dev nD) : Nat :=
  let c0_i32_1098 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v13 : BitVec 32 := Scalar.xori v2 c4_i32
  let c1_i32_1097 : BitVec 32 := 1#32
  let v1173 : BitVec 32 := Scalar.muli v13 c1_i32_1097
  let v1174 : BitVec 32 := Scalar.addi c0_i32_1098 v1173
  v1174.toNat
def k0_dev37 (d0 : Dev nD) : Nat :=
  let c0_i32_1106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_6 : BitVec 32 := 3#32
  let v12 : BitVec 32 := Scalar.xori v2 c3_i32_6
  let c1_i32_1105 : BitVec 32 := 1#32
  let v1182 : BitVec 32 := Scalar.muli v12 c1_i32_1105
  let v1183 : BitVec 32 := Scalar.addi c0_i32_1106 v1182
  v1183.toNat
def k0_off60 (d0 : Dev nD) : Fin 2 → Nat :=
  let c1024_i32_30 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_4 : BitVec 32 := 1#32
  let v10 : BitVec 32 := Scalar.andi v9 c1_i32_4
  let c256_i32_29 : BitVec 32 := 256#32
  let v40 : BitVec 32 := Scalar.muli v10 c256_i32_29
  let v41 : BitVec 32 := Scalar.addi c1024_i32_30 v40
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c128_i32_33 : BitVec 32 := 128#32
  let v50 : BitVec 32 := Scalar.muli v6 c128_i32_33
  let v51 : BitVec 32 := Scalar.addi v41 v50
  let c1_i32_2 : BitVec 32 := 1#32
  let v7 : BitVec 32 := Scalar.shrsi v5 c1_i32_2
  let c1_i32_3 : BitVec 32 := 1#32
  let v8 : BitVec 32 := Scalar.andi v7 c1_i32_3
  let c64_i32_34 : BitVec 32 := 64#32
  let v52 : BitVec 32 := Scalar.muli v8 c64_i32_34
  let v53 : BitVec 32 := Scalar.addi v51 v52
  let c1_i32_66 : BitVec 32 := 1#32
  let c2_i32_65 : BitVec 32 := 2#32
  let v96 : BitVec 32 := Scalar.muli c2_i32_65 v8
  let v97 : BitVec 32 := Scalar.subi c1_i32_66 v96
  let c64_i32_67 : BitVec 32 := 64#32
  let v98 : BitVec 32 := Scalar.muli v97 c64_i32_67
  let v1200 : BitVec 32 := Scalar.addi v53 v98
  let c0_i32_1130 : BitVec 32 := 0#32
  ![v1200.toNat, 0]
def k0_dev38 (d0 : Dev nD) : Nat :=
  let c0_i32_1129 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v11 : BitVec 32 := Scalar.xori v2 c1_i32_5
  let c1_i32_1128 : BitVec 32 := 1#32
  let v1201 : BitVec 32 := Scalar.muli v11 c1_i32_1128
  let v1202 : BitVec 32 := Scalar.addi c0_i32_1129 v1201
  v1202.toNat
def k0_dev39 (d0 : Dev nD) : Nat :=
  let c0_i32_1137 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v13 : BitVec 32 := Scalar.xori v2 c4_i32
  let c1_i32_1136 : BitVec 32 := 1#32
  let v1210 : BitVec 32 := Scalar.muli v13 c1_i32_1136
  let v1211 : BitVec 32 := Scalar.addi c0_i32_1137 v1210
  v1211.toNat
def k0_off61 (d0 : Dev nD) : Fin 2 → Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c256_i32_25 : BitVec 32 := 256#32
  let v36 : BitVec 32 := Scalar.muli v6 c256_i32_25
  let v37 : BitVec 32 := Scalar.addi c0_i32_26 v36
  let c1_i32_2 : BitVec 32 := 1#32
  let v7 : BitVec 32 := Scalar.shrsi v5 c1_i32_2
  let c1_i32_3 : BitVec 32 := 1#32
  let v8 : BitVec 32 := Scalar.andi v7 c1_i32_3
  let c128_i32 : BitVec 32 := 128#32
  let v42 : BitVec 32 := Scalar.muli v8 c128_i32
  let v43 : BitVec 32 := Scalar.addi v37 v42
  let c2_i32 : BitVec 32 := 2#32
  let v9 : BitVec 32 := Scalar.shrsi v2 c2_i32
  let c1_i32_4 : BitVec 32 := 1#32
  let v10 : BitVec 32 := Scalar.andi v9 c1_i32_4
  let c64_i32 : BitVec 32 := 64#32
  let v44 : BitVec 32 := Scalar.muli v10 c64_i32
  let v45 : BitVec 32 := Scalar.addi v43 v44
  let c1_i32_69 : BitVec 32 := 1#32
  let c2_i32_68 : BitVec 32 := 2#32
  let v99 : BitVec 32 := Scalar.muli c2_i32_68 v8
  let v100 : BitVec 32 := Scalar.subi c1_i32_69 v99
  let c128_i32_70 : BitVec 32 := 128#32
  let v101 : BitVec 32 := Scalar.muli v100 c128_i32_70
  let v1228 : BitVec 32 := Scalar.addi v45 v101
  let c0_i32_1161 : BitVec 32 := 0#32
  ![v1228.toNat, 0]
def k0_dev40 (d0 : Dev nD) : Nat :=
  let c0_i32_1160 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v11 : BitVec 32 := Scalar.xori v2 c1_i32_5
  let c1_i32_1159 : BitVec 32 := 1#32
  let v1229 : BitVec 32 := Scalar.muli v11 c1_i32_1159
  let v1230 : BitVec 32 := Scalar.addi c0_i32_1160 v1229
  v1230.toNat
def k0_off62 (d0 : Dev nD) : Fin 2 → Nat :=
  let c512_i32_28 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_2 : BitVec 32 := 1#32
  let v7 : BitVec 32 := Scalar.shrsi v5 c1_i32_2
  let c1_i32_3 : BitVec 32 := 1#32
  let v8 : BitVec 32 := Scalar.andi v7 c1_i32_3
  let c256_i32_27 : BitVec 32 := 256#32
  let v38 : BitVec 32 := Scalar.muli v8 c256_i32_27
  let v39 : BitVec 32 := Scalar.addi c512_i32_28 v38
  let c2_i32 : BitVec 32 := 2#32
  let v9 : BitVec 32 := Scalar.shrsi v2 c2_i32
  let c1_i32_4 : BitVec 32 := 1#32
  let v10 : BitVec 32 := Scalar.andi v9 c1_i32_4
  let c128_i32_31 : BitVec 32 := 128#32
  let v46 : BitVec 32 := Scalar.muli v10 c128_i32_31
  let v47 : BitVec 32 := Scalar.addi v39 v46
  let c1_i32_1 : BitVec 32 := 1#32
  let v6 : BitVec 32 := Scalar.andi v5 c1_i32_1
  let c64_i32_32 : BitVec 32 := 64#32
  let v48 : BitVec 32 := Scalar.muli v6 c64_i32_32
  let v49 : BitVec 32 := Scalar.addi v47 v48
  let c1_i32_72 : BitVec 32 := 1#32
  let c2_i32_71 : BitVec 32 := 2#32
  let v102 : BitVec 32 := Scalar.muli c2_i32_71 v10
  let v103 : BitVec 32 := Scalar.subi c1_i32_72 v102
  let c128_i32_73 : BitVec 32 := 128#32
  let v104 : BitVec 32 := Scalar.muli v103 c128_i32_73
  let v1247 : BitVec 32 := Scalar.addi v49 v104
  let c0_i32_1184 : BitVec 32 := 0#32
  ![v1247.toNat, 0]
def k0_dev41 (d0 : Dev nD) : Nat :=
  let c0_i32_1183 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_6 : BitVec 32 := 3#32
  let v12 : BitVec 32 := Scalar.xori v2 c3_i32_6
  let c1_i32_1182 : BitVec 32 := 1#32
  let v1248 : BitVec 32 := Scalar.muli v12 c1_i32_1182
  let v1249 : BitVec 32 := Scalar.addi c0_i32_1183 v1248
  v1249.toNat
def k0_off63 (d0 : Dev nD) : Fin 2 → Nat :=
  let c1024_i32_30 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_4 : BitVec 32 := 1#32
  let v10 : BitVec 32 := Scalar.andi v9 c1_i32_4
  let c256_i32_29 : BitVec 32 := 256#32
  let v40 : BitVec 32 := Scalar.muli v10 c256_i32_29
  let v41 : BitVec 32 := Scalar.addi c1024_i32_30 v40
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c128_i32_33 : BitVec 32 := 128#32
  let v50 : BitVec 32 := Scalar.muli v6 c128_i32_33
  let v51 : BitVec 32 := Scalar.addi v41 v50
  let c1_i32_2 : BitVec 32 := 1#32
  let v7 : BitVec 32 := Scalar.shrsi v5 c1_i32_2
  let c1_i32_3 : BitVec 32 := 1#32
  let v8 : BitVec 32 := Scalar.andi v7 c1_i32_3
  let c64_i32_34 : BitVec 32 := 64#32
  let v52 : BitVec 32 := Scalar.muli v8 c64_i32_34
  let v53 : BitVec 32 := Scalar.addi v51 v52
  let c1_i32_75 : BitVec 32 := 1#32
  let c2_i32_74 : BitVec 32 := 2#32
  let v105 : BitVec 32 := Scalar.muli c2_i32_74 v6
  let v106 : BitVec 32 := Scalar.subi c1_i32_75 v105
  let c128_i32_76 : BitVec 32 := 128#32
  let v107 : BitVec 32 := Scalar.muli v106 c128_i32_76
  let v1266 : BitVec 32 := Scalar.addi v53 v107
  let c0_i32_1207 : BitVec 32 := 0#32
  ![v1266.toNat, 0]
def k0_dev42 (d0 : Dev nD) : Nat :=
  let c0_i32_1206 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v13 : BitVec 32 := Scalar.xori v2 c4_i32
  let c1_i32_1205 : BitVec 32 := 1#32
  let v1267 : BitVec 32 := Scalar.muli v13 c1_i32_1205
  let v1268 : BitVec 32 := Scalar.addi c0_i32_1206 v1267
  v1268.toNat
def k0_off64 (d0 : Dev nD) : Fin 2 → Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c256_i32_25 : BitVec 32 := 256#32
  let v36 : BitVec 32 := Scalar.muli v6 c256_i32_25
  let v37 : BitVec 32 := Scalar.addi c0_i32_26 v36
  let c1_i32_2 : BitVec 32 := 1#32
  let v7 : BitVec 32 := Scalar.shrsi v5 c1_i32_2
  let c1_i32_3 : BitVec 32 := 1#32
  let v8 : BitVec 32 := Scalar.andi v7 c1_i32_3
  let c128_i32 : BitVec 32 := 128#32
  let v42 : BitVec 32 := Scalar.muli v8 c128_i32
  let v43 : BitVec 32 := Scalar.addi v37 v42
  let c2_i32 : BitVec 32 := 2#32
  let v9 : BitVec 32 := Scalar.shrsi v2 c2_i32
  let c1_i32_4 : BitVec 32 := 1#32
  let v10 : BitVec 32 := Scalar.andi v9 c1_i32_4
  let c64_i32 : BitVec 32 := 64#32
  let v44 : BitVec 32 := Scalar.muli v10 c64_i32
  let v45 : BitVec 32 := Scalar.addi v43 v44
  let c1_i32_60 : BitVec 32 := 1#32
  let c2_i32_59 : BitVec 32 := 2#32
  let v90 : BitVec 32 := Scalar.muli c2_i32_59 v10
  let v91 : BitVec 32 := Scalar.subi c1_i32_60 v90
  let c64_i32_61 : BitVec 32 := 64#32
  let v92 : BitVec 32 := Scalar.muli v91 c64_i32_61
  let v1285 : BitVec 32 := Scalar.addi v45 v92
  let c1_i32_69 : BitVec 32 := 1#32
  let c2_i32_68 : BitVec 32 := 2#32
  let v99 : BitVec 32 := Scalar.muli c2_i32_68 v8
  let v100 : BitVec 32 := Scalar.subi c1_i32_69 v99
  let c128_i32_70 : BitVec 32 := 128#32
  let v101 : BitVec 32 := Scalar.muli v100 c128_i32_70
  let v1286 : BitVec 32 := Scalar.addi v1285 v101
  let c0_i32_1230 : BitVec 32 := 0#32
  ![v1286.toNat, 0]
def k0_dev43 (d0 : Dev nD) : Nat :=
  let c0_i32_1229 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v11 : BitVec 32 := Scalar.xori v2 c1_i32_5
  let c1_i32_1228 : BitVec 32 := 1#32
  let v1287 : BitVec 32 := Scalar.muli v11 c1_i32_1228
  let v1288 : BitVec 32 := Scalar.addi c0_i32_1229 v1287
  v1288.toNat
def k0_off65 (d0 : Dev nD) : Fin 2 → Nat :=
  let c512_i32_28 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_2 : BitVec 32 := 1#32
  let v7 : BitVec 32 := Scalar.shrsi v5 c1_i32_2
  let c1_i32_3 : BitVec 32 := 1#32
  let v8 : BitVec 32 := Scalar.andi v7 c1_i32_3
  let c256_i32_27 : BitVec 32 := 256#32
  let v38 : BitVec 32 := Scalar.muli v8 c256_i32_27
  let v39 : BitVec 32 := Scalar.addi c512_i32_28 v38
  let c2_i32 : BitVec 32 := 2#32
  let v9 : BitVec 32 := Scalar.shrsi v2 c2_i32
  let c1_i32_4 : BitVec 32 := 1#32
  let v10 : BitVec 32 := Scalar.andi v9 c1_i32_4
  let c128_i32_31 : BitVec 32 := 128#32
  let v46 : BitVec 32 := Scalar.muli v10 c128_i32_31
  let v47 : BitVec 32 := Scalar.addi v39 v46
  let c1_i32_1 : BitVec 32 := 1#32
  let v6 : BitVec 32 := Scalar.andi v5 c1_i32_1
  let c64_i32_32 : BitVec 32 := 64#32
  let v48 : BitVec 32 := Scalar.muli v6 c64_i32_32
  let v49 : BitVec 32 := Scalar.addi v47 v48
  let c1_i32_63 : BitVec 32 := 1#32
  let c2_i32_62 : BitVec 32 := 2#32
  let v93 : BitVec 32 := Scalar.muli c2_i32_62 v6
  let v94 : BitVec 32 := Scalar.subi c1_i32_63 v93
  let c64_i32_64 : BitVec 32 := 64#32
  let v95 : BitVec 32 := Scalar.muli v94 c64_i32_64
  let v1305 : BitVec 32 := Scalar.addi v49 v95
  let c1_i32_72 : BitVec 32 := 1#32
  let c2_i32_71 : BitVec 32 := 2#32
  let v102 : BitVec 32 := Scalar.muli c2_i32_71 v10
  let v103 : BitVec 32 := Scalar.subi c1_i32_72 v102
  let c128_i32_73 : BitVec 32 := 128#32
  let v104 : BitVec 32 := Scalar.muli v103 c128_i32_73
  let v1306 : BitVec 32 := Scalar.addi v1305 v104
  let c0_i32_1253 : BitVec 32 := 0#32
  ![v1306.toNat, 0]
def k0_dev44 (d0 : Dev nD) : Nat :=
  let c0_i32_1252 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_6 : BitVec 32 := 3#32
  let v12 : BitVec 32 := Scalar.xori v2 c3_i32_6
  let c1_i32_1251 : BitVec 32 := 1#32
  let v1307 : BitVec 32 := Scalar.muli v12 c1_i32_1251
  let v1308 : BitVec 32 := Scalar.addi c0_i32_1252 v1307
  v1308.toNat
def k0_off66 (d0 : Dev nD) : Fin 2 → Nat :=
  let c1024_i32_30 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_4 : BitVec 32 := 1#32
  let v10 : BitVec 32 := Scalar.andi v9 c1_i32_4
  let c256_i32_29 : BitVec 32 := 256#32
  let v40 : BitVec 32 := Scalar.muli v10 c256_i32_29
  let v41 : BitVec 32 := Scalar.addi c1024_i32_30 v40
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c128_i32_33 : BitVec 32 := 128#32
  let v50 : BitVec 32 := Scalar.muli v6 c128_i32_33
  let v51 : BitVec 32 := Scalar.addi v41 v50
  let c1_i32_2 : BitVec 32 := 1#32
  let v7 : BitVec 32 := Scalar.shrsi v5 c1_i32_2
  let c1_i32_3 : BitVec 32 := 1#32
  let v8 : BitVec 32 := Scalar.andi v7 c1_i32_3
  let c64_i32_34 : BitVec 32 := 64#32
  let v52 : BitVec 32 := Scalar.muli v8 c64_i32_34
  let v53 : BitVec 32 := Scalar.addi v51 v52
  let c1_i32_66 : BitVec 32 := 1#32
  let c2_i32_65 : BitVec 32 := 2#32
  let v96 : BitVec 32 := Scalar.muli c2_i32_65 v8
  let v97 : BitVec 32 := Scalar.subi c1_i32_66 v96
  let c64_i32_67 : BitVec 32 := 64#32
  let v98 : BitVec 32 := Scalar.muli v97 c64_i32_67
  let v1325 : BitVec 32 := Scalar.addi v53 v98
  let c1_i32_75 : BitVec 32 := 1#32
  let c2_i32_74 : BitVec 32 := 2#32
  let v105 : BitVec 32 := Scalar.muli c2_i32_74 v6
  let v106 : BitVec 32 := Scalar.subi c1_i32_75 v105
  let c128_i32_76 : BitVec 32 := 128#32
  let v107 : BitVec 32 := Scalar.muli v106 c128_i32_76
  let v1326 : BitVec 32 := Scalar.addi v1325 v107
  let c0_i32_1276 : BitVec 32 := 0#32
  ![v1326.toNat, 0]
def k0_dev45 (d0 : Dev nD) : Nat :=
  let c0_i32_1275 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v13 : BitVec 32 := Scalar.xori v2 c4_i32
  let c1_i32_1274 : BitVec 32 := 1#32
  let v1327 : BitVec 32 := Scalar.muli v13 c1_i32_1274
  let v1328 : BitVec 32 := Scalar.addi c0_i32_1275 v1327
  v1328.toNat
abbrev stage0_0 : Fin 1 → Memref sig .tc .vmem S1536x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  inb_S768x1536_S768x1536_0_0 : ∀ a, (![0, 0] : Fin 2 → Nat) a + S768x1536.size a ≤ S768x1536.size a
  h_S768x1536 : 0 < S768x1536.numel
  shapeCasts_S768x1536_S768x1536 : S768x1536.ShapeCasts S768x1536
  bitsLt_bf16_f32 : FTy.bits .bf16 < FTy.bits .f32
  packedbf16_S768x1536_S768x1536_0_0 : (Rect.unit (s := S768x1536) ![0, 0] S768x1536.size inb_S768x1536_S768x1536_0_0).PackedRows (EltTy.packing .bf16)
  hamt_3 : (3#32 : BitVec 32).msb = false
  h_S64x768 : 0 < S64x768.numel
  shapeCasts_S64x768_S64x768 : S64x768.ShapeCasts S64x768
  h_S1x64x1536 : 0 < S1x64x1536.numel
  shapeCasts_S1x64x1536_S64x1536 : S1x64x1536.ShapeCasts S64x1536
  shapeCasts_S64x1536_S1x64x1536 : S64x1536.ShapeCasts S1x64x1536
  inb_S7x3_S1x1_0_0 : ∀ a, (![0, 0] : Fin 2 → Nat) a + S1x1.size a ≤ S7x3.size a
  squeezes_S1x1_S_ : S1x1.Squeezes S_
  squeezes_S1x64x1536_S64x1536 : S1x64x1536.Squeezes S64x1536
  inb_S7x3_S1x1_0_1 : ∀ a, (![0, 1] : Fin 2 → Nat) a + S1x1.size a ≤ S7x3.size a
  inb_S7x3_S1x1_0_2 : ∀ a, (![0, 2] : Fin 2 → Nat) a + S1x1.size a ≤ S7x3.size a
  inb_S7x3_S1x1_1_0 : ∀ a, (![1, 0] : Fin 2 → Nat) a + S1x1.size a ≤ S7x3.size a
  inb_S7x3_S1x1_1_1 : ∀ a, (![1, 1] : Fin 2 → Nat) a + S1x1.size a ≤ S7x3.size a
  inb_S7x3_S1x1_1_2 : ∀ a, (![1, 2] : Fin 2 → Nat) a + S1x1.size a ≤ S7x3.size a
  inb_S7x3_S1x1_2_0 : ∀ a, (![2, 0] : Fin 2 → Nat) a + S1x1.size a ≤ S7x3.size a
  inb_S7x3_S1x1_2_1 : ∀ a, (![2, 1] : Fin 2 → Nat) a + S1x1.size a ≤ S7x3.size a
  inb_S7x3_S1x1_2_2 : ∀ a, (![2, 2] : Fin 2 → Nat) a + S1x1.size a ≤ S7x3.size a
  inb_S7x3_S1x1_3_0 : ∀ a, (![3, 0] : Fin 2 → Nat) a + S1x1.size a ≤ S7x3.size a
  inb_S7x3_S1x1_3_1 : ∀ a, (![3, 1] : Fin 2 → Nat) a + S1x1.size a ≤ S7x3.size a
  inb_S7x3_S1x1_3_2 : ∀ a, (![3, 2] : Fin 2 → Nat) a + S1x1.size a ≤ S7x3.size a
  h_S256x768 : 0 < S256x768.numel
  shapeCasts_S256x768_S256x768 : S256x768.ShapeCasts S256x768
  inb_S3x256x1536_S1x256x1536_0_0_0 : ∀ a, (![0, 0, 0] : Fin 3 → Nat) a + S1x256x1536.size a ≤ S3x256x1536.size a
  h_S1x256x1536 : 0 < S1x256x1536.numel
  shapeCasts_S1x256x1536_S256x1536 : S1x256x1536.ShapeCasts S256x1536
  shapeCasts_S256x1536_S1x256x1536 : S256x1536.ShapeCasts S1x256x1536
  inb_S3x256x1536_S1x256x1536_1_0_0 : ∀ a, (![1, 0, 0] : Fin 3 → Nat) a + S1x256x1536.size a ≤ S3x256x1536.size a
  inb_S3x256x1536_S1x256x1536_2_0_0 : ∀ a, (![2, 0, 0] : Fin 3 → Nat) a + S1x256x1536.size a ≤ S3x256x1536.size a
  inb_S7x3_S1x1_4_0 : ∀ a, (![4, 0] : Fin 2 → Nat) a + S1x1.size a ≤ S7x3.size a
  inb_S7x3_S1x1_4_1 : ∀ a, (![4, 1] : Fin 2 → Nat) a + S1x1.size a ≤ S7x3.size a
  inb_S7x3_S1x1_4_2 : ∀ a, (![4, 2] : Fin 2 → Nat) a + S1x1.size a ≤ S7x3.size a
  inb_S7x3_S1x1_5_0 : ∀ a, (![5, 0] : Fin 2 → Nat) a + S1x1.size a ≤ S7x3.size a
  inb_S7x3_S1x1_5_1 : ∀ a, (![5, 1] : Fin 2 → Nat) a + S1x1.size a ≤ S7x3.size a
  inb_S7x3_S1x1_5_2 : ∀ a, (![5, 2] : Fin 2 → Nat) a + S1x1.size a ≤ S7x3.size a
  inb_S3x64x1536_S1x64x1536_0_0_0 : ∀ a, (![0, 0, 0] : Fin 3 → Nat) a + S1x64x1536.size a ≤ S3x64x1536.size a
  packedbf16_S3x64x1536_S1x64x1536_0_0_0 : (Rect.unit (s := S3x64x1536) ![0, 0, 0] S1x64x1536.size inb_S3x64x1536_S1x64x1536_0_0_0).PackedRows (EltTy.packing .bf16)
  inb_S7x3_S1x1_6_0 : ∀ a, (![6, 0] : Fin 2 → Nat) a + S1x1.size a ≤ S7x3.size a
  wordsbf16_S3x64x1536_S1x64x1536_0_0_0 : (Rect.unit (s := S3x64x1536) ![0, 0, 0] S1x64x1536.size inb_S3x64x1536_S1x64x1536_0_0_0).WholeWords (EltTy.packing .bf16)
  inb_S3x64x1536_S1x64x1536_1_0_0 : ∀ a, (![1, 0, 0] : Fin 3 → Nat) a + S1x64x1536.size a ≤ S3x64x1536.size a
  packedbf16_S3x64x1536_S1x64x1536_1_0_0 : (Rect.unit (s := S3x64x1536) ![1, 0, 0] S1x64x1536.size inb_S3x64x1536_S1x64x1536_1_0_0).PackedRows (EltTy.packing .bf16)
  inb_S7x3_S1x1_6_1 : ∀ a, (![6, 1] : Fin 2 → Nat) a + S1x1.size a ≤ S7x3.size a
  wordsbf16_S3x64x1536_S1x64x1536_1_0_0 : (Rect.unit (s := S3x64x1536) ![1, 0, 0] S1x64x1536.size inb_S3x64x1536_S1x64x1536_1_0_0).WholeWords (EltTy.packing .bf16)
  inb_S3x64x1536_S1x64x1536_2_0_0 : ∀ a, (![2, 0, 0] : Fin 3 → Nat) a + S1x64x1536.size a ≤ S3x64x1536.size a
  packedbf16_S3x64x1536_S1x64x1536_2_0_0 : (Rect.unit (s := S3x64x1536) ![2, 0, 0] S1x64x1536.size inb_S3x64x1536_S1x64x1536_2_0_0).PackedRows (EltTy.packing .bf16)
  inb_S7x3_S1x1_6_2 : ∀ a, (![6, 2] : Fin 2 → Nat) a + S1x1.size a ≤ S7x3.size a
  wordsbf16_S3x64x1536_S1x64x1536_2_0_0 : (Rect.unit (s := S3x64x1536) ![2, 0, 0] S1x64x1536.size inb_S3x64x1536_S1x64x1536_2_0_0).WholeWords (EltTy.packing .bf16)
  h_S64x1536 : 0 < S64x1536.numel
  dot_S64x768_S768x1536_S64x1536_1_0_0_1_n_n_wf : DotDims.WF S64x768 S768x1536 S64x1536 [1] [0] [0] [1] [] []
  dot_S256x768_S768x1536_S256x1536_1_0_0_1_n_n_wf : DotDims.WF S256x768 S768x1536 S256x1536 [1] [0] [0] [1] [] []
  hcc0_scratch8 : 3 + S7x3.numel ≤ 87
  hcc0_scratch9 : 24 + S7x3.numel ≤ 87
  hcc0_scratch10 : 45 + S7x3.numel ≤ 87
  hcc0_scratch11 : 66 + S7x3.numel ≤ 87
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ a, (k0_off1 d0) a + S64x768.size a ≤ S1536x768.size a
  k0_off2_inb : ∀ d0 : Dev nD, ∀ a, (k0_off2 d0) a + S1x64x1536.size a ≤ S3x256x1536.size a
  k0_off2_packedbf16 : ∀ d0 : Dev nD, (Rect.unit (s := S3x256x1536) (k0_off2 d0) S1x64x1536.size (k0_off2_inb d0)).PackedRows (EltTy.packing .bf16)
  k0_off3_inb : ∀ d0 : Dev nD, ∀ a, (k0_off3 d0) a + S1x64x1536.size a ≤ S3x256x1536.size a
  k0_off3_wordsbf16 : ∀ d0 : Dev nD, (Rect.unit (s := S3x256x1536) (k0_off3 d0) S1x64x1536.size (k0_off3_inb d0)).WholeWords (EltTy.packing .bf16)
  k0_dev4_lt : ∀ d0 : Dev nD, (k0_dev4 d0) < nD
  k0_off4_inb : ∀ d0 : Dev nD, ∀ a, (k0_off4 d0) a + S64x768.size a ≤ S1536x768.size a
  k0_off5_inb : ∀ d0 : Dev nD, ∀ a, (k0_off5 d0) a + S1x64x1536.size a ≤ S3x256x1536.size a
  k0_off5_packedbf16 : ∀ d0 : Dev nD, (Rect.unit (s := S3x256x1536) (k0_off5 d0) S1x64x1536.size (k0_off5_inb d0)).PackedRows (EltTy.packing .bf16)
  k0_off6_inb : ∀ d0 : Dev nD, ∀ a, (k0_off6 d0) a + S1x64x1536.size a ≤ S3x256x1536.size a
  k0_off6_wordsbf16 : ∀ d0 : Dev nD, (Rect.unit (s := S3x256x1536) (k0_off6 d0) S1x64x1536.size (k0_off6_inb d0)).WholeWords (EltTy.packing .bf16)
  k0_dev5_lt : ∀ d0 : Dev nD, (k0_dev5 d0) < nD
  k0_off7_inb : ∀ d0 : Dev nD, ∀ a, (k0_off7 d0) a + S64x768.size a ≤ S1536x768.size a
  k0_off8_inb : ∀ d0 : Dev nD, ∀ a, (k0_off8 d0) a + S1x64x1536.size a ≤ S3x256x1536.size a
  k0_off8_packedbf16 : ∀ d0 : Dev nD, (Rect.unit (s := S3x256x1536) (k0_off8 d0) S1x64x1536.size (k0_off8_inb d0)).PackedRows (EltTy.packing .bf16)
  k0_off9_inb : ∀ d0 : Dev nD, ∀ a, (k0_off9 d0) a + S1x64x1536.size a ≤ S3x256x1536.size a
  k0_off9_wordsbf16 : ∀ d0 : Dev nD, (Rect.unit (s := S3x256x1536) (k0_off9 d0) S1x64x1536.size (k0_off9_inb d0)).WholeWords (EltTy.packing .bf16)
  k0_dev6_lt : ∀ d0 : Dev nD, (k0_dev6 d0) < nD
  k0_off10_inb : ∀ d0 : Dev nD, ∀ a, (k0_off10 d0) a + S64x768.size a ≤ S1536x768.size a
  k0_off11_inb : ∀ d0 : Dev nD, ∀ a, (k0_off11 d0) a + S1x64x1536.size a ≤ S3x256x1536.size a
  k0_off11_packedbf16 : ∀ d0 : Dev nD, (Rect.unit (s := S3x256x1536) (k0_off11 d0) S1x64x1536.size (k0_off11_inb d0)).PackedRows (EltTy.packing .bf16)
  k0_off12_inb : ∀ d0 : Dev nD, ∀ a, (k0_off12 d0) a + S1x64x1536.size a ≤ S3x256x1536.size a
  k0_off12_wordsbf16 : ∀ d0 : Dev nD, (Rect.unit (s := S3x256x1536) (k0_off12 d0) S1x64x1536.size (k0_off12_inb d0)).WholeWords (EltTy.packing .bf16)
  k0_dev7_lt : ∀ d0 : Dev nD, (k0_dev7 d0) < nD
  k0_off13_inb : ∀ d0 : Dev nD, ∀ a, (k0_off13 d0) a + S64x768.size a ≤ S1536x768.size a
  k0_off14_inb : ∀ d0 : Dev nD, ∀ a, (k0_off14 d0) a + S1x64x1536.size a ≤ S3x256x1536.size a
  k0_off14_packedbf16 : ∀ d0 : Dev nD, (Rect.unit (s := S3x256x1536) (k0_off14 d0) S1x64x1536.size (k0_off14_inb d0)).PackedRows (EltTy.packing .bf16)
  k0_off15_inb : ∀ d0 : Dev nD, ∀ a, (k0_off15 d0) a + S1x64x1536.size a ≤ S3x256x1536.size a
  k0_off15_wordsbf16 : ∀ d0 : Dev nD, (Rect.unit (s := S3x256x1536) (k0_off15 d0) S1x64x1536.size (k0_off15_inb d0)).WholeWords (EltTy.packing .bf16)
  k0_dev8_lt : ∀ d0 : Dev nD, (k0_dev8 d0) < nD
  k0_off16_inb : ∀ d0 : Dev nD, ∀ a, (k0_off16 d0) a + S64x768.size a ≤ S1536x768.size a
  k0_off17_inb : ∀ d0 : Dev nD, ∀ a, (k0_off17 d0) a + S1x64x1536.size a ≤ S3x256x1536.size a
  k0_off17_packedbf16 : ∀ d0 : Dev nD, (Rect.unit (s := S3x256x1536) (k0_off17 d0) S1x64x1536.size (k0_off17_inb d0)).PackedRows (EltTy.packing .bf16)
  k0_off18_inb : ∀ d0 : Dev nD, ∀ a, (k0_off18 d0) a + S1x64x1536.size a ≤ S3x256x1536.size a
  k0_off18_wordsbf16 : ∀ d0 : Dev nD, (Rect.unit (s := S3x256x1536) (k0_off18 d0) S1x64x1536.size (k0_off18_inb d0)).WholeWords (EltTy.packing .bf16)
  k0_dev9_lt : ∀ d0 : Dev nD, (k0_dev9 d0) < nD
  k0_off19_inb : ∀ d0 : Dev nD, ∀ a, (k0_off19 d0) a + S64x768.size a ≤ S1536x768.size a
  k0_off20_inb : ∀ d0 : Dev nD, ∀ a, (k0_off20 d0) a + S1x64x1536.size a ≤ S3x256x1536.size a
  k0_off20_packedbf16 : ∀ d0 : Dev nD, (Rect.unit (s := S3x256x1536) (k0_off20 d0) S1x64x1536.size (k0_off20_inb d0)).PackedRows (EltTy.packing .bf16)
  k0_off21_inb : ∀ d0 : Dev nD, ∀ a, (k0_off21 d0) a + S1x64x1536.size a ≤ S3x256x1536.size a
  k0_off21_wordsbf16 : ∀ d0 : Dev nD, (Rect.unit (s := S3x256x1536) (k0_off21 d0) S1x64x1536.size (k0_off21_inb d0)).WholeWords (EltTy.packing .bf16)
  k0_dev10_lt : ∀ d0 : Dev nD, (k0_dev10 d0) < nD
  k0_off22_inb : ∀ d0 : Dev nD, ∀ a, (k0_off22 d0) a + S64x768.size a ≤ S1536x768.size a
  k0_off23_inb : ∀ d0 : Dev nD, ∀ a, (k0_off23 d0) a + S1x64x1536.size a ≤ S3x256x1536.size a
  k0_off23_packedbf16 : ∀ d0 : Dev nD, (Rect.unit (s := S3x256x1536) (k0_off23 d0) S1x64x1536.size (k0_off23_inb d0)).PackedRows (EltTy.packing .bf16)
  k0_off24_inb : ∀ d0 : Dev nD, ∀ a, (k0_off24 d0) a + S1x64x1536.size a ≤ S3x256x1536.size a
  k0_off24_wordsbf16 : ∀ d0 : Dev nD, (Rect.unit (s := S3x256x1536) (k0_off24 d0) S1x64x1536.size (k0_off24_inb d0)).WholeWords (EltTy.packing .bf16)
  k0_dev11_lt : ∀ d0 : Dev nD, (k0_dev11 d0) < nD
  k0_off25_inb : ∀ d0 : Dev nD, ∀ a, (k0_off25 d0) a + S64x768.size a ≤ S1536x768.size a
  k0_off26_inb : ∀ d0 : Dev nD, ∀ a, (k0_off26 d0) a + S1x64x1536.size a ≤ S3x256x1536.size a
  k0_off26_packedbf16 : ∀ d0 : Dev nD, (Rect.unit (s := S3x256x1536) (k0_off26 d0) S1x64x1536.size (k0_off26_inb d0)).PackedRows (EltTy.packing .bf16)
  k0_off27_inb : ∀ d0 : Dev nD, ∀ a, (k0_off27 d0) a + S1x64x1536.size a ≤ S3x256x1536.size a
  k0_off27_wordsbf16 : ∀ d0 : Dev nD, (Rect.unit (s := S3x256x1536) (k0_off27 d0) S1x64x1536.size (k0_off27_inb d0)).WholeWords (EltTy.packing .bf16)
  k0_dev12_lt : ∀ d0 : Dev nD, (k0_dev12 d0) < nD
  k0_off28_inb : ∀ d0 : Dev nD, ∀ a, (k0_off28 d0) a + S64x768.size a ≤ S1536x768.size a
  k0_off29_inb : ∀ d0 : Dev nD, ∀ a, (k0_off29 d0) a + S1x64x1536.size a ≤ S3x256x1536.size a
  k0_off29_packedbf16 : ∀ d0 : Dev nD, (Rect.unit (s := S3x256x1536) (k0_off29 d0) S1x64x1536.size (k0_off29_inb d0)).PackedRows (EltTy.packing .bf16)
  k0_off30_inb : ∀ d0 : Dev nD, ∀ a, (k0_off30 d0) a + S1x64x1536.size a ≤ S3x256x1536.size a
  k0_off30_wordsbf16 : ∀ d0 : Dev nD, (Rect.unit (s := S3x256x1536) (k0_off30 d0) S1x64x1536.size (k0_off30_inb d0)).WholeWords (EltTy.packing .bf16)
  k0_dev13_lt : ∀ d0 : Dev nD, (k0_dev13 d0) < nD
  k0_off31_inb : ∀ d0 : Dev nD, ∀ a, (k0_off31 d0) a + S64x768.size a ≤ S1536x768.size a
  k0_off32_inb : ∀ d0 : Dev nD, ∀ a, (k0_off32 d0) a + S1x64x1536.size a ≤ S3x256x1536.size a
  k0_off32_packedbf16 : ∀ d0 : Dev nD, (Rect.unit (s := S3x256x1536) (k0_off32 d0) S1x64x1536.size (k0_off32_inb d0)).PackedRows (EltTy.packing .bf16)
  k0_off33_inb : ∀ d0 : Dev nD, ∀ a, (k0_off33 d0) a + S1x64x1536.size a ≤ S3x256x1536.size a
  k0_off33_wordsbf16 : ∀ d0 : Dev nD, (Rect.unit (s := S3x256x1536) (k0_off33 d0) S1x64x1536.size (k0_off33_inb d0)).WholeWords (EltTy.packing .bf16)
  k0_dev14_lt : ∀ d0 : Dev nD, (k0_dev14 d0) < nD
  k0_off34_inb : ∀ d0 : Dev nD, ∀ a, (k0_off34 d0) a + S64x768.size a ≤ S1536x768.size a
  k0_off35_inb : ∀ d0 : Dev nD, ∀ a, (k0_off35 d0) a + S1x64x1536.size a ≤ S3x256x1536.size a
  k0_off35_packedbf16 : ∀ d0 : Dev nD, (Rect.unit (s := S3x256x1536) (k0_off35 d0) S1x64x1536.size (k0_off35_inb d0)).PackedRows (EltTy.packing .bf16)
  k0_off36_inb : ∀ d0 : Dev nD, ∀ a, (k0_off36 d0) a + S1x64x1536.size a ≤ S3x256x1536.size a
  k0_off36_wordsbf16 : ∀ d0 : Dev nD, (Rect.unit (s := S3x256x1536) (k0_off36 d0) S1x64x1536.size (k0_off36_inb d0)).WholeWords (EltTy.packing .bf16)
  k0_dev15_lt : ∀ d0 : Dev nD, (k0_dev15 d0) < nD
  k0_off37_inb : ∀ d0 : Dev nD, ∀ a, (k0_off37 d0) a + S256x768.size a ≤ S1536x768.size a
  k0_off38_inb : ∀ d0 : Dev nD, ∀ a, (k0_off38 d0) a + S256x768.size a ≤ S1536x768.size a
  k0_off39_inb : ∀ d0 : Dev nD, ∀ a, (k0_off39 d0) a + S256x768.size a ≤ S1536x768.size a
  k0_off40_inb : ∀ d0 : Dev nD, ∀ a, (k0_off40 d0) a + S1x64x1536.size a ≤ S3x128x1536.size a
  k0_off40_packedbf16 : ∀ d0 : Dev nD, (Rect.unit (s := S3x128x1536) (k0_off40 d0) S1x64x1536.size (k0_off40_inb d0)).PackedRows (EltTy.packing .bf16)
  k0_off41_inb : ∀ d0 : Dev nD, ∀ a, (k0_off41 d0) a + S1x64x1536.size a ≤ S3x128x1536.size a
  k0_off41_wordsbf16 : ∀ d0 : Dev nD, (Rect.unit (s := S3x128x1536) (k0_off41 d0) S1x64x1536.size (k0_off41_inb d0)).WholeWords (EltTy.packing .bf16)
  k0_dev16_lt : ∀ d0 : Dev nD, (k0_dev16 d0) < nD
  k0_off42_inb : ∀ d0 : Dev nD, ∀ a, (k0_off42 d0) a + S1x64x1536.size a ≤ S3x128x1536.size a
  k0_off42_packedbf16 : ∀ d0 : Dev nD, (Rect.unit (s := S3x128x1536) (k0_off42 d0) S1x64x1536.size (k0_off42_inb d0)).PackedRows (EltTy.packing .bf16)
  k0_off43_inb : ∀ d0 : Dev nD, ∀ a, (k0_off43 d0) a + S1x64x1536.size a ≤ S3x128x1536.size a
  k0_off43_wordsbf16 : ∀ d0 : Dev nD, (Rect.unit (s := S3x128x1536) (k0_off43 d0) S1x64x1536.size (k0_off43_inb d0)).WholeWords (EltTy.packing .bf16)
  k0_dev17_lt : ∀ d0 : Dev nD, (k0_dev17 d0) < nD
  k0_off44_inb : ∀ d0 : Dev nD, ∀ a, (k0_off44 d0) a + S1x64x1536.size a ≤ S3x128x1536.size a
  k0_off44_packedbf16 : ∀ d0 : Dev nD, (Rect.unit (s := S3x128x1536) (k0_off44 d0) S1x64x1536.size (k0_off44_inb d0)).PackedRows (EltTy.packing .bf16)
  k0_off45_inb : ∀ d0 : Dev nD, ∀ a, (k0_off45 d0) a + S1x64x1536.size a ≤ S3x128x1536.size a
  k0_off45_wordsbf16 : ∀ d0 : Dev nD, (Rect.unit (s := S3x128x1536) (k0_off45 d0) S1x64x1536.size (k0_off45_inb d0)).WholeWords (EltTy.packing .bf16)
  k0_dev18_lt : ∀ d0 : Dev nD, (k0_dev18 d0) < nD
  k0_off46_inb : ∀ d0 : Dev nD, ∀ a, (k0_off46 d0) a + S1x64x1536.size a ≤ S3x128x1536.size a
  k0_off46_packedbf16 : ∀ d0 : Dev nD, (Rect.unit (s := S3x128x1536) (k0_off46 d0) S1x64x1536.size (k0_off46_inb d0)).PackedRows (EltTy.packing .bf16)
  k0_off47_inb : ∀ d0 : Dev nD, ∀ a, (k0_off47 d0) a + S1x64x1536.size a ≤ S3x128x1536.size a
  k0_off47_wordsbf16 : ∀ d0 : Dev nD, (Rect.unit (s := S3x128x1536) (k0_off47 d0) S1x64x1536.size (k0_off47_inb d0)).WholeWords (EltTy.packing .bf16)
  k0_dev19_lt : ∀ d0 : Dev nD, (k0_dev19 d0) < nD
  k0_off48_inb : ∀ d0 : Dev nD, ∀ a, (k0_off48 d0) a + S1x64x1536.size a ≤ S3x128x1536.size a
  k0_off48_packedbf16 : ∀ d0 : Dev nD, (Rect.unit (s := S3x128x1536) (k0_off48 d0) S1x64x1536.size (k0_off48_inb d0)).PackedRows (EltTy.packing .bf16)
  k0_off49_inb : ∀ d0 : Dev nD, ∀ a, (k0_off49 d0) a + S1x64x1536.size a ≤ S3x128x1536.size a
  k0_off49_wordsbf16 : ∀ d0 : Dev nD, (Rect.unit (s := S3x128x1536) (k0_off49 d0) S1x64x1536.size (k0_off49_inb d0)).WholeWords (EltTy.packing .bf16)
  k0_dev20_lt : ∀ d0 : Dev nD, (k0_dev20 d0) < nD
  k0_off50_inb : ∀ d0 : Dev nD, ∀ a, (k0_off50 d0) a + S1x64x1536.size a ≤ S3x128x1536.size a
  k0_off50_packedbf16 : ∀ d0 : Dev nD, (Rect.unit (s := S3x128x1536) (k0_off50 d0) S1x64x1536.size (k0_off50_inb d0)).PackedRows (EltTy.packing .bf16)
  k0_off51_inb : ∀ d0 : Dev nD, ∀ a, (k0_off51 d0) a + S1x64x1536.size a ≤ S3x128x1536.size a
  k0_off51_wordsbf16 : ∀ d0 : Dev nD, (Rect.unit (s := S3x128x1536) (k0_off51 d0) S1x64x1536.size (k0_off51_inb d0)).WholeWords (EltTy.packing .bf16)
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_off52_inb : ∀ d0 : Dev nD, ∀ a, (k0_off52 d0) a + S64x1536.size a ≤ S1536x1536.size a
  k0_off52_packedbf16 : ∀ d0 : Dev nD, (Rect.unit (s := S1536x1536) (k0_off52 d0) S64x1536.size (k0_off52_inb d0)).PackedRows (EltTy.packing .bf16)
  k0_off53_inb : ∀ d0 : Dev nD, ∀ a, (k0_off53 d0) a + S64x1536.size a ≤ S1536x1536.size a
  k0_off53_wordsbf16 : ∀ d0 : Dev nD, (Rect.unit (s := S1536x1536) (k0_off53 d0) S64x1536.size (k0_off53_inb d0)).WholeWords (EltTy.packing .bf16)
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_off54_inb : ∀ d0 : Dev nD, ∀ a, (k0_off54 d0) a + S64x1536.size a ≤ S1536x1536.size a
  k0_off54_packedbf16 : ∀ d0 : Dev nD, (Rect.unit (s := S1536x1536) (k0_off54 d0) S64x1536.size (k0_off54_inb d0)).PackedRows (EltTy.packing .bf16)
  k0_off55_inb : ∀ d0 : Dev nD, ∀ a, (k0_off55 d0) a + S64x1536.size a ≤ S1536x1536.size a
  k0_off55_wordsbf16 : ∀ d0 : Dev nD, (Rect.unit (s := S1536x1536) (k0_off55 d0) S64x1536.size (k0_off55_inb d0)).WholeWords (EltTy.packing .bf16)
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_off56_inb : ∀ d0 : Dev nD, ∀ a, (k0_off56 d0) a + S64x1536.size a ≤ S1536x1536.size a
  k0_off56_packedbf16 : ∀ d0 : Dev nD, (Rect.unit (s := S1536x1536) (k0_off56 d0) S64x1536.size (k0_off56_inb d0)).PackedRows (EltTy.packing .bf16)
  k0_off57_inb : ∀ d0 : Dev nD, ∀ a, (k0_off57 d0) a + S64x1536.size a ≤ S1536x1536.size a
  k0_off57_wordsbf16 : ∀ d0 : Dev nD, (Rect.unit (s := S1536x1536) (k0_off57 d0) S64x1536.size (k0_off57_inb d0)).WholeWords (EltTy.packing .bf16)
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_off58_inb : ∀ d0 : Dev nD, ∀ a, (k0_off58 d0) a + S64x1536.size a ≤ S1536x1536.size a
  k0_off58_wordsbf16 : ∀ d0 : Dev nD, (Rect.unit (s := S1536x1536) (k0_off58 d0) S64x1536.size (k0_off58_inb d0)).WholeWords (EltTy.packing .bf16)
  k0_dev34_lt : ∀ d0 : Dev nD, (k0_dev34 d0) < nD
  k0_dev35_lt : ∀ d0 : Dev nD, (k0_dev35 d0) < nD
  k0_off59_inb : ∀ d0 : Dev nD, ∀ a, (k0_off59 d0) a + S64x1536.size a ≤ S1536x1536.size a
  k0_off59_wordsbf16 : ∀ d0 : Dev nD, (Rect.unit (s := S1536x1536) (k0_off59 d0) S64x1536.size (k0_off59_inb d0)).WholeWords (EltTy.packing .bf16)
  k0_dev36_lt : ∀ d0 : Dev nD, (k0_dev36 d0) < nD
  k0_dev37_lt : ∀ d0 : Dev nD, (k0_dev37 d0) < nD
  k0_off60_inb : ∀ d0 : Dev nD, ∀ a, (k0_off60 d0) a + S64x1536.size a ≤ S1536x1536.size a
  k0_off60_wordsbf16 : ∀ d0 : Dev nD, (Rect.unit (s := S1536x1536) (k0_off60 d0) S64x1536.size (k0_off60_inb d0)).WholeWords (EltTy.packing .bf16)
  k0_dev38_lt : ∀ d0 : Dev nD, (k0_dev38 d0) < nD
  k0_dev39_lt : ∀ d0 : Dev nD, (k0_dev39 d0) < nD
  k0_off61_inb : ∀ d0 : Dev nD, ∀ a, (k0_off61 d0) a + S64x1536.size a ≤ S1536x1536.size a
  k0_off61_wordsbf16 : ∀ d0 : Dev nD, (Rect.unit (s := S1536x1536) (k0_off61 d0) S64x1536.size (k0_off61_inb d0)).WholeWords (EltTy.packing .bf16)
  k0_dev40_lt : ∀ d0 : Dev nD, (k0_dev40 d0) < nD
  k0_off62_inb : ∀ d0 : Dev nD, ∀ a, (k0_off62 d0) a + S64x1536.size a ≤ S1536x1536.size a
  k0_off62_wordsbf16 : ∀ d0 : Dev nD, (Rect.unit (s := S1536x1536) (k0_off62 d0) S64x1536.size (k0_off62_inb d0)).WholeWords (EltTy.packing .bf16)
  k0_dev41_lt : ∀ d0 : Dev nD, (k0_dev41 d0) < nD
  k0_off63_inb : ∀ d0 : Dev nD, ∀ a, (k0_off63 d0) a + S64x1536.size a ≤ S1536x1536.size a
  k0_off63_wordsbf16 : ∀ d0 : Dev nD, (Rect.unit (s := S1536x1536) (k0_off63 d0) S64x1536.size (k0_off63_inb d0)).WholeWords (EltTy.packing .bf16)
  k0_dev42_lt : ∀ d0 : Dev nD, (k0_dev42 d0) < nD
  k0_off64_inb : ∀ d0 : Dev nD, ∀ a, (k0_off64 d0) a + S64x1536.size a ≤ S1536x1536.size a
  k0_off64_wordsbf16 : ∀ d0 : Dev nD, (Rect.unit (s := S1536x1536) (k0_off64 d0) S64x1536.size (k0_off64_inb d0)).WholeWords (EltTy.packing .bf16)
  k0_dev43_lt : ∀ d0 : Dev nD, (k0_dev43 d0) < nD
  k0_off65_inb : ∀ d0 : Dev nD, ∀ a, (k0_off65 d0) a + S64x1536.size a ≤ S1536x1536.size a
  k0_off65_wordsbf16 : ∀ d0 : Dev nD, (Rect.unit (s := S1536x1536) (k0_off65 d0) S64x1536.size (k0_off65_inb d0)).WholeWords (EltTy.packing .bf16)
  k0_dev44_lt : ∀ d0 : Dev nD, (k0_dev44 d0) < nD
  k0_off66_inb : ∀ d0 : Dev nD, ∀ a, (k0_off66 d0) a + S64x1536.size a ≤ S1536x1536.size a
  k0_off66_wordsbf16 : ∀ d0 : Dev nD, (Rect.unit (s := S1536x1536) (k0_off66 d0) S64x1536.size (k0_off66_inb d0)).WholeWords (EltTy.packing .bf16)
  k0_dev45_lt : ∀ d0 : Dev nD, (k0_dev45 d0) < nD
  hstage0_0 : ∀ j, (stage0_0 j).IsWhole
  hstage0_1 : ∀ j, (stage0_1 j).IsWhole
  hstage0_2 : ∀ j, (stage0_2 j).IsWhole

variable [Facts₀]

abbrev cc0_scratch8 : DmaSems sig S7x3 := SemArray.consecutive 3 S7x3 hcc0_scratch8
abbrev cc0_scratch9 : DmaSems sig S7x3 := SemArray.consecutive 24 S7x3 hcc0_scratch9
abbrev cc0_scratch10 : DmaSems sig S7x3 := SemArray.consecutive 45 S7x3 hcc0_scratch10
abbrev cc0_scratch11 : DmaSems sig S7x3 := SemArray.consecutive 66 S7x3 hcc0_scratch11
def dot_S64x768_S768x1536_S64x1536_1_0_0_1_n_n : DotDims S64x768 S768x1536 S64x1536 where
  lhsContracting := [1]
  rhsContracting := [0]
  lhsNonContracting := [0]
  rhsNonContracting := [1]
  lhsBatch := []
  rhsBatch := []
  wf := dot_S64x768_S768x1536_S64x1536_1_0_0_1_n_n_wf
def dot_S256x768_S768x1536_S256x1536_1_0_0_1_n_n : DotDims S256x768 S768x1536 S256x1536 where
  lhsContracting := [1]
  rhsContracting := [0]
  lhsNonContracting := [0]
  rhsNonContracting := [1]
  lhsBatch := []
  rhsBatch := []
  wf := dot_S256x768_S768x1536_S256x1536_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1536x6144 : Shape := ⟨2, ![1536, 6144]⟩
abbrev S6144x1536 : Shape := ⟨2, ![6144, 1536]⟩
abbrev S1536x1536 : Shape := ⟨2, ![1536, 1536]⟩

abbrev nBuf : Space → Nat
  | .hbm => 4
  | .vmem => 0
  | .smem => 0
  | _ => 0

abbrev bufTy : (tb : Table) → Fin (tcTables nBuf tb) → BufTy
  | .hbm, ⟨0, _⟩ => ⟨S1536x6144, .f32⟩
  | .hbm, ⟨1, _⟩ => ⟨S6144x1536, .f32⟩
  | .hbm, ⟨2, _⟩ => ⟨S1536x1536, .f32⟩
  | .hbm, ⟨3, _⟩ => ⟨S1536x1536, .bf16⟩
  | _, _ => ⟨S1536x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  bitsLt_bf16_f32 : FTy.bits .bf16 < FTy.bits .f32
  dot_S1536x6144_S6144x1536_S1536x1536_1_0_0_1_n_n_wf : DotDims.WF S1536x6144 S6144x1536 S1536x1536 [1] [0] [0] [1] [] []

variable [Facts₀]

def dot_S1536x6144_S6144x1536_S1536x1536_1_0_0_1_n_n : DotDims S1536x6144 S6144x1536 S1536x1536 where
  lhsContracting := [1]
  rhsContracting := [0]
  lhsNonContracting := [0]
  rhsNonContracting := [1]
  lhsBatch := []
  rhsBatch := []
  wf := dot_S1536x6144_S6144x1536_S1536x1536_1_0_0_1_n_n_wf

class Facts : Prop extends Facts₀ where

variable [Facts]
-- ==== Proof.Mesh.lean ====
import proofs.«900886_g7700000000000887_dist_matmul_k_i_m1536_n1536_k768_v7x_i8_bf16_1_alg».proof.KernelIdeal

namespace Cert.KernelIdeal.Hand

open Idealize.ShloMosaic Cert.KernelIdeal

def bt (a : Nat) (c : Dev nD) : Nat :=
  match a % 3 with
  | 0 => (c.val % 2 + c.val / 2 % 2) % 2
  | 1 => c.val / 2 % 2
  | _ => c.val / 4 % 2

def mask (a : Nat) : Nat := match a % 3 with | 0 => 1 | 1 => 3 | _ => 4

def part (a : Nat) (c : Dev nD) : Dev nD := ⟨(c.val ^^^ mask a) % 8, Nat.mod_lt _ (by decide)⟩

def B (j t : Nat) (c : Dev nD) : Nat := bt (j + t) c

def pt (j t : Nat) (c : Dev nD) : Dev nD := part (j + t) c

def rowS0 (j : Nat) (c : Dev nD) : Nat := j * 512 + (1 - B j 0 c) * 256

def rowK0 (j : Nat) (c : Dev nD) : Nat := j * 512 + B j 0 c * 256

def pos (j i : Nat) (c : Dev nD) : Nat :=
  match i with
  | 0 => (1 - B j 1 c) * 2 + (1 - B j 2 c)
  | 1 => (1 - B j 1 c) * 2 + B j 2 c
  | 2 => B j 1 c * 2 + (1 - B j 2 c)
  | _ => B j 1 c * 2 + B j 2 c

def rowK2 (j : Nat) (c : Dev nD) : Nat := rowK0 j c + B j 1 c * 128 + B j 2 c * 64

def rowG (j : Nat) (f1 f2 : Bool) (c : Dev nD) : Nat :=
  rowK0 j c + (if f1 then 1 - B j 1 c else B j 1 c) * 128 + (if f2 then 1 - B j 2 c else B j 2 c) * 64

end Cert.KernelIdeal.Hand
-- ==== Proof.Proto.lean ====
import proofs.«900886_g7700000000000887_dist_matmul_k_i_m1536_n1536_k768_v7x_i8_bf16_1_alg».proof.Proof.Mesh
import proofs.«900886_g7700000000000887_dist_matmul_k_i_m1536_n1536_k768_v7x_i8_bf16_1_alg».proof.Proof.Gen.KernelIdeal
import Idealize.ShloMosaic.Lib.Pipeline.Launch
import Idealize.ShloMosaic.Lib.Pipeline.Kit
import Idealize.ShloMosaic.Lib.Memref
import Idealize.ShloMosaic.Lib.Tactic

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

inductive Cp where
  | rs0 (i : Fin 4) (j : Fin 3)
  | rs1 (h : Fin 2) (j : Fin 3)
  | rs2 (j : Fin 3)
  | ag (s : Fin 7) (j : Fin 3)
  deriving DecidableEq

def Cp.equiv : ((Fin 4 × Fin 3) ⊕ (Fin 2 × Fin 3) ⊕ Fin 3 ⊕ (Fin 7 × Fin 3)) ≃ Cp where
  toFun
    | .inl (i, j) => .rs0 i j
    | .inr (.inl (h, j)) => .rs1 h j
    | .inr (.inr (.inl j)) => .rs2 j
    | .inr (.inr (.inr (s, j))) => .ag s j
  invFun
    | .rs0 i j => .inl (i, j)
    | .rs1 h j => .inr (.inl (h, j))
    | .rs2 j => .inr (.inr (.inl j))
    | .ag s j => .inr (.inr (.inr (s, j)))
  left_inv x := by rcases x with ⟨i, j⟩ | ⟨h, j⟩ | j | ⟨s, j⟩ <;> rfl
  right_inv k := by cases k <;> rfl

instance : Fintype Cp := Fintype.ofEquiv _ Cp.equiv

namespace Cp

def split : Cp → Fin 3
  | rs0 _ j => j | rs1 _ j => j | rs2 j => j | ag _ j => j

def step : Cp → Nat
  | rs0 _ _ => 0 | rs1 _ _ => 1 | rs2 _ => 2
  | ag s _ => if s.val = 0 then 2 else if s.val ≤ 2 then 1 else 0

def peer (k : Cp) (c : Dev nD) : Dev nD := pt k.split.val k.step c

def sid : Cp → Fin 7
  | rs0 i _ => ⟨i.val, by omega⟩ | rs1 h _ => ⟨4 + h.val, by omega⟩ | rs2 _ => 6 | ag s _ => s

def isAg : Cp → Bool
  | ag _ _ => true | _ => false

def sendSem (k : Cp) : DmaSem sig := ⟨(if k.isAg then 45 else 3) + (k.sid.val * 3 + k.split.val), by
  show _ < 87; have := k.sid.isLt; have := k.split.isLt; split <;> omega⟩
def recvSem (k : Cp) : DmaSem sig := ⟨(if k.isAg then 66 else 24) + (k.sid.val * 3 + k.split.val), by
  show _ < 87; have := k.sid.isLt; have := k.split.isLt; split <;> omega⟩

end Cp

theorem sendSem_injective : Function.Injective Cp.sendSem := by decide
theorem recvSem_injective : Function.Injective Cp.recvSem := by decide
theorem sendSem_ne_recvSem : ∀ k k' : Cp, k.sendSem ≠ k'.recvSem := by decide

abbrev aM : Memref sig .tc .vmem S1536x768 .f32 := Memref.whole cc0_stg0_0
abbrev bM : Memref sig .tc .vmem S768x1536 .f32 := Memref.whole cc0_stg1_0
abbrev outM : Memref sig .tc .vmem S1536x1536 .bf16 := Memref.whole cc0_stg2_0
abbrev bbfM : Memref sig .tc .vmem S768x1536 .bf16 := Memref.whole cc0_scratch0
abbrev kaccM : Memref sig .tc .vmem S3x256x1536 .f32 := Memref.whole cc0_scratch1
abbrev sb0M : Memref sig .tc .vmem S3x256x1536 .bf16 := Memref.whole cc0_scratch2
abbrev rb0M : Memref sig .tc .vmem S3x256x1536 .bf16 := Memref.whole cc0_scratch3
abbrev sb1M : Memref sig .tc .vmem S3x128x1536 .bf16 := Memref.whole cc0_scratch4
abbrev rb1M : Memref sig .tc .vmem S3x128x1536 .bf16 := Memref.whole cc0_scratch5
abbrev sb2M : Memref sig .tc .vmem S3x64x1536 .bf16 := Memref.whole cc0_scratch6
abbrev rb2M : Memref sig .tc .vmem S3x64x1536 .bf16 := Memref.whole cc0_scratch7

def o0 (i : Fin 4) (j : Fin 3) (c : Dev nD) : Fin 3 → Nat := ![j.val, pos j.val i.val c * 64, 0]

def o1 (h : Fin 2) (j : Fin 3) (c : Dev nD) : Fin 3 → Nat :=
  ![j.val, (if h.val = 0 then 1 - B j.val 2 c else B j.val 2 c) * 64, 0]

def o2 (j : Fin 3) : Fin 3 → Nat := ![j.val, 0, 0]

def agRow (s : Fin 7) (j : Fin 3) (c : Dev nD) : Nat :=
  if s.val = 0 ∨ s.val = 1 ∨ s.val = 3 then rowK2 j.val c
  else if s.val = 2 ∨ s.val = 4 then rowG j.val false true c
  else if s.val = 5 then rowG j.val true false c
  else rowG j.val true true c
def oA (s : Fin 7) (j : Fin 3) (c : Dev nD) : Fin 2 → Nat := ![agRow s j c, 0]

theorem o0_inb : ∀ (i : Fin 4) (j : Fin 3) (c : Dev nD) a, o0 i j c a + S1x64x1536.size a ≤ S3x256x1536.size a := by decide
theorem o1_inb : ∀ (h : Fin 2) (j : Fin 3) (c : Dev nD) a, o1 h j c a + S1x64x1536.size a ≤ S3x128x1536.size a := by decide
theorem o2_inb : ∀ (j : Fin 3) a, o2 j a + S1x64x1536.size a ≤ S3x64x1536.size a := by decide
theorem oA_inb : ∀ (s : Fin 7) (j : Fin 3) (c : Dev nD) a, oA s j c a + S64x1536.size a ≤ S1536x1536.size a := by decide

abbrev piece {S : Shape} (M : Memref sig .tc .vmem S .bf16) (o : Fin S.rank → Nat) (sz : Fin S.rank → Nat) (h : ∀ a, o a + sz a ≤ S.size a) :=
  M.slice (Rect.unit (s := S) o sz h) (fun _ => rfl)

def srcM (k : Cp) (c : Dev nD) : Memref sig .tc .vmem S64x1536 .bf16 :=
  match k with
  | .rs0 i j => (sb0M.slice (Rect.unit (s := S3x256x1536) (o0 i j c) S1x64x1536.size (o0_inb i j c)) (fun _ => rfl)).squeeze S64x1536 squeezes_S1x64x1536_S64x1536
  | .rs1 h j => (sb1M.slice (Rect.unit (s := S3x128x1536) (o1 h j c) S1x64x1536.size (o1_inb h j c)) (fun _ => rfl)).squeeze S64x1536 squeezes_S1x64x1536_S64x1536
  | .rs2 j => (sb2M.slice (Rect.unit (s := S3x64x1536) (o2 j) S1x64x1536.size (o2_inb j)) (fun _ => rfl)).squeeze S64x1536 squeezes_S1x64x1536_S64x1536
  | .ag s j => outM.slice (Rect.unit (s := S1536x1536) (oA s j c) S64x1536.size (oA_inb s j c)) (fun _ => rfl)

def dstM (k : Cp) (c : Dev nD) : Memref sig .tc .vmem S64x1536 .bf16 :=
  match k with
  | .rs0 i j => (rb0M.slice (Rect.unit (s := S3x256x1536) (o0 i j c) S1x64x1536.size (o0_inb i j c)) (fun _ => rfl)).squeeze S64x1536 squeezes_S1x64x1536_S64x1536
  | .rs1 h j => (rb1M.slice (Rect.unit (s := S3x128x1536) (o1 h j c) S1x64x1536.size (o1_inb h j c)) (fun _ => rfl)).squeeze S64x1536 squeezes_S1x64x1536_S64x1536
  | .rs2 j => (rb2M.slice (Rect.unit (s := S3x64x1536) (o2 j) S1x64x1536.size (o2_inb j)) (fun _ => rfl)).squeeze S64x1536 squeezes_S1x64x1536_S64x1536
  | .ag s j => outM.slice (Rect.unit (s := S1536x1536) (oA s j c) S64x1536.size (oA_inb s j c)) (fun _ => rfl)

theorem o0_peer : ∀ (i : Fin 4) (j : Fin 3) (c : Dev nD), o0 i j ((Cp.rs0 i j).peer c) = o0 i j c := by decide
theorem o1_peer : ∀ (h : Fin 2) (j : Fin 3) (c : Dev nD), o1 h j ((Cp.rs1 h j).peer c) = o1 h j c := by decide
theorem peer_peer : ∀ (k : Cp) (c : Dev nD), k.peer (k.peer c) = c := by decide
abbrev barS : Sem sig := (SemArray.scalar (sig.barrier 0 rfl) : Sems sig S_).sem
abbrev barCell (c : Dev nD) : GSem nD τ sig := ((c : Thread nD τ), .reg barS)
abbrev sendCell (c : Dev nD) (k : Cp) : GSem nD τ sig := ((c : Thread nD τ), .dma k.sendSem)
abbrev recvCell (c : Dev nD) (k : Cp) : GSem nD τ sig := ((c : Thread nD τ), .dma k.recvSem)

section Sched

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (V : Dev nD → Cp → (S64x1536.Idx → Elt F .bf16))

def Cp.axis (k : Cp) : Nat := (k.split.val + k.step) % 3

def Cp.shr : Cp → PosShare TreeShare
  | .ag s _ => if s.val = 0 then fullShare.left else if s.val = 1 then fullShare.right.left else if s.val = 3 then fullShare.right.right
      else if s.val = 2 then fullShare.left else if s.val = 4 then fullShare.right else fullShare
  | _ => fullShare

abbrev NN : ℕ := (dstM (.rs2 0) 0).view.dmaCredit

def sendPay (c : Dev nD) (k : Cp) : sProp 𝕄 := owns (c : Thread nD τ) (srcM k c) k.shr (V c k)
def recvPay (c : Dev nD) (k : Cp) : sProp 𝕄 := owns (c : Thread nD τ) (dstM k (k.peer c)) fullShare (V (k.peer c) k)

def barPay (c : Dev nD) (a : Fin 3) : sProp 𝕄 :=
  bigSep (Finset.univ.filter fun k : Cp => k.axis = a.val) fun k =>
    iprop(∃ X : S64x1536.Idx → Elt F .bf16, owns ((part a.val c : Dev nD) : Thread nD τ) (dstM k c) fullShare X)

def cpOf (q : DmaSem sig) : Option (Bool × Cp) :=
  if h : ∃ k : Cp, k.sendSem = q then some (false, Classical.choose h)
  else if h : ∃ k : Cp, k.recvSem = q then some (true, Classical.choose h) else none

theorem cpOf_send (k : Cp) : cpOf k.sendSem = some (false, k) := by
  have h : ∃ k' : Cp, k'.sendSem = k.sendSem := ⟨k, rfl⟩
  unfold cpOf; rw [dif_pos h]; exact congrArg (fun x => some (false, x)) (sendSem_injective (Classical.choose_spec h))
theorem cpOf_recv (k : Cp) : cpOf k.recvSem = some (true, k) := by
  have h0 : ¬ ∃ k' : Cp, k'.sendSem = k.recvSem := fun ⟨k', h'⟩ => sendSem_ne_recvSem k' k h'
  have h : ∃ k' : Cp, k'.recvSem = k.recvSem := ⟨k, rfl⟩
  unfold cpOf; rw [dif_neg h0, dif_pos h]; exact congrArg (fun x => some (true, x)) (recvSem_injective (Classical.choose_spec h))

def Rd : Rounds.Schedule (GSem nD τ sig) (Fin 3) 𝕄 where
  duties g r :=
    if r = 0 ∧ g.1.2 = .tc then
      match g.2 with
      | .reg s => if s = barS then Finset.univ else ∅
      | .dma q => if (cpOf q).isSome then {0} else ∅
    else ∅
  amount g _ _ := match g.2 with | .reg _ => 1 | .dma _ => NN
  payload g _ d :=
    match g.2 with
    | .reg _ => barPay g.1.1 d
    | .dma q => match cpOf q with
      | some (false, k) => sendPay V g.1.1 k
      | some (true, k) => recvPay V g.1.1 k
      | none => iprop(emp)
  amount_pos g _ _ _ := by
    cases g.2 with
    | reg _ => exact Nat.one_pos
    | dma _ => exact View.dmaCredit_pos _ (by decide)

end Sched

end Cert.KernelIdeal.Hand

end
-- ==== Proof.ProgTab.lean ====
/-
  The program order of the kernel body, as tables: numbering its loads, stores, transfers, waits and signals from 0 in
  the order they are printed, at which number each copy is issued, at which its send and its receive semaphore are
  waited on, and from which number on its source piece holds the copy's value.
-/
import proofs.«900886_g7700000000000887_dist_matmul_k_i_m1536_n1536_k768_v7x_i8_bf16_1_alg».proof.Proof.Proto

namespace Cert.KernelIdeal.Hand

/-- The operation that issues the copy. -/
def evIssue : Cp → Nat
  | .rs0 0 0 => 11
  | .rs0 0 1 => 16
  | .rs0 0 2 => 21
  | .rs0 1 0 => 26
  | .rs0 1 1 => 31
  | .rs0 1 2 => 36
  | .rs0 2 0 => 41
  | .rs0 2 1 => 46
  | .rs0 2 2 => 51
  | .rs0 3 0 => 56
  | .rs0 3 1 => 61
  | .rs0 3 2 => 66
  | .rs1 0 0 => 85
  | .rs1 0 1 => 92
  | .rs1 0 2 => 99
  | .rs1 1 0 => 106
  | .rs1 1 1 => 113
  | .rs1 1 2 => 120
  | .rs2 0 => 130
  | .rs2 1 => 140
  | .rs2 2 => 150
  | .ag 0 0 => 163
  | .ag 1 0 => 164
  | .ag 3 0 => 165
  | .ag 0 1 => 178
  | .ag 1 1 => 179
  | .ag 3 1 => 180
  | .ag 0 2 => 193
  | .ag 1 2 => 194
  | .ag 3 2 => 195
  | .ag 2 0 => 198
  | .ag 4 0 => 199
  | .ag 2 1 => 202
  | .ag 4 1 => 203
  | .ag 2 2 => 206
  | .ag 4 2 => 207
  | .ag 5 0 => 210
  | .ag 5 1 => 213
  | .ag 5 2 => 216
  | .ag 6 0 => 219
  | .ag 6 1 => 222
  | .ag 6 2 => 225

/-- The wait on the copy's send semaphore. -/
def evSW : Cp → Nat
  | .rs0 0 0 => 79
  | .rs0 0 1 => 86
  | .rs0 0 2 => 93
  | .rs0 1 0 => 100
  | .rs0 1 1 => 107
  | .rs0 1 2 => 114
  | .rs0 2 0 => 121
  | .rs0 2 1 => 131
  | .rs0 2 2 => 141
  | .rs0 3 0 => 151
  | .rs0 3 1 => 166
  | .rs0 3 2 => 181
  | .rs1 0 0 => 123
  | .rs1 0 1 => 133
  | .rs1 0 2 => 143
  | .rs1 1 0 => 153
  | .rs1 1 1 => 168
  | .rs1 1 2 => 183
  | .rs2 0 => 155
  | .rs2 1 => 170
  | .rs2 2 => 185
  | .ag 0 0 => 196
  | .ag 1 0 => 208
  | .ag 3 0 => 226
  | .ag 0 1 => 200
  | .ag 1 1 => 211
  | .ag 3 1 => 234
  | .ag 0 2 => 204
  | .ag 1 2 => 214
  | .ag 3 2 => 242
  | .ag 2 0 => 217
  | .ag 4 0 => 228
  | .ag 2 1 => 220
  | .ag 4 1 => 236
  | .ag 2 2 => 223
  | .ag 4 2 => 244
  | .ag 5 0 => 230
  | .ag 5 1 => 238
  | .ag 5 2 => 246
  | .ag 6 0 => 232
  | .ag 6 1 => 240
  | .ag 6 2 => 248

/-- The wait on the copy's receive semaphore. -/
def evRW : Cp → Nat
  | .rs0 0 0 => 80
  | .rs0 0 1 => 87
  | .rs0 0 2 => 94
  | .rs0 1 0 => 101
  | .rs0 1 1 => 108
  | .rs0 1 2 => 115
  | .rs0 2 0 => 122
  | .rs0 2 1 => 132
  | .rs0 2 2 => 142
  | .rs0 3 0 => 152
  | .rs0 3 1 => 167
  | .rs0 3 2 => 182
  | .rs1 0 0 => 124
  | .rs1 0 1 => 134
  | .rs1 0 2 => 144
  | .rs1 1 0 => 154
  | .rs1 1 1 => 169
  | .rs1 1 2 => 184
  | .rs2 0 => 156
  | .rs2 1 => 171
  | .rs2 2 => 186
  | .ag 0 0 => 197
  | .ag 1 0 => 209
  | .ag 3 0 => 227
  | .ag 0 1 => 201
  | .ag 1 1 => 212
  | .ag 3 1 => 235
  | .ag 0 2 => 205
  | .ag 1 2 => 215
  | .ag 3 2 => 243
  | .ag 2 0 => 218
  | .ag 4 0 => 229
  | .ag 2 1 => 221
  | .ag 4 1 => 237
  | .ag 2 2 => 224
  | .ag 4 2 => 245
  | .ag 5 0 => 231
  | .ag 5 1 => 239
  | .ag 5 2 => 247
  | .ag 6 0 => 233
  | .ag 6 1 => 241
  | .ag 6 2 => 249

/-- The operation after which the copy's source piece holds its value: the store that writes it, or the wait that lands the piece it passes on. -/
def evSrc : Cp → Nat
  | .rs0 0 0 => 10
  | .rs0 0 1 => 15
  | .rs0 0 2 => 20
  | .rs0 1 0 => 25
  | .rs0 1 1 => 30
  | .rs0 1 2 => 35
  | .rs0 2 0 => 40
  | .rs0 2 1 => 45
  | .rs0 2 2 => 50
  | .rs0 3 0 => 55
  | .rs0 3 1 => 60
  | .rs0 3 2 => 65
  | .rs1 0 0 => 84
  | .rs1 0 1 => 91
  | .rs1 0 2 => 98
  | .rs1 1 0 => 105
  | .rs1 1 1 => 112
  | .rs1 1 2 => 119
  | .rs2 0 => 129
  | .rs2 1 => 139
  | .rs2 2 => 149
  | .ag 0 0 => 162
  | .ag 1 0 => 162
  | .ag 3 0 => 162
  | .ag 0 1 => 177
  | .ag 1 1 => 177
  | .ag 3 1 => 177
  | .ag 0 2 => 192
  | .ag 1 2 => 192
  | .ag 3 2 => 192
  | .ag 2 0 => 197
  | .ag 4 0 => 197
  | .ag 2 1 => 201
  | .ag 4 1 => 201
  | .ag 2 2 => 205
  | .ag 4 2 => 205
  | .ag 5 0 => 209
  | .ag 5 1 => 212
  | .ag 5 2 => 215
  | .ag 6 0 => 218
  | .ag 6 1 => 221
  | .ag 6 2 => 224

/-- The store that fills the accumulator's slab of split `j`. -/
def evSlab : Fin 3 → Nat
  | 0 => 70
  | 1 => 74
  | 2 => 78

end Cert.KernelIdeal.Hand
-- ==== Proof.Ghost.lean ====
import proofs.«900886_g7700000000000887_dist_matmul_k_i_m1536_n1536_k768_v7x_i8_bf16_1_alg».proof.Proof.Proto

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

def Cp.ord : Cp → Nat
  | .rs0 i j => i.val * 3 + j.val
  | .rs1 h j => 12 + h.val * 3 + j.val
  | .rs2 j => 18 + j.val
  | .ag s j =>
    if s.val = 0 then 21 + 3 * j.val else if s.val = 1 then 22 + 3 * j.val else if s.val = 3 then 23 + 3 * j.val
    else if s.val = 2 then 30 + 2 * j.val else if s.val = 4 then 31 + 2 * j.val
    else if s.val = 5 then 36 + j.val else 39 + j.val

theorem ord_injective : Function.Injective Cp.ord := by decide
theorem ord_lt : ∀ k : Cp, k.ord < 42 := by decide

def rest (t : Nat) : Finset Cp := Finset.univ.filter fun k => t ≤ k.ord

abbrev CellIx : Type := Option (Bool × Cp)
abbrev csem : CellIx → SemLoc sig
  | none => .reg barS
  | some (false, k) => .dma k.sendSem
  | some (true, k) => .dma k.recvSem
abbrev kcell (cx : Dev nD × CellIx) : GSem nD τ sig := ((cx.1 : Thread nD τ), csem cx.2)

theorem csem_injective : Function.Injective csem := by
  intro x y h
  rcases x with _ | ⟨_ | _, k⟩ <;> rcases y with _ | ⟨_ | _, k'⟩ <;> first
    | rfl
    | exact absurd h (fun h => by cases h)
    | (have h' : k.sendSem = k'.sendSem := by simpa [csem] using h
       rw [sendSem_injective h'])
    | (have h' : k.recvSem = k'.recvSem := by simpa [csem] using h
       rw [recvSem_injective h'])
    | (have h' : k.sendSem = k'.recvSem := by simpa [csem] using h
       exact absurd h' (sendSem_ne_recvSem k k'))
    | (have h' : k.recvSem = k'.sendSem := by simpa [csem] using h
       exact absurd h'.symm (sendSem_ne_recvSem k' k))

section Ghost

variable {F : FTy → Type} [FloatOps F]

local notation "𝕄" => MT nD τ sig Unit (Elt F) ℕ UU ℕ

variable (V : Dev nD → Cp → (S64x1536.Idx → Elt F .bf16))

def O₀ (c : Dev nD) : CellTallies nD τ sig Unit :=
  (∑ k : Cp, tallyAt (recvCell (k.peer c) k) () NN) + (∑ a : Fin 3, tallyAt (barCell (part a.val c)) () 1)

def owedAt (c : Dev nD) (t : Nat) : CellTallies nD τ sig Unit := ∑ k ∈ rest t, tallyAt (recvCell (k.peer c) k) () NN

def L (g : GSem nD τ sig) : Finset Unit := if g.1.2 = .tc then {()} else ∅

def lv (g : GSem nD τ sig) (_ : Unit) : ℕ :=
  match g.2 with
  | .reg _ => 1
  | .dma q => match cpOf q with
    | some (true, k) => k.ord + 2
    | _ => 0

def records (K : Dev nD × CellIx → ℕ) : sProp 𝕄 :=
  iprop((bigSep Finset.univ fun cx : Dev nD × CellIx => cellInv ER (Rd V) (K cx) (kcell cx))
    ∗ bigSep Finset.univ fun cx : Dev nD × CellIx => reached ER (kcell cx) 0)

def payToks (c : Dev nD) (S : Finset Cp) : sProp 𝕄 :=
  bigSep S fun k => iprop(dutyTok ER (sendCell c k) 0 (0 : Fin 3) ∗ dutyTok ER (recvCell (k.peer c) k) 0 (0 : Fin 3))
def barToks (c : Dev nD) : sProp 𝕄 := bigSep (Finset.univ : Finset (Fin 3)) fun a => dutyTok ER (barCell (part a.val c)) 0 a

def positions (c : Dev nD) : sProp 𝕄 := bigSep (Finset.univ : Finset CellIx) fun x => atPos ER (kcell (c, x)) 0 ∅ 0

def ghost (K : Dev nD × CellIx → ℕ) (c : Dev nD) : sProp 𝕄 :=
  iprop(records V K ∗ positions c ∗ barToks c ∗ payToks c Finset.univ)

def creds (c : Dev nD) : sProp 𝕄 :=
  iprop(cred (tallyAt (barCell c) () 3) ∗ bigSep (Finset.univ : Finset Cp) fun k => cred (tallyAt (recvCell c k) () NN))

def start (c : Dev nD) : sProp 𝕄 := iprop((∃ K, ghost V K c) ∗ creds c ∗ levAts L lv)

end Ghost

end Cert.KernelIdeal.Hand

end
-- ==== Proof.Vals.lean ====
import proofs.«900886_g7700000000000887_dist_matmul_k_i_m1536_n1536_k768_v7x_i8_bf16_1_alg».proof.Proof.Ghost
import proofs.«900886_g7700000000000887_dist_matmul_k_i_m1536_n1536_k768_v7x_i8_bf16_1_alg».proof.Proof.Gen.KernelIdeal.Skeleton
import Idealize.ShloMosaic.Lib.ValueIdx

noncomputable section

namespace Cert.KernelIdeal.Hand

open Cert.KernelIdeal Cert.KernelIdeal.Gen
open Idealize.ShloMosaic
open Idealize.ShloMosaic.TcCoe
open Idealize.SL Idealize.SL.Sem

theorem pos_lt : ∀ (j : Fin 3) (i : Fin 4) (c : Dev nD), pos j.val i.val c < 4 := by decide

def posF (j : Fin 3) (i : Fin 4) (c : Dev nD) : Fin 4 := ⟨pos j.val i.val c, pos_lt j i c⟩

theorem rowS_inb : ∀ (j : Fin 3) (i : Fin 4) (c : Dev nD) a,
    (![rowS0 j.val c + pos j.val i.val c * 64, 0] : Fin 2 → Nat) a + S64x768.size a ≤ S1536x768.size a := by decide
theorem rowK_inb : ∀ (j : Fin 3) (c : Dev nD) a,
    (![rowK0 j.val c, 0] : Fin 2 → Nat) a + S256x768.size a ≤ S1536x768.size a := by decide

section Vals

variable {F : FTy → Type} [FloatOps F]
variable (m : (ℓ : Loc nD τ sig) → Buf (Elt F) ℓ)

def aBlk (c : Dev nD) : (cc0_stg0_0 : Ref sig .tc).ty.Contents (Elt F) :=
  (win0_0.blk (0 : Fin 1)).view.read (Elt F) (m ((c : Thread nD τ).loc main_arg0))
def bBlk (c : Dev nD) : (cc0_stg1_0 : Ref sig .tc).ty.Contents (Elt F) :=
  (win0_1.blk (0 : Fin 1)).view.read (Elt F) (m ((c : Thread nD τ).loc main_arg1))

def bbfV (c : Dev nD) : FVec F S768x1536 .bf16 := k0_pay1 (bBlk m c)

def aRows (c : Dev nD) (o : Fin 2 → Nat) (h : ∀ a, o a + S64x768.size a ≤ S1536x768.size a) : Vec F S64x768 .f32 :=
  aM.view.readAt (Elt F) (Rect.unit (s := S1536x768) o S64x768.size h).toLoadRect (aBlk m c)
def aRows256 (c : Dev nD) (o : Fin 2 → Nat) (h : ∀ a, o a + S256x768.size a ≤ S1536x768.size a) : Vec F S256x768 .f32 :=
  aM.view.readAt (Elt F) (Rect.unit (s := S1536x768) o S256x768.size h).toLoadRect (aBlk m c)

def prod0 (c : Dev nD) (i : Fin 4) (j : Fin 3) : FVec F S1x64x1536 .bf16 :=
  k0_pay2 (aRows m c ![rowS0 j.val c + pos j.val i.val c * 64, 0] (rowS_inb j i c)) (bbfV m c)

def kaccV (c : Dev nD) (j : Fin 3) : FVec F S1x256x1536 .f32 :=
  k0_pay16 (aRows256 m c ![rowK0 j.val c, 0] (rowK_inb j c)) (bbfV m c)

def kslice (c : Dev nD) (j : Fin 3) (p : Fin 4) : Vec F S1x64x1536 .f32 :=
  fun i => kaccV m c j (ValueIdx.ix3 (0 : Fin 1) (⟨p.val * 64 + (i 1).val, by have h1 : (i 1).val < 64 := (i 1).isLt; have h2 := p.isLt; show _ < 256; omega⟩ : Fin 256) (i 2))

abbrev sq (v : Vec F S1x64x1536 .bf16) : S64x1536.Idx → Elt F .bf16 := shapeCast S64x1536 v shapeCasts_S1x64x1536_S64x1536
abbrev unsq (x : S64x1536.Idx → Elt F .bf16) : Vec F S1x64x1536 .bf16 := shapeCast S1x64x1536 x shapeCasts_S64x1536_S1x64x1536

def V0 (c : Dev nD) (i : Fin 4) (j : Fin 3) : S64x1536.Idx → Elt F .bf16 := sq (prod0 m c i j)
def V1 (c : Dev nD) (h : Fin 2) (j : Fin 3) : S64x1536.Idx → Elt F .bf16 :=
  sq (k0_pay19 (kslice m c j (posF j ⟨h.val, by omega⟩ c)) (unsq (V0 m (pt j.val 0 c) ⟨h.val, by omega⟩ j)))
def V2 (c : Dev nD) (j : Fin 3) : S64x1536.Idx → Elt F .bf16 :=
  sq (k0_pay26 (kslice m c j (posF j 2 c)) (unsq (V0 m (pt j.val 0 c) 2 j)) (unsq (V1 m (pt j.val 1 c) 0 j)))

def fin (c : Dev nD) (j : Fin 3) : FVec F S64x1536 .bf16 :=
  k0_pay32 (kslice m c j (posF j 3 c)) (unsq (V0 m (pt j.val 0 c) 3 j)) (unsq (V1 m (pt j.val 1 c) 1 j)) (unsq (V2 m (pt j.val 2 c) j))

def VA (c : Dev nD) (s : Fin 7) (j : Fin 3) : S64x1536.Idx → Elt F .bf16 :=
  if s.val = 0 ∨ s.val = 1 ∨ s.val = 3 then fin m c j
  else if s.val = 2 ∨ s.val = 4 then fin m (pt j.val 2 c) j
  else if s.val = 5 then fin m (pt j.val 1 c) j
  else fin m (pt j.val 2 (pt j.val 1 c)) j

def V (c : Dev nD) : Cp → (S64x1536.Idx → Elt F .bf16)
  | .rs0 i j => V0 m c i j
  | .rs1 h j => V1 m c h j
  | .rs2 j => V2 m c j
  | .ag s j => VA m c s j

def ownerOf (r : Nat) : Dev nD :=
  ((List.finRange 8).find? fun d : Dev nD => rowK2 (r / 512) d = r / 64 * 64).getD 0

def outFin : S1536x1536.Idx → Elt F .bf16 := fun i =>
  fin m (ownerOf (i 0).val) ⟨(i 0).val / 512, by have := (i 0).isLt; change (i 0).val < 1536 at this; omega⟩
    (ValueIdx.ix2 (⟨(i 0).val % 64, Nat.mod_lt _ (by decide)⟩ : Fin 64) (i 1))

end Vals

end Cert.KernelIdeal.Hand

end
-- ==== Proof.State.lean ====
import proofs.«900886_g7700000000000887_dist_matmul_k_i_m1536_n1536_k768_v7x_i8_bf16_1_alg».proof.Proof.Vals

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

section State

variable {F : FTy → Type} [FloatOps F]
variable (m : (ℓ : Loc nD τ sig) → Buf (Elt F) ℓ)

local notation "𝕄" => MT nD τ sig Unit (Elt F) ℕ UU ℕ

def rawPiece (c : Dev nD) (k : Cp) : sProp 𝕄 :=
  iprop(∃ X : S64x1536.Idx → Elt F .bf16, owns (c : Thread nD τ) (srcM k c) fullShare X)

def dstPiece (c : Dev nD) (k : Cp) : sProp 𝕄 :=
  iprop(∃ X : S64x1536.Idx → Elt F .bf16, owns ((k.peer c : Dev nD) : Thread nD τ) (dstM k c) fullShare X)

abbrev slabM (j : Fin 3) : Memref sig .tc .vmem S1x256x1536 .f32 :=
  kaccM.slice (Rect.unit (s := S3x256x1536) ![j.val, 0, 0] S1x256x1536.size (by revert j; decide)) (fun _ => rfl)

def posAt (c : Dev nD) (SW RW : Finset Cp) : sProp 𝕄 :=
  iprop((bigSep (Finset.univ \ SW) fun k => atPos ER (sendCell c k) 0 ∅ 0) ∗ (bigSep SW fun k => semVal (sendCell c k) 0)
    ∗ (bigSep (Finset.univ \ RW) fun k => atPos ER (recvCell c k) 0 ∅ 0) ∗ (bigSep RW fun k => semVal (recvCell c k) 0))

def credAt (c : Dev nD) (t : Nat) (SW RW : Finset Cp) : sProp 𝕄 :=
  iprop((bigSep ((Finset.univ \ rest t) \ SW) fun k => cred (tallyAt (sendCell c k) () NN))
    ∗ (bigSep (Finset.univ \ RW) fun k => cred (tallyAt (recvCell c k) () NN)))

def locals (c : Dev nD) (KS : Finset (Fin 3)) : sProp 𝕄 :=
  iprop(owns (c : Thread nD τ) aM fullShare (aBlk m c) ∗ owns (c : Thread nD τ) bM fullShare (bBlk m c)
    ∗ owns (c : Thread nD τ) bbfM fullShare (bbfV m c)
    ∗ (bigSep KS fun j => owns (c : Thread nD τ) (slabM j) fullShare (kaccV m c j))
    ∗ (bigSep (Finset.univ \ KS) fun j => iprop(∃ X, owns (c : Thread nD τ) (slabM j) fullShare X)))

def St (K : Dev nD × CellIx → ℕ) (c : Dev nD) (t : Nat) (Raw Src Dst SW RW : Finset Cp) (KS : Finset (Fin 3)) : sProp 𝕄 :=
  iprop(records (V m) K ∗ levAts L lv ∗ posAt c SW RW ∗ credAt c t SW RW ∗ payToks c (rest t)
    ∗ (∃ W, owes (c : Thread nD τ) (owedAt c t) W)
    ∗ (bigSep (rest t) (dstPiece c)) ∗ (bigSep Raw (rawPiece c)) ∗ (bigSep Src (sendPay (V m) c)) ∗ (bigSep Dst (recvPay (V m) c))
    ∗ locals m c KS)

def isRaw0 : Cp → Bool
  | .ag s _ => s.val == 0
  | _ => true
def raw0 : Finset Cp := Finset.univ.filter fun k => isRaw0 k = true

end State

end Cert.KernelIdeal.Hand

end
-- ==== Proof.ProgState.lean ====
import proofs.«900886_g7700000000000887_dist_matmul_k_i_m1536_n1536_k768_v7x_i8_bf16_1_alg».proof.Proof.ProgTab
import proofs.«900886_g7700000000000887_dist_matmul_k_i_m1536_n1536_k768_v7x_i8_bf16_1_alg».proof.Proof.State

noncomputable section

namespace Cert.KernelIdeal.Hand

open Cert.KernelIdeal Cert.KernelIdeal.Gen
open Idealize.ShloMosaic
open Idealize.SL Idealize.SL.BI

/-- A part of the body applied to the device's eleven buffers, each whole, and its four arrays of copy semaphores. -/
abbrev onBufs {β : Sort _}
    (f : (a0 : Memref sig .tc .vmem S1536x768 .f32) → a0.IsWhole → (a1 : Memref sig .tc .vmem S768x1536 .f32) → a1.IsWhole →
      (a2 : Memref sig .tc .vmem S1536x1536 .bf16) → a2.IsWhole → (a3 : Memref sig .tc .vmem S768x1536 .bf16) → a3.IsWhole →
      (a4 : Memref sig .tc .vmem S3x256x1536 .f32) → a4.IsWhole → (a5 : Memref sig .tc .vmem S3x256x1536 .bf16) → a5.IsWhole →
      (a6 : Memref sig .tc .vmem S3x256x1536 .bf16) → a6.IsWhole → (a7 : Memref sig .tc .vmem S3x128x1536 .bf16) → a7.IsWhole →
      (a8 : Memref sig .tc .vmem S3x128x1536 .bf16) → a8.IsWhole → (a9 : Memref sig .tc .vmem S3x64x1536 .bf16) → a9.IsWhole →
      (a10 : Memref sig .tc .vmem S3x64x1536 .bf16) → a10.IsWhole →
      DmaSems sig S7x3 → DmaSems sig S7x3 → DmaSems sig S7x3 → DmaSems sig S7x3 → β) : β :=
  f (Memref.whole cc0_stg0_0) (Memref.isWhole_whole _) (Memref.whole cc0_stg1_0) (Memref.isWhole_whole _)
    (Memref.whole cc0_stg2_0) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) (Memref.whole cc0_scratch4) (Memref.isWhole_whole _)
    (Memref.whole cc0_scratch5) (Memref.isWhole_whole _) (Memref.whole cc0_scratch6) (Memref.isWhole_whole _)
    (Memref.whole cc0_scratch7) (Memref.isWhole_whole _) cc0_scratch8 cc0_scratch9 cc0_scratch10 cc0_scratch11

def isFwd : Cp → Bool
  | .ag s _ => s.val == 0 || s.val == 1 || s.val == 2
  | _ => false

def tAt (n : Nat) : Nat := (Finset.univ.filter fun k : Cp => evIssue k < n).card

def rawAt (n : Nat) : Finset Cp := raw0.filter fun k => n ≤ evSrc k

def srcAt (n : Nat) : Finset Cp := Finset.univ.filter fun k => evSrc k < n ∧ ¬ (evIssue k < n ∧ n ≤ evSW k)

def dstAt (n : Nat) : Finset Cp := Finset.univ.filter fun k => evRW k < n ∧ isFwd k = false

def swAt (n : Nat) : Finset Cp := Finset.univ.filter fun k => evSW k < n
def rwAt (n : Nat) : Finset Cp := Finset.univ.filter fun k => evRW k < n

def ksAt (n : Nat) : Finset (Fin 3) := Finset.univ.filter fun j => evSlab j < n

section

variable {F : FTy → Type} [FloatOps F]
variable (m : (ℓ : Loc nD τ sig) → Buf (Elt F) ℓ)

def StAt (K : Dev nD × CellIx → ℕ) (c : Dev nD) (n : Nat) : sProp (MT nD τ sig Unit (Elt F) ℕ UU ℕ) :=
  St m K c (tAt n) (rawAt n) (srcAt n) (dstAt n) (swAt n) (rwAt n) (ksAt n)

end

end Cert.KernelIdeal.Hand

end
-- ==== Proof.Dats.lean ====
import proofs.«900886_g7700000000000887_dist_matmul_k_i_m1536_n1536_k768_v7x_i8_bf16_1_alg».proof.Proof.State
import proofs.«900886_g7700000000000887_dist_matmul_k_i_m1536_n1536_k768_v7x_i8_bf16_1_alg».proof.Proof.Gen.KernelIdeal.Launch
import proofs.«900886_g7700000000000887_dist_matmul_k_i_m1536_n1536_k768_v7x_i8_bf16_1_alg».proof.Proof.Gen.KernelIdeal.Points

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Dats

variable {F : FTy → Type} [FloatOps F]
variable (m : (ℓ : Loc nD τ sig) → Buf (Elt F) ℓ) (ρ : Dev nD → PrngReg)

local notation "𝕄" => MT nD τ sig Unit (Elt F) ℕ UU ℕ

def s₀ : MemSt nD τ sig (Elt F) := ⟨m, fun _ => 0, ρ⟩

def scratchAny (c : Dev nD) : sProp 𝕄 :=
  iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f))

def Φ₀ (c : Dev nD) : sProp 𝕄 := iprop(start (V m) c ∗ scratchAny c)

def Φ₁ (c : Dev nD) : sProp 𝕄 :=
  iprop(scratchAny c ∗ bigSep (Finset.univ : Finset Cp) fun k => iprop(semVal (sendCell c k) 0 ∗ semVal (recvCell c k) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => aBlk m c
    | ⟨1, _⟩ => bBlk m c
    | ⟨2, _⟩ => outFin m
    | ⟨_ + 3, h⟩ => absurd h (Nat.not_lt.2 (Nat.le_add_left _ _))
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Dats

end Cert.KernelIdeal.Hand

end
-- ==== Proof.SchedTab.lean ====
import proofs.«900886_g7700000000000887_dist_matmul_k_i_m1536_n1536_k768_v7x_i8_bf16_1_alg».proof.Proof.Ghost

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

section Tab

variable {F : FTy → Type} [FloatOps F]

local notation "𝕄" => MT nD τ sig Unit (Elt F) ℕ UU ℕ

variable (V : Dev nD → Cp → (S64x1536.Idx → Elt F .bf16))

instance Rd_payload_storable (g : GSem nD τ sig) (r : ℕ) (d : Fin 3) :
    BI.Storable (upEmb : UEmb _ 𝕄) ((Rd V).payload g r d) := by
  show BI.Storable upEmb (match g.2 with
    | .reg _ => barPay g.1.1 d
    | .dma q => match cpOf q with
      | some (false, k) => sendPay V g.1.1 k
      | some (true, k) => recvPay V g.1.1 k
      | none => iprop(emp))
  unfold barPay sendPay recvPay
  (repeat' split) <;> infer_instance

section Sched
variable (c : Dev nD) (k : Cp)

theorem duties_bar : (Rd V).duties (barCell c) 0 = Finset.univ := by
  dsimp only [Rd]; rw [if_pos ⟨rfl, rfl⟩]; exact if_pos rfl
theorem duties_send : (Rd V).duties (sendCell c k) 0 = {0} := by
  dsimp only [Rd]; rw [if_pos ⟨rfl, rfl⟩, cpOf_send]; rfl
theorem duties_recv : (Rd V).duties (recvCell c k) 0 = {0} := by
  dsimp only [Rd]; rw [if_pos ⟨rfl, rfl⟩, cpOf_recv]; rfl
theorem duties_later (g : GSem nD τ sig) : ∀ r, 1 ≤ r → (Rd V).duties g r = ∅ :=
  fun r hr => by dsimp only [Rd]; rw [if_neg fun h => by have := h.1; omega]

theorem amount_bar (d : Fin 3) : (Rd V).amount (barCell c) 0 d = 1 := rfl
theorem amount_send (d : Fin 3) : (Rd V).amount (sendCell c k) 0 d = NN := rfl
theorem amount_recv (d : Fin 3) : (Rd V).amount (recvCell c k) 0 d = NN := rfl

theorem expect_bar : (Rd V).expect (barCell c) 0 = 3 := by
  unfold Schedule.expect Schedule.amountOf
  rw [duties_bar, Finset.sum_congr rfl fun d _ => amount_bar V c d, Finset.sum_const, Finset.card_univ, Fintype.card_fin, smul_eq_mul]
theorem expect_send : (Rd V).expect (sendCell c k) 0 = NN := by
  unfold Schedule.expect Schedule.amountOf; rw [duties_send, Finset.sum_singleton, amount_send]
theorem expect_recv : (Rd V).expect (recvCell c k) 0 = NN := by
  unfold Schedule.expect Schedule.amountOf; rw [duties_recv, Finset.sum_singleton, amount_recv]

theorem payload_bar (a : Fin 3) : (Rd V).payload (barCell c) 0 a = barPay c a := rfl
theorem payload_send (d : Fin 3) : (Rd V).payload (sendCell c k) 0 d = sendPay V c k := by
  dsimp only [Rd]; rw [cpOf_send]
theorem payload_recv (d : Fin 3) : (Rd V).payload (recvCell c k) 0 d = recvPay V c k := by
  dsimp only [Rd]; rw [cpOf_recv]

theorem rest_bar : bigSep ((Rd V).duties (barCell c) 0 \ ∅) (fun d => (Rd V).payload (barCell c) 0 d)
    = iprop(barPay (F := F) c 0 ∗ barPay c 1 ∗ barPay c 2) := by
  rw [Finset.sdiff_empty, duties_bar, bigSep_univ_eq_bigSepL [0, 1, 2] (by decide) (by decide), bigSepL_cons_cons, bigSepL_cons_cons,
    bigSepL_singleton, payload_bar, payload_bar, payload_bar]
  rfl
theorem rest_send : bigSep ((Rd V).duties (sendCell c k) 0 \ ∅) (fun d => (Rd V).payload (sendCell c k) 0 d) = sendPay V c k := by
  rw [Finset.sdiff_empty, duties_send, bigSep_singleton, payload_send]
theorem rest_recv : bigSep ((Rd V).duties (recvCell c k) 0 \ ∅) (fun d => (Rd V).payload (recvCell c k) 0 d) = recvPay V c k := by
  rw [Finset.sdiff_empty, duties_recv, bigSep_singleton, payload_recv]

theorem not_unitless (g : GSem nD τ sig) : ¬ (Rd V).unitless g := fun h => h

theorem credit_dst (q : DmaSem sig) : (dstM k c).view.amount (.dma q) = NN := by
  cases k <;> rfl

end Sched

section Levels
variable (c : Dev nD) (k : Cp)

theorem L_of_ne (g : GSem nD τ sig) (h : g.1.2 ≠ .tc) : L g = ∅ := if_neg h
theorem L_tc (sm : SemLoc sig) : L ((c : Thread nD τ), sm) = {()} := if_pos rfl

theorem sendSem_ge : ∀ k : Cp, 3 ≤ k.sendSem.val := by decide
theorem recvSem_ge : ∀ k : Cp, 3 ≤ k.recvSem.val := by decide
theorem cpOf_stage (q : DmaSem sig) (hq : q.val < 3) : cpOf q = none := by
  have h0 : ¬ ∃ k : Cp, k.sendSem = q := fun ⟨k, h⟩ => by have := sendSem_ge k; rw [h] at this; omega
  have h1 : ¬ ∃ k : Cp, k.recvSem = q := fun ⟨k, h⟩ => by have := recvSem_ge k; rw [h] at this; omega
  unfold cpOf; rw [dif_neg h0, dif_neg h1]

theorem lv_bar : lv (barCell c) () = 1 := rfl
theorem lv_send : lv (sendCell c k) () = 0 := by dsimp only [lv]; rw [cpOf_send]
theorem lv_recv : lv (recvCell c k) () = k.ord + 2 := by dsimp only [lv]; rw [cpOf_recv]
theorem lv_stage (q : DmaSem sig) (hq : q.val < 3) : lv ((c : Thread nD τ), .dma q) () = 0 := by
  dsimp only [lv]; rw [cpOf_stage q hq]

theorem owedAt_pos {c : Dev nD} {t : ℕ} {g : GSem nD τ sig} {u : Unit} (h : 0 < owedAt c t g u) :
    ∃ k : Cp, t ≤ k.ord ∧ g = recvCell (k.peer c) k := by
  obtain ⟨k, hk, hp⟩ := Pipeline.sum_pos_exists h
  exact ⟨k, (Finset.mem_filter.mp hk).2, (Pipeline.tallyAt_pos hp).1⟩

theorem O₀_pos {c : Dev nD} {g : GSem nD τ sig} {u : Unit} (h : 0 < O₀ c g u) :
    (∃ k : Cp, g = recvCell (k.peer c) k) ∨ ∃ a : Fin 3, g = barCell (part a.val c) := by
  rcases Pipeline.add_pos_cases h with h | h
  · obtain ⟨k, -, hp⟩ := Pipeline.sum_pos_exists h
    exact .inl ⟨k, (Pipeline.tallyAt_pos hp).1⟩
  · obtain ⟨a, -, hp⟩ := Pipeline.sum_pos_exists h
    exact .inr ⟨a, (Pipeline.tallyAt_pos hp).1⟩

theorem mayWait_stage (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g u hg => ?_
    rw [lv_stage c q hq]
    rcases O₀_pos hg with ⟨k, rfl⟩ | ⟨a, rfl⟩
    · exact ⟨by rw [L_tc]; exact Finset.mem_singleton_self _, by rw [lv_recv]; omega⟩
    · exact ⟨by rw [L_tc]; exact Finset.mem_singleton_self _, by rw [lv_bar]; omega⟩
  · rw [MayWait_zero]; iintro -; iempintro

theorem mayWait_bar : (levAts L lv : sProp 𝕄) ⊢ MayWait (c : Thread nD τ) (.reg barS) () (owedAt c 0) := by
  refine Pipeline.mayWait_of_levAts (by rw [L_tc]; exact Finset.mem_singleton_self _) fun g u hg => ?_
  obtain ⟨k', -, rfl⟩ := owedAt_pos hg
  exact ⟨by rw [L_tc]; exact Finset.mem_singleton_self _, by rw [lv_recv]; show 1 < _; omega⟩

theorem mayWait_send (t : ℕ) : (levAts L lv : sProp 𝕄) ⊢ MayWait (c : Thread nD τ) (.dma k.sendSem) () (owedAt c t) := by
  refine Pipeline.mayWait_of_levAts (by rw [L_tc]; exact Finset.mem_singleton_self _) fun g u hg => ?_
  obtain ⟨k', -, rfl⟩ := owedAt_pos hg
  exact ⟨by rw [L_tc]; exact Finset.mem_singleton_self _, by rw [lv_recv, lv_send]; omega⟩

theorem mayWait_recv (t : ℕ) (h : k.ord < t) : (levAts L lv : sProp 𝕄) ⊢ MayWait (c : Thread nD τ) (.dma k.recvSem) () (owedAt c t) := by
  refine Pipeline.mayWait_of_levAts (by rw [L_tc]; exact Finset.mem_singleton_self _) fun g u hg => ?_
  obtain ⟨k', hk', rfl⟩ := owedAt_pos hg
  exact ⟨by rw [L_tc]; exact Finset.mem_singleton_self _, by rw [lv_recv, lv_recv]; omega⟩

end Levels

section Peel
variable (c : Dev nD)

def O₁ (c : Dev nD) : CellTallies nD τ sig Unit := owedAt c 0 + tallyAt (barCell (part 2 c)) () 1 + tallyAt (barCell (part 1 c)) () 1

def O₂ (c : Dev nD) : CellTallies nD τ sig Unit := owedAt c 0 + tallyAt (barCell (part 2 c)) () 1

theorem rest_zero : rest 0 = Finset.univ := Finset.filter_true_of_mem fun k _ => Nat.zero_le _

theorem O₀_peel0 : O₀ c = O₁ c + tallyAt (barCell (part 0 c)) () 1 := by
  unfold O₀ O₁ owedAt
  rw [rest_zero, Fin.sum_univ_three]
  show _ + (tallyAt (barCell (part 0 c)) () 1 + tallyAt (barCell (part 1 c)) () 1 + tallyAt (barCell (part 2 c)) () 1) = _
  rw [add_comm (tallyAt (barCell (part 0 c)) () 1 + tallyAt (barCell (part 1 c)) () 1), add_comm (tallyAt (barCell (part 0 c)) () 1), ← add_assoc, ← add_assoc]

theorem O₀_peel1 : O₁ c = O₂ c + tallyAt (barCell (part 1 c)) () 1 := rfl

theorem O₀_peel2 : O₂ c = owedAt c 0 + tallyAt (barCell (part 2 c)) () 1 := rfl

theorem rest_succ (t : ℕ) (k : Cp) (hk : k.ord = t) : rest t = insert k (rest (t + 1)) := by
  ext k'
  rw [Finset.mem_insert, rest, rest, Finset.mem_filter, Finset.mem_filter]
  constructor
  · rintro ⟨-, h⟩
    by_cases he : k'.ord = t
    · exact .inl (ord_injective (he.trans hk.symm))
    · exact .inr ⟨Finset.mem_univ _, by omega⟩
  · rintro (rfl | ⟨-, h⟩)
    · exact ⟨Finset.mem_univ _, by omega⟩
    · exact ⟨Finset.mem_univ _, by omega⟩

theorem owedAt_peel (t : ℕ) (k : Cp) (hk : k.ord = t) :
    owedAt c t = owedAt c (t + 1) + tallyAt (recvCell (k.peer c) k) () NN := by
  unfold owedAt
  rw [rest_succ t k hk, Finset.sum_insert (fun h => by have := (Finset.mem_filter.mp h).2; omega), add_comm]

theorem owedAt_done : owedAt c 42 = 0 := by
  unfold owedAt
  rw [show rest 42 = ∅ from Finset.filter_eq_empty_iff.mpr fun k _ h => by have := ord_lt k; omega, Finset.sum_empty]

end Peel

end Tab

end Cert.KernelIdeal.Hand

end
-- ==== Proof.StepsNet.lean ====
import proofs.«900886_g7700000000000887_dist_matmul_k_i_m1536_n1536_k768_v7x_i8_bf16_1_alg».proof.Proof.Dats
import proofs.«900886_g7700000000000887_dist_matmul_k_i_m1536_n1536_k768_v7x_i8_bf16_1_alg».proof.Proof.SchedTab
import Idealize.ShloMosaic.Rules.Step
import Idealize.ShloMosaic.Rules.Footprints

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

namespace Net

theorem mem_rest {t : ℕ} {k : Cp} : k ∈ rest t ↔ t ≤ k.ord := by
  unfold rest; rw [Finset.mem_filter]; exact ⟨fun h => h.2, fun h => ⟨Finset.mem_univ _, h⟩⟩

theorem issued_succ (t : ℕ) (k : Cp) (hk : k.ord = t) (SW : Finset Cp) (hsw : k ∉ SW) :
    (Finset.univ \ rest (t + 1)) \ SW = insert k ((Finset.univ \ rest t) \ SW) := by
  ext k'
  simp only [Finset.mem_sdiff, Finset.mem_univ, true_and, Finset.mem_insert, mem_rest]
  constructor
  · rintro ⟨h1, h2⟩
    by_cases he : k' = k
    · exact .inl he
    · have : k'.ord ≠ k.ord := fun h' => he (ord_injective h')
      exact .inr ⟨by omega, h2⟩
  · rintro (rfl | ⟨h1, h2⟩)
    · exact ⟨by omega, hsw⟩
    · exact ⟨by omega, h2⟩

theorem issued_mem (t : ℕ) (k : Cp) (hk : k.ord < t) (SW : Finset Cp) (hsw : k ∉ SW) : k ∈ (Finset.univ \ rest t) \ SW := by
  simp only [Finset.mem_sdiff, Finset.mem_univ, true_and, mem_rest]; exact ⟨by omega, hsw⟩

theorem sdiff_insert_erase {α : Type} [DecidableEq α] (A S : Finset α) (k : α) : A \ insert k S = (A \ S).erase k := by
  ext x; simp only [Finset.mem_sdiff, Finset.mem_insert, Finset.mem_erase]; tauto

end Net

section Spell

theorem srcM_rs0 (i : Fin 4) (j : Fin 3) (c : Dev nD) (o : Fin 3 → Nat) (ho : o = o0 i j c)
    (h : ∀ a, o a + S1x64x1536.size a ≤ S3x256x1536.size a) :
    (sb0M.slice (Rect.unit (s := S3x256x1536) o S1x64x1536.size h) (fun _ => rfl)).squeeze S64x1536 squeezes_S1x64x1536_S64x1536
      = srcM (.rs0 i j) c := by subst ho; rfl
theorem dstM_rs0 (i : Fin 4) (j : Fin 3) (c : Dev nD) (o : Fin 3 → Nat) (ho : o = o0 i j c)
    (h : ∀ a, o a + S1x64x1536.size a ≤ S3x256x1536.size a) :
    (rb0M.slice (Rect.unit (s := S3x256x1536) o S1x64x1536.size h) (fun _ => rfl)).squeeze S64x1536 squeezes_S1x64x1536_S64x1536
      = dstM (.rs0 i j) c := by subst ho; rfl
theorem srcM_rs1 (h' : Fin 2) (j : Fin 3) (c : Dev nD) (o : Fin 3 → Nat) (ho : o = o1 h' j c)
    (h : ∀ a, o a + S1x64x1536.size a ≤ S3x128x1536.size a) :
    (sb1M.slice (Rect.unit (s := S3x128x1536) o S1x64x1536.size h) (fun _ => rfl)).squeeze S64x1536 squeezes_S1x64x1536_S64x1536
      = srcM (.rs1 h' j) c := by subst ho; rfl
theorem dstM_rs1 (h' : Fin 2) (j : Fin 3) (c : Dev nD) (o : Fin 3 → Nat) (ho : o = o1 h' j c)
    (h : ∀ a, o a + S1x64x1536.size a ≤ S3x128x1536.size a) :
    (rb1M.slice (Rect.unit (s := S3x128x1536) o S1x64x1536.size h) (fun _ => rfl)).squeeze S64x1536 squeezes_S1x64x1536_S64x1536
      = dstM (.rs1 h' j) c := by subst ho; rfl
theorem srcM_ag (s : Fin 7) (j : Fin 3) (c : Dev nD) (o : Fin 2 → Nat) (ho : o = oA s j c)
    (h : ∀ a, o a + S64x1536.size a ≤ S1536x1536.size a) :
    outM.slice (Rect.unit (s := S1536x1536) o S64x1536.size h) (fun _ => rfl) = srcM (.ag s j) c := by subst ho; rfl
theorem dstM_ag (s : Fin 7) (j : Fin 3) (c : Dev nD) (o : Fin 2 → Nat) (ho : o = oA s j c)
    (h : ∀ a, o a + S64x1536.size a ≤ S1536x1536.size a) :
    outM.slice (Rect.unit (s := S1536x1536) o S64x1536.size h) (fun _ => rfl) = dstM (.ag s j) c := by subst ho; rfl

end Spell

section NetSec

variable {F : FTy → Type} [FloatOps F]

local notation "𝕄" => MT nD τ sig Unit (Elt F) ℕ UU ℕ

namespace Net

omit [FloatOps F] in

theorem bigSep_insert_intro {I : Type} [DecidableEq I] (S : Finset I) (i : I) (Φ : I → sProp 𝕄) :
    iprop(Φ i ∗ bigSep S Φ) ⊢ bigSep (insert i S) Φ := by
  have h := bigSep_sep_union {i} S (Φ := Φ)
  rwa [bigSep_singleton, ← Finset.insert_eq] at h

omit [FloatOps F] in

theorem bigSep_insert' {I : Type} [DecidableEq I] {S : Finset I} {i : I} (hi : i ∉ S) {Φ : I → sProp 𝕄} :
    bigSep (insert i S) Φ = iprop(Φ i ∗ bigSep S Φ) := bigSep_insert hi
omit [FloatOps F] in
theorem bigSep_erase' {I : Type} [DecidableEq I] {S : Finset I} {i : I} (hi : i ∈ S) {Φ : I → sProp 𝕄} :
    bigSep S Φ = iprop(Φ i ∗ bigSep (S.erase i) Φ) := bigSep_erase hi

section Records

variable (V : Dev nD → Cp → (S64x1536.Idx → Elt F .bf16))

instance records_persistent (K : Dev nD × CellIx → ℕ) : BI.Persistent (records V K) := by unfold records; infer_instance

omit [FloatOps F] in
theorem invs_elim (K : Dev nD × CellIx → ℕ) (cx : Dev nD × CellIx) :
    (bigSep Finset.univ fun cx : Dev nD × CellIx => (cellInv ER (Rd V) (K cx) (kcell cx) : sProp 𝕄)) ⊢ cellInv ER (Rd V) (K cx) (kcell cx) :=
  bigSep_elim (Finset.mem_univ cx)
omit [FloatOps F] in
theorem reacheds_elim (cx : Dev nD × CellIx) :
    (bigSep Finset.univ fun cx : Dev nD × CellIx => (reached ER (kcell cx) 0 : sProp 𝕄)) ⊢ reached ER (kcell cx) 0 :=
  bigSep_elim (Finset.mem_univ cx)

theorem inv_at (K : Dev nD × CellIx → ℕ) (cx : Dev nD × CellIx) :
    (records V K : sProp 𝕄) ⊢ cellInv ER (Rd V) (K cx) (kcell cx) := by
  unfold records
  iintro ⟨H, -⟩
  iapply (invs_elim V K cx) $$ H
theorem reached_at (K : Dev nD × CellIx → ℕ) (cx : Dev nD × CellIx) :
    (records V K : sProp 𝕄) ⊢ reached ER (kcell cx) 0 := by
  unfold records
  iintro ⟨-, H⟩
  iapply (reacheds_elim (F := F) cx) $$ H

theorem inv_send (K : Dev nD × CellIx → ℕ) (c : Dev nD) (k : Cp) :
    (records V K : sProp 𝕄) ⊢ cellInv ER (Rd V) (K (c, some (false, k))) (sendCell c k) := inv_at V K (c, some (false, k))
theorem inv_recv (K : Dev nD × CellIx → ℕ) (c : Dev nD) (k : Cp) :
    (records V K : sProp 𝕄) ⊢ cellInv ER (Rd V) (K (c, some (true, k))) (recvCell c k) := inv_at V K (c, some (true, k))
theorem reached_send (K : Dev nD × CellIx → ℕ) (c : Dev nD) (k : Cp) :
    (records V K : sProp 𝕄) ⊢ reached ER (sendCell c k) 0 := reached_at V K (c, some (false, k))
theorem reached_recv (K : Dev nD × CellIx → ℕ) (c : Dev nD) (k : Cp) :
    (records V K : sProp 𝕄) ⊢ reached ER (recvCell c k) 0 := reached_at V K (c, some (true, k))

end Records

section Parts

variable (c : Dev nD)

omit [FloatOps F] in

theorem payToks_peel (t : ℕ) (k : Cp) (hk : k.ord = t) :
    (payToks c (rest t) : sProp 𝕄)
      = iprop((dutyTok ER (sendCell c k) 0 (0 : Fin 3) ∗ dutyTok ER (recvCell (k.peer c) k) 0 (0 : Fin 3)) ∗ payToks c (rest (t + 1))) := by
  unfold payToks
  rw [rest_succ t k hk, bigSep_insert' (by rw [mem_rest]; omega)]

theorem dstPiece_peel (t : ℕ) (k : Cp) (hk : k.ord = t) :
    (bigSep (rest t) (dstPiece (F := F) c) : sProp 𝕄) = iprop(dstPiece c k ∗ bigSep (rest (t + 1)) (dstPiece c)) := by
  rw [rest_succ t k hk, bigSep_insert' (by rw [mem_rest]; omega)]

omit [FloatOps F] in

theorem credAt_issue (t : ℕ) (k : Cp) (hk : k.ord = t) (SW RW : Finset Cp) (hsw : k ∉ SW) :
    iprop(cred (tallyAt (sendCell c k) () NN) ∗ credAt c t SW RW) ⊢ (credAt c (t + 1) SW RW : sProp 𝕄) := by
  unfold credAt
  rw [issued_succ t k hk SW hsw,
    bigSep_insert' (fun h => (Finset.mem_sdiff.mp (Finset.mem_sdiff.mp h).1).2 (mem_rest.mpr (le_of_eq hk.symm)))]
  iintro ⟨Hc, Hs, Hr⟩
  isplitl [Hc Hs]
  · isplitl [Hc]; · iexact Hc
    iexact Hs
  · iexact Hr

omit [FloatOps F] in

theorem credAt_send_out (t : ℕ) (k : Cp) (hk : k.ord < t) (SW RW : Finset Cp) (hsw : k ∉ SW) :
    (credAt c t SW RW : sProp 𝕄) ⊢ iprop(cred (tallyAt (sendCell c k) () NN) ∗ credAt c t (insert k SW) RW) := by
  unfold credAt
  rw [sdiff_insert_erase, bigSep_erase' (issued_mem t k hk SW hsw)]
  iintro ⟨⟨Hc, Hs⟩, Hr⟩
  isplitl [Hc]; · iexact Hc
  isplitl [Hs]; · iexact Hs
  iexact Hr

omit [FloatOps F] in

theorem credAt_recv_out (t : ℕ) (k : Cp) (SW RW : Finset Cp) (hrw : k ∉ RW) :
    (credAt c t SW RW : sProp 𝕄) ⊢ iprop(cred (tallyAt (recvCell c k) () NN) ∗ credAt c t SW (insert k RW)) := by
  unfold credAt
  rw [sdiff_insert_erase, bigSep_erase' (Finset.mem_sdiff.mpr ⟨Finset.mem_univ k, hrw⟩)]
  iintro ⟨Hs, Hc, Hr⟩
  isplitl [Hc]; · iexact Hc
  isplitl [Hs]; · iexact Hs
  iexact Hr

omit [FloatOps F] in

theorem posAt_send_out (k : Cp) (SW RW : Finset Cp) (hsw : k ∉ SW) :
    (posAt c SW RW : sProp 𝕄)
      ⊢ iprop(atPos ER (sendCell c k) 0 ∅ 0 ∗ (semVal (sendCell c k) 0 -∗ posAt c (insert k SW) RW)) := by
  unfold posAt
  rw [sdiff_insert_erase, bigSep_erase' (Finset.mem_sdiff.mpr ⟨Finset.mem_univ k, hsw⟩), bigSep_insert' hsw]
  iintro ⟨⟨Hat, Hrest⟩, Hsv, Hr⟩
  isplitl [Hat]; · iexact Hat
  iintro Hz
  isplitl [Hrest]; · iexact Hrest
  isplitl [Hz Hsv]
  · isplitl [Hz]; · iexact Hz
    iexact Hsv
  · iexact Hr

omit [FloatOps F] in

theorem posAt_recv_out (k : Cp) (SW RW : Finset Cp) (hrw : k ∉ RW) :
    (posAt c SW RW : sProp 𝕄)
      ⊢ iprop(atPos ER (recvCell c k) 0 ∅ 0 ∗ (semVal (recvCell c k) 0 -∗ posAt c SW (insert k RW))) := by
  unfold posAt
  rw [sdiff_insert_erase, bigSep_erase' (Finset.mem_sdiff.mpr ⟨Finset.mem_univ k, hrw⟩), bigSep_insert' hrw]
  iintro ⟨Hs, Hsv, ⟨Hat, Hrest⟩, Hrv⟩
  isplitl [Hat]; · iexact Hat
  iintro Hz
  isplitl [Hs]; · iexact Hs
  isplitl [Hsv]; · iexact Hsv
  isplitl [Hrest]; · iexact Hrest
  isplitl [Hz]; · iexact Hz
  iexact Hrv

end Parts

section Pay

variable (m : (ℓ : Loc nD τ sig) → Buf (Elt F) ℓ)

theorem landed_pay (c : Dev nD) (k : Cp) (fs : Buf (Elt F) ((srcM k c).view.loc (c : Thread nD τ)))
    (fd : Buf (Elt F) ((dstM k c).view.loc ((k.peer c : Dev nD) : Thread nD τ))) (hf : (srcM k c).view.read (Elt F) fs = V m c k) :
    (((dstM k c).view.loc ((k.peer c : Dev nD) : Thread nD τ)) ↦[(dstM k c).view.set]{fullShare}
        ((dstM k c).view.write (Elt F) fd ((srcM k c).view.read (Elt F) fs) Finset.univ) : sProp 𝕄)
      ⊢ recvPay (V m) (k.peer c) k := by
  unfold recvPay
  rw [peer_peer, hf]
  have h := owns_intro (Ix := Unit) (Name := ℕ) (U := UU) (Lvl := ℕ) ((k.peer c : Dev nD) : Thread nD τ) (dstM k c) fullShare
    ((dstM k c).view.write (Elt F) fd (V m c k) Finset.univ)
  rwa [View.read_write_univ] at h

theorem lent_pay (c : Dev nD) (k : Cp) (fs : Buf (Elt F) ((srcM k c).view.loc (c : Thread nD τ)))
    (hf : (srcM k c).view.read (Elt F) fs = V m c k) :
    (((srcM k c).view.loc (c : Thread nD τ)) ↦[(srcM k c).view.set]{k.shr} fs : sProp 𝕄) ⊢ sendPay (V m) c k := by
  unfold sendPay
  rw [← hf]
  exact owns_intro (c : Thread nD τ) (srcM k c) k.shr fs

end Pay

end Net

open Net

section Steps

variable (m : (ℓ : Loc nD τ sig) → Buf (Elt F) ℓ)

variable (K : Dev nD × CellIx → ℕ) (c : Dev nD) (t : ℕ) (Raw Src Dst SW RW : Finset Cp) (KS : Finset (Fin 3))

theorem step_issue_at (k : Cp) (n : Dev nD) (hn : n = k.peer c) (hk : k.ord = t) (hs : k ∈ Src) (hsw : k ∉ SW)
    (ms md : Memref sig .tc .vmem S64x1536 .bf16) (hms : ms = srcM k c) (hmd : md = dstM k c)
    (qs qr : DmaSem sig) (hqs : qs = k.sendSem) (hqr : qr = k.recvSem)
    {hsc : (md : Memref sig (Dev.tc n : Thread nD τ).2.kind .vmem S64x1536 .bf16).view.ref.isScScratch = false}
    {hsrc : ms.view.WordExact} {hdst : md.view.WordExact}
    {hsem : DmaTarget.Typed .vmem (.dma qr) (.remote (Dev.tc n : Thread nD τ) md (.dma qs) hsc)}
    {α : Type} {Q : α → sProp 𝕄} {kk : PUnit → Prog (TpuEff nD τ sig (Elt F) Λ₀ .tc) α} :
    St m K c t Raw Src Dst SW RW KS
      ⊢ iprop((St m K c (t + 1) Raw (Src.erase k) Dst SW RW KS
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma ms (.remote (Dev.tc n : Thread nD τ) md (.dma qs) hsc) (.dma qr) hsrc hdst hsem) kk) Q) := by
  subst hn hms hmd hqs hqr
  unfold St
  iintro ⟨#Hrec, #Hlev, Hpos, Hcred, Htok, ⟨%W, HO⟩, Hdp, Hraw, Hsrc, Hdst, Hloc⟩ Hk
  ihave Htok := (Entails.of_eq (payToks_peel (F := F) c t k hk)) $$ Htok
  icases Htok with ⟨⟨HtS, HtR⟩, Htok⟩
  ihave Hdp := (Entails.of_eq (dstPiece_peel (F := F) c t k hk)) $$ Hdp
  icases Hdp with ⟨Hd, Hdp⟩
  ihave Hsrc := (Entails.of_eq (bigSep_erase' hs (Φ := sendPay (V m) c))) $$ Hsrc
  icases Hsrc with ⟨Hs, Hsrc⟩
  unfold sendPay dstPiece
  ihave Hs := (show (owns (c : Thread nD τ) (srcM k c) k.shr (V m c k) : sProp 𝕄)
      ⊢ iprop(∃ f, ⌜(srcM k c).view.read (Elt F) f = V m c k⌝ ∗ ((srcM k c).view.loc (c : Thread nD τ) ↦[(srcM k c).view.set]{k.shr} f)) from .rfl) $$ Hs
  icases Hs with ⟨%fs, %hfs, Hs⟩
  icases Hd with ⟨%X, Hd⟩
  ihave Hd := (show (owns ((k.peer c : Dev nD) : Thread nD τ) (dstM k c) fullShare X : sProp 𝕄)
      ⊢ iprop(∃ f, ⌜(dstM k c).view.read (Elt F) f = X⌝ ∗ ((dstM k c).view.loc ((k.peer c : Dev nD) : Thread nD τ) ↦[(dstM k c).view.set]{fullShare} f)) from .rfl) $$ Hd
  icases Hd with ⟨%fd, -, Hd⟩
  iapply (Rounds.wp_send_pointsTo 𝒱₀ ER (Rd (V m)) (c : Thread nD τ) none (c' := ((k.peer c : Dev nD) : Thread nD τ))
      (src := srcM k c) (dst := dstM k c) (q := k.shr) (fs := fs) (fd := fd)
      (κ₁ := K (c, some (false, k))) (κ₂ := K (k.peer c, some (true, k))) (r₁ := 0) (r₂ := 0) (d₁ := (0 : Fin 3)) (d₂ := (0 : Fin 3))
      (by rw [duties_send]; exact Finset.mem_singleton_self _) (by rw [duties_recv]; exact Finset.mem_singleton_self _)
      () () NN (credit_dst c k k.recvSem) (amount_send (V m) c k 0) (amount_recv (V m) (k.peer c) k 0)
      (owedAt c (t + 1)) (owedAt_peel c t k hk) (W := W)
      (by rw [payload_send]; exact lent_pay m c k fs hfs)
      (by rw [payload_recv]; exact landed_pay m c k fs fd hfs)) $$ [Hs Hd HO HtS HtR]
  · isplitr; · iapply (inv_send (V m) K c k); iexact Hrec
    isplitr; · iapply (inv_recv (V m) K (k.peer c) k); iexact Hrec
    isplitl [Hs]; · iexact Hs
    isplitl [Hd]; · iexact Hd
    isplitl [HO]; · iexact HO
    isplitl [HtS]; · iexact HtS
    isplitr; · iapply (reached_send (V m) K c k); iexact Hrec
    isplitl [HtR]; · iexact HtR
    iapply (reached_recv (V m) K (k.peer c) k); iexact Hrec
  iintro ⟨Hc, HO⟩
  iapply Hk
  isplitr; · iexact Hrec
  isplitr; · iexact Hlev
  isplitl [Hpos]; · iexact Hpos
  isplitl [Hc Hcred]
  · iapply (credAt_issue (F := F) c t k hk SW RW hsw)
    isplitl [Hc]; · iexact Hc
    iexact Hcred
  isplitl [Htok]; · iexact Htok
  isplitl [HO]; · iexists W; iexact HO
  isplitl [Hdp]; · iexact Hdp
  isplitl [Hraw]; · iexact Hraw
  isplitl [Hsrc]; · iexact Hsrc
  isplitl [Hdst]; · iexact Hdst
  iexact Hloc

theorem step_wait_send_at (k : Cp) (ms md : Memref sig .tc .vmem S64x1536 .bf16) (hamt : md.view.dmaCredit = NN)
    (hk : k.ord < t) (hsw : k ∉ SW) (q : DmaSem sig) (hq : q = k.sendSem) {h1 : ms.view.WordExact} {h2 : md.view.WordExact}
    {α : Type} {Q : α → sProp 𝕄} {kk : PUnit → Prog (TpuEff nD τ sig (Elt F) Λ₀ .tc) α} :
    St m K c t Raw Src Dst SW RW KS
      ⊢ iprop((St m K c t Raw (insert k Src) Dst (insert k SW) RW KS
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q ms md h1 h2) kk) Q) := by
  subst hq
  unfold St
  iintro ⟨#Hrec, #Hlev, Hpos, Hcred, Htok, ⟨%W, HO⟩, Hdp, Hraw, Hsrc, Hdst, Hloc⟩ Hk
  ihave Hpos := (posAt_send_out (F := F) c k SW RW hsw) $$ Hpos
  icases Hpos with ⟨Hat, Hpos⟩
  ihave Hcred := (credAt_send_out (F := F) c t k hk SW RW hsw) $$ Hcred
  icases Hcred with ⟨Hc, Hcred⟩
  iapply (Rounds.wp_wait_rest_token 𝒱₀ ER (Rd (V m)) (c : Thread nD τ) none (κ := K (c, some (false, k)))
      (wpE_waitDma2_eq 𝒱₀ (c : Thread nD τ) none Set.univ) (Set.mem_univ _) () (O := owedAt c t) (W := W) (R := 0) (m := 0) (T := ∅)
      (by rw [Nat.zero_add, expect_send, hamt])) $$ [Hc HO Hat]
  · isplitr; · iapply (inv_send (V m) K c k); iexact Hrec
    isplitl [Hc]; · rw [hamt]; iexact Hc
    isplitl [HO]; · iexact HO
    isplitr; · iapply (mayWait_send (F := F) c k t); iexact Hlev
    iexact Hat
  iintro ⟨HO, Hat, -, Hpay⟩
  ihave Hs := (Entails.of_eq (rest_send (V m) c k)) $$ Hpay
  imod (Rounds.cell_close ER (Rd (V m)) (Set.mem_univ (K (c, some (false, k)))) (not_unitless (V m) (sendCell c k)) (R := 0 + 1)
      (duties_later (V m) (sendCell c k))) $$ [Hat] with Hz
  · isplitr; · iapply (inv_send (V m) K c k); iexact Hrec
    iexact Hat
  iapply Hk
  isplitr; · iexact Hrec
  isplitr; · iexact Hlev
  isplitl [Hpos Hz]; · iapply Hpos; iexact Hz
  isplitl [Hcred]; · iexact Hcred
  isplitl [Htok]; · iexact Htok
  isplitl [HO]; · iexists (insert (SemLoc.dma k.sendSem, ()) W); iexact HO
  isplitl [Hdp]; · iexact Hdp
  isplitl [Hraw]; · iexact Hraw
  isplitl [Hsrc Hs]
  · iapply (bigSep_insert_intro (F := F) Src k (sendPay (V m) c))
    isplitl [Hs]; · iexact Hs
    iexact Hsrc
  isplitl [Hdst]; · iexact Hdst
  iexact Hloc

theorem step_wait_recv_at (k : Cp) (ms md : Memref sig .tc .vmem S64x1536 .bf16) (hamt : md.view.dmaCredit = NN)
    (hk : k.ord < t) (hrw : k ∉ RW) (q : DmaSem sig) (hq : q = k.recvSem) {h1 : ms.view.WordExact} {h2 : md.view.WordExact}
    {α : Type} {Q : α → sProp 𝕄} {kk : PUnit → Prog (TpuEff nD τ sig (Elt F) Λ₀ .tc) α} :
    St m K c t Raw Src Dst SW RW KS
      ⊢ iprop((St m K c t Raw Src (insert k Dst) SW (insert k RW) KS
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q ms md h1 h2) kk) Q) := by
  subst hq
  unfold St
  iintro ⟨#Hrec, #Hlev, Hpos, Hcred, Htok, ⟨%W, HO⟩, Hdp, Hraw, Hsrc, Hdst, Hloc⟩ Hk
  ihave Hpos := (posAt_recv_out (F := F) c k SW RW hrw) $$ Hpos
  icases Hpos with ⟨Hat, Hpos⟩
  ihave Hcred := (credAt_recv_out (F := F) c t k SW RW hrw) $$ Hcred
  icases Hcred with ⟨Hc, Hcred⟩
  iapply (Rounds.wp_wait_rest_token 𝒱₀ ER (Rd (V m)) (c : Thread nD τ) none (κ := K (c, some (true, k)))
      (wpE_waitDma2_eq 𝒱₀ (c : Thread nD τ) none Set.univ) (Set.mem_univ _) () (O := owedAt c t) (W := W) (R := 0) (m := 0) (T := ∅)
      (by rw [Nat.zero_add, expect_recv, hamt])) $$ [Hc HO Hat]
  · isplitr; · iapply (inv_recv (V m) K c k); iexact Hrec
    isplitl [Hc]; · rw [hamt]; iexact Hc
    isplitl [HO]; · iexact HO
    isplitr; · iapply (mayWait_recv (F := F) c k t hk); iexact Hlev
    iexact Hat
  iintro ⟨HO, Hat, -, Hpay⟩
  ihave Hd := (Entails.of_eq (rest_recv (V m) c k)) $$ Hpay
  imod (Rounds.cell_close ER (Rd (V m)) (Set.mem_univ (K (c, some (true, k)))) (not_unitless (V m) (recvCell c k)) (R := 0 + 1)
      (duties_later (V m) (recvCell c k))) $$ [Hat] with Hz
  · isplitr; · iapply (inv_recv (V m) K c k); iexact Hrec
    iexact Hat
  iapply Hk
  isplitr; · iexact Hrec
  isplitr; · iexact Hlev
  isplitl [Hpos Hz]; · iapply Hpos; iexact Hz
  isplitl [Hcred]; · iexact Hcred
  isplitl [Htok]; · iexact Htok
  isplitl [HO]; · iexists (insert (SemLoc.dma k.recvSem, ()) W); iexact HO
  isplitl [Hdp]; · iexact Hdp
  isplitl [Hraw]; · iexact Hraw
  isplitl [Hsrc]; · iexact Hsrc
  isplitl [Hdst Hd]
  · iapply (bigSep_insert_intro (F := F) Dst k (recvPay (V m) c))
    isplitl [Hd]; · iexact Hd
    iexact Hdst
  iexact Hloc

theorem step_issue (k : Cp) (n : Dev nD) (hn : n = k.peer c) (hk : k.ord = t) (hs : k ∈ Src) (hsw : k ∉ SW)
    (ms md : Memref sig .tc .vmem S64x1536 .bf16) (hms : ms = srcM k c) (hmd : md = dstM k c)
    {hsc : (md : Memref sig (Dev.tc n : Thread nD τ).2.kind .vmem S64x1536 .bf16).view.ref.isScScratch = false}
    {hsrc : ms.view.WordExact} {hdst : md.view.WordExact}
    {hsem : DmaTarget.Typed .vmem (.dma k.recvSem) (.remote (Dev.tc n : Thread nD τ) md (.dma k.sendSem) hsc)}
    {α : Type} {Q : α → sProp 𝕄} {kk : PUnit → Prog (TpuEff nD τ sig (Elt F) Λ₀ .tc) α} :
    St m K c t Raw Src Dst SW RW KS
      ⊢ iprop((St m K c (t + 1) Raw (Src.erase k) Dst SW RW KS
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma ms (.remote (Dev.tc n : Thread nD τ) md (.dma k.sendSem) hsc) (.dma k.recvSem) hsrc hdst hsem) kk) Q) :=
  step_issue_at m K c t Raw Src Dst SW RW KS k n hn hk hs hsw ms md hms hmd k.sendSem k.recvSem rfl rfl

theorem step_wait_send (k : Cp) (ms md : Memref sig .tc .vmem S64x1536 .bf16) (hamt : md.view.dmaCredit = NN)
    (hk : k.ord < t) (hsw : k ∉ SW) {h1 : ms.view.WordExact} {h2 : md.view.WordExact}
    {α : Type} {Q : α → sProp 𝕄} {kk : PUnit → Prog (TpuEff nD τ sig (Elt F) Λ₀ .tc) α} :
    St m K c t Raw Src Dst SW RW KS
      ⊢ iprop((St m K c t Raw (insert k Src) Dst (insert k SW) RW KS
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 k.sendSem ms md h1 h2) kk) Q) :=
  step_wait_send_at m K c t Raw Src Dst SW RW KS k ms md hamt hk hsw k.sendSem rfl

theorem step_wait_recv (k : Cp) (ms md : Memref sig .tc .vmem S64x1536 .bf16) (hamt : md.view.dmaCredit = NN)
    (hk : k.ord < t) (hrw : k ∉ RW) {h1 : ms.view.WordExact} {h2 : md.view.WordExact}
    {α : Type} {Q : α → sProp 𝕄} {kk : PUnit → Prog (TpuEff nD τ sig (Elt F) Λ₀ .tc) α} :
    St m K c t Raw Src Dst SW RW KS
      ⊢ iprop((St m K c t Raw Src (insert k Dst) SW (insert k RW) KS
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 k.recvSem ms md h1 h2) kk) Q) :=
  step_wait_recv_at m K c t Raw Src Dst SW RW KS k ms md hamt hk hrw k.recvSem rfl

end Steps

end NetSec

/-- info: 'Cert.KernelIdeal.Hand.step_issue' depends on axioms: [propext, Classical.choice, Quot.sound] -/
#guard_msgs in #print axioms Cert.KernelIdeal.Hand.step_issue

/-- info: 'Cert.KernelIdeal.Hand.step_wait_send' depends on axioms: [propext, Classical.choice, Quot.sound] -/
#guard_msgs in #print axioms Cert.KernelIdeal.Hand.step_wait_send

/-- info: 'Cert.KernelIdeal.Hand.step_wait_recv' depends on axioms: [propext, Classical.choice, Quot.sound] -/
#guard_msgs in #print axioms Cert.KernelIdeal.Hand.step_wait_recv

/-- info: 'Cert.KernelIdeal.Hand.step_issue_at' depends on axioms: [propext, Classical.choice, Quot.sound] -/
#guard_msgs in #print axioms Cert.KernelIdeal.Hand.step_issue_at

end Cert.KernelIdeal.Hand

end
-- ==== Proof.Tables.lean ====
import proofs.«900886_g7700000000000887_dist_matmul_k_i_m1536_n1536_k768_v7x_i8_bf16_1_alg».proof.Proof.Mesh
import proofs.«900886_g7700000000000887_dist_matmul_k_i_m1536_n1536_k768_v7x_i8_bf16_1_alg».proof.Proof.Gen.KernelIdeal

namespace Cert.KernelIdeal.Hand

open Idealize.ShloMosaic Cert.KernelIdeal Cert.KernelIdeal.Gen

theorem dev_1 (c : Dev nD) : (⟨k0_dev1 c, k0_dev1_lt c⟩ : Dev nD) = part 0 c := by
  revert c; decide +kernel

theorem dev_2 (c : Dev nD) : (⟨k0_dev2 c, k0_dev2_lt c⟩ : Dev nD) = part 1 c := by
  revert c; decide +kernel

theorem dev_3 (c : Dev nD) : (⟨k0_dev3 c, k0_dev3_lt c⟩ : Dev nD) = part 2 c := by
  revert c; decide +kernel

theorem dev_4 (c : Dev nD) : (⟨k0_dev4 c, k0_dev4_lt c⟩ : Dev nD) = part 0 c := by
  revert c; decide +kernel

theorem dev_5 (c : Dev nD) : (⟨k0_dev5 c, k0_dev5_lt c⟩ : Dev nD) = part 1 c := by
  revert c; decide +kernel

theorem dev_6 (c : Dev nD) : (⟨k0_dev6 c, k0_dev6_lt c⟩ : Dev nD) = part 2 c := by
  revert c; decide +kernel

theorem dev_7 (c : Dev nD) : (⟨k0_dev7 c, k0_dev7_lt c⟩ : Dev nD) = part 0 c := by
  revert c; decide +kernel

theorem dev_8 (c : Dev nD) : (⟨k0_dev8 c, k0_dev8_lt c⟩ : Dev nD) = part 1 c := by
  revert c; decide +kernel

theorem dev_9 (c : Dev nD) : (⟨k0_dev9 c, k0_dev9_lt c⟩ : Dev nD) = part 2 c := by
  revert c; decide +kernel

theorem dev_10 (c : Dev nD) : (⟨k0_dev10 c, k0_dev10_lt c⟩ : Dev nD) = part 0 c := by
  revert c; decide +kernel

theorem dev_11 (c : Dev nD) : (⟨k0_dev11 c, k0_dev11_lt c⟩ : Dev nD) = part 1 c := by
  revert c; decide +kernel

theorem dev_12 (c : Dev nD) : (⟨k0_dev12 c, k0_dev12_lt c⟩ : Dev nD) = part 2 c := by
  revert c; decide +kernel

theorem dev_13 (c : Dev nD) : (⟨k0_dev13 c, k0_dev13_lt c⟩ : Dev nD) = part 0 c := by
  revert c; decide +kernel

theorem dev_14 (c : Dev nD) : (⟨k0_dev14 c, k0_dev14_lt c⟩ : Dev nD) = part 1 c := by
  revert c; decide +kernel

theorem dev_15 (c : Dev nD) : (⟨k0_dev15 c, k0_dev15_lt c⟩ : Dev nD) = part 2 c := by
  revert c; decide +kernel

theorem dev_16 (c : Dev nD) : (⟨k0_dev16 c, k0_dev16_lt c⟩ : Dev nD) = part 1 c := by
  revert c; decide +kernel

theorem dev_17 (c : Dev nD) : (⟨k0_dev17 c, k0_dev17_lt c⟩ : Dev nD) = part 2 c := by
  revert c; decide +kernel

theorem dev_18 (c : Dev nD) : (⟨k0_dev18 c, k0_dev18_lt c⟩ : Dev nD) = part 0 c := by
  revert c; decide +kernel

theorem dev_19 (c : Dev nD) : (⟨k0_dev19 c, k0_dev19_lt c⟩ : Dev nD) = part 1 c := by
  revert c; decide +kernel

theorem dev_20 (c : Dev nD) : (⟨k0_dev20 c, k0_dev20_lt c⟩ : Dev nD) = part 2 c := by
  revert c; decide +kernel

theorem dev_21 (c : Dev nD) : (⟨k0_dev21 c, k0_dev21_lt c⟩ : Dev nD) = part 0 c := by
  revert c; decide +kernel

theorem dev_22 (c : Dev nD) : (⟨k0_dev22 c, k0_dev22_lt c⟩ : Dev nD) = part 2 c := by
  revert c; decide +kernel

theorem dev_23 (c : Dev nD) : (⟨k0_dev23 c, k0_dev23_lt c⟩ : Dev nD) = part 0 c := by
  revert c; decide +kernel

theorem dev_24 (c : Dev nD) : (⟨k0_dev24 c, k0_dev24_lt c⟩ : Dev nD) = part 1 c := by
  revert c; decide +kernel

theorem dev_25 (c : Dev nD) : (⟨k0_dev25 c, k0_dev25_lt c⟩ : Dev nD) = part 2 c := by
  revert c; decide +kernel

theorem dev_26 (c : Dev nD) : (⟨k0_dev26 c, k0_dev26_lt c⟩ : Dev nD) = part 1 c := by
  revert c; decide +kernel

theorem dev_27 (c : Dev nD) : (⟨k0_dev27 c, k0_dev27_lt c⟩ : Dev nD) = part 0 c := by
  revert c; decide +kernel

theorem dev_28 (c : Dev nD) : (⟨k0_dev28 c, k0_dev28_lt c⟩ : Dev nD) = part 0 c := by
  revert c; decide +kernel

theorem dev_29 (c : Dev nD) : (⟨k0_dev29 c, k0_dev29_lt c⟩ : Dev nD) = part 2 c := by
  revert c; decide +kernel

theorem dev_30 (c : Dev nD) : (⟨k0_dev30 c, k0_dev30_lt c⟩ : Dev nD) = part 1 c := by
  revert c; decide +kernel

theorem dev_31 (c : Dev nD) : (⟨k0_dev31 c, k0_dev31_lt c⟩ : Dev nD) = part 1 c := by
  revert c; decide +kernel

theorem dev_32 (c : Dev nD) : (⟨k0_dev32 c, k0_dev32_lt c⟩ : Dev nD) = part 0 c := by
  revert c; decide +kernel

theorem dev_33 (c : Dev nD) : (⟨k0_dev33 c, k0_dev33_lt c⟩ : Dev nD) = part 2 c := by
  revert c; decide +kernel

theorem dev_34 (c : Dev nD) : (⟨k0_dev34 c, k0_dev34_lt c⟩ : Dev nD) = part 1 c := by
  revert c; decide +kernel

theorem dev_35 (c : Dev nD) : (⟨k0_dev35 c, k0_dev35_lt c⟩ : Dev nD) = part 0 c := by
  revert c; decide +kernel

theorem dev_36 (c : Dev nD) : (⟨k0_dev36 c, k0_dev36_lt c⟩ : Dev nD) = part 2 c := by
  revert c; decide +kernel

theorem dev_37 (c : Dev nD) : (⟨k0_dev37 c, k0_dev37_lt c⟩ : Dev nD) = part 1 c := by
  revert c; decide +kernel

theorem dev_38 (c : Dev nD) : (⟨k0_dev38 c, k0_dev38_lt c⟩ : Dev nD) = part 0 c := by
  revert c; decide +kernel

theorem dev_39 (c : Dev nD) : (⟨k0_dev39 c, k0_dev39_lt c⟩ : Dev nD) = part 2 c := by
  revert c; decide +kernel

theorem dev_40 (c : Dev nD) : (⟨k0_dev40 c, k0_dev40_lt c⟩ : Dev nD) = part 0 c := by
  revert c; decide +kernel

theorem dev_41 (c : Dev nD) : (⟨k0_dev41 c, k0_dev41_lt c⟩ : Dev nD) = part 1 c := by
  revert c; decide +kernel

theorem dev_42 (c : Dev nD) : (⟨k0_dev42 c, k0_dev42_lt c⟩ : Dev nD) = part 2 c := by
  revert c; decide +kernel

theorem dev_43 (c : Dev nD) : (⟨k0_dev43 c, k0_dev43_lt c⟩ : Dev nD) = part 0 c := by
  revert c; decide +kernel

theorem dev_44 (c : Dev nD) : (⟨k0_dev44 c, k0_dev44_lt c⟩ : Dev nD) = part 1 c := by
  revert c; decide +kernel

theorem dev_45 (c : Dev nD) : (⟨k0_dev45 c, k0_dev45_lt c⟩ : Dev nD) = part 2 c := by
  revert c; decide +kernel

theorem off_1 (c : Dev nD) : k0_off1 c = ![rowS0 0 c + pos 0 0 c * 64, 0] := by
  funext a; revert a; revert c; decide +kernel

theorem off_2 (c : Dev nD) : k0_off2 c = ![0, pos 0 0 c * 64, 0] := by
  funext a; revert a; revert c; decide +kernel

theorem off_3 (c : Dev nD) : k0_off3 c = ![0, pos 0 0 c * 64, 0] := by
  funext a; revert a; revert c; decide +kernel

theorem off_4 (c : Dev nD) : k0_off4 c = ![rowS0 1 c + pos 1 0 c * 64, 0] := by
  funext a; revert a; revert c; decide +kernel

theorem off_5 (c : Dev nD) : k0_off5 c = ![1, pos 1 0 c * 64, 0] := by
  funext a; revert a; revert c; decide +kernel

theorem off_6 (c : Dev nD) : k0_off6 c = ![1, pos 1 0 c * 64, 0] := by
  funext a; revert a; revert c; decide +kernel

theorem off_7 (c : Dev nD) : k0_off7 c = ![rowS0 2 c + pos 2 0 c * 64, 0] := by
  funext a; revert a; revert c; decide +kernel

theorem off_8 (c : Dev nD) : k0_off8 c = ![2, pos 2 0 c * 64, 0] := by
  funext a; revert a; revert c; decide +kernel

theorem off_9 (c : Dev nD) : k0_off9 c = ![2, pos 2 0 c * 64, 0] := by
  funext a; revert a; revert c; decide +kernel

theorem off_10 (c : Dev nD) : k0_off10 c = ![rowS0 0 c + pos 0 1 c * 64, 0] := by
  funext a; revert a; revert c; decide +kernel

theorem off_11 (c : Dev nD) : k0_off11 c = ![0, pos 0 1 c * 64, 0] := by
  funext a; revert a; revert c; decide +kernel

theorem off_12 (c : Dev nD) : k0_off12 c = ![0, pos 0 1 c * 64, 0] := by
  funext a; revert a; revert c; decide +kernel

theorem off_13 (c : Dev nD) : k0_off13 c = ![rowS0 1 c + pos 1 1 c * 64, 0] := by
  funext a; revert a; revert c; decide +kernel

theorem off_14 (c : Dev nD) : k0_off14 c = ![1, pos 1 1 c * 64, 0] := by
  funext a; revert a; revert c; decide +kernel

theorem off_15 (c : Dev nD) : k0_off15 c = ![1, pos 1 1 c * 64, 0] := by
  funext a; revert a; revert c; decide +kernel

theorem off_16 (c : Dev nD) : k0_off16 c = ![rowS0 2 c + pos 2 1 c * 64, 0] := by
  funext a; revert a; revert c; decide +kernel

theorem off_17 (c : Dev nD) : k0_off17 c = ![2, pos 2 1 c * 64, 0] := by
  funext a; revert a; revert c; decide +kernel

theorem off_18 (c : Dev nD) : k0_off18 c = ![2, pos 2 1 c * 64, 0] := by
  funext a; revert a; revert c; decide +kernel

theorem off_19 (c : Dev nD) : k0_off19 c = ![rowS0 0 c + pos 0 2 c * 64, 0] := by
  funext a; revert a; revert c; decide +kernel

theorem off_20 (c : Dev nD) : k0_off20 c = ![0, pos 0 2 c * 64, 0] := by
  funext a; revert a; revert c; decide +kernel

theorem off_21 (c : Dev nD) : k0_off21 c = ![0, pos 0 2 c * 64, 0] := by
  funext a; revert a; revert c; decide +kernel

theorem off_22 (c : Dev nD) : k0_off22 c = ![rowS0 1 c + pos 1 2 c * 64, 0] := by
  funext a; revert a; revert c; decide +kernel

theorem off_23 (c : Dev nD) : k0_off23 c = ![1, pos 1 2 c * 64, 0] := by
  funext a; revert a; revert c; decide +kernel

theorem off_24 (c : Dev nD) : k0_off24 c = ![1, pos 1 2 c * 64, 0] := by
  funext a; revert a; revert c; decide +kernel

theorem off_25 (c : Dev nD) : k0_off25 c = ![rowS0 2 c + pos 2 2 c * 64, 0] := by
  funext a; revert a; revert c; decide +kernel

theorem off_26 (c : Dev nD) : k0_off26 c = ![2, pos 2 2 c * 64, 0] := by
  funext a; revert a; revert c; decide +kernel

theorem off_27 (c : Dev nD) : k0_off27 c = ![2, pos 2 2 c * 64, 0] := by
  funext a; revert a; revert c; decide +kernel

theorem off_28 (c : Dev nD) : k0_off28 c = ![rowS0 0 c + pos 0 3 c * 64, 0] := by
  funext a; revert a; revert c; decide +kernel

theorem off_29 (c : Dev nD) : k0_off29 c = ![0, pos 0 3 c * 64, 0] := by
  funext a; revert a; revert c; decide +kernel

theorem off_30 (c : Dev nD) : k0_off30 c = ![0, pos 0 3 c * 64, 0] := by
  funext a; revert a; revert c; decide +kernel

theorem off_31 (c : Dev nD) : k0_off31 c = ![rowS0 1 c + pos 1 3 c * 64, 0] := by
  funext a; revert a; revert c; decide +kernel

theorem off_32 (c : Dev nD) : k0_off32 c = ![1, pos 1 3 c * 64, 0] := by
  funext a; revert a; revert c; decide +kernel

theorem off_33 (c : Dev nD) : k0_off33 c = ![1, pos 1 3 c * 64, 0] := by
  funext a; revert a; revert c; decide +kernel

theorem off_34 (c : Dev nD) : k0_off34 c = ![rowS0 2 c + pos 2 3 c * 64, 0] := by
  funext a; revert a; revert c; decide +kernel

theorem off_35 (c : Dev nD) : k0_off35 c = ![2, pos 2 3 c * 64, 0] := by
  funext a; revert a; revert c; decide +kernel

theorem off_36 (c : Dev nD) : k0_off36 c = ![2, pos 2 3 c * 64, 0] := by
  funext a; revert a; revert c; decide +kernel

theorem off_37 (c : Dev nD) : k0_off37 c = ![rowK0 0 c, 0] := by
  funext a; revert a; revert c; decide +kernel

theorem off_38 (c : Dev nD) : k0_off38 c = ![rowK0 1 c, 0] := by
  funext a; revert a; revert c; decide +kernel

theorem off_39 (c : Dev nD) : k0_off39 c = ![rowK0 2 c, 0] := by
  funext a; revert a; revert c; decide +kernel

theorem off_40 (c : Dev nD) : k0_off40 c = ![0, (1 - B 0 2 c) * 64, 0] := by
  funext a; revert a; revert c; decide +kernel

theorem off_41 (c : Dev nD) : k0_off41 c = ![0, (1 - B 0 2 c) * 64, 0] := by
  funext a; revert a; revert c; decide +kernel

theorem off_42 (c : Dev nD) : k0_off42 c = ![1, (1 - B 1 2 c) * 64, 0] := by
  funext a; revert a; revert c; decide +kernel

theorem off_43 (c : Dev nD) : k0_off43 c = ![1, (1 - B 1 2 c) * 64, 0] := by
  funext a; revert a; revert c; decide +kernel

theorem off_44 (c : Dev nD) : k0_off44 c = ![2, (1 - B 2 2 c) * 64, 0] := by
  funext a; revert a; revert c; decide +kernel

theorem off_45 (c : Dev nD) : k0_off45 c = ![2, (1 - B 2 2 c) * 64, 0] := by
  funext a; revert a; revert c; decide +kernel

theorem off_46 (c : Dev nD) : k0_off46 c = ![0, B 0 2 c * 64, 0] := by
  funext a; revert a; revert c; decide +kernel

theorem off_47 (c : Dev nD) : k0_off47 c = ![0, B 0 2 c * 64, 0] := by
  funext a; revert a; revert c; decide +kernel

theorem off_48 (c : Dev nD) : k0_off48 c = ![1, B 1 2 c * 64, 0] := by
  funext a; revert a; revert c; decide +kernel

theorem off_49 (c : Dev nD) : k0_off49 c = ![1, B 1 2 c * 64, 0] := by
  funext a; revert a; revert c; decide +kernel

theorem off_50 (c : Dev nD) : k0_off50 c = ![2, B 2 2 c * 64, 0] := by
  funext a; revert a; revert c; decide +kernel

theorem off_51 (c : Dev nD) : k0_off51 c = ![2, B 2 2 c * 64, 0] := by
  funext a; revert a; revert c; decide +kernel

theorem off_52 (c : Dev nD) : k0_off52 c = ![rowK2 0 c, 0] := by
  funext a; revert a; revert c; decide +kernel

theorem off_53 (c : Dev nD) : k0_off53 c = ![rowK2 0 c, 0] := by
  funext a; revert a; revert c; decide +kernel

theorem off_54 (c : Dev nD) : k0_off54 c = ![rowK2 1 c, 0] := by
  funext a; revert a; revert c; decide +kernel

theorem off_55 (c : Dev nD) : k0_off55 c = ![rowK2 1 c, 0] := by
  funext a; revert a; revert c; decide +kernel

theorem off_56 (c : Dev nD) : k0_off56 c = ![rowK2 2 c, 0] := by
  funext a; revert a; revert c; decide +kernel

theorem off_57 (c : Dev nD) : k0_off57 c = ![rowK2 2 c, 0] := by
  funext a; revert a; revert c; decide +kernel

theorem off_58 (c : Dev nD) : k0_off58 c = ![rowG 0 false true c, 0] := by
  funext a; revert a; revert c; decide +kernel

theorem off_59 (c : Dev nD) : k0_off59 c = ![rowG 1 false true c, 0] := by
  funext a; revert a; revert c; decide +kernel

theorem off_60 (c : Dev nD) : k0_off60 c = ![rowG 2 false true c, 0] := by
  funext a; revert a; revert c; decide +kernel

theorem off_61 (c : Dev nD) : k0_off61 c = ![rowG 0 true false c, 0] := by
  funext a; revert a; revert c; decide +kernel

theorem off_62 (c : Dev nD) : k0_off62 c = ![rowG 1 true false c, 0] := by
  funext a; revert a; revert c; decide +kernel

theorem off_63 (c : Dev nD) : k0_off63 c = ![rowG 2 true false c, 0] := by
  funext a; revert a; revert c; decide +kernel

theorem off_64 (c : Dev nD) : k0_off64 c = ![rowG 0 true true c, 0] := by
  funext a; revert a; revert c; decide +kernel

theorem off_65 (c : Dev nD) : k0_off65 c = ![rowG 1 true true c, 0] := by
  funext a; revert a; revert c; decide +kernel

theorem off_66 (c : Dev nD) : k0_off66 c = ![rowG 2 true true c, 0] := by
  funext a; revert a; revert c; decide +kernel

end Cert.KernelIdeal.Hand
-- ==== Proof.Pieces.lean ====
import proofs.«900886_g7700000000000887_dist_matmul_k_i_m1536_n1536_k768_v7x_i8_bf16_1_alg».proof.Proof.Proto
import Idealize.ShloMosaic.Lib.Pipeline.Value
import Idealize.ShloMosaic.Rules.Step
import Idealize.ShloMosaic.Lib.ValueIdx

noncomputable section

namespace Cert.KernelIdeal.Hand

open Cert.KernelIdeal Cert.KernelIdeal.Gen
open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem

section Generic

variable {n : Nat} {tp : Topo} {sg : RefSig} {Ix : Type} [DecidableEq Ix]
variable {Val : EltTy → Type} {Name : Type} [DecidableEq Name] {U : Type} [URA U] {Lvl : Type} {Λ : Labels}

theorem owns_elim (c : Thread n tp) {sp : Space} {sh : Shape} {e : EltTy} (m : Memref sg c.2.kind sp sh e) (q : PosShare TreeShare)
    (X : sh.Idx → Val e) :
    (owns c m q X : sProp (MT n tp sg Ix Val Name U Lvl))
      ⊢ iprop(∃ f, ⌜m.view.read Val f = X⌝ ∗ (m.view.loc c ↦[m.view.set]{q} f)) := .rfl

theorem owns_of_write (c : Thread n tp) {sp : Space} {sh : Shape} {e : EltTy} (m : Memref sg c.2.kind sp sh e)
    (f : m.view.ty.Contents Val) (w : sh.Idx → Val e) :
    (m.view.loc c ↦[m.view.set]{fullShare} (m.view.write Val f w Finset.univ) : sProp (MT n tp sg Ix Val Name U Lvl))
      ⊢ owns c m fullShare w := by
  have h := owns_intro (Ix := Ix) (Name := Name) (U := U) (Lvl := Lvl) c m fullShare (m.view.write Val f w Finset.univ)
  rwa [View.read_write_univ] at h

variable [Preorder Lvl] {defs : Defs n tp sg Val Λ} (𝒱 : Variants) (c : Thread n tp)
  (bd : Option 𝒱.V) {Γ : PendingWaitsCtx sg Ix} (E : Set Name)
variable {s : Shape} {e : EltTy} {α : Type} {Q : α → sProp (MT n tp sg Ix Val Name U Lvl)}

theorem wp_load_piece {cs : CoreSpace} {M : Memref sg c.2.kind cs s e} {r : Rect s} {hr : ∀ a, r.stride a = 1}
    {hl : M.view.LoadsAt r.toLoadRect} {k : (r.shape.Idx → Val e) → Prog (TpuEff n tp sg Val Λ c.2) α}
    {q : PosShare TreeShare} {Y : r.shape.Idx → Val e} :
    owns c (M.slice r hr) q Y
      ⊢ iprop((owns c (M.slice r hr) q Y -∗ wp frame (wpE' defs 𝒱 c bd Γ) E (k Y) Q)
        -∗ wp frame (wpE' defs 𝒱 c bd Γ) E (.op (.load M r.toLoadRect hl) k) Q) := by
  iintro H Hk
  ihave H' := (owns_elim c (M.slice r hr) q Y) $$ H
  icases H' with ⟨%f, %hf, H⟩
  subst hf
  iapply (wp_load_rect 𝒱 c bd E (m := M) (r := r) (hl := hl) (k := k) (Finset.Subset.refl _)) $$ H
  iintro H
  iapply Hk
  iapply (owns_intro c (M.slice r hr) q f)
  iexact H

theorem wp_store_piece {cs : CoreSpace} {M : Memref sg c.2.kind cs s e} {r : Rect s} {hr : ∀ a, r.stride a = 1}
    {w : r.shape.Idx → Val e} {hx : (M.access r).Stores Finset.univ} {hm : Finset.univ = Finset.univ ∨ ∀ a, r.stride a = 1}
    {k : PUnit → Prog (TpuEff n tp sg Val Λ c.2) α} {X : r.shape.Idx → Val e} :
    owns c (M.slice r hr) fullShare X
      ⊢ iprop((owns c (M.slice r hr) fullShare w -∗ wp frame (wpE' defs 𝒱 c bd Γ) E (k ⟨⟩) Q)
        -∗ wp frame (wpE' defs 𝒱 c bd Γ) E (.op (.store M r w Finset.univ hx hm) k) Q) := by
  iintro H Hk
  ihave H' := (owns_elim c (M.slice r hr) fullShare X) $$ H
  icases H' with ⟨%f, %hf, H⟩
  iapply (wp_store 𝒱 c bd E (m := M) (r := r) (w := w) (Mk := Finset.univ) (hx := hx) (hm := hm) (k := k)
    (S := (M.access r).set) (f := f) (le_of_eq (View.setOn_univ _))) $$ H
  iintro H
  iapply Hk
  iapply (owns_of_write c (M.slice r hr) f w)
  iexact H

theorem wp_load_sub {cs : CoreSpace} {M : Memref sg c.2.kind cs s e} {r0 r : Rect s} {hr0 : ∀ a, r0.stride a = 1}
    {hl : M.view.LoadsAt r.toLoadRect} {k : (r.shape.Idx → Val e) → Prog (TpuEff n tp sg Val Λ c.2) α}
    {q : PosShare TreeShare} {Y : r0.shape.Idx → Val e} (φ : r.shape.Idx → r0.shape.Idx) (hφ : ∀ j, r0.emb (φ j) = r.emb j) :
    owns c (M.slice r0 hr0) q Y
      ⊢ iprop((owns c (M.slice r0 hr0) q Y -∗ wp frame (wpE' defs 𝒱 c bd Γ) E (k fun j => Y (φ j)) Q)
        -∗ wp frame (wpE' defs 𝒱 c bd Γ) E (.op (.load M r.toLoadRect hl) k) Q) := by
  iintro H Hk
  ihave H' := (owns_elim c (M.slice r0 hr0) q Y) $$ H
  icases H' with ⟨%f, %hf, H⟩
  subst hf
  have hsub : (M.access r).set ⊆ (M.access r0).set := by
    rw [View.set_slice, View.set_slice]
    refine Finset.map_subset_map.mpr fun i hi => ?_
    rw [← Rect.map_emb_univ, Finset.mem_map] at hi
    obtain ⟨j, -, rfl⟩ := hi
    rw [← hφ j, ← Rect.map_emb_univ]
    exact Finset.mem_map_of_mem _ (Finset.mem_univ _)
  have hread : (M.access r).read Val f = fun j => (M.slice r0 hr0).view.read Val f (φ j) := by
    funext j
    show _root_.cast _ (f (M.view.emb (r.emb j))) = _root_.cast _ (f (M.view.emb (r0.emb (φ j))))
    rw [hφ j]
  have h := wp_load_rect (defs := defs) 𝒱 c bd (Γ := Γ) E (Q := Q) (m := M) (r := r) (hl := hl) (k := k)
    (S := (M.access r0).set) (q := q) (f := f) hsub
  rw [hread] at h
  iapply h $$ H
  iintro H
  iapply Hk
  iapply (owns_intro c (M.slice r0 hr0) q f)
  iexact H

theorem owns_squeeze {sp : Space} {s' : Shape} (mm : Memref sg c.2.kind sp s e) (hq : s.Squeezes s') (hc' : s'.ShapeCasts s)
    (q : PosShare TreeShare) (X : s'.Idx → Val e) :
    (owns c (mm.squeeze s' hq) q X : sProp (MT n tp sg Ix Val Name U Lvl)) = owns c mm q (shapeCast s X hc') := by
  have hread (f : mm.view.ty.Contents Val) :
      (mm.squeeze s' hq).view.read Val f = shapeCast s' (mm.view.read Val f) hq.numel_eq := rfl
  have hset : (mm.squeeze s' hq).view.set = mm.view.set := View.set_reshape _ _
  have h₁ : (owns c (mm.squeeze s' hq) q X : sProp (MT n tp sg Ix Val Name U Lvl)) ⊢ owns c mm q (shapeCast s X hc') := by
    iintro H
    ihave H' := (owns_elim c (mm.squeeze s' hq) q X) $$ H
    icases H' with ⟨%f, %hf, H⟩
    rw [hread] at hf
    subst hf
    rw [shapeCast_shapeCast, hset]
    iapply (owns_intro c mm q f)
    iexact H
  have h₂ : (owns c mm q (shapeCast s X hc') : sProp (MT n tp sg Ix Val Name U Lvl)) ⊢ owns c (mm.squeeze s' hq) q X := by
    iintro H
    ihave H' := (owns_elim c mm q (shapeCast s X hc')) $$ H
    icases H' with ⟨%f, %hf, H⟩
    have hX : (mm.squeeze s' hq).view.read Val f = X := by rw [hread, hf, shapeCast_shapeCast]
    rw [← hX, ← hset]
    iapply (owns_intro c (mm.squeeze s' hq) q f)
    iexact H
  exact BI.equiv_iff.mp ⟨h₁, h₂⟩

theorem wp_load_piece_sq {cs : CoreSpace} {M : Memref sg c.2.kind cs s e} {r : Rect s} {hr : ∀ a, r.stride a = 1}
    {s' : Shape} {hq : r.shape.Squeezes s'} {hc' : s'.ShapeCasts r.shape}
    {hl : M.view.LoadsAt r.toLoadRect} {k : (r.shape.Idx → Val e) → Prog (TpuEff n tp sg Val Λ c.2) α}
    {q : PosShare TreeShare} {X : s'.Idx → Val e} :
    owns c ((M.slice r hr).squeeze s' hq) q X
      ⊢ iprop((owns c ((M.slice r hr).squeeze s' hq) q X -∗ wp frame (wpE' defs 𝒱 c bd Γ) E (k (shapeCast r.shape X hc')) Q)
        -∗ wp frame (wpE' defs 𝒱 c bd Γ) E (.op (.load M r.toLoadRect hl) k) Q) := by
  rw [owns_squeeze c (M.slice r hr) hq hc' q X]
  exact wp_load_piece 𝒱 c bd E

theorem wp_store_piece_sq {cs : CoreSpace} {M : Memref sg c.2.kind cs s e} {r : Rect s} {hr : ∀ a, r.stride a = 1}
    {s' : Shape} {hq : r.shape.Squeezes s'} {hc : r.shape.ShapeCasts s'} {hc' : s'.ShapeCasts r.shape}
    {w : r.shape.Idx → Val e} {hx : (M.access r).Stores Finset.univ} {hm : Finset.univ = Finset.univ ∨ ∀ a, r.stride a = 1}
    {k : PUnit → Prog (TpuEff n tp sg Val Λ c.2) α} {X : s'.Idx → Val e} :
    owns c ((M.slice r hr).squeeze s' hq) fullShare X
      ⊢ iprop((owns c ((M.slice r hr).squeeze s' hq) fullShare (shapeCast s' w hc) -∗ wp frame (wpE' defs 𝒱 c bd Γ) E (k ⟨⟩) Q)
        -∗ wp frame (wpE' defs 𝒱 c bd Γ) E (.op (.store M r w Finset.univ hx hm) k) Q) := by
  rw [owns_squeeze c (M.slice r hr) hq hc' fullShare X, owns_squeeze c (M.slice r hr) hq hc' fullShare (shapeCast s' w hc),
    shapeCast_shapeCast]
  exact wp_store_piece 𝒱 c bd E

theorem wp_load_slab {cs : CoreSpace} {M : Memref sg c.2.kind cs S3x256x1536 e} {j p : Nat} (hp : p < 4)
    {inb0 : ∀ a, (![j, 0, 0] : Fin 3 → Nat) a + S1x256x1536.size a ≤ S3x256x1536.size a}
    {inb : ∀ a, (![j, p * 64, 0] : Fin 3 → Nat) a + S1x64x1536.size a ≤ S3x256x1536.size a}
    {hr0 : ∀ a, (Rect.unit (s := S3x256x1536) ![j, 0, 0] S1x256x1536.size inb0).stride a = 1}
    {hl : M.view.LoadsAt (Rect.unit (s := S3x256x1536) ![j, p * 64, 0] S1x64x1536.size inb).toLoadRect}
    {k : (S1x64x1536.Idx → Val e) → Prog (TpuEff n tp sg Val Λ c.2) α}
    {q : PosShare TreeShare} {Y : S1x256x1536.Idx → Val e} :
    owns c (M.slice (Rect.unit (s := S3x256x1536) ![j, 0, 0] S1x256x1536.size inb0) hr0) q Y
      ⊢ iprop((owns c (M.slice (Rect.unit (s := S3x256x1536) ![j, 0, 0] S1x256x1536.size inb0) hr0) q Y
            -∗ wp frame (wpE' defs 𝒱 c bd Γ) E
                (k fun i => Y (ix3 0 ⟨p * 64 + (i 1).val, by have h1 : (i 1).val < 64 := (i 1).isLt; omega⟩ (i 2))) Q)
        -∗ wp frame (wpE' defs 𝒱 c bd Γ) E
            (.op (.load M (Rect.unit (s := S3x256x1536) ![j, p * 64, 0] S1x64x1536.size inb).toLoadRect hl) k) Q) := by
  refine wp_load_sub 𝒱 c bd E (r0 := Rect.unit (s := S3x256x1536) ![j, 0, 0] S1x256x1536.size inb0)
    (r := Rect.unit (s := S3x256x1536) ![j, p * 64, 0] S1x64x1536.size inb)
    (fun i => ix3 0 ⟨p * 64 + (i 1).val, by have h1 : (i 1).val < 64 := (i 1).isLt; omega⟩ (i 2)) fun i => funext fun a => Fin.ext ?_
  have h0 : (i 0).val < 1 := (i 0).isLt
  simp only [Rect.emb_apply, Rect.off_unit, Rect.stride_unit]
  match a with
  | ⟨0, _⟩ => show j + 1 * 0 = j + 1 * (i 0).val; omega
  | ⟨1, _⟩ => show 0 + 1 * (p * 64 + (i 1).val) = p * 64 + 1 * (i 1).val; omega
  | ⟨2, _⟩ => rfl

end Generic

end Cert.KernelIdeal.Hand

end
-- ==== Proof.Deal.lean ====
import proofs.«900886_g7700000000000887_dist_matmul_k_i_m1536_n1536_k768_v7x_i8_bf16_1_alg».proof.Proof.Proto

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

section Deal

variable {F : FTy → Type} [FloatOps F]

local notation "𝕄" => MT nD τ sig Unit (Elt F) ℕ UU ℕ

theorem pointsTo_squeeze (c : Thread nD τ) {sp : Space} {s s' : Shape} {e : EltTy} (m : Memref sig c.2.kind sp s e)
    (h : s.Squeezes s') (q : PosShare TreeShare) (f : Buf (Elt F) (m.view.loc c)) :
    ((m.squeeze s' h).view.loc c ↦[(m.squeeze s' h).view.set]{q} f : sProp 𝕄) = (m.view.loc c ↦[m.view.set]{q} f) :=
  congrArg (fun S => (m.view.loc c ↦[S]{q} f : sProp 𝕄)) (View.set_reshape _ _)

theorem owns_squeeze_ex (c : Thread nD τ) {sp : Space} {s s' : Shape} {e : EltTy} (m : Memref sig c.2.kind sp s e)
    (h : s.Squeezes s') (q : PosShare TreeShare) (X : s.Idx → Elt F e) :
    (owns c m q X : sProp 𝕄) ⊢ iprop(∃ X' : s'.Idx → Elt F e, owns c (m.squeeze s' h) q X') := by
  unfold owns
  iintro ⟨%f, %hf, H⟩
  iexists (m.squeeze s' h).view.read (Elt F) f, f
  isplitr
  · ipureintro; rfl
  · ihave H' := (Entails.of_eq (pointsTo_squeeze c m h q f).symm) $$ H
    iexact H'

theorem owns_unsqueeze_ex (c : Thread nD τ) {sp : Space} {s s' : Shape} {e : EltTy} (m : Memref sig c.2.kind sp s e)
    (h : s.Squeezes s') (q : PosShare TreeShare) (X' : s'.Idx → Elt F e) :
    (owns c (m.squeeze s' h) q X' : sProp 𝕄) ⊢ iprop(∃ X : s.Idx → Elt F e, owns c m q X) := by
  unfold owns
  iintro ⟨%f, %hf, H⟩
  iexists m.view.read (Elt F) f, f
  isplitr
  · ipureintro; rfl
  · ihave H' := (Entails.of_eq (pointsTo_squeeze c m h q f)) $$ H
    iexact H'

section JoinSlices

variable (c : Thread nD τ) {sp : Space} {sh : Shape} {e : EltTy} (m : Memref sig c.2.kind sp sh e) (q : PosShare TreeShare)
  {T : Type} [Fintype T] [DecidableEq T] (r : T → Rect sh) (hr : ∀ t a, (r t).stride a = 1)
  (hd : ∀ t t', t ≠ t' → Disjoint (r t).set (r t').set)
  (hcov : (Finset.univ : Finset T).biUnion (fun t => (r t).set) = Finset.univ)

include hd hcov in

theorem join_slices :
    (bigSep Finset.univ fun t => iprop(∃ X' : (r t).shape.Idx → Elt F e, owns c (m.slice (r t) (hr t)) q X') : sProp 𝕄)
      ⊢ iprop(∃ X : sh.Idx → Elt F e, owns c m q X) := by
  classical
  let K : T → Finset (Idx (m.view.loc c)) := fun t => (m.view.slice (r t)).set
  have step1 : ∀ t, iprop(∃ X' : (r t).shape.Idx → Elt F e, owns c (m.slice (r t) (hr t)) q X')
      ⊢ (iprop(∃ f : Buf (Elt F) (m.view.loc c), m.view.loc c ↦[K t]{q} f) : sProp 𝕄) := by
    intro t
    iintro ⟨%X', H⟩
    ihave H' := (show owns c (m.slice (r t) (hr t)) q X'
        ⊢ iprop(∃ f, ⌜(m.slice (r t) (hr t)).view.read (Elt F) f = X'⌝
            ∗ ((m.slice (r t) (hr t)).view.loc c ↦[(m.slice (r t) (hr t)).view.set]{q} f)) from .rfl) $$ H
    icases H' with ⟨%f, %hf, H⟩
    iexists f
    iexact H
  have hdK : ∀ t ∈ (Finset.univ : Finset T), ∀ t' ∈ (Finset.univ : Finset T), t ≠ t' → Disjoint (K t) (K t') :=
    fun t _ t' _ htt => by
      show Disjoint (m.view.slice (r t)).set (m.view.slice (r t')).set
      rw [View.set_slice, View.set_slice]; exact (Finset.disjoint_map _).mpr (hd t t' htt)
  have hset : (Finset.univ : Finset T).biUnion K = m.view.set := by
    ext i; constructor
    · intro hi
      obtain ⟨t, -, hi⟩ := Finset.mem_biUnion.mp hi
      exact View.set_slice_subset _ _ hi
    · intro hi
      rw [View.set, Finset.mem_map] at hi
      obtain ⟨x, -, rfl⟩ := hi
      obtain ⟨t, -, hx⟩ := Finset.mem_biUnion.mp (hcov.symm ▸ Finset.mem_univ x)
      exact Finset.mem_biUnion.mpr ⟨t, Finset.mem_univ _, by
        show _ ∈ (m.view.slice (r t)).set
        rw [View.set_slice]; exact Finset.mem_map_of_mem _ hx⟩
  refine (bigSep_mono fun t _ => step1 t).trans ?_
  refine (bigSep_exists_pi Finset.univ (fun t f => (m.view.loc c ↦[K t]{q} f : sProp 𝕄))).trans ?_
  iintro ⟨%fs, H⟩
  have e : (bigSep Finset.univ (fun t => m.view.loc c ↦[K t]{q} fs t) : sProp 𝕄)
      ⊢ iprop(∃ g, ⌜∀ t ∈ (Finset.univ : Finset T), ∀ i ∈ K t, g i = fs t i⌝
          ∗ m.view.loc c ↦[(Finset.univ : Finset T).biUnion K]{q} g) :=
    pointsTo_biUnion_join Finset.univ K fs (fun _ => Classical.arbitrary _) hdK
  rw [hset] at e
  ihave H' := e $$ H
  icases H' with ⟨%g, %hg, H⟩
  iexists m.view.read (Elt F) g
  iapply (owns_intro c m q g)
  iexact H

end JoinSlices

section Grid

variable {d : Fin 3 → Nat} {T : Type} [Fintype T] (n : Nat) (o : T → Fin 3 → Nat)
  (h : ∀ t a, o t a + S1x64x1536.size a ≤ d a) (jj qq : T → Nat)
  (ho0 : ∀ t, o t 0 = jj t) (ho1 : ∀ t, o t 1 = qq t * 64) (ho2 : ∀ t, o t 2 = 0)

include ho0 ho1 in
theorem grid_disjoint (hinj : ∀ t t', t ≠ t' → jj t ≠ jj t' ∨ qq t ≠ qq t') (t t' : T) (ne : t ≠ t') :
    Disjoint (Rect.unit (s := ⟨3, d⟩) (o t) S1x64x1536.size (h t)).set
      (Rect.unit (s := ⟨3, d⟩) (o t') S1x64x1536.size (h t')).set := by
  rw [Finset.disjoint_left]
  intro i hi hi'
  have h0 := Rect.mem_set_unit.mp hi (0 : Fin 3)
  have h1 := Rect.mem_set_unit.mp hi (1 : Fin 3)
  have h0' := Rect.mem_set_unit.mp hi' (0 : Fin 3)
  have h1' := Rect.mem_set_unit.mp hi' (1 : Fin 3)
  have s0 : S1x64x1536.size (0 : Fin 3) = 1 := rfl
  have s1 : S1x64x1536.size (1 : Fin 3) = 64 := rfl
  rw [ho0, s0] at h0 h0'
  rw [ho1, s1] at h1 h1'
  rcases hinj t t' ne with e | e <;> omega

include ho0 ho1 ho2 in
theorem grid_cover (hd0 : d 0 = 3) (hd1 : d 1 = n * 64) (hd2 : d 2 = 1536)
    (hsurj : ∀ a < 3, ∀ b < n, ∃ t, jj t = a ∧ qq t = b) :
    (Finset.univ : Finset T).biUnion (fun t => (Rect.unit (s := ⟨3, d⟩) (o t) S1x64x1536.size (h t)).set)
      = Finset.univ := by
  ext i
  simp only [Finset.mem_biUnion, Finset.mem_univ, true_and, iff_true]
  have i0 : (i (0 : Fin 3)).val < 3 := lt_of_lt_of_eq (i (0 : Fin 3)).isLt hd0
  have i1 : (i (1 : Fin 3)).val < n * 64 := lt_of_lt_of_eq (i (1 : Fin 3)).isLt hd1
  have i2 : (i (2 : Fin 3)).val < 1536 := lt_of_lt_of_eq (i (2 : Fin 3)).isLt hd2
  obtain ⟨t, e0, e1⟩ := hsurj (i (0 : Fin 3)).val i0 ((i (1 : Fin 3)).val / 64) (by omega)
  refine ⟨t, Rect.mem_set_unit.mpr fun a => ?_⟩
  rcases (by decide : ∀ a : Fin 3, a = 0 ∨ a = 1 ∨ a = 2) a with rfl | rfl | rfl
  · rw [ho0, e0]; change _ ≤ _ ∧ _ < _ + 1; omega
  · rw [ho1, e1]; change _ ≤ _ ∧ _ < _ + 64; omega
  · rw [ho2]; change _ ≤ _ ∧ _ < _ + 1536; omega

end Grid

def a0 (j : Fin 3) (q : Fin 4) : Fin 3 → Nat := ![j.val, q.val * 64, 0]

def a1 (j : Fin 3) (q : Fin 2) : Fin 3 → Nat := ![j.val, q.val * 64, 0]

def aO (r : Fin 24) : Fin 2 → Nat := ![r.val * 64, 0]

theorem a0_inb : ∀ (j : Fin 3) (q : Fin 4) a, a0 j q a + S1x64x1536.size a ≤ S3x256x1536.size a := by decide
theorem a1_inb : ∀ (j : Fin 3) (q : Fin 2) a, a1 j q a + S1x64x1536.size a ≤ S3x128x1536.size a := by decide
theorem aO_inb : ∀ (r : Fin 24) a, aO r a + S64x1536.size a ≤ S1536x1536.size a := by decide

abbrev pc3 {d : Fin 3 → Nat} (M : Memref sig .tc .vmem ⟨3, d⟩ .bf16) (o : Fin 3 → Nat)
    (h : ∀ a, o a + S1x64x1536.size a ≤ d a) : Memref sig .tc .vmem S64x1536 .bf16 :=
  (M.slice (Rect.unit (s := ⟨3, d⟩) o S1x64x1536.size h) (fun _ => rfl)).squeeze S64x1536 squeezes_S1x64x1536_S64x1536

abbrev pcO (o : Fin 2 → Nat) (h : ∀ a, o a + S64x1536.size a ≤ S1536x1536.size a) : Memref sig .tc .vmem S64x1536 .bf16 :=
  outM.slice (Rect.unit (s := S1536x1536) o S64x1536.size h) (fun _ => rfl)

theorem pcO_congr {o o' : Fin 2 → Nat} (e : o = o') (h : ∀ a, o a + S64x1536.size a ≤ S1536x1536.size a)
    (h' : ∀ a, o' a + S64x1536.size a ≤ S1536x1536.size a) : pcO o h = pcO o' h' := by subst e; rfl

inductive Pc where
  | r0 (j : Fin 3) (q : Fin 4)
  | r1 (j : Fin 3) (q : Fin 2)
  | r2 (j : Fin 3)
  | out (r : Fin 24)
  deriving DecidableEq

def Pc.equiv : ((Fin 3 × Fin 4) ⊕ (Fin 3 × Fin 2) ⊕ Fin 3 ⊕ Fin 24) ≃ Pc where
  toFun
    | .inl (j, q) => .r0 j q
    | .inr (.inl (j, q)) => .r1 j q
    | .inr (.inr (.inl j)) => .r2 j
    | .inr (.inr (.inr r)) => .out r
  invFun
    | .r0 j q => .inl (j, q)
    | .r1 j q => .inr (.inl (j, q))
    | .r2 j => .inr (.inr (.inl j))
    | .out r => .inr (.inr (.inr r))
  left_inv x := by rcases x with ⟨j, q⟩ | ⟨j, q⟩ | j | r <;> rfl
  right_inv x := by cases x <;> rfl

instance : Fintype Pc := Fintype.ofEquiv _ Pc.equiv

def Pc.mem : Pc → Memref sig .tc .vmem S64x1536 .bf16
  | .r0 j q => pc3 rb0M (a0 j q) (a0_inb j q)
  | .r1 j q => pc3 rb1M (a1 j q) (a1_inb j q)
  | .r2 j => pc3 rb2M (o2 j) (o2_inb j)
  | .out r => pcO (aO r) (aO_inb r)

theorem dl_pos_lt : ∀ (i : Fin 4) (j : Fin 3) (c : Dev nD), pos j.val i.val c < 4 := by decide
theorem dl_half_lt : ∀ (h : Fin 2) (j : Fin 3) (c : Dev nD), (if h.val = 0 then 1 - B j.val 2 c else B j.val 2 c) < 2 := by decide
theorem dl_agRow_lt : ∀ (s : Fin 7) (j : Fin 3) (c : Dev nD), agRow s j c / 64 < 24 := by decide
theorem dl_agRow_eq : ∀ (s : Fin 7) (j : Fin 3) (c : Dev nD), agRow s j c = agRow s j c / 64 * 64 := by decide

def pcOf (k : Cp) (c : Dev nD) : Pc :=
  match k with
  | .rs0 i j => .r0 j ⟨pos j.val i.val c, dl_pos_lt i j c⟩
  | .rs1 h j => .r1 j ⟨if h.val = 0 then 1 - B j.val 2 c else B j.val 2 c, dl_half_lt h j c⟩
  | .rs2 j => .r2 j
  | .ag s j => .out ⟨agRow s j c / 64, dl_agRow_lt s j c⟩

theorem dstM_pc (k : Cp) (c : Dev nD) : dstM k c = (pcOf k c).mem := by
  cases k with
  | rs0 i j => rfl
  | rs1 h j => rfl
  | rs2 j => rfl
  | ag s j =>
    show pcO (oA s j c) (oA_inb s j c) = pcO (aO ⟨agRow s j c / 64, dl_agRow_lt s j c⟩) (aO_inb _)
    exact pcO_congr (by show ![agRow s j c, 0] = ![agRow s j c / 64 * 64, 0]; rw [← dl_agRow_eq]) _ _

theorem srcM_ag_pc (s : Fin 7) (j : Fin 3) (c : Dev nD) : srcM (.ag s j) c = (pcOf (.ag s j) c).mem := dstM_pc (.ag s j) c

section Cut3

variable {d : Fin 3 → Nat} {T : Type} [Fintype T] [DecidableEq T] (p : Dev nD)
  (M : Memref sig .tc .vmem ⟨3, d⟩ .bf16) (o : T → Fin 3 → Nat) (h : ∀ t a, o t a + S1x64x1536.size a ≤ d a)
  (hd : ∀ t t', t ≠ t' → Disjoint (Rect.unit (s := ⟨3, d⟩) (o t) S1x64x1536.size (h t)).set
      (Rect.unit (s := ⟨3, d⟩) (o t') S1x64x1536.size (h t')).set)
  (hcov : (Finset.univ : Finset T).biUnion (fun t => (Rect.unit (s := ⟨3, d⟩) (o t) S1x64x1536.size (h t)).set)
      = Finset.univ)

include hd hcov in

theorem cut3 (X : Shape.Idx ⟨3, d⟩ → Elt F .bf16) :
    (owns (p : Thread nD τ) M fullShare X : sProp 𝕄)
      ⊢ bigSep Finset.univ fun t =>
          iprop(∃ X' : S64x1536.Idx → Elt F .bf16, owns (p : Thread nD τ) (pc3 M (o t) (h t)) fullShare X') :=
  (owns_rects (p : Thread nD τ) M fullShare (fun t => Rect.unit (s := ⟨3, d⟩) (o t) S1x64x1536.size (h t))
      (fun _ _ => rfl) hd hcov X).trans
    (bigSep_mono fun t _ => owns_squeeze_ex _ _ _ _ _)

include hd hcov in

theorem join3 :
    (bigSep Finset.univ fun t =>
        iprop(∃ X' : S64x1536.Idx → Elt F .bf16, owns (p : Thread nD τ) (pc3 M (o t) (h t)) fullShare X') : sProp 𝕄)
      ⊢ iprop(∃ X : Shape.Idx ⟨3, d⟩ → Elt F .bf16, owns (p : Thread nD τ) M fullShare X) := by
  have step : ∀ t, (iprop(∃ X' : S64x1536.Idx → Elt F .bf16, owns (p : Thread nD τ) (pc3 M (o t) (h t)) fullShare X') : sProp 𝕄)
      ⊢ iprop(∃ X'' : (Rect.unit (s := ⟨3, d⟩) (o t) S1x64x1536.size (h t)).shape.Idx → Elt F .bf16,
          owns (p : Thread nD τ) (M.slice (Rect.unit (s := ⟨3, d⟩) (o t) S1x64x1536.size (h t)) (fun _ => rfl)) fullShare X'') := by
    intro t
    iintro ⟨%X', H⟩
    iapply (owns_unsqueeze_ex (p : Thread nD τ)
      (M.slice (Rect.unit (s := ⟨3, d⟩) (o t) S1x64x1536.size (h t)) (fun _ => rfl)) squeezes_S1x64x1536_S64x1536 fullShare X')
    iexact H
  exact (bigSep_mono fun t _ => step t).trans
    (join_slices (p : Thread nD τ) M fullShare (fun t => Rect.unit (s := ⟨3, d⟩) (o t) S1x64x1536.size (h t))
      (fun _ _ => rfl) hd hcov)

end Cut3

theorem a0_disjoint {d : Fin 3 → Nat} (h : ∀ (t : Fin 3 × Fin 4) a, a0 t.1 t.2 a + S1x64x1536.size a ≤ d a) :
    ∀ t t', t ≠ t' → Disjoint (Rect.unit (s := ⟨3, d⟩) (a0 t.1 t.2) S1x64x1536.size (h t)).set
      (Rect.unit (s := ⟨3, d⟩) (a0 t'.1 t'.2) S1x64x1536.size (h t')).set :=
  grid_disjoint (fun t : Fin 3 × Fin 4 => a0 t.1 t.2) h (fun t => t.1.val) (fun t => t.2.val) (fun _ => rfl) (fun _ => rfl)
    fun t t' ne => by
      by_contra hc
      rw [not_or, not_not, not_not] at hc
      exact ne (Prod.ext (Fin.ext hc.1) (Fin.ext hc.2))

theorem a0_cover :
    (Finset.univ : Finset (Fin 3 × Fin 4)).biUnion
        (fun t => (Rect.unit (s := S3x256x1536) (a0 t.1 t.2) S1x64x1536.size (a0_inb t.1 t.2)).set) = Finset.univ :=
  grid_cover 4 (fun t : Fin 3 × Fin 4 => a0 t.1 t.2) (fun t => a0_inb t.1 t.2) (fun t => t.1.val) (fun t => t.2.val)
    (fun _ => rfl) (fun _ => rfl) (fun _ => rfl) rfl rfl rfl fun a ha b hb => ⟨(⟨a, ha⟩, ⟨b, hb⟩), rfl, rfl⟩

theorem a1_disjoint {d : Fin 3 → Nat} (h : ∀ (t : Fin 3 × Fin 2) a, a1 t.1 t.2 a + S1x64x1536.size a ≤ d a) :
    ∀ t t', t ≠ t' → Disjoint (Rect.unit (s := ⟨3, d⟩) (a1 t.1 t.2) S1x64x1536.size (h t)).set
      (Rect.unit (s := ⟨3, d⟩) (a1 t'.1 t'.2) S1x64x1536.size (h t')).set :=
  grid_disjoint (fun t : Fin 3 × Fin 2 => a1 t.1 t.2) h (fun t => t.1.val) (fun t => t.2.val) (fun _ => rfl) (fun _ => rfl)
    fun t t' ne => by
      by_contra hc
      rw [not_or, not_not, not_not] at hc
      exact ne (Prod.ext (Fin.ext hc.1) (Fin.ext hc.2))

theorem a1_cover :
    (Finset.univ : Finset (Fin 3 × Fin 2)).biUnion
        (fun t => (Rect.unit (s := S3x128x1536) (a1 t.1 t.2) S1x64x1536.size (a1_inb t.1 t.2)).set) = Finset.univ :=
  grid_cover 2 (fun t : Fin 3 × Fin 2 => a1 t.1 t.2) (fun t => a1_inb t.1 t.2) (fun t => t.1.val) (fun t => t.2.val)
    (fun _ => rfl) (fun _ => rfl) (fun _ => rfl) rfl rfl rfl fun a ha b hb => ⟨(⟨a, ha⟩, ⟨b, hb⟩), rfl, rfl⟩

theorem o2_disjoint {d : Fin 3 → Nat} (h : ∀ (t : Fin 3) a, o2 t a + S1x64x1536.size a ≤ d a) :
    ∀ t t', t ≠ t' → Disjoint (Rect.unit (s := ⟨3, d⟩) (o2 t) S1x64x1536.size (h t)).set
      (Rect.unit (s := ⟨3, d⟩) (o2 t') S1x64x1536.size (h t')).set :=
  grid_disjoint o2 h (fun t => t.val) (fun _ => 0) (fun _ => rfl) (fun _ => rfl)
    fun t t' ne => .inl fun e => ne (Fin.ext e)

theorem o2_cover :
    (Finset.univ : Finset (Fin 3)).biUnion
        (fun t => (Rect.unit (s := S3x64x1536) (o2 t) S1x64x1536.size (o2_inb t)).set) = Finset.univ :=
  grid_cover 1 o2 o2_inb (fun t => t.val) (fun _ => 0)
    (fun _ => rfl) (fun _ => rfl) (fun _ => rfl) rfl rfl rfl fun a ha b hb => ⟨⟨a, ha⟩, rfl, by omega⟩

theorem cut_rb0 (p : Dev nD) :
    (iprop(∃ f : Buf (Elt F) ((p : Thread nD τ).loc cc0_scratch3), ((p : Thread nD τ).loc cc0_scratch3) ↦{fullShare} f) : sProp 𝕄)
      ⊢ bigSep Finset.univ fun t : Fin 3 × Fin 4 =>
          iprop(∃ X : S64x1536.Idx → Elt F .bf16, owns (p : Thread nD τ) (pc3 rb0M (a0 t.1 t.2) (a0_inb t.1 t.2)) fullShare X) := by
  iintro ⟨%f, H⟩
  ihave H' := (Entails.of_eq (owns_whole (p : Thread nD τ) cc0_scratch3 fullShare f).symm) $$ H
  iapply (cut3 p rb0M (fun t : Fin 3 × Fin 4 => a0 t.1 t.2) (fun t => a0_inb t.1 t.2) (a0_disjoint _) a0_cover f)
  iexact H'

theorem join_rb0 (p : Dev nD) :
    (bigSep Finset.univ fun t : Fin 3 × Fin 4 =>
        iprop(∃ X : S64x1536.Idx → Elt F .bf16, owns (p : Thread nD τ) (pc3 rb0M (a0 t.1 t.2) (a0_inb t.1 t.2)) fullShare X) : sProp 𝕄)
      ⊢ iprop(∃ f : Buf (Elt F) ((p : Thread nD τ).loc cc0_scratch3), ((p : Thread nD τ).loc cc0_scratch3) ↦{fullShare} f) := by
  refine (join3 p rb0M (fun t : Fin 3 × Fin 4 => a0 t.1 t.2) (fun t => a0_inb t.1 t.2) (a0_disjoint _) a0_cover).trans ?_
  iintro ⟨%X, H⟩
  iexists X
  ihave H' := (Entails.of_eq (owns_whole (p : Thread nD τ) cc0_scratch3 fullShare X)) $$ H
  iexact H'

theorem cut_sb0 (p : Dev nD) :
    (iprop(∃ f : Buf (Elt F) ((p : Thread nD τ).loc cc0_scratch2), ((p : Thread nD τ).loc cc0_scratch2) ↦{fullShare} f) : sProp 𝕄)
      ⊢ bigSep Finset.univ fun t : Fin 3 × Fin 4 =>
          iprop(∃ X : S64x1536.Idx → Elt F .bf16, owns (p : Thread nD τ) (pc3 sb0M (a0 t.1 t.2) (a0_inb t.1 t.2)) fullShare X) := by
  iintro ⟨%f, H⟩
  ihave H' := (Entails.of_eq (owns_whole (p : Thread nD τ) cc0_scratch2 fullShare f).symm) $$ H
  iapply (cut3 p sb0M (fun t : Fin 3 × Fin 4 => a0 t.1 t.2) (fun t => a0_inb t.1 t.2) (a0_disjoint _) a0_cover f)
  iexact H'

theorem join_sb0 (p : Dev nD) :
    (bigSep Finset.univ fun t : Fin 3 × Fin 4 =>
        iprop(∃ X : S64x1536.Idx → Elt F .bf16, owns (p : Thread nD τ) (pc3 sb0M (a0 t.1 t.2) (a0_inb t.1 t.2)) fullShare X) : sProp 𝕄)
      ⊢ iprop(∃ f : Buf (Elt F) ((p : Thread nD τ).loc cc0_scratch2), ((p : Thread nD τ).loc cc0_scratch2) ↦{fullShare} f) := by
  refine (join3 p sb0M (fun t : Fin 3 × Fin 4 => a0 t.1 t.2) (fun t => a0_inb t.1 t.2) (a0_disjoint _) a0_cover).trans ?_
  iintro ⟨%X, H⟩
  iexists X
  ihave H' := (Entails.of_eq (owns_whole (p : Thread nD τ) cc0_scratch2 fullShare X)) $$ H
  iexact H'

theorem cut_rb1 (p : Dev nD) :
    (iprop(∃ f : Buf (Elt F) ((p : Thread nD τ).loc cc0_scratch5), ((p : Thread nD τ).loc cc0_scratch5) ↦{fullShare} f) : sProp 𝕄)
      ⊢ bigSep Finset.univ fun t : Fin 3 × Fin 2 =>
          iprop(∃ X : S64x1536.Idx → Elt F .bf16, owns (p : Thread nD τ) (pc3 rb1M (a1 t.1 t.2) (a1_inb t.1 t.2)) fullShare X) := by
  iintro ⟨%f, H⟩
  ihave H' := (Entails.of_eq (owns_whole (p : Thread nD τ) cc0_scratch5 fullShare f).symm) $$ H
  iapply (cut3 p rb1M (fun t : Fin 3 × Fin 2 => a1 t.1 t.2) (fun t => a1_inb t.1 t.2) (a1_disjoint _) a1_cover f)
  iexact H'

theorem join_rb1 (p : Dev nD) :
    (bigSep Finset.univ fun t : Fin 3 × Fin 2 =>
        iprop(∃ X : S64x1536.Idx → Elt F .bf16, owns (p : Thread nD τ) (pc3 rb1M (a1 t.1 t.2) (a1_inb t.1 t.2)) fullShare X) : sProp 𝕄)
      ⊢ iprop(∃ f : Buf (Elt F) ((p : Thread nD τ).loc cc0_scratch5), ((p : Thread nD τ).loc cc0_scratch5) ↦{fullShare} f) := by
  refine (join3 p rb1M (fun t : Fin 3 × Fin 2 => a1 t.1 t.2) (fun t => a1_inb t.1 t.2) (a1_disjoint _) a1_cover).trans ?_
  iintro ⟨%X, H⟩
  iexists X
  ihave H' := (Entails.of_eq (owns_whole (p : Thread nD τ) cc0_scratch5 fullShare X)) $$ H
  iexact H'

theorem cut_sb1 (p : Dev nD) :
    (iprop(∃ f : Buf (Elt F) ((p : Thread nD τ).loc cc0_scratch4), ((p : Thread nD τ).loc cc0_scratch4) ↦{fullShare} f) : sProp 𝕄)
      ⊢ bigSep Finset.univ fun t : Fin 3 × Fin 2 =>
          iprop(∃ X : S64x1536.Idx → Elt F .bf16, owns (p : Thread nD τ) (pc3 sb1M (a1 t.1 t.2) (a1_inb t.1 t.2)) fullShare X) := by
  iintro ⟨%f, H⟩
  ihave H' := (Entails.of_eq (owns_whole (p : Thread nD τ) cc0_scratch4 fullShare f).symm) $$ H
  iapply (cut3 p sb1M (fun t : Fin 3 × Fin 2 => a1 t.1 t.2) (fun t => a1_inb t.1 t.2) (a1_disjoint _) a1_cover f)
  iexact H'

theorem join_sb1 (p : Dev nD) :
    (bigSep Finset.univ fun t : Fin 3 × Fin 2 =>
        iprop(∃ X : S64x1536.Idx → Elt F .bf16, owns (p : Thread nD τ) (pc3 sb1M (a1 t.1 t.2) (a1_inb t.1 t.2)) fullShare X) : sProp 𝕄)
      ⊢ iprop(∃ f : Buf (Elt F) ((p : Thread nD τ).loc cc0_scratch4), ((p : Thread nD τ).loc cc0_scratch4) ↦{fullShare} f) := by
  refine (join3 p sb1M (fun t : Fin 3 × Fin 2 => a1 t.1 t.2) (fun t => a1_inb t.1 t.2) (a1_disjoint _) a1_cover).trans ?_
  iintro ⟨%X, H⟩
  iexists X
  ihave H' := (Entails.of_eq (owns_whole (p : Thread nD τ) cc0_scratch4 fullShare X)) $$ H
  iexact H'

theorem cut_rb2 (p : Dev nD) :
    (iprop(∃ f : Buf (Elt F) ((p : Thread nD τ).loc cc0_scratch7), ((p : Thread nD τ).loc cc0_scratch7) ↦{fullShare} f) : sProp 𝕄)
      ⊢ bigSep Finset.univ fun t : Fin 3 =>
          iprop(∃ X : S64x1536.Idx → Elt F .bf16, owns (p : Thread nD τ) (pc3 rb2M (o2 t) (o2_inb t)) fullShare X) := by
  iintro ⟨%f, H⟩
  ihave H' := (Entails.of_eq (owns_whole (p : Thread nD τ) cc0_scratch7 fullShare f).symm) $$ H
  iapply (cut3 p rb2M (fun t : Fin 3 => o2 t) (fun t => o2_inb t) (o2_disjoint _) o2_cover f)
  iexact H'

theorem join_rb2 (p : Dev nD) :
    (bigSep Finset.univ fun t : Fin 3 =>
        iprop(∃ X : S64x1536.Idx → Elt F .bf16, owns (p : Thread nD τ) (pc3 rb2M (o2 t) (o2_inb t)) fullShare X) : sProp 𝕄)
      ⊢ iprop(∃ f : Buf (Elt F) ((p : Thread nD τ).loc cc0_scratch7), ((p : Thread nD τ).loc cc0_scratch7) ↦{fullShare} f) := by
  refine (join3 p rb2M (fun t : Fin 3 => o2 t) (fun t => o2_inb t) (o2_disjoint _) o2_cover).trans ?_
  iintro ⟨%X, H⟩
  iexists X
  ihave H' := (Entails.of_eq (owns_whole (p : Thread nD τ) cc0_scratch7 fullShare X)) $$ H
  iexact H'

theorem cut_sb2 (p : Dev nD) :
    (iprop(∃ f : Buf (Elt F) ((p : Thread nD τ).loc cc0_scratch6), ((p : Thread nD τ).loc cc0_scratch6) ↦{fullShare} f) : sProp 𝕄)
      ⊢ bigSep Finset.univ fun t : Fin 3 =>
          iprop(∃ X : S64x1536.Idx → Elt F .bf16, owns (p : Thread nD τ) (pc3 sb2M (o2 t) (o2_inb t)) fullShare X) := by
  iintro ⟨%f, H⟩
  ihave H' := (Entails.of_eq (owns_whole (p : Thread nD τ) cc0_scratch6 fullShare f).symm) $$ H
  iapply (cut3 p sb2M (fun t : Fin 3 => o2 t) (fun t => o2_inb t) (o2_disjoint _) o2_cover f)
  iexact H'

theorem join_sb2 (p : Dev nD) :
    (bigSep Finset.univ fun t : Fin 3 =>
        iprop(∃ X : S64x1536.Idx → Elt F .bf16, owns (p : Thread nD τ) (pc3 sb2M (o2 t) (o2_inb t)) fullShare X) : sProp 𝕄)
      ⊢ iprop(∃ f : Buf (Elt F) ((p : Thread nD τ).loc cc0_scratch6), ((p : Thread nD τ).loc cc0_scratch6) ↦{fullShare} f) := by
  refine (join3 p sb2M (fun t : Fin 3 => o2 t) (fun t => o2_inb t) (o2_disjoint _) o2_cover).trans ?_
  iintro ⟨%X, H⟩
  iexists X
  ihave H' := (Entails.of_eq (owns_whole (p : Thread nD τ) cc0_scratch6 fullShare X)) $$ H
  iexact H'

abbrev outRect (r : Fin 24) : Rect S1536x1536 := Rect.unit (s := S1536x1536) (aO r) S64x1536.size (aO_inb r)

theorem out_disjoint (r r' : Fin 24) (ne : r ≠ r') : Disjoint (outRect r).set (outRect r').set := by
  rw [Finset.disjoint_left]
  intro i hi hi'
  have h0 := Rect.mem_set_unit.mp hi (0 : Fin 2)
  have h0' := Rect.mem_set_unit.mp hi' (0 : Fin 2)
  have e : ∀ r : Fin 24, aO r (0 : Fin 2) = r.val * 64 := fun _ => rfl
  have s0 : S64x1536.size (0 : Fin 2) = 64 := rfl
  rw [e, s0] at h0 h0'
  have : r.val ≠ r'.val := fun e => ne (Fin.ext e)
  omega

theorem out_cover : (Finset.univ : Finset (Fin 24)).biUnion (fun r => (outRect r).set) = Finset.univ := by
  ext i
  simp only [Finset.mem_biUnion, Finset.mem_univ, true_and, iff_true]
  have i0 : (i (0 : Fin 2)).val < 1536 := (i (0 : Fin 2)).isLt
  have i1 : (i (1 : Fin 2)).val < 1536 := (i (1 : Fin 2)).isLt
  refine ⟨⟨(i (0 : Fin 2)).val / 64, by omega⟩, Rect.mem_set_unit.mpr fun a => ?_⟩
  rcases (by decide : ∀ a : Fin 2, a = 0 ∨ a = 1) a with rfl | rfl
  · change (i (0 : Fin 2)).val / 64 * 64 ≤ _ ∧ _ < (i (0 : Fin 2)).val / 64 * 64 + 64; omega
  · change 0 ≤ _ ∧ _ < 0 + 1536; omega

theorem cut_out (p : Dev nD) (X : S1536x1536.Idx → Elt F .bf16) :
    (owns (p : Thread nD τ) outM fullShare X : sProp 𝕄)
      ⊢ bigSep Finset.univ fun r : Fin 24 =>
          owns (p : Thread nD τ) (pcO (aO r) (aO_inb r)) fullShare (fun j => X ((outRect r).emb j)) :=
  owns_rects (p : Thread nD τ) outM fullShare outRect (fun _ _ => rfl) out_disjoint out_cover X

theorem cut_out_ex (p : Dev nD) (X : S1536x1536.Idx → Elt F .bf16) :
    (owns (p : Thread nD τ) outM fullShare X : sProp 𝕄)
      ⊢ bigSep Finset.univ fun r : Fin 24 =>
          iprop(∃ X' : S64x1536.Idx → Elt F .bf16, owns (p : Thread nD τ) (pcO (aO r) (aO_inb r)) fullShare X') := by
  have step : ∀ r : Fin 24,
      (owns (p : Thread nD τ) (pcO (aO r) (aO_inb r)) fullShare (fun j => X ((outRect r).emb j)) : sProp 𝕄)
        ⊢ iprop(∃ X' : S64x1536.Idx → Elt F .bf16, owns (p : Thread nD τ) (pcO (aO r) (aO_inb r)) fullShare X') := by
    intro r
    iintro H
    iexists (fun j => X ((outRect r).emb j))
    iexact H
  exact (cut_out p X).trans (bigSep_mono fun r _ => step r)

theorem join_out (p : Dev nD) (Xout : S1536x1536.Idx → Elt F .bf16) (Xs : Fin 24 → S64x1536.Idx → Elt F .bf16)
    (hX : ∀ r, Xs r = fun j => Xout ((outRect r).emb j)) :
    (bigSep Finset.univ fun r : Fin 24 => owns (p : Thread nD τ) (pcO (aO r) (aO_inb r)) fullShare (Xs r) : sProp 𝕄)
      ⊢ owns (p : Thread nD τ) outM fullShare Xout := by
  have e : Xs = fun r j => Xout ((outRect r).emb j) := funext hX
  subst e
  exact owns_of_rects (p : Thread nD τ) outM fullShare outRect (fun _ _ => rfl) out_disjoint out_cover Xout

def deal (p : Dev nD) : Cp ⊕ Fin 3 → Pc
  | .inl k => pcOf k (k.peer p)
  | .inr j => pcOf (.ag 0 j) p

set_option maxRecDepth 100000 in
theorem deal_bijective : ∀ p : Dev nD, Function.Bijective (deal p) := by decide

def hasPc (p : Dev nD) (x : Pc) : sProp 𝕄 :=
  iprop(∃ X : S64x1536.Idx → Elt F .bf16, owns (p : Thread nD τ) x.mem fullShare X)

def allPieces (p : Dev nD) : sProp 𝕄 :=
  iprop((bigSep Finset.univ fun t : Fin 3 × Fin 4 =>
        iprop(∃ X : S64x1536.Idx → Elt F .bf16, owns (p : Thread nD τ) (pc3 rb0M (a0 t.1 t.2) (a0_inb t.1 t.2)) fullShare X))
    ∗ (bigSep Finset.univ fun t : Fin 3 × Fin 2 =>
        iprop(∃ X : S64x1536.Idx → Elt F .bf16, owns (p : Thread nD τ) (pc3 rb1M (a1 t.1 t.2) (a1_inb t.1 t.2)) fullShare X))
    ∗ (bigSep Finset.univ fun t : Fin 3 =>
        iprop(∃ X : S64x1536.Idx → Elt F .bf16, owns (p : Thread nD τ) (pc3 rb2M (o2 t) (o2_inb t)) fullShare X))
    ∗ (bigSep Finset.univ fun r : Fin 24 =>
        iprop(∃ X : S64x1536.Idx → Elt F .bf16, owns (p : Thread nD τ) (pcO (aO r) (aO_inb r)) fullShare X)))

theorem allPieces_eq (p : Dev nD) : (allPieces p : sProp 𝕄) = bigSep (Finset.univ : Finset Pc) (hasPc p) := by
  rw [bigSep_univ_equiv Pc.equiv (hasPc p), bigSep_univ_sum, bigSep_univ_sum, bigSep_univ_sum]
  rfl

abbrev onAxis (a : Fin 3) : Finset Cp := Finset.univ.filter fun k : Cp => k.axis = a.val

theorem univ_eq_axes : (Finset.univ : Finset Cp) = onAxis 0 ∪ (onAxis 1 ∪ onAxis 2) := by decide
theorem axis0_disjoint : Disjoint (onAxis 0) (onAxis 1 ∪ onAxis 2) := by decide
theorem axis1_disjoint : Disjoint (onAxis 1) (onAxis 2) := by decide

theorem dl_sep_assoc_eq (P Q R : sProp 𝕄) : (iprop((P ∗ Q) ∗ R) : sProp 𝕄) = iprop(P ∗ Q ∗ R) :=
  equiv_iff.mp ⟨BI.sep_assoc, BI.sep_assoc'⟩

theorem bigSep_axes (Ψ : Cp → sProp 𝕄) :
    bigSep Finset.univ Ψ = iprop(bigSep (onAxis 0) Ψ ∗ bigSep (onAxis 1) Ψ ∗ bigSep (onAxis 2) Ψ) :=
  (congrArg (fun S => bigSep S Ψ) univ_eq_axes).trans (by rw [bigSep_union axis0_disjoint, bigSep_union axis1_disjoint]; rfl)

theorem dl_part_part : ∀ (a : Fin 3) (c : Dev nD), part a.val (part a.val c) = c := by decide
theorem dl_peer_eq_part : ∀ (k : Cp) (c : Dev nD), k.peer c = part k.axis c := by decide

theorem barPay_part (p : Dev nD) (a : Fin 3) :
    (barPay (F := F) (part a.val p) a : sProp 𝕄) = bigSep (onAxis a) fun k => hasPc p (pcOf k (k.peer p)) := by
  unfold barPay
  refine bigSep_congr fun k hk => ?_
  have hk' : k.axis = a.val := (Finset.mem_filter.mp hk).2
  rw [dl_part_part, dstM_pc, dl_peer_eq_part, hk']
  rfl

theorem deal_pieces (p : Dev nD) :
    (allPieces p : sProp 𝕄)
      = iprop(barPay (F := F) (part 0 p) 0 ∗ barPay (F := F) (part 1 p) 1 ∗ barPay (F := F) (part 2 p) 2
          ∗ bigSep Finset.univ fun j : Fin 3 =>
              iprop(∃ X : S64x1536.Idx → Elt F .bf16, owns (p : Thread nD τ) (srcM (.ag 0 j) p) fullShare X)) := by
  have e0 := barPay_part (F := F) p 0
  have e1 := barPay_part (F := F) p 1
  have e2 := barPay_part (F := F) p 2
  have es : (bigSep Finset.univ fun j : Fin 3 =>
        iprop(∃ X : S64x1536.Idx → Elt F .bf16, owns (p : Thread nD τ) (srcM (.ag 0 j) p) fullShare X) : sProp 𝕄)
      = bigSep Finset.univ fun j : Fin 3 => hasPc p (pcOf (.ag 0 j) p) :=
    bigSep_congr fun j _ => by rw [srcM_ag_pc]; rfl
  rw [show ((0 : Fin 3).val) = 0 from rfl] at e0
  rw [show ((1 : Fin 3).val) = 1 from rfl] at e1
  rw [show ((2 : Fin 3).val) = 2 from rfl] at e2
  rw [e0, e1, e2, es, allPieces_eq, bigSep_univ_equiv (Equiv.ofBijective (deal p) (deal_bijective p)) (hasPc p),
    bigSep_univ_sum, bigSep_axes]
  exact (dl_sep_assoc_eq _ _ _).trans (congrArg (fun Z => iprop(_ ∗ Z)) (dl_sep_assoc_eq _ _ _))

theorem barPay_all (c : Dev nD) :
    (iprop(barPay (F := F) c 0 ∗ barPay (F := F) c 1 ∗ barPay (F := F) c 2) : sProp 𝕄)
      = bigSep (Finset.univ : Finset Cp) fun k =>
          iprop(∃ X : S64x1536.Idx → Elt F .bf16, owns ((k.peer c : Dev nD) : Thread nD τ) (dstM k c) fullShare X) := by
  rw [bigSep_axes]
  have e : ∀ a : Fin 3, (barPay (F := F) c a : sProp 𝕄) = bigSep (onAxis a) fun k =>
      iprop(∃ X : S64x1536.Idx → Elt F .bf16, owns ((k.peer c : Dev nD) : Thread nD τ) (dstM k c) fullShare X) := by
    intro a
    unfold barPay
    refine bigSep_congr fun k hk => ?_
    have hk' : k.axis = a.val := (Finset.mem_filter.mp hk).2
    rw [dl_peer_eq_part, hk']
  rw [e 0, e 1, e 2]

inductive Ps where
  | s0 (j : Fin 3) (q : Fin 4)
  | s1 (j : Fin 3) (q : Fin 2)
  | s2 (j : Fin 3)
  deriving DecidableEq

def Ps.equiv : ((Fin 3 × Fin 4) ⊕ (Fin 3 × Fin 2) ⊕ Fin 3) ≃ Ps where
  toFun
    | .inl (j, q) => .s0 j q
    | .inr (.inl (j, q)) => .s1 j q
    | .inr (.inr j) => .s2 j
  invFun
    | .s0 j q => .inl (j, q)
    | .s1 j q => .inr (.inl (j, q))
    | .s2 j => .inr (.inr j)
  left_inv x := by rcases x with ⟨j, q⟩ | ⟨j, q⟩ | j <;> rfl
  right_inv x := by cases x <;> rfl

instance : Fintype Ps := Fintype.ofEquiv _ Ps.equiv

def Ps.mem : Ps → Memref sig .tc .vmem S64x1536 .bf16
  | .s0 j q => pc3 sb0M (a0 j q) (a0_inb j q)
  | .s1 j q => pc3 sb1M (a1 j q) (a1_inb j q)
  | .s2 j => pc3 sb2M (o2 j) (o2_inb j)

abbrev Red : Type := (Fin 4 × Fin 3) ⊕ (Fin 2 × Fin 3) ⊕ Fin 3

def Red.cp : Red → Cp
  | .inl (i, j) => .rs0 i j
  | .inr (.inl (h, j)) => .rs1 h j
  | .inr (.inr j) => .rs2 j

def psOf (c : Dev nD) : Red → Ps
  | .inl (i, j) => .s0 j ⟨pos j.val i.val c, dl_pos_lt i j c⟩
  | .inr (.inl (h, j)) => .s1 j ⟨if h.val = 0 then 1 - B j.val 2 c else B j.val 2 c, dl_half_lt h j c⟩
  | .inr (.inr j) => .s2 j

set_option maxRecDepth 100000 in
theorem psOf_bijective : ∀ c : Dev nD, Function.Bijective (psOf c) := by decide

theorem srcM_ps (c : Dev nD) (y : Red) : srcM y.cp c = (psOf c y).mem := by
  rcases y with ⟨i, j⟩ | ⟨h, j⟩ | j <;> rfl

def hasPs (p : Dev nD) (x : Ps) : sProp 𝕄 :=
  iprop(∃ X : S64x1536.Idx → Elt F .bf16, owns (p : Thread nD τ) x.mem fullShare X)

def sendPieces (p : Dev nD) : sProp 𝕄 :=
  iprop((bigSep Finset.univ fun t : Fin 3 × Fin 4 =>
        iprop(∃ X : S64x1536.Idx → Elt F .bf16, owns (p : Thread nD τ) (pc3 sb0M (a0 t.1 t.2) (a0_inb t.1 t.2)) fullShare X))
    ∗ (bigSep Finset.univ fun t : Fin 3 × Fin 2 =>
        iprop(∃ X : S64x1536.Idx → Elt F .bf16, owns (p : Thread nD τ) (pc3 sb1M (a1 t.1 t.2) (a1_inb t.1 t.2)) fullShare X))
    ∗ (bigSep Finset.univ fun t : Fin 3 =>
        iprop(∃ X : S64x1536.Idx → Elt F .bf16, owns (p : Thread nD τ) (pc3 sb2M (o2 t) (o2_inb t)) fullShare X)))

theorem sendPieces_eq (p : Dev nD) : (sendPieces p : sProp 𝕄) = bigSep (Finset.univ : Finset Ps) (hasPs p) := by
  rw [bigSep_univ_equiv Ps.equiv (hasPs p), bigSep_univ_sum, bigSep_univ_sum]
  rfl

def isRawCp : Cp → Bool
  | .ag s _ => s.val == 0
  | _ => true
def rawCp : Finset Cp := Finset.univ.filter fun k => isRawCp k = true

def rawEmb : Red ⊕ Fin 3 → Cp
  | .inl y => y.cp
  | .inr j => .ag 0 j

theorem rawEmb_injective : Function.Injective rawEmb := by decide
theorem rawCp_eq : rawCp = Finset.univ.map ⟨rawEmb, rawEmb_injective⟩ := by decide

theorem raw_pieces (p : Dev nD) :
    (iprop(sendPieces p ∗ bigSep Finset.univ fun j : Fin 3 =>
        iprop(∃ X : S64x1536.Idx → Elt F .bf16, owns (p : Thread nD τ) (srcM (.ag 0 j) p) fullShare X)) : sProp 𝕄)
      = bigSep rawCp fun k => iprop(∃ X : S64x1536.Idx → Elt F .bf16, owns (p : Thread nD τ) (srcM k p) fullShare X) := by
  have e : (bigSep Finset.univ fun y : Red => hasPs p ((Equiv.ofBijective (psOf p) (psOf_bijective p)) y) : sProp 𝕄)
      = bigSep Finset.univ fun y : Red =>
          iprop(∃ X : S64x1536.Idx → Elt F .bf16, owns (p : Thread nD τ) (srcM y.cp p) fullShare X) :=
    bigSep_congr fun y _ => by rw [srcM_ps]; rfl
  rw [rawCp_eq, bigSep_map, bigSep_univ_sum, sendPieces_eq,
    bigSep_univ_equiv (Equiv.ofBijective (psOf p) (psOf_bijective p)) (hasPs p), e]
  rfl

theorem dl_owns_ex (c : Thread nD τ) {sp : Space} {sh : Shape} {e : EltTy} (m : Memref sig c.2.kind sp sh e)
    (q : PosShare TreeShare) (X : sh.Idx → Elt F e) :
    (owns c m q X : sProp 𝕄) ⊢ iprop(∃ X' : sh.Idx → Elt F e, owns c m q X') := by
  iintro H; iexists X; iexact H

theorem slab_inb : ∀ (j : Fin 3) a, (![j.val, 0, 0] : Fin 3 → Nat) a + S1x256x1536.size a ≤ S3x256x1536.size a := by
  decide

abbrev slabRect (j : Fin 3) : Rect S3x256x1536 :=
  Rect.unit (s := S3x256x1536) ![j.val, 0, 0] S1x256x1536.size (slab_inb j)

theorem slab_disjoint (j j' : Fin 3) (ne : j ≠ j') : Disjoint (slabRect j).set (slabRect j').set := by
  rw [Finset.disjoint_left]
  intro i hi hi'
  have h0 := Rect.mem_set_unit.mp hi (0 : Fin 3)
  have h0' := Rect.mem_set_unit.mp hi' (0 : Fin 3)
  have e : ∀ j : Fin 3, (![j.val, 0, 0] : Fin 3 → Nat) (0 : Fin 3) = j.val := fun _ => rfl
  have s0 : S1x256x1536.size (0 : Fin 3) = 1 := rfl
  rw [e, s0] at h0 h0'
  have : j.val ≠ j'.val := fun e => ne (Fin.ext e)
  omega

theorem slab_cover : (Finset.univ : Finset (Fin 3)).biUnion (fun j => (slabRect j).set) = Finset.univ := by
  ext i
  simp only [Finset.mem_biUnion, Finset.mem_univ, true_and, iff_true]
  have i0 : (i (0 : Fin 3)).val < 3 := (i (0 : Fin 3)).isLt
  have i1 : (i (1 : Fin 3)).val < 256 := (i (1 : Fin 3)).isLt
  have i2 : (i (2 : Fin 3)).val < 1536 := (i (2 : Fin 3)).isLt
  refine ⟨⟨(i (0 : Fin 3)).val, i0⟩, Rect.mem_set_unit.mpr fun a => ?_⟩
  rcases (by decide : ∀ a : Fin 3, a = 0 ∨ a = 1 ∨ a = 2) a with rfl | rfl | rfl
  · change (i (0 : Fin 3)).val ≤ _ ∧ _ < (i (0 : Fin 3)).val + 1; omega
  · change 0 ≤ _ ∧ _ < 0 + 256; omega
  · change 0 ≤ _ ∧ _ < 0 + 1536; omega

theorem cut_kacc (p : Dev nD) :
    (iprop(∃ f : Buf (Elt F) ((p : Thread nD τ).loc cc0_scratch1), ((p : Thread nD τ).loc cc0_scratch1) ↦{fullShare} f) : sProp 𝕄)
      ⊢ bigSep Finset.univ fun j : Fin 3 =>
          iprop(∃ X : S1x256x1536.Idx → Elt F .f32, owns (p : Thread nD τ) (kaccM.slice (slabRect j) (fun _ => rfl)) fullShare X) := by
  iintro ⟨%f, H⟩
  ihave H' := (Entails.of_eq (owns_whole (p : Thread nD τ) cc0_scratch1 fullShare f).symm) $$ H
  iapply ((owns_rects (p : Thread nD τ) kaccM fullShare slabRect (fun _ _ => rfl) slab_disjoint slab_cover f).trans
    (bigSep_mono fun j _ => dl_owns_ex _ _ _ _))
  iexact H'

theorem join_kacc (p : Dev nD) :
    (bigSep Finset.univ fun j : Fin 3 =>
        iprop(∃ X : S1x256x1536.Idx → Elt F .f32, owns (p : Thread nD τ) (kaccM.slice (slabRect j) (fun _ => rfl)) fullShare X) : sProp 𝕄)
      ⊢ iprop(∃ f : Buf (Elt F) ((p : Thread nD τ).loc cc0_scratch1), ((p : Thread nD τ).loc cc0_scratch1) ↦{fullShare} f) := by
  refine (join_slices (p : Thread nD τ) kaccM fullShare slabRect (fun _ _ => rfl) slab_disjoint slab_cover).trans ?_
  iintro ⟨%X, H⟩
  iexists X
  ihave H' := (Entails.of_eq (owns_whole (p : Thread nD τ) cc0_scratch1 fullShare X)) $$ H
  iexact H'

abbrev redCp : Finset Cp := Finset.univ.filter fun k : Cp => k.isAg = false

theorem redCp_injective : Function.Injective Red.cp := by decide
theorem redCp_eq : redCp = Finset.univ.map ⟨Red.cp, redCp_injective⟩ := by decide

theorem red_pieces (p : Dev nD) :
    (bigSep redCp fun k => iprop(∃ X : S64x1536.Idx → Elt F .bf16, owns (p : Thread nD τ) (srcM k p) fullShare X) : sProp 𝕄)
      = sendPieces p := by
  have e : (bigSep Finset.univ fun y : Red => hasPs p ((Equiv.ofBijective (psOf p) (psOf_bijective p)) y) : sProp 𝕄)
      = bigSep Finset.univ fun y : Red =>
          iprop(∃ X : S64x1536.Idx → Elt F .bf16, owns (p : Thread nD τ) (srcM y.cp p) fullShare X) :=
    bigSep_congr fun y _ => by rw [srcM_ps]; rfl
  rw [redCp_eq, bigSep_map, sendPieces_eq,
    bigSep_univ_equiv (Equiv.ofBijective (psOf p) (psOf_bijective p)) (hasPs p), e]
  rfl

end Deal

end Cert.KernelIdeal.Hand

end
-- ==== Proof.DealEnd.lean ====
import proofs.«900886_g7700000000000887_dist_matmul_k_i_m1536_n1536_k768_v7x_i8_bf16_1_alg».proof.Proof.Deal
import proofs.«900886_g7700000000000887_dist_matmul_k_i_m1536_n1536_k768_v7x_i8_bf16_1_alg».proof.Proof.ProgState
import Idealize.ShloMosaic.Lib.StableHlo.CollectiveRules

noncomputable section

namespace Cert.KernelIdeal.Hand

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

section DealEnd

variable {F : FTy → Type} [FloatOps F]
variable (m : (ℓ : Loc nD τ sig) → Buf (Elt F) ℓ)

local notation "𝕄" => MT nD τ sig Unit (Elt F) ℕ UU ℕ

def Ps.rmem : Ps → Memref sig .tc .vmem S64x1536 .bf16
  | .s0 j q => pc3 rb0M (a0 j q) (a0_inb j q)
  | .s1 j q => pc3 rb1M (a1 j q) (a1_inb j q)
  | .s2 j => pc3 rb2M (o2 j) (o2_inb j)

theorem dstM_ps (c : Dev nD) (y : Red) : dstM y.cp c = (psOf c y).rmem := by
  rcases y with ⟨i, j⟩ | ⟨h, j⟩ | j <;> rfl

theorem pcOf_peer_red : ∀ (y : Red) (p : Dev nD), pcOf y.cp (y.cp.peer p) = pcOf y.cp p := by decide

theorem dstM_peer_red (y : Red) (p : Dev nD) : dstM y.cp (y.cp.peer p) = dstM y.cp p := by
  rw [dstM_pc, dstM_pc, pcOf_peer_red]

def hasPr (p : Dev nD) (x : Ps) : sProp 𝕄 :=
  iprop(∃ X : S64x1536.Idx → Elt F .bf16, owns (p : Thread nD τ) x.rmem fullShare X)

def recvPieces (p : Dev nD) : sProp 𝕄 :=
  iprop((bigSep Finset.univ fun t : Fin 3 × Fin 4 =>
        iprop(∃ X : S64x1536.Idx → Elt F .bf16, owns (p : Thread nD τ) (pc3 rb0M (a0 t.1 t.2) (a0_inb t.1 t.2)) fullShare X))
    ∗ (bigSep Finset.univ fun t : Fin 3 × Fin 2 =>
        iprop(∃ X : S64x1536.Idx → Elt F .bf16, owns (p : Thread nD τ) (pc3 rb1M (a1 t.1 t.2) (a1_inb t.1 t.2)) fullShare X))
    ∗ (bigSep Finset.univ fun t : Fin 3 =>
        iprop(∃ X : S64x1536.Idx → Elt F .bf16, owns (p : Thread nD τ) (pc3 rb2M (o2 t) (o2_inb t)) fullShare X)))

theorem recvPieces_eq (p : Dev nD) : (recvPieces p : sProp 𝕄) = bigSep (Finset.univ : Finset Ps) (hasPr p) := by
  rw [bigSep_univ_equiv Ps.equiv (hasPr p), bigSep_univ_sum, bigSep_univ_sum]
  rfl

theorem red_in_pieces (p : Dev nD) :
    (bigSep redCp fun k => iprop(∃ X : S64x1536.Idx → Elt F .bf16, owns (p : Thread nD τ) (dstM k (k.peer p)) fullShare X) : sProp 𝕄)
      = recvPieces p := by
  have e : (bigSep Finset.univ fun y : Red => hasPr p ((Equiv.ofBijective (psOf p) (psOf_bijective p)) y) : sProp 𝕄)
      = bigSep Finset.univ fun y : Red =>
          iprop(∃ X : S64x1536.Idx → Elt F .bf16, owns (p : Thread nD τ) (dstM y.cp (y.cp.peer p)) fullShare X) :=
    bigSep_congr fun y _ => by rw [dstM_peer_red, dstM_ps]; rfl
  rw [redCp_eq, bigSep_map, recvPieces_eq,
    bigSep_univ_equiv (Equiv.ofBijective (psOf p) (psOf_bijective p)) (hasPr p), e]
  rfl

theorem red_in (p : Dev nD) :
    (bigSep redCp fun k => iprop(∃ X : S64x1536.Idx → Elt F .bf16, owns (p : Thread nD τ) (dstM k (k.peer p)) fullShare X) : sProp 𝕄)
      ⊢ iprop((∃ f : Buf (Elt F) ((p : Thread nD τ).loc cc0_scratch3), ((p : Thread nD τ).loc cc0_scratch3) ↦{fullShare} f)
          ∗ (∃ f : Buf (Elt F) ((p : Thread nD τ).loc cc0_scratch5), ((p : Thread nD τ).loc cc0_scratch5) ↦{fullShare} f)
          ∗ (∃ f : Buf (Elt F) ((p : Thread nD τ).loc cc0_scratch7), ((p : Thread nD τ).loc cc0_scratch7) ↦{fullShare} f)) := by
  rw [red_in_pieces]
  unfold recvPieces
  iintro ⟨H0, H1, H2⟩
  isplitl [H0]
  · iapply (join_rb0 p); iexact H0
  isplitl [H1]
  · iapply (join_rb1 p); iexact H1
  · iapply (join_rb2 p); iexact H2

def finRow (j : Fin 3) (d : Dev nD) : Fin 2 → Nat := ![rowK2 j.val d, 0]

theorem finRow_inb : ∀ (j : Fin 3) (d : Dev nD) a, finRow j d a + S64x1536.size a ≤ S1536x1536.size a := by decide
theorem rowK2_facts : ∀ (j : Fin 3) (d : Dev nD), rowK2 j.val d % 64 = 0 ∧ rowK2 j.val d / 512 = j.val ∧ rowK2 j.val d < 1536 := by
  decide
theorem pieceOf_lt : ∀ (j : Fin 3) (d : Dev nD), rowK2 j.val d / 64 < 24 := by decide

def pieceOf (j : Fin 3) (d : Dev nD) : Fin 24 := ⟨rowK2 j.val d / 64, pieceOf_lt j d⟩

theorem owner_first : ∀ (j : Fin 3) (d : Dev nD),
    ((List.finRange 8).find? fun d' : Dev nD => rowK2 j.val d' = rowK2 j.val d).getD 0 = d := by decide

theorem outFin_piece (j : Fin 3) (d : Dev nD) :
    (fun x => outFin m ((outRect (pieceOf j d)).emb x)) = fin m d j := by
  obtain ⟨f1, f2, f3⟩ := rowK2_facts j d
  funext x
  have x0 : (x (0 : Fin 2)).val < 64 := (x (0 : Fin 2)).isLt
  have key : ∀ i : S1536x1536.Idx, (i (0 : Fin 2)).val = rowK2 j.val d + (x (0 : Fin 2)).val → (i (1 : Fin 2)).val = (x (1 : Fin 2)).val →
      outFin m i = fin m d j x := by
    intro i h0 h1
    unfold outFin
    have e1 : ownerOf (i 0).val = d := by
      unfold ownerOf
      rw [show (i 0).val / 512 = j.val by omega, show (i 0).val / 64 * 64 = rowK2 j.val d by omega]
      exact owner_first j d
    have e2 : ∀ hh : (i 0).val / 512 < 3, (⟨(i 0).val / 512, hh⟩ : Fin 3) = j := fun hh => Fin.ext (by show (i 0).val / 512 = j.val; omega)
    have e3 : ∀ hh : (i 0).val % 64 < 64, (ix2 (⟨(i 0).val % 64, hh⟩ : Fin 64) (i 1) : S64x1536.Idx) = x := by
      intro hh
      rw [eq_ix2 x]
      congr 1
      · exact Fin.ext (by show (i 0).val % 64 = (x 0).val; omega)
      · exact Fin.ext h1
    rw [e1, e2, e3]
  refine key _ ?_ ?_
  · show aO (pieceOf j d) (0 : Fin 2) + 1 * (x (0 : Fin 2)).val = _
    show rowK2 j.val d / 64 * 64 + 1 * (x (0 : Fin 2)).val = _
    omega
  · show aO (pieceOf j d) (1 : Fin 2) + 1 * (x (1 : Fin 2)).val = _
    show 0 + 1 * (x (1 : Fin 2)).val = _
    omega

theorem owns_pcO_congr (c : Dev nD) {o o' : Fin 2 → Nat} (e : o = o') (h : ∀ a, o a + S64x1536.size a ≤ S1536x1536.size a)
    (h' : ∀ a, o' a + S64x1536.size a ≤ S1536x1536.size a) (q : PosShare TreeShare) {X X' : S64x1536.Idx → Elt F .bf16} (eX : X = X') :
    (owns (c : Thread nD τ) (pcO o h) q X : sProp 𝕄) = owns (c : Thread nD τ) (pcO o' h') q X' := by
  subst e eX; rfl

theorem finRow_piece : ∀ (j : Fin 3) (d : Dev nD), finRow j d = aO (pieceOf j d) := by decide

theorem pieceOf_bijective : Function.Bijective (fun jd : Fin 3 × Dev nD => pieceOf jd.1 jd.2) := by decide

theorem out_of_fin (c : Dev nD) :
    (bigSep Finset.univ fun jd : Fin 3 × Dev nD =>
        owns (c : Thread nD τ) (pcO (finRow jd.1 jd.2) (finRow_inb jd.1 jd.2)) fullShare (fin m jd.2 jd.1) : sProp 𝕄)
      ⊢ owns (c : Thread nD τ) outM fullShare (outFin m) := by
  refine Entails.trans (Entails.of_eq ?_)
    (join_out c (outFin m) (fun r x => outFin m ((outRect r).emb x)) (fun _ => rfl))
  rw [bigSep_univ_equiv (Equiv.ofBijective _ pieceOf_bijective)
    (fun r : Fin 24 => (owns (c : Thread nD τ) (pcO (aO r) (aO_inb r)) fullShare (fun x => outFin m ((outRect r).emb x)) : sProp 𝕄))]
  refine bigSep_congr fun jd _ => ?_
  exact owns_pcO_congr c (finRow_piece jd.1 jd.2) _ _ fullShare (outFin_piece m jd.1 jd.2).symm

def agCp : Finset Cp := Finset.univ.filter fun k : Cp => k.isAg = true
def agLate : Finset Cp := Finset.univ.filter fun k : Cp => k.isAg = true ∧ isFwd k = false

def agDev (s : Fin 7) (j : Fin 3) (c : Dev nD) : Dev nD :=
  if s.val = 0 ∨ s.val = 1 ∨ s.val = 3 then c
  else if s.val = 2 ∨ s.val = 4 then pt j.val 2 c
  else if s.val = 5 then pt j.val 1 c
  else pt j.val 2 (pt j.val 1 c)

theorem VA_dev (c : Dev nD) (s : Fin 7) (j : Fin 3) : VA m c s j = fin m (agDev s j c) j := by
  unfold VA agDev
  split_ifs <;> rfl

theorem oA_dev : ∀ (s : Fin 7) (j : Fin 3) (c : Dev nD), oA s j c = finRow j (agDev s j c) := by decide

def finPc (c : Dev nD) (j : Fin 3) (d : Dev nD) (q : PosShare TreeShare) : sProp 𝕄 :=
  owns (c : Thread nD τ) (pcO (finRow j d) (finRow_inb j d)) q (fin m d j)

theorem sendPay_ag (c : Dev nD) (s : Fin 7) (j : Fin 3) :
    (sendPay (V m) c (.ag s j) : sProp 𝕄) = finPc m c j (agDev s j c) (Cp.shr (.ag s j)) := by
  unfold sendPay finPc
  exact owns_pcO_congr c (oA_dev s j c) _ _ _ (VA_dev m c s j)

theorem recvPay_ag (c : Dev nD) (s : Fin 7) (j : Fin 3) :
    (recvPay (V m) c (.ag s j) : sProp 𝕄) = finPc m c j (agDev s j ((Cp.ag s j).peer c)) fullShare := by
  unfold recvPay finPc
  exact owns_pcO_congr c (oA_dev s j ((Cp.ag s j).peer c)) _ _ _ (VA_dev m ((Cp.ag s j).peer c) s j)

theorem finPc_join (c : Dev nD) (j : Fin 3) (d : Dev nD) (q : PosShare TreeShare) :
    (iprop(finPc m c j d q.left ∗ finPc m c j d q.right) : sProp 𝕄) ⊢ finPc m c j d q := by
  unfold finPc
  exact (owns_share (Val := Elt F) (c : Thread nD τ) (pcO (finRow j d) (finRow_inb j d)) (PosShare.mem_left_op_right q)
    (show S64x1536.Idx → Elt F .bf16 from fin m d j)).2

theorem merge_split (c : Dev nD) (j : Fin 3) (d0 d2 d5 d6 r3 r4 r5 r6 : Dev nD) :
    (iprop((finPc m c j d0 fullShare.left ∗ finPc m c j d0 fullShare.right.left ∗ finPc m c j d2 fullShare.left
          ∗ finPc m c j d0 fullShare.right.right ∗ finPc m c j d2 fullShare.right ∗ finPc m c j d5 fullShare ∗ finPc m c j d6 fullShare)
        ∗ (finPc m c j r3 fullShare ∗ finPc m c j r4 fullShare ∗ finPc m c j r5 fullShare ∗ finPc m c j r6 fullShare)) : sProp 𝕄)
      ⊢ iprop(finPc m c j d0 fullShare ∗ finPc m c j d2 fullShare ∗ finPc m c j d5 fullShare ∗ finPc m c j d6 fullShare
          ∗ finPc m c j r3 fullShare ∗ finPc m c j r4 fullShare ∗ finPc m c j r5 fullShare ∗ finPc m c j r6 fullShare) := by
  iintro ⟨⟨S0, S1, S2, S3, S4, S5, S6⟩, ⟨R3, R4, R5, R6⟩⟩
  ihave Hr := (finPc_join m c j d0 fullShare.right) $$ [S1 S3]
  · isplitl [S1]
    · iexact S1
    · iexact S3
  ihave H0 := (finPc_join m c j d0 fullShare) $$ [S0 Hr]
  · isplitl [S0]
    · iexact S0
    · iexact Hr
  ihave H2 := (finPc_join m c j d2 fullShare) $$ [S2 S4]
  · isplitl [S2]
    · iexact S2
    · iexact S4
  isplitl [H0]; · iexact H0
  isplitl [H2]; · iexact H2
  isplitl [S5]; · iexact S5
  isplitl [S6]; · iexact S6
  isplitl [R3]; · iexact R3
  isplitl [R4]; · iexact R4
  isplitl [R5]; · iexact R5
  iexact R6

def devList (c : Dev nD) (j : Fin 3) : List (Dev nD) :=
  [agDev 0 j c, agDev 2 j c, agDev 5 j c, agDev 6 j c, agDev 3 j ((Cp.ag 3 j).peer c), agDev 4 j ((Cp.ag 4 j).peer c),
    agDev 5 j ((Cp.ag 5 j).peer c), agDev 6 j ((Cp.ag 6 j).peer c)]

theorem devList_univ : ∀ (c : Dev nD) (j : Fin 3), (Finset.univ : Finset (Dev nD)) = (devList c j).toFinset := by decide
theorem devList_nodup : ∀ (c : Dev nD) (j : Fin 3), (devList c j).Nodup := by decide

def agEmb : Fin 3 × Fin 7 → Cp := fun js => .ag js.2 js.1
theorem agEmb_injective : Function.Injective agEmb := by decide
theorem agCp_eq : agCp = Finset.univ.map ⟨agEmb, agEmb_injective⟩ := by decide

def lateEmb : Fin 3 × Fin 4 → Cp := fun jt => .ag ⟨jt.2.val + 3, by omega⟩ jt.1
theorem lateEmb_injective : Function.Injective lateEmb := by decide
theorem agLate_eq : agLate = Finset.univ.map ⟨lateEmb, lateEmb_injective⟩ := by decide

theorem bigSep_fin7 (Φ : Fin 7 → sProp 𝕄) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin4 (Φ : Fin 4 → sProp 𝕄) :
    bigSep Finset.univ Φ = iprop(Φ 0 ∗ Φ 1 ∗ Φ 2 ∗ Φ 3) :=
  bigSep_univ_eq_bigSepL [0, 1, 2, 3] (by decide) (by decide) Φ

theorem split_end (c : Dev nD) (j : Fin 3) :
    (iprop((bigSep Finset.univ fun s : Fin 7 => sendPay (V m) c (.ag s j))
        ∗ (bigSep Finset.univ fun t : Fin 4 => recvPay (V m) c (lateEmb (j, t)))) : sProp 𝕄)
      ⊢ bigSep Finset.univ fun d : Dev nD => finPc m c j d fullShare := by
  rw [bigSep_fin7, bigSep_fin4, bigSep_univ_eq_bigSepL (devList c j) (devList_univ c j) (devList_nodup c j)]
  rw [sendPay_ag, sendPay_ag, sendPay_ag, sendPay_ag, sendPay_ag, sendPay_ag, sendPay_ag]
  have r3 : (recvPay (V m) c (lateEmb (j, 0)) : sProp 𝕄) = finPc m c j (agDev 3 j ((Cp.ag 3 j).peer c)) fullShare := recvPay_ag m c 3 j
  have r4 : (recvPay (V m) c (lateEmb (j, 1)) : sProp 𝕄) = finPc m c j (agDev 4 j ((Cp.ag 4 j).peer c)) fullShare := recvPay_ag m c 4 j
  have r5 : (recvPay (V m) c (lateEmb (j, 2)) : sProp 𝕄) = finPc m c j (agDev 5 j ((Cp.ag 5 j).peer c)) fullShare := recvPay_ag m c 5 j
  have r6 : (recvPay (V m) c (lateEmb (j, 3)) : sProp 𝕄) = finPc m c j (agDev 6 j ((Cp.ag 6 j).peer c)) fullShare := recvPay_ag m c 6 j
  rw [r3, r4, r5, r6]
  exact merge_split m c j (agDev 0 j c) (agDev 2 j c) (agDev 5 j c) (agDev 6 j c) _ _ _ _

theorem out_end (c : Dev nD) :
    (iprop((bigSep agCp fun k => sendPay (V m) c k) ∗ (bigSep agLate fun k => recvPay (V m) c k)) : sProp 𝕄)
      ⊢ owns (c : Thread nD τ) outM fullShare (outFin m) := by
  rw [agCp_eq, agLate_eq, bigSep_map, bigSep_map, bigSep_univ_prod, bigSep_univ_prod]
  refine BI.Entails.trans (Entails.of_eq (bigSep_sep Finset.univ
    (fun j : Fin 3 => (bigSep Finset.univ fun s : Fin 7 => sendPay (V m) c (.ag s j) : sProp 𝕄))
    (fun j : Fin 3 => (bigSep Finset.univ fun t : Fin 4 => recvPay (V m) c (lateEmb (j, t)) : sProp 𝕄))).symm) ?_
  refine (bigSep_mono fun j _ => split_end m c j).trans ?_
  have e : (bigSep Finset.univ fun j : Fin 3 => bigSep Finset.univ fun d : Dev nD => finPc m c j d fullShare : sProp 𝕄)
      = bigSep Finset.univ fun jd : Fin 3 × Dev nD =>
          owns (c : Thread nD τ) (pcO (finRow jd.1 jd.2) (finRow_inb jd.1 jd.2)) fullShare (fin m jd.2 jd.1) := by
    rw [bigSep_univ_prod]; rfl
  rw [e]
  exact out_of_fin m c

end DealEnd

end Cert.KernelIdeal.Hand

end
-- ==== Proof.BodyEnds.lean ====
import proofs.«900886_g7700000000000887_dist_matmul_k_i_m1536_n1536_k768_v7x_i8_bf16_1_alg».proof.Proof.ProgState
import proofs.«900886_g7700000000000887_dist_matmul_k_i_m1536_n1536_k768_v7x_i8_bf16_1_alg».proof.Proof.Dats
import proofs.«900886_g7700000000000887_dist_matmul_k_i_m1536_n1536_k768_v7x_i8_bf16_1_alg».proof.Proof.SchedTab
import proofs.«900886_g7700000000000887_dist_matmul_k_i_m1536_n1536_k768_v7x_i8_bf16_1_alg».proof.Proof.Tables
import proofs.«900886_g7700000000000887_dist_matmul_k_i_m1536_n1536_k768_v7x_i8_bf16_1_alg».proof.Proof.Pieces
import proofs.«900886_g7700000000000887_dist_matmul_k_i_m1536_n1536_k768_v7x_i8_bf16_1_alg».proof.Proof.Deal
import proofs.«900886_g7700000000000887_dist_matmul_k_i_m1536_n1536_k768_v7x_i8_bf16_1_alg».proof.Proof.DealEnd
import Idealize.ShloMosaic.Lib.StableHlo.CollectiveRules

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Ends

variable {F : FTy → Type} [FloatOps F]
variable (m : (ℓ : Loc nD τ sig) → Buf (Elt F) ℓ) (ρ : Dev nD → PrngReg)

local notation "𝕄" => MT nD τ sig Unit (Elt F) ℕ UU ℕ

abbrev t₀ : Fin cfg0.N := t0_0

def bodyPre (c : Dev nD) : sProp 𝕄 :=
  iprop(Φ₀ m c ∗ (dats m ρ 0 c).owesAt () t₀.castSucc
    ∗ owns (c : Thread nD τ) aM fullShare (aBlk m c) ∗ owns (c : Thread nD τ) bM fullShare (bBlk m c)
    ∗ ∃ X, owns (c : Thread nD τ) outM fullShare X)

def bodyPost (c : Dev nD) : sProp 𝕄 :=
  iprop(Φ₁ c ∗ (dats m ρ 0 c).owesAt () t₀.succ
    ∗ owns (c : Thread nD τ) aM fullShare (aBlk m c) ∗ owns (c : Thread nD τ) bM fullShare (bBlk m c)
    ∗ owns (c : Thread nD τ) outM fullShare (outFin m))

namespace BodyEnds

instance records_persistent (K : Dev nD × CellIx → ℕ) : BI.Persistent (records (V m) K : sProp 𝕄) := by unfold records; infer_instance

theorem records_inv (K : Dev nD × CellIx → ℕ) (cx : Dev nD × CellIx) :
    (records (V m) K : sProp 𝕄) ⊢ cellInv ER (Rd (V m)) (K cx) (kcell cx) := by
  unfold records
  exact BI.Entails.trans (BI.Entails.trans BI.sep_and and_elimL)
    (bigSep_elim (Φ := fun cx : Dev nD × CellIx => cellInv ER (Rd (V m)) (K cx) (kcell cx)) (Finset.mem_univ cx))
theorem records_reached (K : Dev nD × CellIx → ℕ) (cx : Dev nD × CellIx) :
    (records (V m) K : sProp 𝕄) ⊢ reached ER (kcell cx) 0 := by
  unfold records
  exact BI.Entails.trans (BI.Entails.trans BI.sep_and and_elimR)
    (bigSep_elim (Φ := fun cx : Dev nD × CellIx => reached ER (kcell cx) 0) (Finset.mem_univ cx))

def cellEquiv : Unit ⊕ (Cp ⊕ Cp) ≃ CellIx where
  toFun
    | .inl _ => none
    | .inr (.inl k) => some (false, k)
    | .inr (.inr k) => some (true, k)
  invFun
    | none => .inl ()
    | some (false, k) => .inr (.inl k)
    | some (true, k) => .inr (.inr k)
  left_inv x := by rcases x with _ | k | k <;> rfl
  right_inv x := by rcases x with _ | ⟨_ | _, k⟩ <;> rfl

theorem cells_split (Φ : CellIx → sProp 𝕄) :
    bigSep Finset.univ Φ = iprop(Φ none ∗ (bigSep Finset.univ fun k : Cp => Φ (some (false, k))) ∗ bigSep Finset.univ fun k : Cp => Φ (some (true, k))) := by
  rw [bigSep_univ_equiv cellEquiv, bigSep_univ_sum, bigSep_univ_sum, bigSep_univ_of_subsingleton ()]
  rfl

theorem positions_eq (c : Dev nD) : (positions c : sProp 𝕄)
    = iprop(atPos ER (barCell c) 0 ∅ 0 ∗ (bigSep Finset.univ fun k : Cp => atPos ER (sendCell c k) 0 ∅ 0)
        ∗ bigSep Finset.univ fun k : Cp => atPos ER (recvCell c k) 0 ∅ 0) := by
  unfold positions; rw [cells_split]

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
theorem hz : (![0, 0] : Fin 2 → Nat) = fun _ => 0 := funext fun a => by fin_cases a <;> rfl

theorem stAt7 (K : Dev nD × CellIx → ℕ) (c : Dev nD) : StAt m K c 7 = St m K c 0 raw0 ∅ ∅ ∅ ∅ ∅ := by
  unfold StAt
  rw [show tAt 7 = 0 by decide +kernel, show rawAt 7 = raw0 by decide +kernel, show srcAt 7 = ∅ by decide +kernel,
    show dstAt 7 = ∅ by decide +kernel, show swAt 7 = ∅ by decide +kernel, show rwAt 7 = ∅ by decide +kernel, show ksAt 7 = ∅ by decide +kernel]

theorem deal_scratch (c : Dev nD) (X : S1536x1536.Idx → Elt F .bf16) :
    (iprop((∃ f : Buf (Elt F) ((c : Thread nD τ).loc cc0_scratch3), ((c : Thread nD τ).loc cc0_scratch3) ↦{fullShare} f)
        ∗ (∃ f : Buf (Elt F) ((c : Thread nD τ).loc cc0_scratch5), ((c : Thread nD τ).loc cc0_scratch5) ↦{fullShare} f)
        ∗ (∃ f : Buf (Elt F) ((c : Thread nD τ).loc cc0_scratch7), ((c : Thread nD τ).loc cc0_scratch7) ↦{fullShare} f)
        ∗ owns (c : Thread nD τ) outM fullShare X) : sProp 𝕄)
      ⊢ iprop(barPay (F := F) (part 0 c) 0 ∗ barPay (F := F) (part 1 c) 1 ∗ barPay (F := F) (part 2 c) 2
          ∗ bigSep Finset.univ fun j : Fin 3 => rawPiece c (.ag 0 j)) := by
  unfold rawPiece
  iintro ⟨H3, H5, H7, Hout⟩
  ihave Hrb0 := (cut_rb0 c) $$ H3
  ihave Hrb1 := (cut_rb1 c) $$ H5
  ihave Hrb2 := (cut_rb2 c) $$ H7
  ihave Ho := (cut_out_ex c X) $$ Hout
  iapply (Entails.of_eq (deal_pieces (F := F) c))
  unfold allPieces
  isplitl [Hrb0]; · iexact Hrb0
  isplitl [Hrb1]; · iexact Hrb1
  isplitl [Hrb2]; · iexact Hrb2
  iexact Ho

theorem rawCp_raw0 : rawCp = raw0 := by
  have h : isRawCp = isRaw0 := funext fun k => by cases k <;> rfl
  unfold rawCp raw0; rw [h]

theorem raw_scratch (c : Dev nD) :
    (iprop((∃ f : Buf (Elt F) ((c : Thread nD τ).loc cc0_scratch2), ((c : Thread nD τ).loc cc0_scratch2) ↦{fullShare} f)
        ∗ (∃ f : Buf (Elt F) ((c : Thread nD τ).loc cc0_scratch4), ((c : Thread nD τ).loc cc0_scratch4) ↦{fullShare} f)
        ∗ (∃ f : Buf (Elt F) ((c : Thread nD τ).loc cc0_scratch6), ((c : Thread nD τ).loc cc0_scratch6) ↦{fullShare} f)
        ∗ bigSep Finset.univ fun j : Fin 3 => rawPiece c (.ag 0 j)) : sProp 𝕄)
      ⊢ bigSep raw0 (fun k => rawPiece (F := F) c k) := by
  unfold rawPiece
  iintro ⟨H2, H4, H6, Hown⟩
  ihave Hsb0 := (cut_sb0 c) $$ H2
  ihave Hsb1 := (cut_sb1 c) $$ H4
  ihave Hsb2 := (cut_sb2 c) $$ H6
  rw [← rawCp_raw0]
  iapply (Entails.of_eq (raw_pieces (F := F) c))
  unfold sendPieces
  isplitl [Hsb0 Hsb1 Hsb2]
  · isplitl [Hsb0]; · iexact Hsb0
    isplitl [Hsb1]; · iexact Hsb1
    iexact Hsb2
  iexact Hown

theorem slabs_scratch (c : Dev nD) :
    (iprop(∃ f : Buf (Elt F) ((c : Thread nD τ).loc cc0_scratch1), ((c : Thread nD τ).loc cc0_scratch1) ↦{fullShare} f) : sProp 𝕄)
      ⊢ bigSep Finset.univ fun j : Fin 3 => iprop(∃ X, owns (c : Thread nD τ) (slabM j) fullShare X) := cut_kacc c

theorem dst_all (c : Dev nD) :
    (iprop(barPay (F := F) c 0 ∗ barPay (F := F) c 1 ∗ barPay (F := F) c 2) : sProp 𝕄) ⊢ bigSep Finset.univ (dstPiece (F := F) c) :=
  Entails.of_eq (barPay_all c)

abbrev rB : Rect S768x1536 := Rect.unit (s := S768x1536) ![0, 0] S768x1536.size inb_S768x1536_S768x1536_0_0

omit [FloatOps F] in
theorem read_b (f : (cc0_stg1_0 : Ref sig .tc).ty.Contents (Elt F)) :
    (bM : Memref sig .tc .vmem S768x1536 .f32).view.readAt (Elt F) rB.toLoadRect f = f :=
  Memref.readAt_unit_zero (Elt F) cc0_stg1_0 hz _ f
omit [FloatOps F] in
theorem write_bbf (f w : (cc0_scratch0 : Ref sig .tc).ty.Contents (Elt F)) :
    ((bbfM : Memref sig .tc .vmem S768x1536 .bf16).access rB : View sig .tc _ _ _).write (Elt F) f w Finset.univ = w :=
  Memref.write_access_unit_zero_univ (Elt F) cc0_scratch0 hz _ f w

end BodyEnds

open BodyEnds

set_option maxHeartbeats 1600000 in

theorem part1 (c : Dev nD) (Q : (Σ' (d0 : Dev nD) (v6 : BitVec 32) (v8 : BitVec 32) (v10 : BitVec 32) (v11 : BitVec 32) (v12 : BitVec 32), BitVec 32) → sProp 𝕄) :
    iprop(bodyPre m ρ c ∗ (∀ v6 v8 v10 v11 v12 v13, (∃ K, StAt m K c 7) -∗ Q ⟨c, v6, v8, v10, v11, v12, v13⟩))
      ⊢ wp frame (wpE (defs₀ (F := F)) 𝒱₀ (c : Thread nD τ) none) Set.univ
          (k0_part1 aM (Memref.isWhole_whole _) bM (Memref.isWhole_whole _) outM (Memref.isWhole_whole _)
            bbfM (Memref.isWhole_whole _) kaccM (Memref.isWhole_whole _) sb0M (Memref.isWhole_whole _) rb0M (Memref.isWhole_whole _)
            sb1M (Memref.isWhole_whole _) rb1M (Memref.isWhole_whole _) sb2M (Memref.isWhole_whole _) rb2M (Memref.isWhole_whole _)
            cc0_scratch8 cc0_scratch9 cc0_scratch10 cc0_scratch11) Q := by
  simp only [k0_part1_eq_skeleton]; unfold k0_part1_skel
  simp only [semSignalWord, semWaitWord, Prog.lift, Prog.bind_op, Prog.bind_ret, Prog.pure_eq_ret, wp_deviceId]
  simp only [dev_1 c, dev_2 c, dev_3 c]
  unfold bodyPre Φ₀ start ghost barToks creds scratchAny Dat.owesAt Pipeline.owesWithin
  rw [positions_eq, bigSep_W0, show (dats m ρ 0 c).owed t₀.castSucc = O₀ c from rfl]
  iintro ⟨⟨⟨⟨⟨%K, #Hrec, ⟨HatB, HatS, HatR⟩, ⟨Ht0, Ht1, Ht2⟩, Hpt⟩, ⟨HcB, HcR⟩, #Hlev⟩, ⟨H0, H1, H2, H3, H4, H5, H6, H7⟩⟩,
    ⟨%W, %hW, HO⟩, Ha, Hb, ⟨%X, Hout⟩⟩, Hk⟩

  ihave Hd := (deal_scratch c X) $$ [H3 H5 H7 Hout]
  · isplitl [H3]; · iexact H3
    isplitl [H5]; · iexact H5
    isplitl [H7]; · iexact H7
    iexact Hout
  icases Hd with ⟨Hp0, Hp1, Hp2, Hown⟩
  ihave Hraw := (raw_scratch c) $$ [H2 H4 H6 Hown]
  · isplitl [H2]; · iexact H2
    isplitl [H4]; · iexact H4
    isplitl [H6]; · iexact H6
    iexact Hown
  ihave Hslab := (slabs_scratch c) $$ H1

  iapply (Rounds.wp_signal 𝒱₀ ER (Rd (V m)) (c : Thread nD τ) none (dst := (part 0 c : Thread nD τ)) (κ := K (part 0 c, none))
      (d := (0 : Fin 3)) (by rw [duties_bar]; exact Finset.mem_univ _) ((amount_bar (V m) (part 0 c) 0).trans (by decide)) () (O₁ c) (O₀_peel0 c))
    $$ [HO Ht0 Hp0]
  · isplitr; · iapply (records_inv m K (part 0 c, none)); iexact Hrec
    isplitl [HO]; · iexact HO
    isplitl [Ht0]; · iexact Ht0
    isplitl [Hp0]; · rw [payload_bar]; iexact Hp0
    iapply (records_reached m K (part 0 c, none)); iexact Hrec
  iintro HO

  iapply (Rounds.wp_signal 𝒱₀ ER (Rd (V m)) (c : Thread nD τ) none (dst := (part 1 c : Thread nD τ)) (κ := K (part 1 c, none))
      (d := (1 : Fin 3)) (by rw [duties_bar]; exact Finset.mem_univ _) ((amount_bar (V m) (part 1 c) 1).trans (by decide)) () (O₂ c) (O₀_peel1 c))
    $$ [HO Ht1 Hp1]
  · isplitr; · iapply (records_inv m K (part 1 c, none)); iexact Hrec
    isplitl [HO]; · iexact HO
    isplitl [Ht1]; · iexact Ht1
    isplitl [Hp1]; · rw [payload_bar]; iexact Hp1
    iapply (records_reached m K (part 1 c, none)); iexact Hrec
  iintro HO

  iapply (Rounds.wp_signal 𝒱₀ ER (Rd (V m)) (c : Thread nD τ) none (dst := (part 2 c : Thread nD τ)) (κ := K (part 2 c, none))
      (d := (2 : Fin 3)) (by rw [duties_bar]; exact Finset.mem_univ _) ((amount_bar (V m) (part 2 c) 2).trans (by decide)) () (owedAt c 0) (O₀_peel2 c))
    $$ [HO Ht2 Hp2]
  · isplitr; · iapply (records_inv m K (part 2 c, none)); iexact Hrec
    isplitl [HO]; · iexact HO
    isplitl [Ht2]; · iexact Ht2
    isplitl [Hp2]; · rw [payload_bar]; iexact Hp2
    iapply (records_reached m K (part 2 c, none)); iexact Hrec
  iintro HO

  ihave Hb' := (Entails.of_eq (owns_whole_eq c cc0_stg1_0 (bBlk m c))) $$ Hb
  icases Hb' with ⟨%fb, %hfb, Hb⟩
  subst hfb
  iapply (wp_load 𝒱₀ (c : Thread nD τ) none Set.univ (m := bM) (Finset.subset_univ _)) $$ Hb; iintro Hb
  rw [read_b]
  icases H0 with ⟨%f0, H0⟩
  iapply (wp_load 𝒱₀ (c : Thread nD τ) none Set.univ (m := bbfM) (Finset.subset_univ _)) $$ H0; iintro H0
  iapply (wp_store 𝒱₀ (c : Thread nD τ) none Set.univ (m := bbfM) (r := rB) (Mk := Finset.univ) (Finset.subset_univ _)) $$ H0; iintro H0
  rw [write_bbf]

  iapply (Rounds.wp_wait_rest_token 𝒱₀ ER (Rd (V m)) (c : Thread nD τ) none (κ := K (c, none))
      (wpE_semWait_eq 𝒱₀ (c : Thread nD τ) none Set.univ) (Set.mem_univ _) () (O := owedAt c 0) (W := W) (R := 0) (m := 0) (T := ∅)
      (by rw [expect_bar]; decide)) $$ [HcB HO HatB]
  · isplitr; · iapply (records_inv m K (c, none)); iexact Hrec
    isplitl [HcB]; · iexact HcB
    isplitl [HO]; · iexact HO
    isplitr; · iapply (mayWait_bar c); iexact Hlev
    iexact HatB
  iintro ⟨HO, -, -, Hpay⟩
  ihave Hp := (Entails.of_eq (rest_bar (V m) c)) $$ Hpay
  ihave Hdst := (dst_all c) $$ Hp
  rw [wp_ret]; imodintro
  iapply Hk
  iexists K
  rw [stAt7]
  unfold St posAt credAt locals
  simp only [Finset.sdiff_empty, bigSep_empty, rest_zero, Finset.sdiff_self]
  isplitr; · iexact Hrec
  isplitr; · iexact Hlev
  isplitl [HatS HatR]
  · isplitl [HatS]; · iexact HatS
    isplitr; · iempintro
    isplitl [HatR]; · iexact HatR
    iempintro
  isplitl [HcR]
  · isplitr; · iempintro
    iexact HcR
  isplitl [Hpt]; · iexact Hpt
  isplitl [HO]; · iexists _; iexact HO
  isplitl [Hdst]; · iexact Hdst
  isplitl [Hraw]; · iexact Hraw
  isplitr; · iempintro
  isplitr; · iempintro
  isplitl [Ha]; · iexact Ha
  isplitl [Hb]
  · iapply (Entails.of_eq (owns_whole_eq c cc0_stg1_0 (bBlk m c)).symm); iexists _; isplitr; · (ipureintro; rfl)
    iexact Hb
  isplitl [H0]
  · iapply (Entails.of_eq (owns_whole_eq c cc0_scratch0 (bbfV m c)).symm); iexists _; isplitr; · (ipureintro; rfl)
    iexact H0
  isplitr; · iempintro
  iexact Hslab

namespace BodyEnds

def dst250 : Finset Cp := Finset.univ.filter fun k => isFwd k = false

theorem stAt250 (K : Dev nD × CellIx → ℕ) (c : Dev nD) :
    StAt m K c 250 = St m K c 42 ∅ Finset.univ dst250 Finset.univ Finset.univ Finset.univ := by
  unfold StAt
  rw [show tAt 250 = 42 by decide +kernel, show rawAt 250 = ∅ by decide +kernel, show srcAt 250 = Finset.univ by decide +kernel,
    show dstAt 250 = dst250 by decide +kernel, show swAt 250 = Finset.univ by decide +kernel, show rwAt 250 = Finset.univ by decide +kernel,
    show ksAt 250 = Finset.univ by decide +kernel]

theorem agCp_eq : (Finset.univ.filter fun k : Cp => ¬ k.isAg = false) = agCp := by decide +kernel
theorem dst250_red : (dst250.filter fun k : Cp => k.isAg = false) = redCp := by decide +kernel
theorem dst250_ag : (dst250.filter fun k : Cp => ¬ k.isAg = false) = agLate := by decide +kernel

theorem join_send (c : Dev nD) :
    (bigSep redCp fun k => sendPay (V m) c k : sProp 𝕄)
      ⊢ iprop((∃ f : Buf (Elt F) ((c : Thread nD τ).loc cc0_scratch2), ((c : Thread nD τ).loc cc0_scratch2) ↦{fullShare} f)
        ∗ (∃ f : Buf (Elt F) ((c : Thread nD τ).loc cc0_scratch4), ((c : Thread nD τ).loc cc0_scratch4) ↦{fullShare} f)
        ∗ (∃ f : Buf (Elt F) ((c : Thread nD τ).loc cc0_scratch6), ((c : Thread nD τ).loc cc0_scratch6) ↦{fullShare} f)) := by
  have step : ∀ k ∈ redCp, (sendPay (V m) c k : sProp 𝕄)
      ⊢ iprop(∃ X : S64x1536.Idx → Elt F .bf16, owns (c : Thread nD τ) (srcM k c) fullShare X) := by
    intro k hk
    have hs : k.shr = fullShare := by
      have hk' : k.isAg = false := (Finset.mem_filter.mp hk).2
      cases k <;> first | rfl | cases hk'
    unfold sendPay; rw [hs]; iintro H; iexists _; iexact H
  have h1 : (bigSep redCp fun k => sendPay (V m) c k : sProp 𝕄)
      ⊢ bigSep redCp fun k => iprop(∃ X : S64x1536.Idx → Elt F .bf16, owns (c : Thread nD τ) (srcM k c) fullShare X) :=
    bigSep_mono step
  refine h1.trans ?_
  rw [red_pieces]; unfold sendPieces
  iintro ⟨H0, H1, H2⟩
  isplitl [H0]; · iapply (join_sb0 c); iexact H0
  isplitl [H1]; · iapply (join_sb1 c); iexact H1
  iapply (join_sb2 c); iexact H2

theorem src_split (Φ : Cp → sProp 𝕄) : bigSep Finset.univ Φ = iprop(bigSep redCp Φ ∗ bigSep agCp Φ) := by
  rw [← agCp_eq]; exact bigSep_filter_split Finset.univ (fun k : Cp => k.isAg = false)
theorem dst_split (Φ : Cp → sProp 𝕄) : bigSep dst250 Φ = iprop(bigSep redCp Φ ∗ bigSep agLate Φ) := by
  rw [← dst250_red, ← dst250_ag]; exact bigSep_filter_split dst250 (fun k : Cp => k.isAg = false)
theorem cells_join (Φ Ψ : Cp → sProp 𝕄) :
    iprop(bigSep Finset.univ Φ ∗ bigSep Finset.univ Ψ) = bigSep Finset.univ (fun k => iprop(Φ k ∗ Ψ k)) :=
  (bigSep_sep Finset.univ Φ Ψ).symm

theorem recv_any (c : Dev nD) (S : Finset Cp) :
    (bigSep S fun k => recvPay (V m) c k : sProp 𝕄)
      ⊢ bigSep S fun k => iprop(∃ X : S64x1536.Idx → Elt F .bf16, owns (c : Thread nD τ) (dstM k (k.peer c)) fullShare X) := by
  have step : ∀ k ∈ S, (recvPay (V m) c k : sProp 𝕄)
      ⊢ iprop(∃ X : S64x1536.Idx → Elt F .bf16, owns (c : Thread nD τ) (dstM k (k.peer c)) fullShare X) := by
    intro k _; unfold recvPay; iintro H; iexists _; iexact H
  exact bigSep_mono step
theorem slabs_any (c : Dev nD) :
    (bigSep Finset.univ fun j : Fin 3 => owns (c : Thread nD τ) (slabM j) fullShare (kaccV m c j) : sProp 𝕄)
      ⊢ bigSep Finset.univ fun j : Fin 3 => iprop(∃ X, owns (c : Thread nD τ) (slabM j) fullShare X) := by
  have step : ∀ j ∈ (Finset.univ : Finset (Fin 3)), (owns (c : Thread nD τ) (slabM j) fullShare (kaccV m c j) : sProp 𝕄)
      ⊢ iprop(∃ X, owns (c : Thread nD τ) (slabM j) fullShare X) := by
    intro j _; iintro H; iexists _; iexact H
  exact bigSep_mono step

theorem fin_N (t : Fin cfg0.N) : t = t₀ := fin_N0 t

theorem before_0 (c : Dev nD) (d : (cfg0.win (0 : Fin 3)).block.Idx → Elt F (cfg0.win (0 : Fin 3)).elt) : (dats m ρ 0 c).before (0 : Fin 3) t₀ d = aBlk m c := by
  unfold Dat.before; rw [if_pos (fetch0_0 t₀)]; rfl
theorem before_1 (c : Dev nD) (d : (cfg0.win (1 : Fin 3)).block.Idx → Elt F (cfg0.win (1 : Fin 3)).elt) : (dats m ρ 0 c).before (1 : Fin 3) t₀ d = bBlk m c := by
  unfold Dat.before; rw [if_pos (fetch0_1 t₀)]; rfl

end BodyEnds

set_option maxHeartbeats 800000 in

theorem body_end (K : Dev nD × CellIx → ℕ) (c : Dev nD) : StAt m K c 250 ⊢ bodyPost m ρ c := by
  rw [stAt250]
  unfold St posAt credAt locals bodyPost Φ₁ scratchAny Dat.owesAt Pipeline.owesWithin
  rw [show (dats m ρ 0 c).owed t₀.succ = 0 from rfl, owedAt_done]
  iintro ⟨-, -, ⟨-, HzS, -, HzR⟩, -, -, ⟨%W, HO⟩, -, -, Hsrc, Hdst, Ha, Hb, Hbbf, Hslab, -⟩
  ihave Hs2 := (Entails.of_eq (src_split (sendPay (V m) c))) $$ Hsrc
  icases Hs2 with ⟨HsR, HsA⟩
  ihave Hd2 := (Entails.of_eq (dst_split (recvPay (V m) c))) $$ Hdst
  icases Hd2 with ⟨HdR, HdA⟩
  ihave Hsend := (join_send m c) $$ HsR
  icases Hsend with ⟨S2, S4, S6⟩
  ihave HdR' := (recv_any m c redCp) $$ HdR
  ihave Hrecv := (red_in c) $$ HdR'
  icases Hrecv with ⟨S3, S5, S7⟩
  ihave Hout := (out_end m c) $$ [HsA HdA]
  · isplitl [HsA]; · iexact HsA
    iexact HdA
  ihave Hslab' := (slabs_any m c) $$ Hslab
  ihave S1 := (join_kacc c) $$ Hslab'
  ihave Hbbf' := (Entails.of_eq (owns_whole_eq c cc0_scratch0 (bbfV m c))) $$ Hbbf
  icases Hbbf' with ⟨%f0, -, S0⟩
  isplitl [S0 S1 S2 S3 S4 S5 S6 S7 HzS HzR]
  · isplitl [S0 S1 S2 S3 S4 S5 S6 S7]
    · isplitl [S0]; · iexists f0; iexact S0
      isplitl [S1]; · iexact S1
      isplitl [S2]; · iexact S2
      isplitl [S3]; · iexact S3
      isplitl [S4]; · iexact S4
      isplitl [S5]; · iexact S5
      isplitl [S6]; · iexact S6
      iexact S7
    · iapply (Entails.of_eq (cells_join (fun k : Cp => semVal (sendCell c k) 0) (fun k : Cp => semVal (recvCell c k) 0)))
      isplitl [HzS]; · iexact HzS
      iexact HzR
  isplitl [HO]
  · iexists W
    isplitr; · ipureintro; exact fun _ _ => Or.inl trivial
    iexact HO
  isplitl [Ha]; · iexact Ha
  isplitl [Hb]; · iexact Hb
  iexact Hout

set_option maxRecDepth 65536 in

theorem body_obligation (c : Dev nD)
    (hrun : bodyPre m ρ c ⊢ wp frame (wpE (defs₀ (F := F)) 𝒱₀ (c : Thread nD τ) none) Set.univ
      (cc0_body aM (Memref.isWhole_whole _) bM (Memref.isWhole_whole _) outM (Memref.isWhole_whole _)
            bbfM (Memref.isWhole_whole _) kaccM (Memref.isWhole_whole _) sb0M (Memref.isWhole_whole _) rb0M (Memref.isWhole_whole _)
            sb1M (Memref.isWhole_whole _) rb1M (Memref.isWhole_whole _) sb2M (Memref.isWhole_whole _) rb2M (Memref.isWhole_whole _)
            cc0_scratch8 cc0_scratch9 cc0_scratch10 cc0_scratch11) (fun _ => iprop(∃ K, StAt m K c 250))) :
    BodyObligation (dats (F := F) m ρ 0 c) (defs₀ (F := F)) 𝒱₀ () Set.univ := fun t => by
  rw [fin_N t]
  rw [bigSep_W0, bigSep_W0]
  show iprop(Φ₀ m c ∗ (dats m ρ 0 c).owesAt () t₀.castSucc
      ∗ (∃ d, owns (c : Thread nD τ) aM fullShare ((dats m ρ 0 c).before (0 : Fin 3) t₀ d))
      ∗ (∃ d, owns (c : Thread nD τ) bM fullShare ((dats m ρ 0 c).before (1 : Fin 3) t₀ d))
      ∗ (∃ d, owns (c : Thread nD τ) outM fullShare ((dats m ρ 0 c).before (2 : Fin 3) t₀ d)))
    ⊢ wp frame (wpE (defs₀ (F := F)) 𝒱₀ (c : Thread nD τ) none) Set.univ
      (cc0_body aM (Memref.isWhole_whole _) bM (Memref.isWhole_whole _) outM (Memref.isWhole_whole _)
            bbfM (Memref.isWhole_whole _) kaccM (Memref.isWhole_whole _) sb0M (Memref.isWhole_whole _) rb0M (Memref.isWhole_whole _)
            sb1M (Memref.isWhole_whole _) rb1M (Memref.isWhole_whole _) sb2M (Memref.isWhole_whole _) rb2M (Memref.isWhole_whole _)
            cc0_scratch8 cc0_scratch9 cc0_scratch10 cc0_scratch11) (fun _ => bodyPost m ρ c)
  have hpre : iprop(Φ₀ m c ∗ (dats m ρ 0 c).owesAt () t₀.castSucc
      ∗ (∃ d, owns (c : Thread nD τ) aM fullShare ((dats m ρ 0 c).before (0 : Fin 3) t₀ d))
      ∗ (∃ d, owns (c : Thread nD τ) bM fullShare ((dats m ρ 0 c).before (1 : Fin 3) t₀ d))
      ∗ (∃ d, owns (c : Thread nD τ) outM fullShare ((dats m ρ 0 c).before (2 : Fin 3) t₀ d))) ⊢ bodyPre m ρ c := by
    unfold bodyPre
    iintro ⟨HΦ, Ho, ⟨%d0, Ha⟩, ⟨%d1, Hb⟩, ⟨%d2, Hout⟩⟩
    rw [before_0, before_1]
    isplitl [HΦ]; · iexact HΦ
    isplitl [Ho]; · iexact Ho
    isplitl [Ha]; · iexact Ha
    isplitl [Hb]; · iexact Hb
    iexists _; iexact Hout
  have hpost : ∀ _ : PUnit, iprop(∃ K, StAt m K c 250) ⊢ bodyPost m ρ c := fun _ => by
    iintro ⟨%K, H⟩; iapply (body_end m ρ K c); iexact H
  exact hpre.trans (hrun.trans (wp_mono _ _ _ hpost))

end Ends

end Cert.KernelIdeal.Hand

end
-- ==== Proof.StepsLocal.lean ====
import proofs.«900886_g7700000000000887_dist_matmul_k_i_m1536_n1536_k768_v7x_i8_bf16_1_alg».proof.Proof.Dats
import proofs.«900886_g7700000000000887_dist_matmul_k_i_m1536_n1536_k768_v7x_i8_bf16_1_alg».proof.Proof.Pieces

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

section StepsLocal

variable {F : FTy → Type} [FloatOps F]
variable (m : (ℓ : Loc nD τ sig) → Buf (Elt F) ℓ)

local notation "𝕄" => MT nD τ sig Unit (Elt F) ℕ UU ℕ

theorem step_of_focus {A A' P P' W1 W2 : sProp 𝕄} (hf : A ⊢ iprop(P ∗ (P' -∗ A'))) (hs : P ⊢ iprop((P' -∗ W1) -∗ W2)) :
    A ⊢ iprop((A' -∗ W1) -∗ W2) := by
  iintro HA Hk
  ihave H := hf $$ HA
  icases H with ⟨HP, Hb⟩
  iapply hs $$ HP
  iintro HP'
  iapply Hk
  iapply Hb
  iexact HP'

def StCore (K : Dev nD × CellIx → ℕ) (c : Dev nD) (t : Nat) (SW RW : Finset Cp) : sProp 𝕄 :=
  iprop(records (V m) K ∗ levAts L lv ∗ posAt c SW RW ∗ credAt c t SW RW ∗ payToks c (rest t)
    ∗ (∃ W, owes (c : Thread nD τ) (owedAt c t) W) ∗ (bigSep (rest t) (dstPiece c)))

theorem St_split (K : Dev nD × CellIx → ℕ) (c : Dev nD) (t : Nat) (Raw Src Dst SW RW : Finset Cp) (KS : Finset (Fin 3)) :
    St m K c t Raw Src Dst SW RW KS = iprop(StCore m K c t SW RW ∗ (bigSep Raw (rawPiece c)) ∗ (bigSep Src (sendPay (V m) c))
      ∗ (bigSep Dst (recvPay (V m) c)) ∗ locals m c KS) := by
  have h₁ : St m K c t Raw Src Dst SW RW KS ⊢ iprop(StCore m K c t SW RW ∗ (bigSep Raw (rawPiece c)) ∗ (bigSep Src (sendPay (V m) c))
      ∗ (bigSep Dst (recvPay (V m) c)) ∗ locals m c KS) := by
    unfold St StCore
    iintro ⟨H1, H2, H3, H4, H5, H6, H7, H8, H9, H10, H11⟩
    iframe
  have h₂ : iprop(StCore m K c t SW RW ∗ (bigSep Raw (rawPiece c)) ∗ (bigSep Src (sendPay (V m) c))
      ∗ (bigSep Dst (recvPay (V m) c)) ∗ locals m c KS) ⊢ St m K c t Raw Src Dst SW RW KS := by
    unfold St StCore
    iintro ⟨⟨H1, H2, H3, H4, H5, H6, H7⟩, H8, H9, H10, H11⟩
    iframe
  exact BI.equiv_iff.mp ⟨h₁, h₂⟩

theorem bigSep_take {I : Type} [DecidableEq I] {s : Finset I} {i : I} (hi : i ∈ s) (Φ : I → sProp 𝕄) :
    bigSep s Φ = iprop(Φ i ∗ bigSep (s.erase i) Φ) := BI.bigSep_erase hi

theorem St_focus {P P' : sProp 𝕄} (K : Dev nD × CellIx → ℕ) (c : Dev nD) (t : Nat) (Raw Src Dst Raw' Src' Dst' SW RW : Finset Cp)
    (KS KS' : Finset (Fin 3))
    (h : iprop((bigSep Raw (rawPiece c)) ∗ (bigSep Src (sendPay (V m) c)) ∗ (bigSep Dst (recvPay (V m) c)) ∗ locals m c KS)
      ⊢ iprop(P ∗ (P' -∗ (bigSep Raw' (rawPiece c)) ∗ (bigSep Src' (sendPay (V m) c)) ∗ (bigSep Dst' (recvPay (V m) c)) ∗ locals m c KS'))) :
    St m K c t Raw Src Dst SW RW KS ⊢ iprop(P ∗ (P' -∗ St m K c t Raw' Src' Dst' SW RW KS')) := by
  rw [St_split, St_split]
  iintro ⟨H1, H2⟩
  ihave H := h $$ H2
  icases H with ⟨HP, Hb⟩
  isplitl [HP]
  · iexact HP
  · iintro HP'
    ihave H2 := Hb $$ HP'
    isplitl [H1]
    · iexact H1
    · iexact H2

theorem St_focus_locals {P P' : sProp 𝕄} (K : Dev nD × CellIx → ℕ) (c : Dev nD) (t : Nat) (Raw Src Dst SW RW : Finset Cp)
    (KS KS' : Finset (Fin 3)) (h : locals m c KS ⊢ iprop(P ∗ (P' -∗ locals m c KS'))) :
    St m K c t Raw Src Dst SW RW KS ⊢ iprop(P ∗ (P' -∗ St m K c t Raw Src Dst SW RW KS')) := by
  refine St_focus m K c t Raw Src Dst Raw Src Dst SW RW KS KS' ?_
  iintro ⟨H1, H2, H3, H4⟩
  ihave H := h $$ H4
  icases H with ⟨HP, Hb⟩
  isplitl [HP]
  · iexact HP
  · iintro HP'
    ihave H4 := Hb $$ HP'
    iframe

theorem locals_a (c : Dev nD) (KS : Finset (Fin 3)) :
    locals m c KS ⊢ iprop(owns (c : Thread nD τ) aM fullShare (aBlk m c) ∗ (owns (c : Thread nD τ) aM fullShare (aBlk m c) -∗ locals m c KS)) := by
  unfold locals
  iintro ⟨H1, H2, H3, H4, H5⟩
  isplitl [H1]
  · iexact H1
  · iintro H1
    iframe

theorem locals_bbf (c : Dev nD) (KS : Finset (Fin 3)) :
    locals m c KS ⊢ iprop(owns (c : Thread nD τ) bbfM fullShare (bbfV m c) ∗ (owns (c : Thread nD τ) bbfM fullShare (bbfV m c) -∗ locals m c KS)) := by
  unfold locals
  iintro ⟨H1, H2, H3, H4, H5⟩
  isplitl [H3]
  · iexact H3
  · iintro H3
    iframe

theorem step_load_A {α : Type} {Q : α → sProp 𝕄} (K : Dev nD × CellIx → ℕ) (c : Dev nD) (t : Nat) (Raw Src Dst SW RW : Finset Cp)
    (KS : Finset (Fin 3)) (o : Fin 2 → Nat) (h : ∀ a, o a + S64x768.size a ≤ S1536x768.size a)
    {hl : (aM : Memref sig .tc .vmem S1536x768 .f32).view.LoadsAt (Rect.unit (s := S1536x768) o S64x768.size h).toLoadRect}
    {k : ((Rect.unit (s := S1536x768) o S64x768.size h).toLoadRect.shape.Idx → Elt F .f32) → Prog (TpuEff nD τ sig (Elt F) Λ₀ .tc) α} :
    St m K c t Raw Src Dst SW RW KS
      ⊢ iprop((St m K c t Raw Src Dst SW RW KS -∗ wp frame (wpE (defs₀ (F := F)) 𝒱₀ (c : Thread nD τ) none) Set.univ (k (aRows m c o h)) Q)
        -∗ wp frame (wpE (defs₀ (F := F)) 𝒱₀ (c : Thread nD τ) none) Set.univ
            (.op (.load aM (Rect.unit (s := S1536x768) o S64x768.size h).toLoadRect hl) k) Q) := by
  refine step_of_focus (St_focus_locals m K c t Raw Src Dst SW RW KS KS (locals_a m c KS)) ?_
  rw [owns_whole]
  exact wp_load 𝒱₀ (c : Thread nD τ) none Set.univ (m := aM) (Finset.subset_univ _)

theorem step_load_A256 {α : Type} {Q : α → sProp 𝕄} (K : Dev nD × CellIx → ℕ) (c : Dev nD) (t : Nat) (Raw Src Dst SW RW : Finset Cp)
    (KS : Finset (Fin 3)) (o : Fin 2 → Nat) (h : ∀ a, o a + S256x768.size a ≤ S1536x768.size a)
    {hl : (aM : Memref sig .tc .vmem S1536x768 .f32).view.LoadsAt (Rect.unit (s := S1536x768) o S256x768.size h).toLoadRect}
    {k : ((Rect.unit (s := S1536x768) o S256x768.size h).toLoadRect.shape.Idx → Elt F .f32) → Prog (TpuEff nD τ sig (Elt F) Λ₀ .tc) α} :
    St m K c t Raw Src Dst SW RW KS
      ⊢ iprop((St m K c t Raw Src Dst SW RW KS -∗ wp frame (wpE (defs₀ (F := F)) 𝒱₀ (c : Thread nD τ) none) Set.univ (k (aRows256 m c o h)) Q)
        -∗ wp frame (wpE (defs₀ (F := F)) 𝒱₀ (c : Thread nD τ) none) Set.univ
            (.op (.load aM (Rect.unit (s := S1536x768) o S256x768.size h).toLoadRect hl) k) Q) := by
  refine step_of_focus (St_focus_locals m K c t Raw Src Dst SW RW KS KS (locals_a m c KS)) ?_
  rw [owns_whole]
  exact wp_load 𝒱₀ (c : Thread nD τ) none Set.univ (m := aM) (Finset.subset_univ _)

theorem zero2 : (![0, 0] : Fin 2 → Nat) = fun _ => 0 := by
  funext a; fin_cases a <;> rfl

theorem step_load_bbf {α : Type} {Q : α → sProp 𝕄} (K : Dev nD × CellIx → ℕ) (c : Dev nD) (t : Nat) (Raw Src Dst SW RW : Finset Cp)
    (KS : Finset (Fin 3)) (h : ∀ a, (![0, 0] : Fin 2 → Nat) a + S768x1536.size a ≤ S768x1536.size a)
    {hl : (bbfM : Memref sig .tc .vmem S768x1536 .bf16).view.LoadsAt (Rect.unit (s := S768x1536) ![0, 0] S768x1536.size h).toLoadRect}
    {k : ((Rect.unit (s := S768x1536) ![0, 0] S768x1536.size h).toLoadRect.shape.Idx → Elt F .bf16) → Prog (TpuEff nD τ sig (Elt F) Λ₀ .tc) α} :
    St m K c t Raw Src Dst SW RW KS
      ⊢ iprop((St m K c t Raw Src Dst SW RW KS -∗ wp frame (wpE (defs₀ (F := F)) 𝒱₀ (c : Thread nD τ) none) Set.univ (k (bbfV m c)) Q)
        -∗ wp frame (wpE (defs₀ (F := F)) 𝒱₀ (c : Thread nD τ) none) Set.univ
            (.op (.load bbfM (Rect.unit (s := S768x1536) ![0, 0] S768x1536.size h).toLoadRect hl) k) Q) := by
  refine step_of_focus (St_focus_locals m K c t Raw Src Dst SW RW KS KS (locals_bbf m c KS)) ?_
  rw [owns_whole]
  have hw := wp_load (defs := defs₀ (F := F)) 𝒱₀ (c : Thread nD τ) none (Γ := .empty) Set.univ (Q := Q) (m := bbfM)
    (r := (Rect.unit (s := S768x1536) ![0, 0] S768x1536.size h).toLoadRect) (hl := hl) (k := k) (q := fullShare)
    (f := bbfV m c) (S := Finset.univ) (Finset.subset_univ _)
  have he : (bbfM : Memref sig .tc .vmem S768x1536 .bf16).view.readAt (Elt F) (Rect.unit (s := S768x1536) ![0, 0] S768x1536.size h).toLoadRect (bbfV m c)
      = bbfV m c := Memref.readAt_unit_zero (Elt F) cc0_scratch0 zero2 h (bbfV m c)
  rw [he] at hw
  exact hw

theorem step_of_focus_ex {β γ : Type} {A W2 : sProp 𝕄} {P : β → sProp 𝕄} {W1 : γ → sProp 𝕄} (g : β → γ)
    (hf : A ⊢ iprop((∃ x, P x) ∗ ((∃ x, P x) -∗ A))) (hs : ∀ x, P x ⊢ iprop((P x -∗ W1 (g x)) -∗ W2)) :
    A ⊢ iprop((∀ v, A -∗ W1 v) -∗ W2) := by
  iintro HA Hk
  ihave H := hf $$ HA
  icases H with ⟨⟨%x, HP⟩, Hb⟩
  iapply (hs x) $$ HP
  iintro HP
  ispecialize Hk $$ %(g x)
  iapply Hk
  iapply Hb
  iexists x
  iexact HP

theorem step_of_focus_st {β : Type} {A A' P' W1 W2 : sProp 𝕄} {P : β → sProp 𝕄}
    (hf : A ⊢ iprop((∃ x, P x) ∗ (P' -∗ A'))) (hs : ∀ x, P x ⊢ iprop((P' -∗ W1) -∗ W2)) :
    A ⊢ iprop((A' -∗ W1) -∗ W2) := by
  iintro HA Hk
  ihave H := hf $$ HA
  icases H with ⟨⟨%x, HP⟩, Hb⟩
  iapply (hs x) $$ HP
  iintro HP'
  iapply Hk
  iapply Hb
  iexact HP'

theorem bigSep_cons_intro {I : Type} [DecidableEq I] (s : Finset I) (i : I) (Φ : I → sProp 𝕄) :
    iprop(Φ i ∗ bigSep s Φ) ⊢ bigSep (insert i s) Φ := by
  have h : bigSep ({i} : Finset I) Φ = Φ i := bigSep_singleton
  rw [Finset.insert_eq, ← h]
  exact bigSep_sep_union {i} s

theorem rawPiece_eq (c : Dev nD) (k : Cp) :
    (rawPiece c k : sProp 𝕄) = iprop(∃ X : S64x1536.Idx → Elt F .bf16, owns (c : Thread nD τ) (srcM k c) fullShare X) := rfl

theorem St_focus_raw (K : Dev nD × CellIx → ℕ) (c : Dev nD) (t : Nat) (Raw Src Dst SW RW : Finset Cp) (KS : Finset (Fin 3)) (k : Cp) (hk : k ∈ Raw) :
    St m K c t Raw Src Dst SW RW KS ⊢ iprop((∃ X : S64x1536.Idx → Elt F .bf16, owns (c : Thread nD τ) (srcM k c) fullShare X)
      ∗ ((∃ X : S64x1536.Idx → Elt F .bf16, owns (c : Thread nD τ) (srcM k c) fullShare X) -∗ St m K c t Raw Src Dst SW RW KS)) := by
  refine St_focus m K c t Raw Src Dst Raw Src Dst SW RW KS KS ?_
  rw [bigSep_take hk, rawPiece_eq]
  iintro ⟨⟨Hk, H1⟩, H2, H3, H4⟩
  isplitl [Hk]
  · iexact Hk
  · iintro Hk
    iframe

theorem St_raw_to_src (K : Dev nD × CellIx → ℕ) (c : Dev nD) (t : Nat) (Raw Src Dst SW RW : Finset Cp) (KS : Finset (Fin 3)) (k : Cp) (hk : k ∈ Raw) :
    St m K c t Raw Src Dst SW RW KS ⊢ iprop((∃ X : S64x1536.Idx → Elt F .bf16, owns (c : Thread nD τ) (srcM k c) fullShare X)
      ∗ (sendPay (V m) c k -∗ St m K c t (Raw.erase k) (insert k Src) Dst SW RW KS)) := by
  refine St_focus m K c t Raw Src Dst (Raw.erase k) (insert k Src) Dst SW RW KS KS ?_
  rw [bigSep_take hk, rawPiece_eq]
  iintro ⟨⟨Hk, H1⟩, H2, H3, H4⟩
  isplitl [Hk]
  · iexact Hk
  · iintro Hk
    isplitl [H1]
    · iexact H1
    isplitl [Hk H2]
    · iapply (bigSep_cons_intro Src k (sendPay (V m) c))
      isplitl [Hk]
      · iexact Hk
      · iexact H2
    isplitl [H3]
    · iexact H3
    · iexact H4

theorem St_focus_dst (K : Dev nD × CellIx → ℕ) (c : Dev nD) (t : Nat) (Raw Src Dst SW RW : Finset Cp) (KS : Finset (Fin 3)) (k : Cp) (hk : k ∈ Dst) :
    St m K c t Raw Src Dst SW RW KS ⊢ iprop(recvPay (V m) c k ∗ (recvPay (V m) c k -∗ St m K c t Raw Src Dst SW RW KS)) := by
  refine St_focus m K c t Raw Src Dst Raw Src Dst SW RW KS KS ?_
  rw [bigSep_take hk]
  iintro ⟨H1, H2, ⟨Hk, H3⟩, H4⟩
  isplitl [Hk]
  · iexact Hk
  · iintro Hk
    iframe

theorem step_load_raw0 {α : Type} {Q : α → sProp 𝕄} (K : Dev nD × CellIx → ℕ) (c : Dev nD) (t : Nat) (Raw Src Dst SW RW : Finset Cp) (KS : Finset (Fin 3)) (i : Fin 4) (j : Fin 3) (o : Fin 3 → Nat) (ho : o = o0 i j c)
    (h : ∀ a, o a + S1x64x1536.size a ≤ S3x256x1536.size a) (hk : Cp.rs0 i j ∈ Raw)
    {hl : (sb0M : Memref sig .tc .vmem S3x256x1536 .bf16).view.LoadsAt (Rect.unit (s := S3x256x1536) o S1x64x1536.size h).toLoadRect}
    {k : ((Rect.unit (s := S3x256x1536) o S1x64x1536.size h).toLoadRect.shape.Idx → Elt F .bf16) → Prog (TpuEff nD τ sig (Elt F) Λ₀ .tc) α} :
    St m K c t Raw Src Dst SW RW KS
      ⊢ iprop((∀ v, St m K c t Raw Src Dst SW RW KS -∗ wp frame (wpE (defs₀ (F := F)) 𝒱₀ (c : Thread nD τ) none) Set.univ (k v) Q)
        -∗ wp frame (wpE (defs₀ (F := F)) 𝒱₀ (c : Thread nD τ) none) Set.univ (.op (.load sb0M (Rect.unit (s := S3x256x1536) o S1x64x1536.size h).toLoadRect hl) k) Q) := by
  subst ho
  refine step_of_focus_ex (fun X : S64x1536.Idx → Elt F .bf16 => unsq X) (St_focus_raw m K c t Raw Src Dst SW RW KS (Cp.rs0 i j) hk) (fun X => ?_)
  exact wp_load_piece_sq 𝒱₀ (c : Thread nD τ) none Set.univ (M := sb0M) (r := Rect.unit (s := S3x256x1536) (o0 i j c) S1x64x1536.size h)
    (hr := fun _ => rfl) (s' := S64x1536) (hq := squeezes_S1x64x1536_S64x1536) (hc' := shapeCasts_S64x1536_S1x64x1536)

theorem step_store_src0 {α : Type} {Q : α → sProp 𝕄} (K : Dev nD × CellIx → ℕ) (c : Dev nD) (t : Nat) (Raw Src Dst SW RW : Finset Cp) (KS : Finset (Fin 3)) (i : Fin 4) (j : Fin 3) (o : Fin 3 → Nat) (ho : o = o0 i j c)
    (h : ∀ a, o a + S1x64x1536.size a ≤ S3x256x1536.size a) (w : Vec F S1x64x1536 .bf16)
    (hk : Cp.rs0 i j ∈ Raw) (hw : sq w = V m c (Cp.rs0 i j))
    {hst : ((sb0M : Memref sig .tc .vmem S3x256x1536 .bf16).access (Rect.unit (s := S3x256x1536) o S1x64x1536.size h)).Stores Finset.univ}
    {hm : (Finset.univ : Finset (Rect.unit (s := S3x256x1536) o S1x64x1536.size h).shape.Idx) = Finset.univ ∨ ∀ a, (Rect.unit (s := S3x256x1536) o S1x64x1536.size h).stride a = 1}
    {kk : PUnit → Prog (TpuEff nD τ sig (Elt F) Λ₀ .tc) α} :
    St m K c t Raw Src Dst SW RW KS
      ⊢ iprop((St m K c t (Raw.erase (Cp.rs0 i j)) (insert (Cp.rs0 i j) Src) Dst SW RW KS -∗ wp frame (wpE (defs₀ (F := F)) 𝒱₀ (c : Thread nD τ) none) Set.univ (kk ⟨⟩) Q)
        -∗ wp frame (wpE (defs₀ (F := F)) 𝒱₀ (c : Thread nD τ) none) Set.univ (.op (.store sb0M (Rect.unit (s := S3x256x1536) o S1x64x1536.size h) w Finset.univ hst hm) kk) Q) := by
  subst ho
  refine step_of_focus_st (St_raw_to_src m K c t Raw Src Dst SW RW KS (Cp.rs0 i j) hk) (fun X => ?_)
  unfold sendPay
  rw [← hw]
  exact wp_store_piece_sq 𝒱₀ (c : Thread nD τ) none Set.univ (M := sb0M) (r := Rect.unit (s := S3x256x1536) (o0 i j c) S1x64x1536.size h)
    (hr := fun _ => rfl) (s' := S64x1536) (hq := squeezes_S1x64x1536_S64x1536) (hc := shapeCasts_S1x64x1536_S64x1536)
    (hc' := shapeCasts_S64x1536_S1x64x1536)

theorem dstM_rs0_peer (i : Fin 4) (j : Fin 3) (c : Dev nD) : dstM (Cp.rs0 i j) ((Cp.rs0 i j).peer c) = dstM (Cp.rs0 i j) c :=
  congrArg (fun M : Memref sig .tc .vmem S1x64x1536 .bf16 => M.squeeze S64x1536 squeezes_S1x64x1536_S64x1536)
    (Memref.slice_unit_congr rb0M (o0_peer i j c) (o0_inb i j ((Cp.rs0 i j).peer c)) (o0_inb i j c) (fun _ => rfl) (fun _ => rfl))

theorem step_load_dst0 {α : Type} {Q : α → sProp 𝕄} (K : Dev nD × CellIx → ℕ) (c : Dev nD) (t : Nat) (Raw Src Dst SW RW : Finset Cp) (KS : Finset (Fin 3)) (i : Fin 4) (j : Fin 3) (o : Fin 3 → Nat) (ho : o = o0 i j c)
    (h : ∀ a, o a + S1x64x1536.size a ≤ S3x256x1536.size a) (hk : Cp.rs0 i j ∈ Dst)
    {hl : (rb0M : Memref sig .tc .vmem S3x256x1536 .bf16).view.LoadsAt (Rect.unit (s := S3x256x1536) o S1x64x1536.size h).toLoadRect}
    {k : ((Rect.unit (s := S3x256x1536) o S1x64x1536.size h).toLoadRect.shape.Idx → Elt F .bf16) → Prog (TpuEff nD τ sig (Elt F) Λ₀ .tc) α} :
    St m K c t Raw Src Dst SW RW KS
      ⊢ iprop((St m K c t Raw Src Dst SW RW KS -∗ wp frame (wpE (defs₀ (F := F)) 𝒱₀ (c : Thread nD τ) none) Set.univ (k (unsq (V m ((Cp.rs0 i j).peer c) (Cp.rs0 i j)))) Q)
        -∗ wp frame (wpE (defs₀ (F := F)) 𝒱₀ (c : Thread nD τ) none) Set.univ (.op (.load rb0M (Rect.unit (s := S3x256x1536) o S1x64x1536.size h).toLoadRect hl) k) Q) := by
  subst ho
  refine step_of_focus (St_focus_dst m K c t Raw Src Dst SW RW KS (Cp.rs0 i j) hk) ?_
  unfold recvPay
  rw [dstM_rs0_peer]
  exact wp_load_piece_sq 𝒱₀ (c : Thread nD τ) none Set.univ (M := rb0M) (r := Rect.unit (s := S3x256x1536) (o0 i j c) S1x64x1536.size h)
    (hr := fun _ => rfl) (s' := S64x1536) (hq := squeezes_S1x64x1536_S64x1536) (hc' := shapeCasts_S64x1536_S1x64x1536)

theorem step_load_raw1 {α : Type} {Q : α → sProp 𝕄} (K : Dev nD × CellIx → ℕ) (c : Dev nD) (t : Nat) (Raw Src Dst SW RW : Finset Cp) (KS : Finset (Fin 3)) (h' : Fin 2) (j : Fin 3) (o : Fin 3 → Nat) (ho : o = o1 h' j c)
    (h : ∀ a, o a + S1x64x1536.size a ≤ S3x128x1536.size a) (hk : Cp.rs1 h' j ∈ Raw)
    {hl : (sb1M : Memref sig .tc .vmem S3x128x1536 .bf16).view.LoadsAt (Rect.unit (s := S3x128x1536) o S1x64x1536.size h).toLoadRect}
    {k : ((Rect.unit (s := S3x128x1536) o S1x64x1536.size h).toLoadRect.shape.Idx → Elt F .bf16) → Prog (TpuEff nD τ sig (Elt F) Λ₀ .tc) α} :
    St m K c t Raw Src Dst SW RW KS
      ⊢ iprop((∀ v, St m K c t Raw Src Dst SW RW KS -∗ wp frame (wpE (defs₀ (F := F)) 𝒱₀ (c : Thread nD τ) none) Set.univ (k v) Q)
        -∗ wp frame (wpE (defs₀ (F := F)) 𝒱₀ (c : Thread nD τ) none) Set.univ (.op (.load sb1M (Rect.unit (s := S3x128x1536) o S1x64x1536.size h).toLoadRect hl) k) Q) := by
  subst ho
  refine step_of_focus_ex (fun X : S64x1536.Idx → Elt F .bf16 => unsq X) (St_focus_raw m K c t Raw Src Dst SW RW KS (Cp.rs1 h' j) hk) (fun X => ?_)
  exact wp_load_piece_sq 𝒱₀ (c : Thread nD τ) none Set.univ (M := sb1M) (r := Rect.unit (s := S3x128x1536) (o1 h' j c) S1x64x1536.size h)
    (hr := fun _ => rfl) (s' := S64x1536) (hq := squeezes_S1x64x1536_S64x1536) (hc' := shapeCasts_S64x1536_S1x64x1536)

theorem step_store_src1 {α : Type} {Q : α → sProp 𝕄} (K : Dev nD × CellIx → ℕ) (c : Dev nD) (t : Nat) (Raw Src Dst SW RW : Finset Cp) (KS : Finset (Fin 3)) (h' : Fin 2) (j : Fin 3) (o : Fin 3 → Nat) (ho : o = o1 h' j c)
    (h : ∀ a, o a + S1x64x1536.size a ≤ S3x128x1536.size a) (w : Vec F S1x64x1536 .bf16)
    (hk : Cp.rs1 h' j ∈ Raw) (hw : sq w = V m c (Cp.rs1 h' j))
    {hst : ((sb1M : Memref sig .tc .vmem S3x128x1536 .bf16).access (Rect.unit (s := S3x128x1536) o S1x64x1536.size h)).Stores Finset.univ}
    {hm : (Finset.univ : Finset (Rect.unit (s := S3x128x1536) o S1x64x1536.size h).shape.Idx) = Finset.univ ∨ ∀ a, (Rect.unit (s := S3x128x1536) o S1x64x1536.size h).stride a = 1}
    {kk : PUnit → Prog (TpuEff nD τ sig (Elt F) Λ₀ .tc) α} :
    St m K c t Raw Src Dst SW RW KS
      ⊢ iprop((St m K c t (Raw.erase (Cp.rs1 h' j)) (insert (Cp.rs1 h' j) Src) Dst SW RW KS -∗ wp frame (wpE (defs₀ (F := F)) 𝒱₀ (c : Thread nD τ) none) Set.univ (kk ⟨⟩) Q)
        -∗ wp frame (wpE (defs₀ (F := F)) 𝒱₀ (c : Thread nD τ) none) Set.univ (.op (.store sb1M (Rect.unit (s := S3x128x1536) o S1x64x1536.size h) w Finset.univ hst hm) kk) Q) := by
  subst ho
  refine step_of_focus_st (St_raw_to_src m K c t Raw Src Dst SW RW KS (Cp.rs1 h' j) hk) (fun X => ?_)
  unfold sendPay
  rw [← hw]
  exact wp_store_piece_sq 𝒱₀ (c : Thread nD τ) none Set.univ (M := sb1M) (r := Rect.unit (s := S3x128x1536) (o1 h' j c) S1x64x1536.size h)
    (hr := fun _ => rfl) (s' := S64x1536) (hq := squeezes_S1x64x1536_S64x1536) (hc := shapeCasts_S1x64x1536_S64x1536)
    (hc' := shapeCasts_S64x1536_S1x64x1536)

theorem dstM_rs1_peer (h' : Fin 2) (j : Fin 3) (c : Dev nD) : dstM (Cp.rs1 h' j) ((Cp.rs1 h' j).peer c) = dstM (Cp.rs1 h' j) c :=
  congrArg (fun M : Memref sig .tc .vmem S1x64x1536 .bf16 => M.squeeze S64x1536 squeezes_S1x64x1536_S64x1536)
    (Memref.slice_unit_congr rb1M (o1_peer h' j c) (o1_inb h' j ((Cp.rs1 h' j).peer c)) (o1_inb h' j c) (fun _ => rfl) (fun _ => rfl))

theorem step_load_dst1 {α : Type} {Q : α → sProp 𝕄} (K : Dev nD × CellIx → ℕ) (c : Dev nD) (t : Nat) (Raw Src Dst SW RW : Finset Cp) (KS : Finset (Fin 3)) (h' : Fin 2) (j : Fin 3) (o : Fin 3 → Nat) (ho : o = o1 h' j c)
    (h : ∀ a, o a + S1x64x1536.size a ≤ S3x128x1536.size a) (hk : Cp.rs1 h' j ∈ Dst)
    {hl : (rb1M : Memref sig .tc .vmem S3x128x1536 .bf16).view.LoadsAt (Rect.unit (s := S3x128x1536) o S1x64x1536.size h).toLoadRect}
    {k : ((Rect.unit (s := S3x128x1536) o S1x64x1536.size h).toLoadRect.shape.Idx → Elt F .bf16) → Prog (TpuEff nD τ sig (Elt F) Λ₀ .tc) α} :
    St m K c t Raw Src Dst SW RW KS
      ⊢ iprop((St m K c t Raw Src Dst SW RW KS -∗ wp frame (wpE (defs₀ (F := F)) 𝒱₀ (c : Thread nD τ) none) Set.univ (k (unsq (V m ((Cp.rs1 h' j).peer c) (Cp.rs1 h' j)))) Q)
        -∗ wp frame (wpE (defs₀ (F := F)) 𝒱₀ (c : Thread nD τ) none) Set.univ (.op (.load rb1M (Rect.unit (s := S3x128x1536) o S1x64x1536.size h).toLoadRect hl) k) Q) := by
  subst ho
  refine step_of_focus (St_focus_dst m K c t Raw Src Dst SW RW KS (Cp.rs1 h' j) hk) ?_
  unfold recvPay
  rw [dstM_rs1_peer]
  exact wp_load_piece_sq 𝒱₀ (c : Thread nD τ) none Set.univ (M := rb1M) (r := Rect.unit (s := S3x128x1536) (o1 h' j c) S1x64x1536.size h)
    (hr := fun _ => rfl) (s' := S64x1536) (hq := squeezes_S1x64x1536_S64x1536) (hc' := shapeCasts_S64x1536_S1x64x1536)

theorem step_load_raw2 {α : Type} {Q : α → sProp 𝕄} (K : Dev nD × CellIx → ℕ) (c : Dev nD) (t : Nat) (Raw Src Dst SW RW : Finset Cp) (KS : Finset (Fin 3)) (j : Fin 3) (o : Fin 3 → Nat) (ho : o = o2 j)
    (h : ∀ a, o a + S1x64x1536.size a ≤ S3x64x1536.size a) (hk : Cp.rs2 j ∈ Raw)
    {hl : (sb2M : Memref sig .tc .vmem S3x64x1536 .bf16).view.LoadsAt (Rect.unit (s := S3x64x1536) o S1x64x1536.size h).toLoadRect}
    {k : ((Rect.unit (s := S3x64x1536) o S1x64x1536.size h).toLoadRect.shape.Idx → Elt F .bf16) → Prog (TpuEff nD τ sig (Elt F) Λ₀ .tc) α} :
    St m K c t Raw Src Dst SW RW KS
      ⊢ iprop((∀ v, St m K c t Raw Src Dst SW RW KS -∗ wp frame (wpE (defs₀ (F := F)) 𝒱₀ (c : Thread nD τ) none) Set.univ (k v) Q)
        -∗ wp frame (wpE (defs₀ (F := F)) 𝒱₀ (c : Thread nD τ) none) Set.univ (.op (.load sb2M (Rect.unit (s := S3x64x1536) o S1x64x1536.size h).toLoadRect hl) k) Q) := by
  subst ho
  refine step_of_focus_ex (fun X : S64x1536.Idx → Elt F .bf16 => unsq X) (St_focus_raw m K c t Raw Src Dst SW RW KS (Cp.rs2 j) hk) (fun X => ?_)
  exact wp_load_piece_sq 𝒱₀ (c : Thread nD τ) none Set.univ (M := sb2M) (r := Rect.unit (s := S3x64x1536) (o2 j) S1x64x1536.size h)
    (hr := fun _ => rfl) (s' := S64x1536) (hq := squeezes_S1x64x1536_S64x1536) (hc' := shapeCasts_S64x1536_S1x64x1536)

theorem step_store_src2 {α : Type} {Q : α → sProp 𝕄} (K : Dev nD × CellIx → ℕ) (c : Dev nD) (t : Nat) (Raw Src Dst SW RW : Finset Cp) (KS : Finset (Fin 3)) (j : Fin 3) (o : Fin 3 → Nat) (ho : o = o2 j)
    (h : ∀ a, o a + S1x64x1536.size a ≤ S3x64x1536.size a) (w : Vec F S1x64x1536 .bf16)
    (hk : Cp.rs2 j ∈ Raw) (hw : sq w = V m c (Cp.rs2 j))
    {hst : ((sb2M : Memref sig .tc .vmem S3x64x1536 .bf16).access (Rect.unit (s := S3x64x1536) o S1x64x1536.size h)).Stores Finset.univ}
    {hm : (Finset.univ : Finset (Rect.unit (s := S3x64x1536) o S1x64x1536.size h).shape.Idx) = Finset.univ ∨ ∀ a, (Rect.unit (s := S3x64x1536) o S1x64x1536.size h).stride a = 1}
    {kk : PUnit → Prog (TpuEff nD τ sig (Elt F) Λ₀ .tc) α} :
    St m K c t Raw Src Dst SW RW KS
      ⊢ iprop((St m K c t (Raw.erase (Cp.rs2 j)) (insert (Cp.rs2 j) Src) Dst SW RW KS -∗ wp frame (wpE (defs₀ (F := F)) 𝒱₀ (c : Thread nD τ) none) Set.univ (kk ⟨⟩) Q)
        -∗ wp frame (wpE (defs₀ (F := F)) 𝒱₀ (c : Thread nD τ) none) Set.univ (.op (.store sb2M (Rect.unit (s := S3x64x1536) o S1x64x1536.size h) w Finset.univ hst hm) kk) Q) := by
  subst ho
  refine step_of_focus_st (St_raw_to_src m K c t Raw Src Dst SW RW KS (Cp.rs2 j) hk) (fun X => ?_)
  unfold sendPay
  rw [← hw]
  exact wp_store_piece_sq 𝒱₀ (c : Thread nD τ) none Set.univ (M := sb2M) (r := Rect.unit (s := S3x64x1536) (o2 j) S1x64x1536.size h)
    (hr := fun _ => rfl) (s' := S64x1536) (hq := squeezes_S1x64x1536_S64x1536) (hc := shapeCasts_S1x64x1536_S64x1536)
    (hc' := shapeCasts_S64x1536_S1x64x1536)

theorem dstM_rs2_peer (j : Fin 3) (c : Dev nD) : dstM (Cp.rs2 j) ((Cp.rs2 j).peer c) = dstM (Cp.rs2 j) c := rfl

theorem step_load_dst2 {α : Type} {Q : α → sProp 𝕄} (K : Dev nD × CellIx → ℕ) (c : Dev nD) (t : Nat) (Raw Src Dst SW RW : Finset Cp) (KS : Finset (Fin 3)) (j : Fin 3) (o : Fin 3 → Nat) (ho : o = o2 j)
    (h : ∀ a, o a + S1x64x1536.size a ≤ S3x64x1536.size a) (hk : Cp.rs2 j ∈ Dst)
    {hl : (rb2M : Memref sig .tc .vmem S3x64x1536 .bf16).view.LoadsAt (Rect.unit (s := S3x64x1536) o S1x64x1536.size h).toLoadRect}
    {k : ((Rect.unit (s := S3x64x1536) o S1x64x1536.size h).toLoadRect.shape.Idx → Elt F .bf16) → Prog (TpuEff nD τ sig (Elt F) Λ₀ .tc) α} :
    St m K c t Raw Src Dst SW RW KS
      ⊢ iprop((St m K c t Raw Src Dst SW RW KS -∗ wp frame (wpE (defs₀ (F := F)) 𝒱₀ (c : Thread nD τ) none) Set.univ (k (unsq (V m ((Cp.rs2 j).peer c) (Cp.rs2 j)))) Q)
        -∗ wp frame (wpE (defs₀ (F := F)) 𝒱₀ (c : Thread nD τ) none) Set.univ (.op (.load rb2M (Rect.unit (s := S3x64x1536) o S1x64x1536.size h).toLoadRect hl) k) Q) := by
  subst ho
  refine step_of_focus (St_focus_dst m K c t Raw Src Dst SW RW KS (Cp.rs2 j) hk) ?_
  unfold recvPay
  rw [dstM_rs2_peer]
  exact wp_load_piece_sq 𝒱₀ (c : Thread nD τ) none Set.univ (M := rb2M) (r := Rect.unit (s := S3x64x1536) (o2 j) S1x64x1536.size h)
    (hr := fun _ => rfl) (s' := S64x1536) (hq := squeezes_S1x64x1536_S64x1536) (hc' := shapeCasts_S64x1536_S1x64x1536)

theorem locals_slab (c : Dev nD) (KS : Finset (Fin 3)) (j : Fin 3) (hj : j ∈ KS) :
    locals m c KS ⊢ iprop(owns (c : Thread nD τ) (slabM j) fullShare (kaccV m c j)
      ∗ (owns (c : Thread nD τ) (slabM j) fullShare (kaccV m c j) -∗ locals m c KS)) := by
  unfold locals
  rw [bigSep_take hj]
  iintro ⟨H1, H2, H3, ⟨Hj, H4⟩, H5⟩
  isplitl [Hj]
  · iexact Hj
  · iintro Hj
    iframe

theorem locals_slab_raw (c : Dev nD) (KS : Finset (Fin 3)) (j : Fin 3) (hj : j ∉ KS) :
    locals m c KS ⊢ iprop((∃ X : S1x256x1536.Idx → Elt F .f32, owns (c : Thread nD τ) (slabM j) fullShare X)
      ∗ ((∃ X : S1x256x1536.Idx → Elt F .f32, owns (c : Thread nD τ) (slabM j) fullShare X) -∗ locals m c KS)) := by
  have hj' : j ∈ Finset.univ \ KS := by simp [hj]
  unfold locals
  rw [bigSep_take hj']
  iintro ⟨H1, H2, H3, H4, ⟨Hj, H5⟩⟩
  isplitl [Hj]
  · iexact Hj
  · iintro Hj
    iframe

theorem locals_slab_store (c : Dev nD) (KS : Finset (Fin 3)) (j : Fin 3) (hj : j ∉ KS) :
    locals m c KS ⊢ iprop((∃ X : S1x256x1536.Idx → Elt F .f32, owns (c : Thread nD τ) (slabM j) fullShare X)
      ∗ (owns (c : Thread nD τ) (slabM j) fullShare (kaccV m c j) -∗ locals m c (insert j KS))) := by
  have hj' : j ∈ Finset.univ \ KS := by simp [hj]
  have e : (Finset.univ : Finset (Fin 3)) \ insert j KS = (Finset.univ \ KS).erase j := by
    ext x; simp only [Finset.mem_sdiff, Finset.mem_univ, true_and, Finset.mem_insert, Finset.mem_erase]; tauto
  unfold locals
  rw [bigSep_take hj', e]
  iintro ⟨H1, H2, H3, H4, ⟨Hj, H5⟩⟩
  isplitl [Hj]
  · iexact Hj
  · iintro Hj
    isplitl [H1]
    · iexact H1
    isplitl [H2]
    · iexact H2
    isplitl [H3]
    · iexact H3
    isplitl [H4 Hj]
    · iapply (bigSep_cons_intro KS j (fun j => owns (c : Thread nD τ) (slabM j) fullShare (kaccV m c j)))
      isplitl [Hj]
      · iexact Hj
      · iexact H4
    · iexact H5

theorem step_load_kslice_p {α : Type} {Q : α → sProp 𝕄} (K : Dev nD × CellIx → ℕ) (c : Dev nD) (t : Nat) (Raw Src Dst SW RW : Finset Cp) (KS : Finset (Fin 3)) (j : Fin 3) (p : Fin 4) (o : Fin 3 → Nat)
    (ho : o = ![j.val, p.val * 64, 0]) (h : ∀ a, o a + S1x64x1536.size a ≤ S3x256x1536.size a) (hj : j ∈ KS)
    {hl : (kaccM : Memref sig .tc .vmem S3x256x1536 .f32).view.LoadsAt (Rect.unit (s := S3x256x1536) o S1x64x1536.size h).toLoadRect}
    {k : ((Rect.unit (s := S3x256x1536) o S1x64x1536.size h).toLoadRect.shape.Idx → Elt F .f32) → Prog (TpuEff nD τ sig (Elt F) Λ₀ .tc) α} :
    St m K c t Raw Src Dst SW RW KS
      ⊢ iprop((St m K c t Raw Src Dst SW RW KS -∗ wp frame (wpE (defs₀ (F := F)) 𝒱₀ (c : Thread nD τ) none) Set.univ (k (kslice m c j p)) Q)
        -∗ wp frame (wpE (defs₀ (F := F)) 𝒱₀ (c : Thread nD τ) none) Set.univ (.op (.load kaccM (Rect.unit (s := S3x256x1536) o S1x64x1536.size h).toLoadRect hl) k) Q) := by
  subst ho
  refine step_of_focus (St_focus_locals m K c t Raw Src Dst SW RW KS KS (locals_slab m c KS j hj)) ?_
  exact wp_load_slab 𝒱₀ (c : Thread nD τ) none Set.univ (M := kaccM) (j := j.val) (p := p.val) p.isLt

theorem step_load_kslice {α : Type} {Q : α → sProp 𝕄} (K : Dev nD × CellIx → ℕ) (c : Dev nD) (t : Nat) (Raw Src Dst SW RW : Finset Cp) (KS : Finset (Fin 3)) (i : Fin 4) (j : Fin 3) (o : Fin 3 → Nat)
    (ho : o = o0 i j c) (h : ∀ a, o a + S1x64x1536.size a ≤ S3x256x1536.size a) (hj : j ∈ KS)
    {hl : (kaccM : Memref sig .tc .vmem S3x256x1536 .f32).view.LoadsAt (Rect.unit (s := S3x256x1536) o S1x64x1536.size h).toLoadRect}
    {k : ((Rect.unit (s := S3x256x1536) o S1x64x1536.size h).toLoadRect.shape.Idx → Elt F .f32) → Prog (TpuEff nD τ sig (Elt F) Λ₀ .tc) α} :
    St m K c t Raw Src Dst SW RW KS
      ⊢ iprop((St m K c t Raw Src Dst SW RW KS -∗ wp frame (wpE (defs₀ (F := F)) 𝒱₀ (c : Thread nD τ) none) Set.univ (k (kslice m c j (posF j i c))) Q)
        -∗ wp frame (wpE (defs₀ (F := F)) 𝒱₀ (c : Thread nD τ) none) Set.univ (.op (.load kaccM (Rect.unit (s := S3x256x1536) o S1x64x1536.size h).toLoadRect hl) k) Q) :=
  step_load_kslice_p m K c t Raw Src Dst SW RW KS j (posF j i c) o (ho.trans rfl) h hj

theorem step_load_slab_raw {α : Type} {Q : α → sProp 𝕄} (K : Dev nD × CellIx → ℕ) (c : Dev nD) (t : Nat) (Raw Src Dst SW RW : Finset Cp) (KS : Finset (Fin 3)) (j : Fin 3) (o : Fin 3 → Nat)
    (ho : o = ![j.val, 0, 0]) (h : ∀ a, o a + S1x256x1536.size a ≤ S3x256x1536.size a) (hj : j ∉ KS)
    {hl : (kaccM : Memref sig .tc .vmem S3x256x1536 .f32).view.LoadsAt (Rect.unit (s := S3x256x1536) o S1x256x1536.size h).toLoadRect}
    {k : ((Rect.unit (s := S3x256x1536) o S1x256x1536.size h).toLoadRect.shape.Idx → Elt F .f32) → Prog (TpuEff nD τ sig (Elt F) Λ₀ .tc) α} :
    St m K c t Raw Src Dst SW RW KS
      ⊢ iprop((∀ v, St m K c t Raw Src Dst SW RW KS -∗ wp frame (wpE (defs₀ (F := F)) 𝒱₀ (c : Thread nD τ) none) Set.univ (k v) Q)
        -∗ wp frame (wpE (defs₀ (F := F)) 𝒱₀ (c : Thread nD τ) none) Set.univ (.op (.load kaccM (Rect.unit (s := S3x256x1536) o S1x256x1536.size h).toLoadRect hl) k) Q) := by
  subst ho
  refine step_of_focus_ex (fun X : S1x256x1536.Idx → Elt F .f32 => X)
    (St_focus_locals m K c t Raw Src Dst SW RW KS KS (locals_slab_raw m c KS j hj)) (fun X => ?_)
  exact wp_load_piece 𝒱₀ (c : Thread nD τ) none Set.univ (M := kaccM) (r := Rect.unit (s := S3x256x1536) ![j.val, 0, 0] S1x256x1536.size h)
    (hr := fun _ => rfl)

theorem step_store_slab {α : Type} {Q : α → sProp 𝕄} (K : Dev nD × CellIx → ℕ) (c : Dev nD) (t : Nat) (Raw Src Dst SW RW : Finset Cp) (KS : Finset (Fin 3)) (j : Fin 3) (o : Fin 3 → Nat)
    (ho : o = ![j.val, 0, 0]) (h : ∀ a, o a + S1x256x1536.size a ≤ S3x256x1536.size a) (w : Vec F S1x256x1536 .f32)
    (hj : j ∉ KS) (hw : w = kaccV m c j)
    {hst : ((kaccM : Memref sig .tc .vmem S3x256x1536 .f32).access (Rect.unit (s := S3x256x1536) o S1x256x1536.size h)).Stores Finset.univ}
    {hm : (Finset.univ : Finset (Rect.unit (s := S3x256x1536) o S1x256x1536.size h).shape.Idx) = Finset.univ ∨ ∀ a, (Rect.unit (s := S3x256x1536) o S1x256x1536.size h).stride a = 1}
    {kk : PUnit → Prog (TpuEff nD τ sig (Elt F) Λ₀ .tc) α} :
    St m K c t Raw Src Dst SW RW KS
      ⊢ iprop((St m K c t Raw Src Dst SW RW (insert j KS) -∗ wp frame (wpE (defs₀ (F := F)) 𝒱₀ (c : Thread nD τ) none) Set.univ (kk ⟨⟩) Q)
        -∗ wp frame (wpE (defs₀ (F := F)) 𝒱₀ (c : Thread nD τ) none) Set.univ (.op (.store kaccM (Rect.unit (s := S3x256x1536) o S1x256x1536.size h) w Finset.univ hst hm) kk) Q) := by
  subst ho
  subst hw
  refine step_of_focus_st (St_focus_locals m K c t Raw Src Dst SW RW KS (insert j KS) (locals_slab_store m c KS j hj)) (fun X => ?_)
  exact wp_store_piece 𝒱₀ (c : Thread nD τ) none Set.univ (M := kaccM) (r := Rect.unit (s := S3x256x1536) ![j.val, 0, 0] S1x256x1536.size h)
    (hr := fun _ => rfl)

end StepsLocal

end Cert.KernelIdeal.Hand

end
-- ==== Proof.PartsP.lean ====
import proofs.«900886_g7700000000000887_dist_matmul_k_i_m1536_n1536_k768_v7x_i8_bf16_1_alg».proof.Proof.ProgState
import proofs.«900886_g7700000000000887_dist_matmul_k_i_m1536_n1536_k768_v7x_i8_bf16_1_alg».proof.Proof.StepsNet
import proofs.«900886_g7700000000000887_dist_matmul_k_i_m1536_n1536_k768_v7x_i8_bf16_1_alg».proof.Proof.StepsLocal
import proofs.«900886_g7700000000000887_dist_matmul_k_i_m1536_n1536_k768_v7x_i8_bf16_1_alg».proof.Proof.Tables
import proofs.«900886_g7700000000000887_dist_matmul_k_i_m1536_n1536_k768_v7x_i8_bf16_1_alg».proof.Proof.Gen.KernelIdeal.Skeleton

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

section PartsPSec

variable {F : FTy → Type} [FloatOps F]
variable (m : (ℓ : Loc nD τ sig) → Buf (Elt F) ℓ)

local notation "𝕄" => MT nD τ sig Unit (Elt F) ℕ UU ℕ

namespace PartsP

theorem St_at (K : Dev nD × CellIx → ℕ) (c : Dev nD) (n : Nat) {t : Nat} {Raw Src Dst SW RW : Finset Cp} {KS : Finset (Fin 3)}
    (ht : t = tAt n) (hR : Raw = rawAt n) (hS : Src = srcAt n) (hD : Dst = dstAt n) (hsw : SW = swAt n) (hrw : RW = rwAt n)
    (hks : KS = ksAt n) :
    St m K c t Raw Src Dst SW RW KS ⊢ St m K c (tAt n) (rawAt n) (srcAt n) (dstAt n) (swAt n) (rwAt n) (ksAt n) := by
  subst ht hR hS hD hsw hrw hks; exact .rfl

theorem hw_rs0 (c : Dev nD) (i : Fin 4) (j : Fin 3) (o : Fin 2 → Nat) (h : ∀ a, o a + S64x768.size a ≤ S1536x768.size a)
    (e : o = ![rowS0 j.val c + pos j.val i.val c * 64, 0]) :
    sq (k0_pay2 (aRows m c o h) (bbfV m c)) = V m c (.rs0 i j) := by
  subst e; rfl

theorem issue_rs0 (K : Dev nD × CellIx → ℕ) (c : Dev nD) (t : ℕ) (Raw Src Dst SW RW : Finset Cp) (KS : Finset (Fin 3))
    (i : Fin 4) (j : Fin 3) (o : Fin 3 → Nat) (ho : o = o0 i j c) (h : ∀ a, o a + S1x64x1536.size a ≤ S3x256x1536.size a)
    (n : Dev nD) (hn : n = (Cp.rs0 i j).peer c) (hk : (Cp.rs0 i j).ord = t) (hs : Cp.rs0 i j ∈ Src) (hsw : Cp.rs0 i j ∉ SW)
    (s r : DmaSem sig) (hs' : s = (Cp.rs0 i j).sendSem) (hr : r = (Cp.rs0 i j).recvSem)
    {hsc : (((rb0M.slice (Rect.unit (s := S3x256x1536) o S1x64x1536.size h) (fun _ => rfl)).squeeze S64x1536 squeezes_S1x64x1536_S64x1536 :
      Memref sig .tc .vmem S64x1536 .bf16) : Memref sig (Dev.tc n : Thread nD τ).2.kind .vmem S64x1536 .bf16).view.ref.isScScratch = false}
    {hsrc : ((sb0M.slice (Rect.unit (s := S3x256x1536) o S1x64x1536.size h) (fun _ => rfl)).squeeze S64x1536 squeezes_S1x64x1536_S64x1536).view.WordExact}
    {hdst : ((rb0M.slice (Rect.unit (s := S3x256x1536) o S1x64x1536.size h) (fun _ => rfl)).squeeze S64x1536 squeezes_S1x64x1536_S64x1536).view.WordExact}
    {hsem : DmaTarget.Typed .vmem (.dma r) (.remote (Dev.tc n : Thread nD τ)
      ((rb0M.slice (Rect.unit (s := S3x256x1536) o S1x64x1536.size h) (fun _ => rfl)).squeeze S64x1536 squeezes_S1x64x1536_S64x1536) (.dma s) hsc)}
    {α : Type} {Q : α → sProp 𝕄} {kk : PUnit → Prog (TpuEff nD τ sig (Elt F) Λ₀ .tc) α} :
    St m K c t Raw Src Dst SW RW KS
      ⊢ iprop((St m K c (t + 1) Raw (Src.erase (.rs0 i j)) Dst SW RW KS
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma ((sb0M.slice (Rect.unit (s := S3x256x1536) o S1x64x1536.size h) (fun _ => rfl)).squeeze S64x1536 squeezes_S1x64x1536_S64x1536)
                (.remote (Dev.tc n : Thread nD τ)
                  ((rb0M.slice (Rect.unit (s := S3x256x1536) o S1x64x1536.size h) (fun _ => rfl)).squeeze S64x1536 squeezes_S1x64x1536_S64x1536) (.dma s) hsc)
                (.dma r) hsrc hdst hsem) kk) Q) := by
  subst ho
  exact step_issue_at m K c t Raw Src Dst SW RW KS (.rs0 i j) n hn hk hs hsw _ _ rfl rfl s r hs' hr

end PartsP

open PartsP

theorem part4 (K : Dev nD × CellIx → ℕ) (c : Dev nD) (v6 v8 v10 v11 v29 v57 : BitVec 32)
    {Q : (Σ' (v98 : BitVec 32) (v101 : BitVec 32) (v104 : BitVec 32) (v107 : BitVec 32) (v124 : BitVec 32), BitVec 32) → sProp 𝕄} :
    iprop(StAt m K c 7 ∗ (∀ w1 w2 w3 w4 w5 w6, StAt m K c 11 -∗ Q ⟨w1, w2, w3, w4, w5, w6⟩))
      ⊢ wp frame (wpE (defs₀ (F := F)) 𝒱₀ (c : Thread nD τ) none) Set.univ
          (onBufs k0_part4 c v6 v8 v10 v11 v29 v57) Q := by
  rw [onBufs, k0_part4_eq_skeleton]; unfold k0_part4_skel
  simp only [Prog.lift, Prog.bind_op, Prog.bind_ret, Prog.pure_eq_ret]
  unfold StAt
  iintro ⟨HS, Hk⟩
  iapply (step_load_A m K c _ _ _ _ _ _ _ (k0_off1 c) (k0_off1_inb c)) $$ HS
  iintro HS
  iapply (step_load_bbf m K c _ _ _ _ _ _ _ inb_S768x1536_S768x1536_0_0) $$ HS
  iintro HS
  iapply (step_load_raw0 m K c _ _ _ _ _ _ _ 0 0 (k0_off2 c) (off_2 c) (k0_off2_inb c) (by decide)) $$ HS
  iintro %vraw HS
  iapply (step_store_src0 m K c _ _ _ _ _ _ _ 0 0 (k0_off2 c) (off_2 c) (k0_off2_inb c) _ (by decide) (hw_rs0 m c 0 0 _ _ (off_1 c))) $$ HS
  iintro HS
  rw [wp_ret]; imodintro
  iapply Hk
  iapply (St_at m K c 11) $$ HS
  all_goals decide

theorem part5 (K : Dev nD × CellIx → ℕ) (c : Dev nD) (v12 v32 v69 v124 c0_i32_93 : BitVec 32) {Q : PUnit → sProp 𝕄} :
    iprop(StAt m K c 11 ∗ (StAt m K c 17 -∗ Q ⟨⟩))
      ⊢ wp frame (wpE (defs₀ (F := F)) 𝒱₀ (c : Thread nD τ) none) Set.univ
          (onBufs k0_part5 c v12 v32 v69 v124 c0_i32_93) Q := by
  rw [onBufs, k0_part5_eq_skeleton]; unfold k0_part5_skel
  simp only [Prog.lift, Prog.bind_op, Prog.bind_ret, Prog.pure_eq_ret]
  unfold StAt
  iintro ⟨HS, Hk⟩
  iapply (issue_rs0 m K c _ _ _ _ _ _ _ 0 0 (k0_off3 c) (off_3 c) (k0_off3_inb c) _ (dev_4 c) (by decide) (by decide) (by decide) _ _ rfl rfl) $$ HS
  iintro HS
  iapply (step_load_A m K c _ _ _ _ _ _ _ (k0_off4 c) (k0_off4_inb c)) $$ HS
  iintro HS
  iapply (step_load_bbf m K c _ _ _ _ _ _ _ inb_S768x1536_S768x1536_0_0) $$ HS
  iintro HS
  iapply (step_load_raw0 m K c _ _ _ _ _ _ _ 0 1 (k0_off5 c) (off_5 c) (k0_off5_inb c) (by decide)) $$ HS
  iintro %vraw HS
  iapply (step_store_src0 m K c _ _ _ _ _ _ _ 0 1 (k0_off5 c) (off_5 c) (k0_off5_inb c) _ (by decide) (hw_rs0 m c 0 1 _ _ (off_4 c))) $$ HS
  iintro HS
  iapply (issue_rs0 m K c _ _ _ _ _ _ _ 0 1 (k0_off6 c) (off_6 c) (k0_off6_inb c) _ (dev_5 c) (by decide) (by decide) (by decide) _ _ rfl rfl) $$ HS
  iintro HS
  rw [wp_ret]; imodintro
  iapply Hk
  iapply (St_at m K c 17) $$ HS
  all_goals decide

theorem part6 (K : Dev nD × CellIx → ℕ) (c : Dev nD) (v13 v29 v35 v60 v81 : BitVec 32)
    {Q : (Σ' (v191 : FVec F S64x768 .bf16) (v192 : Vec F S768x1536 .bf16), FVec F S64x1536 .f32) → sProp 𝕄} :
    iprop(StAt m K c 17 ∗ (StAt m K c 24 -∗ Q ⟨(k0_pay5 (aRows m c (k0_off10 c) (k0_off10_inb c))), bbfV m c, (constant S64x1536 .f32 0x00000000#32)⟩))
      ⊢ wp frame (wpE (defs₀ (F := F)) 𝒱₀ (c : Thread nD τ) none) Set.univ
          (onBufs k0_part6 c v13 v29 v35 v60 v81) Q := by
  rw [onBufs, k0_part6_eq_skeleton]; unfold k0_part6_skel
  simp only [Prog.lift, Prog.bind_op, Prog.bind_ret, Prog.pure_eq_ret]
  unfold StAt
  iintro ⟨HS, Hk⟩
  iapply (step_load_A m K c _ _ _ _ _ _ _ (k0_off7 c) (k0_off7_inb c)) $$ HS
  iintro HS
  iapply (step_load_bbf m K c _ _ _ _ _ _ _ inb_S768x1536_S768x1536_0_0) $$ HS
  iintro HS
  iapply (step_load_raw0 m K c _ _ _ _ _ _ _ 0 2 (k0_off8 c) (off_8 c) (k0_off8_inb c) (by decide)) $$ HS
  iintro %vraw HS
  iapply (step_store_src0 m K c _ _ _ _ _ _ _ 0 2 (k0_off8 c) (off_8 c) (k0_off8_inb c) _ (by decide) (hw_rs0 m c 0 2 _ _ (off_7 c))) $$ HS
  iintro HS
  iapply (issue_rs0 m K c _ _ _ _ _ _ _ 0 2 (k0_off9 c) (off_9 c) (k0_off9_inb c) _ (dev_6 c) (by decide) (by decide) (by decide) _ _ rfl rfl) $$ HS
  iintro HS
  iapply (step_load_A m K c _ _ _ _ _ _ _ (k0_off10 c) (k0_off10_inb c)) $$ HS
  iintro HS
  iapply (step_load_bbf m K c _ _ _ _ _ _ _ inb_S768x1536_S768x1536_0_0) $$ HS
  iintro HS
  rw [wp_ret]; imodintro
  iapply Hk
  iapply (St_at m K c 24) $$ HS
  all_goals decide

theorem part7 (K : Dev nD × CellIx → ℕ) (c : Dev nD) (v11 v32 v60 v72 : BitVec 32) {Q : BitVec 32 → sProp 𝕄} :
    iprop(StAt m K c 24 ∗ (∀ w, StAt m K c 31 -∗ Q w))
      ⊢ wp frame (wpE (defs₀ (F := F)) 𝒱₀ (c : Thread nD τ) none) Set.univ
          (onBufs k0_part7 c v11 v32 v60 v72 (k0_pay5 (aRows m c (k0_off10 c) (k0_off10_inb c))) (bbfV m c) (constant S64x1536 .f32 0x00000000#32)) Q := by
  rw [onBufs, k0_part7_eq_skeleton]; unfold k0_part7_skel
  simp only [Prog.lift, Prog.bind_op, Prog.bind_ret, Prog.pure_eq_ret]
  unfold StAt
  iintro ⟨HS, Hk⟩
  iapply (step_load_raw0 m K c _ _ _ _ _ _ _ 1 0 (k0_off11 c) (off_11 c) (k0_off11_inb c) (by decide)) $$ HS
  iintro %vraw HS
  iapply (step_store_src0 m K c _ _ _ _ _ _ _ 1 0 (k0_off11 c) (off_11 c) (k0_off11_inb c) _ (by decide) (hw_rs0 m c 1 0 _ _ (off_10 c))) $$ HS
  iintro HS
  iapply (issue_rs0 m K c _ _ _ _ _ _ _ 1 0 (k0_off12 c) (off_12 c) (k0_off12_inb c) _ (dev_7 c) (by decide) (by decide) (by decide) _ _ rfl rfl) $$ HS
  iintro HS
  iapply (step_load_A m K c _ _ _ _ _ _ _ (k0_off13 c) (k0_off13_inb c)) $$ HS
  iintro HS
  iapply (step_load_bbf m K c _ _ _ _ _ _ _ inb_S768x1536_S768x1536_0_0) $$ HS
  iintro HS
  iapply (step_load_raw0 m K c _ _ _ _ _ _ _ 1 1 (k0_off14 c) (off_14 c) (k0_off14_inb c) (by decide)) $$ HS
  iintro %vraw HS
  iapply (step_store_src0 m K c _ _ _ _ _ _ _ 1 1 (k0_off14 c) (off_14 c) (k0_off14_inb c) _ (by decide) (hw_rs0 m c 1 1 _ _ (off_13 c))) $$ HS
  iintro HS
  rw [wp_ret]; imodintro
  iapply Hk
  iapply (St_at m K c 31) $$ HS
  all_goals decide

theorem part8 (K : Dev nD × CellIx → ℕ) (c : Dev nD) (v12 v13 v35 v72 v84 c64_i32_162 : BitVec 32)
    {Q : (Σ' (v254 : BitVec 32), BitVec 32) → sProp 𝕄} :
    iprop(StAt m K c 31 ∗ (∀ w1 w2, StAt m K c 36 -∗ Q ⟨w1, w2⟩))
      ⊢ wp frame (wpE (defs₀ (F := F)) 𝒱₀ (c : Thread nD τ) none) Set.univ
          (onBufs k0_part8 c v12 v13 v35 v72 v84 c64_i32_162) Q := by
  rw [onBufs, k0_part8_eq_skeleton]; unfold k0_part8_skel
  simp only [Prog.lift, Prog.bind_op, Prog.bind_ret, Prog.pure_eq_ret]
  unfold StAt
  iintro ⟨HS, Hk⟩
  iapply (issue_rs0 m K c _ _ _ _ _ _ _ 1 1 (k0_off15 c) (off_15 c) (k0_off15_inb c) _ (dev_8 c) (by decide) (by decide) (by decide) _ _ rfl rfl) $$ HS
  iintro HS
  iapply (step_load_A m K c _ _ _ _ _ _ _ (k0_off16 c) (k0_off16_inb c)) $$ HS
  iintro HS
  iapply (step_load_bbf m K c _ _ _ _ _ _ _ inb_S768x1536_S768x1536_0_0) $$ HS
  iintro HS
  iapply (step_load_raw0 m K c _ _ _ _ _ _ _ 1 2 (k0_off17 c) (off_17 c) (k0_off17_inb c) (by decide)) $$ HS
  iintro %vraw HS
  iapply (step_store_src0 m K c _ _ _ _ _ _ _ 1 2 (k0_off17 c) (off_17 c) (k0_off17_inb c) _ (by decide) (hw_rs0 m c 1 2 _ _ (off_16 c))) $$ HS
  iintro HS
  rw [wp_ret]; imodintro
  iapply Hk
  iapply (St_at m K c 36) $$ HS
  all_goals decide

theorem part9 (K : Dev nD × CellIx → ℕ) (c : Dev nD) (v11 v29 v63 v254 c0_i32_191 : BitVec 32) {Q : PUnit → sProp 𝕄} :
    iprop(StAt m K c 36 ∗ (StAt m K c 42 -∗ Q ⟨⟩))
      ⊢ wp frame (wpE (defs₀ (F := F)) 𝒱₀ (c : Thread nD τ) none) Set.univ
          (onBufs k0_part9 c v11 v29 v63 v254 c0_i32_191) Q := by
  rw [onBufs, k0_part9_eq_skeleton]; unfold k0_part9_skel
  simp only [Prog.lift, Prog.bind_op, Prog.bind_ret, Prog.pure_eq_ret]
  unfold StAt
  iintro ⟨HS, Hk⟩
  iapply (issue_rs0 m K c _ _ _ _ _ _ _ 1 2 (k0_off18 c) (off_18 c) (k0_off18_inb c) _ (dev_9 c) (by decide) (by decide) (by decide) _ _ rfl rfl) $$ HS
  iintro HS
  iapply (step_load_A m K c _ _ _ _ _ _ _ (k0_off19 c) (k0_off19_inb c)) $$ HS
  iintro HS
  iapply (step_load_bbf m K c _ _ _ _ _ _ _ inb_S768x1536_S768x1536_0_0) $$ HS
  iintro HS
  iapply (step_load_raw0 m K c _ _ _ _ _ _ _ 2 0 (k0_off20 c) (off_20 c) (k0_off20_inb c) (by decide)) $$ HS
  iintro %vraw HS
  iapply (step_store_src0 m K c _ _ _ _ _ _ _ 2 0 (k0_off20 c) (off_20 c) (k0_off20_inb c) _ (by decide) (hw_rs0 m c 2 0 _ _ (off_19 c))) $$ HS
  iintro HS
  iapply (issue_rs0 m K c _ _ _ _ _ _ _ 2 0 (k0_off21 c) (off_21 c) (k0_off21_inb c) _ (dev_10 c) (by decide) (by decide) (by decide) _ _ rfl rfl) $$ HS
  iintro HS
  rw [wp_ret]; imodintro
  iapply Hk
  iapply (St_at m K c 42) $$ HS
  all_goals decide

theorem part10 (K : Dev nD × CellIx → ℕ) (c : Dev nD) (v12 v32 v35 v75 v87 : BitVec 32)
    {Q : (Σ' (v321 : FVec F S64x768 .bf16) (v322 : Vec F S768x1536 .bf16), FVec F S64x1536 .f32) → sProp 𝕄} :
    iprop(StAt m K c 42 ∗ (StAt m K c 49 -∗ Q ⟨(k0_pay11 (aRows m c (k0_off25 c) (k0_off25_inb c))), bbfV m c, (constant S64x1536 .f32 0x00000000#32)⟩))
      ⊢ wp frame (wpE (defs₀ (F := F)) 𝒱₀ (c : Thread nD τ) none) Set.univ
          (onBufs k0_part10 c v12 v32 v35 v75 v87) Q := by
  rw [onBufs, k0_part10_eq_skeleton]; unfold k0_part10_skel
  simp only [Prog.lift, Prog.bind_op, Prog.bind_ret, Prog.pure_eq_ret]
  unfold StAt
  iintro ⟨HS, Hk⟩
  iapply (step_load_A m K c _ _ _ _ _ _ _ (k0_off22 c) (k0_off22_inb c)) $$ HS
  iintro HS
  iapply (step_load_bbf m K c _ _ _ _ _ _ _ inb_S768x1536_S768x1536_0_0) $$ HS
  iintro HS
  iapply (step_load_raw0 m K c _ _ _ _ _ _ _ 2 1 (k0_off23 c) (off_23 c) (k0_off23_inb c) (by decide)) $$ HS
  iintro %vraw HS
  iapply (step_store_src0 m K c _ _ _ _ _ _ _ 2 1 (k0_off23 c) (off_23 c) (k0_off23_inb c) _ (by decide) (hw_rs0 m c 2 1 _ _ (off_22 c))) $$ HS
  iintro HS
  iapply (issue_rs0 m K c _ _ _ _ _ _ _ 2 1 (k0_off24 c) (off_24 c) (k0_off24_inb c) _ (dev_11 c) (by decide) (by decide) (by decide) _ _ rfl rfl) $$ HS
  iintro HS
  iapply (step_load_A m K c _ _ _ _ _ _ _ (k0_off25 c) (k0_off25_inb c)) $$ HS
  iintro HS
  iapply (step_load_bbf m K c _ _ _ _ _ _ _ inb_S768x1536_S768x1536_0_0) $$ HS
  iintro HS
  rw [wp_ret]; imodintro
  iapply Hk
  iapply (St_at m K c 49) $$ HS
  all_goals decide

theorem part11 (K : Dev nD × CellIx → ℕ) (c : Dev nD) (v13 v29 v65 v87 : BitVec 32) {Q : BitVec 32 → sProp 𝕄} :
    iprop(StAt m K c 49 ∗ (∀ w, StAt m K c 56 -∗ Q w))
      ⊢ wp frame (wpE (defs₀ (F := F)) 𝒱₀ (c : Thread nD τ) none) Set.univ
          (onBufs k0_part11 c v13 v29 v65 v87 (k0_pay11 (aRows m c (k0_off25 c) (k0_off25_inb c))) (bbfV m c) (constant S64x1536 .f32 0x00000000#32)) Q := by
  rw [onBufs, k0_part11_eq_skeleton]; unfold k0_part11_skel
  simp only [Prog.lift, Prog.bind_op, Prog.bind_ret, Prog.pure_eq_ret]
  unfold StAt
  iintro ⟨HS, Hk⟩
  iapply (step_load_raw0 m K c _ _ _ _ _ _ _ 2 2 (k0_off26 c) (off_26 c) (k0_off26_inb c) (by decide)) $$ HS
  iintro %vraw HS
  iapply (step_store_src0 m K c _ _ _ _ _ _ _ 2 2 (k0_off26 c) (off_26 c) (k0_off26_inb c) _ (by decide) (hw_rs0 m c 2 2 _ _ (off_25 c))) $$ HS
  iintro HS
  iapply (issue_rs0 m K c _ _ _ _ _ _ _ 2 2 (k0_off27 c) (off_27 c) (k0_off27_inb c) _ (dev_12 c) (by decide) (by decide) (by decide) _ _ rfl rfl) $$ HS
  iintro HS
  iapply (step_load_A m K c _ _ _ _ _ _ _ (k0_off28 c) (k0_off28_inb c)) $$ HS
  iintro HS
  iapply (step_load_bbf m K c _ _ _ _ _ _ _ inb_S768x1536_S768x1536_0_0) $$ HS
  iintro HS
  iapply (step_load_raw0 m K c _ _ _ _ _ _ _ 3 0 (k0_off29 c) (off_29 c) (k0_off29_inb c) (by decide)) $$ HS
  iintro %vraw HS
  iapply (step_store_src0 m K c _ _ _ _ _ _ _ 3 0 (k0_off29 c) (off_29 c) (k0_off29_inb c) _ (by decide) (hw_rs0 m c 3 0 _ _ (off_28 c))) $$ HS
  iintro HS
  rw [wp_ret]; imodintro
  iapply Hk
  iapply (St_at m K c 56) $$ HS
  all_goals decide

end PartsPSec

end Cert.KernelIdeal.Hand

end
-- ==== Proof.PartsQ.lean ====
import proofs.«900886_g7700000000000887_dist_matmul_k_i_m1536_n1536_k768_v7x_i8_bf16_1_alg».proof.Proof.ProgState
import proofs.«900886_g7700000000000887_dist_matmul_k_i_m1536_n1536_k768_v7x_i8_bf16_1_alg».proof.Proof.StepsNet
import proofs.«900886_g7700000000000887_dist_matmul_k_i_m1536_n1536_k768_v7x_i8_bf16_1_alg».proof.Proof.StepsLocal
import proofs.«900886_g7700000000000887_dist_matmul_k_i_m1536_n1536_k768_v7x_i8_bf16_1_alg».proof.Proof.Tables
import proofs.«900886_g7700000000000887_dist_matmul_k_i_m1536_n1536_k768_v7x_i8_bf16_1_alg».proof.Proof.Gen.KernelIdeal.Skeleton

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

namespace PartsQ

section Aux
variable {F : FTy → Type} [FloatOps F]
variable (m : (ℓ : Loc nD τ sig) → Buf (Elt F) ℓ)
local notation "𝕄" => MT nD τ sig Unit (Elt F) ℕ UU ℕ

omit [FloatOps F] in

theorem chain {A A' R W1 W2 : sProp 𝕄} (hs : A ⊢ iprop((A' -∗ W1) -∗ W2)) (hr : iprop(A' ∗ R) ⊢ W1) : iprop(A ∗ R) ⊢ W2 := by
  iintro ⟨HA, HR⟩
  iapply hs $$ HA
  iintro HA'
  iapply hr
  isplitl [HA']
  · iexact HA'
  · iexact HR

omit [FloatOps F] in

theorem chainA {β : Type} {A A' R W2 : sProp 𝕄} {W1 : β → sProp 𝕄} (hs : A ⊢ iprop((∀ v, A' -∗ W1 v) -∗ W2))
    (hr : ∀ v, iprop(A' ∗ R) ⊢ W1 v) : iprop(A ∗ R) ⊢ W2 := by
  iintro ⟨HA, HR⟩
  iapply hs $$ HA
  iintro %v HA'
  iapply (hr v)
  isplitl [HA']
  · iexact HA'
  · iexact HR

theorem St_cast (K : Dev nD × CellIx → ℕ) (c : Dev nD) {t t' : ℕ} {Raw Raw' Src Src' Dst Dst' SW SW' RW RW' : Finset Cp} {KS KS' : Finset (Fin 3)}
    (h1 : t = t') (h2 : Raw = Raw') (h3 : Src = Src') (h4 : Dst = Dst') (h5 : SW = SW') (h6 : RW = RW') (h7 : KS = KS') :
    St m K c t Raw Src Dst SW RW KS ⊢ St m K c t' Raw' Src' Dst' SW' RW' KS' := by
  subst h1 h2 h3 h4 h5 h6 h7; exact .rfl

theorem aRows_congr (c : Dev nD) (o o' : Fin 2 → Nat) (h : ∀ a, o a + S64x768.size a ≤ S1536x768.size a)
    (h' : ∀ a, o' a + S64x768.size a ≤ S1536x768.size a) (e : o = o') : aRows m c o h = aRows m c o' h' := by
  subst e; rfl

theorem aRows256_congr (c : Dev nD) (o o' : Fin 2 → Nat) (h : ∀ a, o a + S256x768.size a ≤ S1536x768.size a)
    (h' : ∀ a, o' a + S256x768.size a ≤ S1536x768.size a) (e : o = o') : aRows256 m c o h = aRows256 m c o' h' := by
  subst e; rfl

end Aux

end PartsQ

open PartsQ

section Parts
variable {F : FTy → Type} [FloatOps F]
variable (m : (ℓ : Loc nD τ sig) → Buf (Elt F) ℓ)
local notation "𝕄" => MT nD τ sig Unit (Elt F) ℕ UU ℕ

set_option maxHeartbeats 1600000 in

theorem part12 (K : Dev nD × CellIx → ℕ) (c : Dev nD) (v11 v12 v32 v65 v77 c64 : BitVec 32)
    {Q : (Σ' (_ : BitVec 32), BitVec 32) → sProp 𝕄} :
    iprop(StAt m K c 56 ∗ (∀ w1 w2, StAt m K c 61 -∗ Q ⟨w1, w2⟩))
      ⊢ wp frame (wpE (defs₀ (F := F)) 𝒱₀ (c : Thread nD τ) none) Set.univ
          (onBufs k0_part12
            c v11 v12 v32 v65 v77 c64) Q := by
  rw [onBufs, k0_part12_eq_skeleton]; unfold k0_part12_skel
  simp only [Prog.lift, Prog.bind_op, Prog.bind_ret, Prog.pure_eq_ret]
  unfold StAt
  refine chain (step_issue_at m K c _ _ _ _ _ _ _ (.rs0 3 0) _ (dev_13 c) (by decide) (by decide) (by decide)
    _ _ (srcM_rs0 3 0 c _ (off_30 c) _) (dstM_rs0 3 0 c _ (off_30 c) _) _ _ (by decide) (by decide)) ?_
  refine chain (step_load_A m K c _ _ _ _ _ _ _ (k0_off31 c) (k0_off31_inb c)) ?_
  refine chain (step_load_bbf m K c _ _ _ _ _ _ _ _) ?_
  refine chainA (step_load_raw0 m K c _ _ _ _ _ _ _ 3 1 (k0_off32 c) (off_32 c) (k0_off32_inb c) (by decide)) (fun _ => ?_)
  refine chain (step_store_src0 m K c _ _ _ _ _ _ _ 3 1 (k0_off32 c) (off_32 c) (k0_off32_inb c) _ (by decide) (by rw [aRows_congr m c (k0_off31 c) _ (k0_off31_inb c) (rowS_inb 1 3 c) (off_31 c)]; rfl)) ?_
  rw [wp_ret]
  iintro ⟨H, Hk⟩
  imodintro
  ispecialize Hk $$ %(Scalar.muli v12 1#32) %(0#32)
  iapply Hk
  iapply (St_cast m K c (by decide) (by decide) (by decide) (by decide) (by decide) (by decide) (by decide)) $$ H

set_option maxHeartbeats 1600000 in

theorem part13 (K : Dev nD × CellIx → ℕ) (c : Dev nD) (v13 v35 v89 v384 c0 : BitVec 32)
    {Q : PUnit → sProp 𝕄} :
    iprop(StAt m K c 61 ∗ (StAt m K c 67 -∗ Q ⟨⟩))
      ⊢ wp frame (wpE (defs₀ (F := F)) 𝒱₀ (c : Thread nD τ) none) Set.univ
          (onBufs k0_part13
            c v13 v35 v89 v384 c0) Q := by
  rw [onBufs, k0_part13_eq_skeleton]; unfold k0_part13_skel
  simp only [Prog.lift, Prog.bind_op, Prog.bind_ret, Prog.pure_eq_ret]
  unfold StAt
  refine chain (step_issue_at m K c _ _ _ _ _ _ _ (.rs0 3 1) _ (dev_14 c) (by decide) (by decide) (by decide)
    _ _ (srcM_rs0 3 1 c _ (off_33 c) _) (dstM_rs0 3 1 c _ (off_33 c) _) _ _ (by decide) (by decide)) ?_
  refine chain (step_load_A m K c _ _ _ _ _ _ _ (k0_off34 c) (k0_off34_inb c)) ?_
  refine chain (step_load_bbf m K c _ _ _ _ _ _ _ _) ?_
  refine chainA (step_load_raw0 m K c _ _ _ _ _ _ _ 3 2 (k0_off35 c) (off_35 c) (k0_off35_inb c) (by decide)) (fun _ => ?_)
  refine chain (step_store_src0 m K c _ _ _ _ _ _ _ 3 2 (k0_off35 c) (off_35 c) (k0_off35_inb c) _ (by decide) (by rw [aRows_congr m c (k0_off34 c) _ (k0_off34_inb c) (rowS_inb 2 3 c) (off_34 c)]; rfl)) ?_
  refine chain (step_issue_at m K c _ _ _ _ _ _ _ (.rs0 3 2) _ (dev_15 c) (by decide) (by decide) (by decide)
    _ _ (srcM_rs0 3 2 c _ (off_36 c) _) (dstM_rs0 3 2 c _ (off_36 c) _) _ _ (by decide) (by decide)) ?_
  rw [wp_ret]
  iintro ⟨H, Hk⟩
  imodintro
  iapply Hk
  iapply (St_cast m K c (by decide) (by decide) (by decide) (by decide) (by decide) (by decide) (by decide)) $$ H

set_option maxHeartbeats 1600000 in

theorem part14 (K : Dev nD × CellIx → ℕ) (c : Dev nD) (v37 v39 v41 : BitVec 32)
    {Q : PUnit → sProp 𝕄} :
    iprop(StAt m K c 67 ∗ (StAt m K c 79 -∗ Q ⟨⟩))
      ⊢ wp frame (wpE (defs₀ (F := F)) 𝒱₀ (c : Thread nD τ) none) Set.univ
          (onBufs k0_part14
            c v37 v39 v41) Q := by
  rw [onBufs, k0_part14_eq_skeleton]; unfold k0_part14_skel
  simp only [Prog.lift, Prog.bind_op, Prog.bind_ret, Prog.pure_eq_ret]
  unfold StAt
  refine chain (step_load_A256 m K c _ _ _ _ _ _ _ (k0_off37 c) (k0_off37_inb c)) ?_
  refine chain (step_load_bbf m K c _ _ _ _ _ _ _ _) ?_
  refine chainA (step_load_slab_raw m K c _ _ _ _ _ _ _ 0 _ rfl _ (by decide)) (fun _ => ?_)
  refine chain (step_store_slab m K c _ _ _ _ _ _ _ 0 _ rfl _ _ (by decide) (by rw [aRows256_congr m c (k0_off37 c) _ (k0_off37_inb c) (rowK_inb 0 c) (off_37 c)]; rfl)) ?_
  refine chain (step_load_A256 m K c _ _ _ _ _ _ _ (k0_off38 c) (k0_off38_inb c)) ?_
  refine chain (step_load_bbf m K c _ _ _ _ _ _ _ _) ?_
  refine chainA (step_load_slab_raw m K c _ _ _ _ _ _ _ 1 _ rfl _ (by decide)) (fun _ => ?_)
  refine chain (step_store_slab m K c _ _ _ _ _ _ _ 1 _ rfl _ _ (by decide) (by rw [aRows256_congr m c (k0_off38 c) _ (k0_off38_inb c) (rowK_inb 1 c) (off_38 c)]; rfl)) ?_
  refine chain (step_load_A256 m K c _ _ _ _ _ _ _ (k0_off39 c) (k0_off39_inb c)) ?_
  refine chain (step_load_bbf m K c _ _ _ _ _ _ _ _) ?_
  refine chainA (step_load_slab_raw m K c _ _ _ _ _ _ _ 2 _ rfl _ (by decide)) (fun _ => ?_)
  refine chain (step_store_slab m K c _ _ _ _ _ _ _ 2 _ rfl _ _ (by decide) (by rw [aRows256_congr m c (k0_off39 c) _ (k0_off39_inb c) (rowK_inb 2 c) (off_39 c)]; rfl)) ?_
  rw [wp_ret]
  iintro ⟨H, Hk⟩
  imodintro
  iapply Hk
  iapply (St_cast m K c (by decide) (by decide) (by decide) (by decide) (by decide) (by decide) (by decide)) $$ H

set_option maxHeartbeats 1600000 in

theorem part15 (K : Dev nD × CellIx → ℕ) (c : Dev nD) (v10 v11 v57 : BitVec 32)
    {Q : PUnit → sProp 𝕄} :
    iprop(StAt m K c 79 ∗ (StAt m K c 85 -∗ Q ⟨⟩))
      ⊢ wp frame (wpE (defs₀ (F := F)) 𝒱₀ (c : Thread nD τ) none) Set.univ
          (onBufs k0_part15
            c v10 v11 v57) Q := by
  rw [onBufs, k0_part15_eq_skeleton]; unfold k0_part15_skel
  simp only [Prog.lift, Prog.bind_op, Prog.bind_ret, Prog.pure_eq_ret]
  unfold StAt
  refine chain (step_wait_send_at m K c _ _ _ _ _ _ _ (.rs0 0 0) _ _ (by rfl) (by decide) (by decide) _ (by decide)) ?_
  refine chain (step_wait_recv_at m K c _ _ _ _ _ _ _ (.rs0 0 0) _ _ (by rfl) (by decide) (by decide) _ (by decide)) ?_
  refine chain (step_load_kslice m K c _ _ _ _ _ _ _ 0 0 (k0_off2 c) (off_2 c) (k0_off2_inb c) (by decide)) ?_
  refine chain (step_load_dst0 m K c _ _ _ _ _ _ _ 0 0 (k0_off2 c) (off_2 c) (k0_off2_inb c) (by decide)) ?_
  refine chainA (step_load_raw1 m K c _ _ _ _ _ _ _ 0 0 (k0_off40 c) (off_40 c) (k0_off40_inb c) (by decide)) (fun _ => ?_)
  refine chain (step_store_src1 m K c _ _ _ _ _ _ _ 0 0 (k0_off40 c) (off_40 c) (k0_off40_inb c) _ (by decide) rfl) ?_
  rw [wp_ret]
  iintro ⟨H, Hk⟩
  imodintro
  iapply Hk
  iapply (St_cast m K c (by decide) (by decide) (by decide) (by decide) (by decide) (by decide) (by decide)) $$ H

set_option maxHeartbeats 1600000 in

theorem part16 (K : Dev nD × CellIx → ℕ) (c : Dev nD) (v6 v12 v69 : BitVec 32)
    {Q : (Σ' (_ : BitVec 32), Vec F S1x64x1536 .f32) → sProp 𝕄} :
    iprop(StAt m K c 85 ∗ (∀ w, StAt m K c 89 -∗ Q ⟨w, kslice m c 1 (posF 1 0 c)⟩))
      ⊢ wp frame (wpE (defs₀ (F := F)) 𝒱₀ (c : Thread nD τ) none) Set.univ
          (onBufs k0_part16
            c v6 v12 v69) Q := by
  rw [onBufs, k0_part16_eq_skeleton]; unfold k0_part16_skel
  simp only [Prog.lift, Prog.bind_op, Prog.bind_ret, Prog.pure_eq_ret]
  unfold StAt
  refine chain (step_issue_at m K c _ _ _ _ _ _ _ (.rs1 0 0) _ (dev_16 c) (by decide) (by decide) (by decide)
    _ _ (srcM_rs1 0 0 c _ (off_41 c) _) (dstM_rs1 0 0 c _ (off_41 c) _) _ _ (by decide) (by decide)) ?_
  refine chain (step_wait_send_at m K c _ _ _ _ _ _ _ (.rs0 0 1) _ _ (by rfl) (by decide) (by decide) _ (by decide)) ?_
  refine chain (step_wait_recv_at m K c _ _ _ _ _ _ _ (.rs0 0 1) _ _ (by rfl) (by decide) (by decide) _ (by decide)) ?_
  refine chain (step_load_kslice m K c _ _ _ _ _ _ _ 0 1 (k0_off5 c) (off_5 c) (k0_off5_inb c) (by decide)) ?_
  rw [wp_ret]
  iintro ⟨H, Hk⟩
  imodintro
  ispecialize Hk $$ %(Scalar.muli (Scalar.subi 1#32 v6) 64#32)
  iapply Hk
  iapply (St_cast m K c (by decide) (by decide) (by decide) (by decide) (by decide) (by decide) (by decide)) $$ H

set_option maxHeartbeats 1600000 in

theorem part17 (K : Dev nD × CellIx → ℕ) (c : Dev nD) (v13 v69 v503 : BitVec 32)
    {Q : PUnit → sProp 𝕄} :
    iprop(StAt m K c 89 ∗ (StAt m K c 94 -∗ Q ⟨⟩))
      ⊢ wp frame (wpE (defs₀ (F := F)) 𝒱₀ (c : Thread nD τ) none) Set.univ
          (onBufs k0_part17
            c v13 v69 v503 (kslice m c 1 (posF 1 0 c))) Q := by
  rw [onBufs, k0_part17_eq_skeleton]; unfold k0_part17_skel
  simp only [Prog.lift, Prog.bind_op, Prog.bind_ret, Prog.pure_eq_ret]
  unfold StAt
  refine chain (step_load_dst0 m K c _ _ _ _ _ _ _ 0 1 (k0_off5 c) (off_5 c) (k0_off5_inb c) (by decide)) ?_
  refine chainA (step_load_raw1 m K c _ _ _ _ _ _ _ 0 1 (k0_off42 c) (off_42 c) (k0_off42_inb c) (by decide)) (fun _ => ?_)
  refine chain (step_store_src1 m K c _ _ _ _ _ _ _ 0 1 (k0_off42 c) (off_42 c) (k0_off42_inb c) _ (by decide) rfl) ?_
  refine chain (step_issue_at m K c _ _ _ _ _ _ _ (.rs1 0 1) _ (dev_17 c) (by decide) (by decide) (by decide)
    _ _ (srcM_rs1 0 1 c _ (off_43 c) _) (dstM_rs1 0 1 c _ (off_43 c) _) _ _ (by decide) (by decide)) ?_
  refine chain (step_wait_send_at m K c _ _ _ _ _ _ _ (.rs0 0 2) _ _ (by rfl) (by decide) (by decide) _ (by decide)) ?_
  rw [wp_ret]
  iintro ⟨H, Hk⟩
  imodintro
  iapply Hk
  iapply (St_cast m K c (by decide) (by decide) (by decide) (by decide) (by decide) (by decide) (by decide)) $$ H

set_option maxHeartbeats 1600000 in

theorem part18 (K : Dev nD × CellIx → ℕ) (c : Dev nD) (v8 v11 v13 v81 : BitVec 32)
    {Q : PUnit → sProp 𝕄} :
    iprop(StAt m K c 94 ∗ (StAt m K c 99 -∗ Q ⟨⟩))
      ⊢ wp frame (wpE (defs₀ (F := F)) 𝒱₀ (c : Thread nD τ) none) Set.univ
          (onBufs k0_part18
            c v8 v11 v13 v81) Q := by
  rw [onBufs, k0_part18_eq_skeleton]; unfold k0_part18_skel
  simp only [Prog.lift, Prog.bind_op, Prog.bind_ret, Prog.pure_eq_ret]
  unfold StAt
  refine chain (step_wait_recv_at m K c _ _ _ _ _ _ _ (.rs0 0 2) _ _ (by rfl) (by decide) (by decide) _ (by decide)) ?_
  refine chain (step_load_kslice m K c _ _ _ _ _ _ _ 0 2 (k0_off8 c) (off_8 c) (k0_off8_inb c) (by decide)) ?_
  refine chain (step_load_dst0 m K c _ _ _ _ _ _ _ 0 2 (k0_off8 c) (off_8 c) (k0_off8_inb c) (by decide)) ?_
  refine chainA (step_load_raw1 m K c _ _ _ _ _ _ _ 0 2 (k0_off44 c) (off_44 c) (k0_off44_inb c) (by decide)) (fun _ => ?_)
  refine chain (step_store_src1 m K c _ _ _ _ _ _ _ 0 2 (k0_off44 c) (off_44 c) (k0_off44_inb c) _ (by decide) rfl) ?_
  rw [wp_ret]
  iintro ⟨H, Hk⟩
  imodintro
  iapply Hk
  iapply (St_cast m K c (by decide) (by decide) (by decide) (by decide) (by decide) (by decide) (by decide)) $$ H

set_option maxHeartbeats 1600000 in

theorem part19 (K : Dev nD × CellIx → ℕ) (c : Dev nD) (v10 v11 v60 : BitVec 32)
    {Q : FVec F S64x1536 .bf16 → sProp 𝕄} :
    iprop(StAt m K c 99 ∗ (StAt m K c 104 -∗ Q (k0_pay22 (kslice m c 0 (posF 0 1 c)) (unsq (V m ((Cp.rs0 1 0).peer c) (.rs0 1 0))))))
      ⊢ wp frame (wpE (defs₀ (F := F)) 𝒱₀ (c : Thread nD τ) none) Set.univ
          (onBufs k0_part19
            c v10 v11 v60) Q := by
  rw [onBufs, k0_part19_eq_skeleton]; unfold k0_part19_skel
  simp only [Prog.lift, Prog.bind_op, Prog.bind_ret, Prog.pure_eq_ret]
  unfold StAt
  refine chain (step_issue_at m K c _ _ _ _ _ _ _ (.rs1 0 2) _ (dev_18 c) (by decide) (by decide) (by decide)
    _ _ (srcM_rs1 0 2 c _ (off_45 c) _) (dstM_rs1 0 2 c _ (off_45 c) _) _ _ (by decide) (by decide)) ?_
  refine chain (step_wait_send_at m K c _ _ _ _ _ _ _ (.rs0 1 0) _ _ (by rfl) (by decide) (by decide) _ (by decide)) ?_
  refine chain (step_wait_recv_at m K c _ _ _ _ _ _ _ (.rs0 1 0) _ _ (by rfl) (by decide) (by decide) _ (by decide)) ?_
  refine chain (step_load_kslice m K c _ _ _ _ _ _ _ 1 0 (k0_off11 c) (off_11 c) (k0_off11_inb c) (by decide)) ?_
  refine chain (step_load_dst0 m K c _ _ _ _ _ _ _ 1 0 (k0_off11 c) (off_11 c) (k0_off11_inb c) (by decide)) ?_
  rw [wp_ret]
  iintro ⟨H, Hk⟩
  imodintro
  iapply Hk
  iapply (St_cast m K c (by decide) (by decide) (by decide) (by decide) (by decide) (by decide) (by decide)) $$ H

end Parts

end Cert.KernelIdeal.Hand

end
-- ==== Proof.PartsR.lean ====
import proofs.«900886_g7700000000000887_dist_matmul_k_i_m1536_n1536_k768_v7x_i8_bf16_1_alg».proof.Proof.ProgState
import proofs.«900886_g7700000000000887_dist_matmul_k_i_m1536_n1536_k768_v7x_i8_bf16_1_alg».proof.Proof.StepsNet
import proofs.«900886_g7700000000000887_dist_matmul_k_i_m1536_n1536_k768_v7x_i8_bf16_1_alg».proof.Proof.StepsLocal
import proofs.«900886_g7700000000000887_dist_matmul_k_i_m1536_n1536_k768_v7x_i8_bf16_1_alg».proof.Proof.Tables
import proofs.«900886_g7700000000000887_dist_matmul_k_i_m1536_n1536_k768_v7x_i8_bf16_1_alg».proof.Proof.Gen.KernelIdeal.Skeleton

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

section Parts

variable {F : FTy → Type} [FloatOps F]
variable (m : (ℓ : Loc nD τ sig) → Buf (Elt F) ℓ)

local notation "𝕄" => MT nD τ sig Unit (Elt F) ℕ UU ℕ

namespace PartsR

theorem St_congr (K : Dev nD × CellIx → ℕ) (c : Dev nD) {t t' : ℕ} {Raw Raw' Src Src' Dst Dst' SW SW' RW RW' : Finset Cp}
    {KS KS' : Finset (Fin 3)} (ht : t = t') (h1 : Raw = Raw') (h2 : Src = Src') (h3 : Dst = Dst') (h4 : SW = SW') (h5 : RW = RW')
    (h6 : KS = KS') : St m K c t Raw Src Dst SW RW KS ⊢ St m K c t' Raw' Src' Dst' SW' RW' KS' := by
  subst ht h1 h2 h3 h4 h5 h6; exact BI.Entails.refl _

theorem src_rs1 (h : Fin 2) (j : Fin 3) (c : Dev nD) (o : Fin 3 → Nat) (ho : o = o1 h j c)
    (hin : ∀ a, o a + S1x64x1536.size a ≤ S3x128x1536.size a) :
    (sb1M.slice (Rect.unit (s := S3x128x1536) o S1x64x1536.size hin) (fun _ => rfl)).squeeze S64x1536 squeezes_S1x64x1536_S64x1536
      = srcM (.rs1 h j) c := by
  subst ho; rfl
theorem dst_rs1 (h : Fin 2) (j : Fin 3) (c : Dev nD) (o : Fin 3 → Nat) (ho : o = o1 h j c)
    (hin : ∀ a, o a + S1x64x1536.size a ≤ S3x128x1536.size a) :
    (rb1M.slice (Rect.unit (s := S3x128x1536) o S1x64x1536.size hin) (fun _ => rfl)).squeeze S64x1536 squeezes_S1x64x1536_S64x1536
      = dstM (.rs1 h j) c := by
  subst ho; rfl
theorem src_rs2 (j : Fin 3) (c : Dev nD) (o : Fin 3 → Nat) (ho : o = o2 j)
    (hin : ∀ a, o a + S1x64x1536.size a ≤ S3x64x1536.size a) :
    (sb2M.slice (Rect.unit (s := S3x64x1536) o S1x64x1536.size hin) (fun _ => rfl)).squeeze S64x1536 squeezes_S1x64x1536_S64x1536
      = srcM (.rs2 j) c := by
  subst ho; rfl
theorem dst_rs2 (j : Fin 3) (c : Dev nD) (o : Fin 3 → Nat) (ho : o = o2 j)
    (hin : ∀ a, o a + S1x64x1536.size a ≤ S3x64x1536.size a) :
    (rb2M.slice (Rect.unit (s := S3x64x1536) o S1x64x1536.size hin) (fun _ => rfl)).squeeze S64x1536 squeezes_S1x64x1536_S64x1536
      = dstM (.rs2 j) c := by
  subst ho; rfl

theorem part_peer : ∀ (k : Cp) (c : Dev nD), part k.axis c = k.peer c := by decide

end PartsR

open PartsR

theorem part20 (K : Dev nD × CellIx → ℕ) (c : Dev nD) (v12 : BitVec 32) {Q : PUnit → sProp 𝕄} :
    iprop(StAt m K c 104 ∗ (StAt m K c 109 -∗ Q ⟨⟩))
      ⊢ wp frame (wpE (defs₀ (F := F)) 𝒱₀ (c : Thread nD τ) none) Set.univ
          (onBufs k0_part20 c v12
            (k0_pay22 (kslice m c 0 (posF 0 1 c)) (unsq (V m ((Cp.rs0 1 0).peer c) (.rs0 1 0))))) Q := by
  rw [onBufs, k0_part20_eq_skeleton]; unfold k0_part20_skel
  simp only [Prog.lift, Prog.bind_op, Prog.bind_ret, Prog.pure_eq_ret]
  iintro ⟨H, Hk⟩
  unfold StAt
  iapply (step_load_raw1 m K c _ _ _ _ _ _ _ 1 0 _ ((off_46 c).trans rfl) _ (by decide)) $$ H
  iintro %v H
  iapply (step_store_src1 m K c _ _ _ _ _ _ _ 1 0 _ ((off_46 c).trans rfl) _ _ (by decide) rfl) $$ H
  iintro H
  iapply (step_issue m K c _ _ _ _ _ _ _ (.rs1 1 0) _ ((dev_19 c).trans (part_peer (.rs1 1 0) c)) (by decide) (by decide) (by decide) _ _
    (src_rs1 1 0 c _ ((off_47 c).trans rfl) _) (dst_rs1 1 0 c _ ((off_47 c).trans rfl) _)) $$ H
  iintro H
  iapply (step_wait_send m K c _ _ _ _ _ _ _ (.rs0 1 1) _ _ (by rfl) (by decide) (by decide)) $$ H
  iintro H
  iapply (step_wait_recv m K c _ _ _ _ _ _ _ (.rs0 1 1) _ _ (by rfl) (by decide) (by decide)) $$ H
  iintro H
  rw [wp_ret]; imodintro
  iapply Hk
  iapply (St_congr m K c (by decide) (by decide) (by decide) (by decide) (by decide) (by decide) (by decide)) $$ H

theorem part21 (K : Dev nD × CellIx → ℕ) (c : Dev nD) (v6 v13 v72 : BitVec 32) {Q : PUnit → sProp 𝕄} :
    iprop(StAt m K c 109 ∗ (StAt m K c 114 -∗ Q ⟨⟩))
      ⊢ wp frame (wpE (defs₀ (F := F)) 𝒱₀ (c : Thread nD τ) none) Set.univ
          (onBufs k0_part21 c v6 v13 v72) Q := by
  rw [onBufs, k0_part21_eq_skeleton]; unfold k0_part21_skel
  simp only [Prog.lift, Prog.bind_op, Prog.bind_ret, Prog.pure_eq_ret]
  iintro ⟨H, Hk⟩
  unfold StAt
  iapply (step_load_kslice m K c _ _ _ _ _ _ _ 1 1 _ ((off_14 c).trans rfl) _ (by decide)) $$ H
  iintro H
  iapply (step_load_dst0 m K c _ _ _ _ _ _ _ 1 1 _ ((off_14 c).trans rfl) _ (by decide)) $$ H
  iintro H
  iapply (step_load_raw1 m K c _ _ _ _ _ _ _ 1 1 _ ((off_48 c).trans rfl) _ (by decide)) $$ H
  iintro %v H
  iapply (step_store_src1 m K c _ _ _ _ _ _ _ 1 1 _ ((off_48 c).trans rfl) _ _ (by decide) rfl) $$ H
  iintro H
  iapply (step_issue m K c _ _ _ _ _ _ _ (.rs1 1 1) _ ((dev_20 c).trans (part_peer (.rs1 1 1) c)) (by decide) (by decide) (by decide) _ _
    (src_rs1 1 1 c _ ((off_49 c).trans rfl) _) (dst_rs1 1 1 c _ ((off_49 c).trans rfl) _)) $$ H
  iintro H
  rw [wp_ret]; imodintro
  iapply Hk
  iapply (St_congr m K c (by decide) (by decide) (by decide) (by decide) (by decide) (by decide) (by decide)) $$ H

theorem part22 (K : Dev nD × CellIx → ℕ) (c : Dev nD) (v8 v11 v13 v84 : BitVec 32) {Q : PUnit → sProp 𝕄} :
    iprop(StAt m K c 114 ∗ (StAt m K c 120 -∗ Q ⟨⟩))
      ⊢ wp frame (wpE (defs₀ (F := F)) 𝒱₀ (c : Thread nD τ) none) Set.univ
          (onBufs k0_part22 c v8 v11 v13 v84) Q := by
  rw [onBufs, k0_part22_eq_skeleton]; unfold k0_part22_skel
  simp only [Prog.lift, Prog.bind_op, Prog.bind_ret, Prog.pure_eq_ret]
  iintro ⟨H, Hk⟩
  unfold StAt
  iapply (step_wait_send m K c _ _ _ _ _ _ _ (.rs0 1 2) _ _ (by rfl) (by decide) (by decide)) $$ H
  iintro H
  iapply (step_wait_recv m K c _ _ _ _ _ _ _ (.rs0 1 2) _ _ (by rfl) (by decide) (by decide)) $$ H
  iintro H
  iapply (step_load_kslice m K c _ _ _ _ _ _ _ 1 2 _ ((off_17 c).trans rfl) _ (by decide)) $$ H
  iintro H
  iapply (step_load_dst0 m K c _ _ _ _ _ _ _ 1 2 _ ((off_17 c).trans rfl) _ (by decide)) $$ H
  iintro H
  iapply (step_load_raw1 m K c _ _ _ _ _ _ _ 1 2 _ ((off_50 c).trans rfl) _ (by decide)) $$ H
  iintro %v H
  iapply (step_store_src1 m K c _ _ _ _ _ _ _ 1 2 _ ((off_50 c).trans rfl) _ _ (by decide) rfl) $$ H
  iintro H
  rw [wp_ret]; imodintro
  iapply Hk
  iapply (St_congr m K c (by decide) (by decide) (by decide) (by decide) (by decide) (by decide) (by decide)) $$ H

theorem part23 (K : Dev nD × CellIx → ℕ) (c : Dev nD) (v11 : BitVec 32) {Q : PUnit → sProp 𝕄} :
    iprop(StAt m K c 120 ∗ (StAt m K c 124 -∗ Q ⟨⟩))
      ⊢ wp frame (wpE (defs₀ (F := F)) 𝒱₀ (c : Thread nD τ) none) Set.univ
          (onBufs k0_part23 c v11) Q := by
  rw [onBufs, k0_part23_eq_skeleton]; unfold k0_part23_skel
  simp only [Prog.lift, Prog.bind_op, Prog.bind_ret, Prog.pure_eq_ret]
  iintro ⟨H, Hk⟩
  unfold StAt
  iapply (step_issue m K c _ _ _ _ _ _ _ (.rs1 1 2) _ ((dev_21 c).trans (part_peer (.rs1 1 2) c)) (by decide) (by decide) (by decide) _ _
    (src_rs1 1 2 c _ ((off_51 c).trans rfl) _) (dst_rs1 1 2 c _ ((off_51 c).trans rfl) _)) $$ H
  iintro H
  iapply (step_wait_send m K c _ _ _ _ _ _ _ (.rs0 2 0) _ _ (by rfl) (by decide) (by decide)) $$ H
  iintro H
  iapply (step_wait_recv m K c _ _ _ _ _ _ _ (.rs0 2 0) _ _ (by rfl) (by decide) (by decide)) $$ H
  iintro H
  iapply (step_wait_send m K c _ _ _ _ _ _ _ (.rs1 0 0) _ _ (by rfl) (by decide) (by decide)) $$ H
  iintro H
  rw [wp_ret]; imodintro
  iapply Hk
  iapply (St_congr m K c (by decide) (by decide) (by decide) (by decide) (by decide) (by decide) (by decide)) $$ H

theorem part24 (K : Dev nD × CellIx → ℕ) (c : Dev nD) (v10 v12 v63 : BitVec 32) {Q : PUnit → sProp 𝕄} :
    iprop(StAt m K c 124 ∗ (StAt m K c 130 -∗ Q ⟨⟩))
      ⊢ wp frame (wpE (defs₀ (F := F)) 𝒱₀ (c : Thread nD τ) none) Set.univ
          (onBufs k0_part24 c v10 v12 v63) Q := by
  rw [onBufs, k0_part24_eq_skeleton]; unfold k0_part24_skel
  simp only [Prog.lift, Prog.bind_op, Prog.bind_ret, Prog.pure_eq_ret]
  iintro ⟨H, Hk⟩
  unfold StAt
  iapply (step_wait_recv m K c _ _ _ _ _ _ _ (.rs1 0 0) _ _ (by rfl) (by decide) (by decide)) $$ H
  iintro H
  iapply (step_load_kslice m K c _ _ _ _ _ _ _ 2 0 _ ((off_20 c).trans rfl) _ (by decide)) $$ H
  iintro H
  iapply (step_load_dst0 m K c _ _ _ _ _ _ _ 2 0 _ ((off_20 c).trans rfl) _ (by decide)) $$ H
  iintro H
  iapply (step_load_dst1 m K c _ _ _ _ _ _ _ 0 0 _ ((off_40 c).trans rfl) _ (by decide)) $$ H
  iintro H
  iapply (step_load_raw2 m K c _ _ _ _ _ _ _ 0 _ (rfl) _ (by decide)) $$ H
  iintro %v H
  iapply (step_store_src2 m K c _ _ _ _ _ _ _ 0 _ (rfl) _ _ (by decide) rfl) $$ H
  iintro H
  rw [wp_ret]; imodintro
  iapply Hk
  iapply (St_congr m K c (by decide) (by decide) (by decide) (by decide) (by decide) (by decide) (by decide)) $$ H

theorem part25 (K : Dev nD × CellIx → ℕ) (c : Dev nD) (v12 v13 : BitVec 32) {Q : PUnit → sProp 𝕄} :
    iprop(StAt m K c 130 ∗ (StAt m K c 133 -∗ Q ⟨⟩))
      ⊢ wp frame (wpE (defs₀ (F := F)) 𝒱₀ (c : Thread nD τ) none) Set.univ
          (onBufs k0_part25 c v12 v13) Q := by
  rw [onBufs, k0_part25_eq_skeleton]; unfold k0_part25_skel
  simp only [Prog.lift, Prog.bind_op, Prog.bind_ret, Prog.pure_eq_ret]
  iintro ⟨H, Hk⟩
  unfold StAt
  iapply (step_issue m K c _ _ _ _ _ _ _ (.rs2 0) _ ((dev_22 c).trans (part_peer (.rs2 0) c)) (by decide) (by decide) (by decide) _ _
    (src_rs2 0 c _ rfl _) (dst_rs2 0 c _ rfl _)) $$ H
  iintro H
  iapply (step_wait_send m K c _ _ _ _ _ _ _ (.rs0 2 1) _ _ (by rfl) (by decide) (by decide)) $$ H
  iintro H
  iapply (step_wait_recv m K c _ _ _ _ _ _ _ (.rs0 2 1) _ _ (by rfl) (by decide) (by decide)) $$ H
  iintro H
  rw [wp_ret]; imodintro
  iapply Hk
  iapply (St_congr m K c (by decide) (by decide) (by decide) (by decide) (by decide) (by decide) (by decide)) $$ H

theorem part26 (K : Dev nD × CellIx → ℕ) (c : Dev nD) (v6 v13 v75 : BitVec 32) {Q : FVec F S64x1536 .bf16 → sProp 𝕄} :
    iprop(StAt m K c 133 ∗ (StAt m K c 139 -∗ Q (k0_pay27 (kslice m c 1 (posF 1 2 c)) (unsq (V m ((Cp.rs0 2 1).peer c) (.rs0 2 1))) (unsq (V m ((Cp.rs1 0 1).peer c) (.rs1 0 1))))))
      ⊢ wp frame (wpE (defs₀ (F := F)) 𝒱₀ (c : Thread nD τ) none) Set.univ
          (onBufs k0_part26 c v6 v13 v75) Q := by
  rw [onBufs, k0_part26_eq_skeleton]; unfold k0_part26_skel
  simp only [Prog.lift, Prog.bind_op, Prog.bind_ret, Prog.pure_eq_ret]
  iintro ⟨H, Hk⟩
  unfold StAt
  iapply (step_wait_send m K c _ _ _ _ _ _ _ (.rs1 0 1) _ _ (by rfl) (by decide) (by decide)) $$ H
  iintro H
  iapply (step_wait_recv m K c _ _ _ _ _ _ _ (.rs1 0 1) _ _ (by rfl) (by decide) (by decide)) $$ H
  iintro H
  iapply (step_load_kslice m K c _ _ _ _ _ _ _ 2 1 _ ((off_23 c).trans rfl) _ (by decide)) $$ H
  iintro H
  iapply (step_load_dst0 m K c _ _ _ _ _ _ _ 2 1 _ ((off_23 c).trans rfl) _ (by decide)) $$ H
  iintro H
  iapply (step_load_dst1 m K c _ _ _ _ _ _ _ 0 1 _ ((off_42 c).trans rfl) _ (by decide)) $$ H
  iintro H
  iapply (step_load_raw2 m K c _ _ _ _ _ _ _ 1 _ (rfl) _ (by decide)) $$ H
  iintro %v H
  rw [wp_ret]; imodintro
  iapply Hk
  iapply (St_congr m K c (by decide) (by decide) (by decide) (by decide) (by decide) (by decide) (by decide)) $$ H

theorem part27 (K : Dev nD × CellIx → ℕ) (c : Dev nD) (v11 v13 : BitVec 32) {Q : PUnit → sProp 𝕄} :
    iprop(StAt m K c 139 ∗ (StAt m K c 143 -∗ Q ⟨⟩))
      ⊢ wp frame (wpE (defs₀ (F := F)) 𝒱₀ (c : Thread nD τ) none) Set.univ
          (onBufs k0_part27 c v11 v13
            (k0_pay27 (kslice m c 1 (posF 1 2 c)) (unsq (V m ((Cp.rs0 2 1).peer c) (.rs0 2 1))) (unsq (V m ((Cp.rs1 0 1).peer c) (.rs1 0 1))))) Q := by
  rw [onBufs, k0_part27_eq_skeleton]; unfold k0_part27_skel
  simp only [Prog.lift, Prog.bind_op, Prog.bind_ret, Prog.pure_eq_ret]
  iintro ⟨H, Hk⟩
  unfold StAt
  iapply (step_store_src2 m K c _ _ _ _ _ _ _ 1 _ (rfl) _ _ (by decide) rfl) $$ H
  iintro H
  iapply (step_issue m K c _ _ _ _ _ _ _ (.rs2 1) _ ((dev_23 c).trans (part_peer (.rs2 1) c)) (by decide) (by decide) (by decide) _ _
    (src_rs2 1 c _ rfl _) (dst_rs2 1 c _ rfl _)) $$ H
  iintro H
  iapply (step_wait_send m K c _ _ _ _ _ _ _ (.rs0 2 2) _ _ (by rfl) (by decide) (by decide)) $$ H
  iintro H
  iapply (step_wait_recv m K c _ _ _ _ _ _ _ (.rs0 2 2) _ _ (by rfl) (by decide) (by decide)) $$ H
  iintro H
  rw [wp_ret]; imodintro
  iapply Hk
  iapply (St_congr m K c (by decide) (by decide) (by decide) (by decide) (by decide) (by decide) (by decide)) $$ H

end Parts

end Cert.KernelIdeal.Hand

end
-- ==== Proof.StepsLocal2.lean ====
import proofs.«900886_g7700000000000887_dist_matmul_k_i_m1536_n1536_k768_v7x_i8_bf16_1_alg».proof.Proof.StepsLocal
import Idealize.ShloMosaic.Lib.StableHlo.CollectiveRules

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

local notation "𝕄" => MT nD τ sig Unit (Elt F) ℕ UU ℕ

namespace StepsLocal2

theorem oA_ag1 (j : Fin 3) (c : Dev nD) : oA 1 j c = oA 0 j c := rfl
theorem oA_ag3 (j : Fin 3) (c : Dev nD) : oA 3 j c = oA 0 j c := rfl
theorem oA_ag2 (j : Fin 3) (c : Dev nD) : oA 2 j c = oA 0 j ((Cp.ag 0 j).peer c) := by
  funext a; revert a c j; decide +kernel
theorem oA_ag4 (j : Fin 3) (c : Dev nD) : oA 4 j c = oA 0 j ((Cp.ag 0 j).peer c) := by
  funext a; revert a c j; decide +kernel
theorem oA_ag5 (j : Fin 3) (c : Dev nD) : oA 5 j c = oA 1 j ((Cp.ag 1 j).peer c) := by
  funext a; revert a c j; decide +kernel
theorem oA_ag6 (j : Fin 3) (c : Dev nD) : oA 6 j c = oA 2 j ((Cp.ag 2 j).peer c) := by
  funext a; revert a c j; decide +kernel

theorem srcM_ag1 (j : Fin 3) (c : Dev nD) : srcM (.ag 1 j) c = srcM (.ag 0 j) c :=
  Memref.slice_unit_congr outM (oA_ag1 j c) (oA_inb 1 j c) (oA_inb 0 j c) (fun _ => rfl) (fun _ => rfl)
theorem srcM_ag3 (j : Fin 3) (c : Dev nD) : srcM (.ag 3 j) c = srcM (.ag 0 j) c :=
  Memref.slice_unit_congr outM (oA_ag3 j c) (oA_inb 3 j c) (oA_inb 0 j c) (fun _ => rfl) (fun _ => rfl)
theorem srcM_ag2 (j : Fin 3) (c : Dev nD) : srcM (.ag 2 j) c = dstM (.ag 0 j) ((Cp.ag 0 j).peer c) :=
  Memref.slice_unit_congr outM (oA_ag2 j c) (oA_inb 2 j c) (oA_inb 0 j _) (fun _ => rfl) (fun _ => rfl)
theorem srcM_ag4 (j : Fin 3) (c : Dev nD) : srcM (.ag 4 j) c = dstM (.ag 0 j) ((Cp.ag 0 j).peer c) :=
  Memref.slice_unit_congr outM (oA_ag4 j c) (oA_inb 4 j c) (oA_inb 0 j _) (fun _ => rfl) (fun _ => rfl)
theorem srcM_ag5 (j : Fin 3) (c : Dev nD) : srcM (.ag 5 j) c = dstM (.ag 1 j) ((Cp.ag 1 j).peer c) :=
  Memref.slice_unit_congr outM (oA_ag5 j c) (oA_inb 5 j c) (oA_inb 1 j _) (fun _ => rfl) (fun _ => rfl)
theorem srcM_ag6 (j : Fin 3) (c : Dev nD) : srcM (.ag 6 j) c = dstM (.ag 2 j) ((Cp.ag 2 j).peer c) :=
  Memref.slice_unit_congr outM (oA_ag6 j c) (oA_inb 6 j c) (oA_inb 2 j _) (fun _ => rfl) (fun _ => rfl)

theorem VA_0 (c : Dev nD) (j : Fin 3) : VA m c 0 j = fin m c j := by
  unfold VA
  rw [if_pos (by decide : (0 : Fin 7).val = 0 ∨ (0 : Fin 7).val = 1 ∨ (0 : Fin 7).val = 3)]
theorem VA_1 (c : Dev nD) (j : Fin 3) : VA m c 1 j = fin m c j := by
  unfold VA
  rw [if_pos (by decide : (1 : Fin 7).val = 0 ∨ (1 : Fin 7).val = 1 ∨ (1 : Fin 7).val = 3)]
theorem VA_3 (c : Dev nD) (j : Fin 3) : VA m c 3 j = fin m c j := by
  unfold VA
  rw [if_pos (by decide : (3 : Fin 7).val = 0 ∨ (3 : Fin 7).val = 1 ∨ (3 : Fin 7).val = 3)]
theorem VA_2 (c : Dev nD) (j : Fin 3) : VA m c 2 j = fin m (pt j.val 2 c) j := by
  unfold VA
  rw [if_neg (by decide : ¬ ((2 : Fin 7).val = 0 ∨ (2 : Fin 7).val = 1 ∨ (2 : Fin 7).val = 3)),
    if_pos (by decide : (2 : Fin 7).val = 2 ∨ (2 : Fin 7).val = 4)]
theorem VA_4 (c : Dev nD) (j : Fin 3) : VA m c 4 j = fin m (pt j.val 2 c) j := by
  unfold VA
  rw [if_neg (by decide : ¬ ((4 : Fin 7).val = 0 ∨ (4 : Fin 7).val = 1 ∨ (4 : Fin 7).val = 3)),
    if_pos (by decide : (4 : Fin 7).val = 2 ∨ (4 : Fin 7).val = 4)]
theorem VA_5 (c : Dev nD) (j : Fin 3) : VA m c 5 j = fin m (pt j.val 1 c) j := by
  unfold VA
  rw [if_neg (by decide : ¬ ((5 : Fin 7).val = 0 ∨ (5 : Fin 7).val = 1 ∨ (5 : Fin 7).val = 3)),
    if_neg (by decide : ¬ ((5 : Fin 7).val = 2 ∨ (5 : Fin 7).val = 4)), if_pos (by decide : (5 : Fin 7).val = 5)]
theorem VA_6 (c : Dev nD) (j : Fin 3) : VA m c 6 j = fin m (pt j.val 2 (pt j.val 1 c)) j := by
  unfold VA
  rw [if_neg (by decide : ¬ ((6 : Fin 7).val = 0 ∨ (6 : Fin 7).val = 1 ∨ (6 : Fin 7).val = 3)),
    if_neg (by decide : ¬ ((6 : Fin 7).val = 2 ∨ (6 : Fin 7).val = 4)), if_neg (by decide : ¬ (6 : Fin 7).val = 5)]

theorem peer_ag0 (j : Fin 3) (c : Dev nD) : (Cp.ag 0 j).peer c = pt j.val 2 c := rfl
theorem peer_ag1 (j : Fin 3) (c : Dev nD) : (Cp.ag 1 j).peer c = pt j.val 1 c := rfl
theorem peer_ag2 (j : Fin 3) (c : Dev nD) : (Cp.ag 2 j).peer c = pt j.val 1 c := rfl

theorem V_ag (s : Fin 7) (j : Fin 3) (c : Dev nD) : V m c (.ag s j) = VA m c s j := rfl

theorem V_ag0 (j : Fin 3) (c : Dev nD) : V m c (.ag 0 j) = fin m c j := by rw [V_ag, VA_0]
theorem V_ag1 (j : Fin 3) (c : Dev nD) : V m c (.ag 1 j) = fin m c j := by rw [V_ag, VA_1]
theorem V_ag3 (j : Fin 3) (c : Dev nD) : V m c (.ag 3 j) = fin m c j := by rw [V_ag, VA_3]
theorem V_ag2 (j : Fin 3) (c : Dev nD) : V m c (.ag 2 j) = V m ((Cp.ag 0 j).peer c) (.ag 0 j) := by
  rw [V_ag, V_ag, VA_2, VA_0, peer_ag0]
theorem V_ag4 (j : Fin 3) (c : Dev nD) : V m c (.ag 4 j) = V m ((Cp.ag 0 j).peer c) (.ag 0 j) := by
  rw [V_ag, V_ag, VA_4, VA_0, peer_ag0]
theorem V_ag5 (j : Fin 3) (c : Dev nD) : V m c (.ag 5 j) = V m ((Cp.ag 1 j).peer c) (.ag 1 j) := by
  rw [V_ag, V_ag, VA_5, VA_1, peer_ag1]
theorem V_ag6 (j : Fin 3) (c : Dev nD) : V m c (.ag 6 j) = V m ((Cp.ag 2 j).peer c) (.ag 2 j) := by
  rw [V_ag, V_ag, VA_6, VA_2, peer_ag2]

theorem conv_ag0_piece (j : Fin 3) (c : Dev nD) :
    recvPay (V m) c (.ag 0 j) ⊢ iprop(sendPay (V m) c (.ag 2 j) ∗ sendPay (V m) c (.ag 4 j)) := by
  unfold recvPay sendPay
  rw [srcM_ag2, srcM_ag4, V_ag2, V_ag4]
  exact (owns_share (c : Thread nD τ) (dstM (.ag 0 j) ((Cp.ag 0 j).peer c)) (PosShare.mem_left_op_right fullShare) _).1

theorem conv_ag1_piece (j : Fin 3) (c : Dev nD) : recvPay (V m) c (.ag 1 j) ⊢ sendPay (V m) c (.ag 5 j) := by
  unfold recvPay sendPay
  rw [srcM_ag5, V_ag5]
  exact .rfl

theorem conv_ag2_piece (j : Fin 3) (c : Dev nD) : recvPay (V m) c (.ag 2 j) ⊢ sendPay (V m) c (.ag 6 j) := by
  unfold recvPay sendPay
  rw [srcM_ag6, V_ag6]
  exact .rfl

theorem store_out_piece (j : Fin 3) (c : Dev nD) :
    owns (c : Thread nD τ) (srcM (.ag 0 j) c) fullShare (fin m c j)
      ⊢ iprop(sendPay (V m) c (.ag 0 j) ∗ sendPay (V m) c (.ag 1 j) ∗ sendPay (V m) c (.ag 3 j)) := by
  unfold sendPay
  rw [srcM_ag1, srcM_ag3, V_ag1, V_ag3, V_ag0]
  refine (owns_share (c : Thread nD τ) (srcM (.ag 0 j) c) (PosShare.mem_left_op_right fullShare) _).1.trans (sep_mono_right ?_)
  exact (owns_share (c : Thread nD τ) (srcM (.ag 0 j) c) (PosShare.mem_left_op_right fullShare.right) _).1

theorem St_raw_to_src3 (K : Dev nD × CellIx → ℕ) (c : Dev nD) (t : Nat) (Raw Src Dst SW RW : Finset Cp) (KS : Finset (Fin 3))
    (j : Fin 3) (hk : Cp.ag 0 j ∈ Raw) :
    St m K c t Raw Src Dst SW RW KS ⊢ iprop((∃ X : S64x1536.Idx → Elt F .bf16, owns (c : Thread nD τ) (srcM (.ag 0 j) c) fullShare X)
      ∗ (owns (c : Thread nD τ) (srcM (.ag 0 j) c) fullShare (fin m c j)
          -∗ St m K c t (Raw.erase (.ag 0 j)) (insert (.ag 0 j) (insert (.ag 1 j) (insert (.ag 3 j) Src))) Dst SW RW KS)) := by
  refine St_focus m K c t Raw Src Dst _ _ Dst SW RW KS KS ?_
  rw [bigSep_take hk, rawPiece_eq]
  iintro ⟨⟨Hk, H1⟩, H2, H3, H4⟩
  isplitl [Hk]
  · iexact Hk
  · iintro Hk
    ihave Hk' := store_out_piece m j c $$ Hk
    icases Hk' with ⟨Ha, Hb, Hc⟩
    isplitl [H1]
    · iexact H1
    isplitl [Ha Hb Hc H2]
    · iapply (bigSep_cons_intro _ (Cp.ag 0 j) (sendPay (V m) c))
      isplitl [Ha]
      · iexact Ha
      iapply (bigSep_cons_intro _ (Cp.ag 1 j) (sendPay (V m) c))
      isplitl [Hb]
      · iexact Hb
      iapply (bigSep_cons_intro Src (Cp.ag 3 j) (sendPay (V m) c))
      isplitl [Hc]
      · iexact Hc
      · iexact H2
    isplitl [H3]
    · iexact H3
    · iexact H4

end StepsLocal2

open StepsLocal2

section Steps

variable (K : Dev nD × CellIx → ℕ) (c : Dev nD) (t : Nat) (Raw Src Dst SW RW : Finset Cp) (KS : Finset (Fin 3))

theorem conv_ag0 (j : Fin 3) (h : Cp.ag 0 j ∈ Dst) :
    St m K c t Raw Src Dst SW RW KS
      ⊢ St m K c t Raw (insert (.ag 2 j) (insert (.ag 4 j) Src)) (Dst.erase (.ag 0 j)) SW RW KS := by
  rw [St_split, St_split, bigSep_take h]
  iintro ⟨H1, H2, H3, ⟨Hk, H4⟩, H5⟩
  ihave Hk' := conv_ag0_piece m j c $$ Hk
  icases Hk' with ⟨Ha, Hb⟩
  isplitl [H1]
  · iexact H1
  isplitl [H2]
  · iexact H2
  isplitl [H3 Ha Hb]
  · iapply (bigSep_cons_intro _ (Cp.ag 2 j) (sendPay (V m) c))
    isplitl [Ha]
    · iexact Ha
    iapply (bigSep_cons_intro Src (Cp.ag 4 j) (sendPay (V m) c))
    isplitl [Hb]
    · iexact Hb
    · iexact H3
  isplitl [H4]
  · iexact H4
  · iexact H5

theorem conv_ag1 (j : Fin 3) (h : Cp.ag 1 j ∈ Dst) :
    St m K c t Raw Src Dst SW RW KS ⊢ St m K c t Raw (insert (.ag 5 j) Src) (Dst.erase (.ag 1 j)) SW RW KS := by
  rw [St_split, St_split, bigSep_take h]
  iintro ⟨H1, H2, H3, ⟨Hk, H4⟩, H5⟩
  ihave Hk' := conv_ag1_piece m j c $$ Hk
  isplitl [H1]
  · iexact H1
  isplitl [H2]
  · iexact H2
  isplitl [H3 Hk']
  · iapply (bigSep_cons_intro Src (Cp.ag 5 j) (sendPay (V m) c))
    isplitl [Hk']
    · iexact Hk'
    · iexact H3
  isplitl [H4]
  · iexact H4
  · iexact H5

theorem conv_ag2 (j : Fin 3) (h : Cp.ag 2 j ∈ Dst) :
    St m K c t Raw Src Dst SW RW KS ⊢ St m K c t Raw (insert (.ag 6 j) Src) (Dst.erase (.ag 2 j)) SW RW KS := by
  rw [St_split, St_split, bigSep_take h]
  iintro ⟨H1, H2, H3, ⟨Hk, H4⟩, H5⟩
  ihave Hk' := conv_ag2_piece m j c $$ Hk
  isplitl [H1]
  · iexact H1
  isplitl [H2]
  · iexact H2
  isplitl [H3 Hk']
  · iapply (bigSep_cons_intro Src (Cp.ag 6 j) (sendPay (V m) c))
    isplitl [Hk']
    · iexact Hk'
    · iexact H3
  isplitl [H4]
  · iexact H4
  · iexact H5

theorem step_load_out_raw {α : Type} {Q : α → sProp 𝕄} (j : Fin 3) (o : Fin 2 → Nat) (ho : o = oA 0 j c)
    (h : ∀ a, o a + S64x1536.size a ≤ S1536x1536.size a) (hk : Cp.ag 0 j ∈ Raw)
    {hl : (outM : Memref sig .tc .vmem S1536x1536 .bf16).view.LoadsAt (Rect.unit (s := S1536x1536) o S64x1536.size h).toLoadRect}
    {k : ((Rect.unit (s := S1536x1536) o S64x1536.size h).toLoadRect.shape.Idx → Elt F .bf16) → Prog (TpuEff nD τ sig (Elt F) Λ₀ .tc) α} :
    St m K c t Raw Src Dst SW RW KS
      ⊢ iprop((∀ v, St m K c t Raw Src Dst SW RW KS -∗ wp frame (wpE (defs₀ (F := F)) 𝒱₀ (c : Thread nD τ) none) Set.univ (k v) Q)
        -∗ wp frame (wpE (defs₀ (F := F)) 𝒱₀ (c : Thread nD τ) none) Set.univ (.op (.load outM (Rect.unit (s := S1536x1536) o S64x1536.size h).toLoadRect hl) k) Q) := by
  subst ho
  refine step_of_focus_ex (fun X : S64x1536.Idx → Elt F .bf16 => X) (St_focus_raw m K c t Raw Src Dst SW RW KS (Cp.ag 0 j) hk) (fun X => ?_)
  exact wp_load_piece 𝒱₀ (c : Thread nD τ) none Set.univ (M := outM) (r := Rect.unit (s := S1536x1536) (oA 0 j c) S64x1536.size h)
    (hr := fun _ => rfl)

theorem step_store_out {α : Type} {Q : α → sProp 𝕄} (j : Fin 3) (o : Fin 2 → Nat) (ho : o = oA 0 j c)
    (h : ∀ a, o a + S64x1536.size a ≤ S1536x1536.size a) (w : Vec F S64x1536 .bf16)
    (hk : Cp.ag 0 j ∈ Raw) (hw : w = fin m c j)
    {hst : ((outM : Memref sig .tc .vmem S1536x1536 .bf16).access (Rect.unit (s := S1536x1536) o S64x1536.size h)).Stores Finset.univ}
    {hm : (Finset.univ : Finset (Rect.unit (s := S1536x1536) o S64x1536.size h).shape.Idx) = Finset.univ ∨ ∀ a, (Rect.unit (s := S1536x1536) o S64x1536.size h).stride a = 1}
    {kk : PUnit → Prog (TpuEff nD τ sig (Elt F) Λ₀ .tc) α} :
    St m K c t Raw Src Dst SW RW KS
      ⊢ iprop((St m K c t (Raw.erase (.ag 0 j)) (insert (.ag 0 j) (insert (.ag 1 j) (insert (.ag 3 j) Src))) Dst SW RW KS
            -∗ wp frame (wpE (defs₀ (F := F)) 𝒱₀ (c : Thread nD τ) none) Set.univ (kk ⟨⟩) Q)
        -∗ wp frame (wpE (defs₀ (F := F)) 𝒱₀ (c : Thread nD τ) none) Set.univ (.op (.store outM (Rect.unit (s := S1536x1536) o S64x1536.size h) w Finset.univ hst hm) kk) Q) := by
  subst ho hw
  refine step_of_focus_st (St_raw_to_src3 m K c t Raw Src Dst SW RW KS j hk) (fun X => ?_)
  exact wp_store_piece 𝒱₀ (c : Thread nD τ) none Set.univ (M := outM) (r := Rect.unit (s := S1536x1536) (oA 0 j c) S64x1536.size h)
    (hr := fun _ => rfl)

end Steps

end Cert.KernelIdeal.Hand

end
-- ==== Proof.PartsS.lean ====
import proofs.«900886_g7700000000000887_dist_matmul_k_i_m1536_n1536_k768_v7x_i8_bf16_1_alg».proof.Proof.ProgState
import proofs.«900886_g7700000000000887_dist_matmul_k_i_m1536_n1536_k768_v7x_i8_bf16_1_alg».proof.Proof.StepsNet
import proofs.«900886_g7700000000000887_dist_matmul_k_i_m1536_n1536_k768_v7x_i8_bf16_1_alg».proof.Proof.StepsLocal
import proofs.«900886_g7700000000000887_dist_matmul_k_i_m1536_n1536_k768_v7x_i8_bf16_1_alg».proof.Proof.StepsLocal2
import proofs.«900886_g7700000000000887_dist_matmul_k_i_m1536_n1536_k768_v7x_i8_bf16_1_alg».proof.Proof.Tables
import proofs.«900886_g7700000000000887_dist_matmul_k_i_m1536_n1536_k768_v7x_i8_bf16_1_alg».proof.Proof.Gen.KernelIdeal.Skeleton

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

namespace PartsS

section Helpers

variable {F : FTy → Type} [FloatOps F]
variable (m : (ℓ : Loc nD τ sig) → Buf (Elt F) ℓ)

local notation "𝕄" => MT nD τ sig Unit (Elt F) ℕ UU ℕ

theorem St_congr (K : Dev nD × CellIx → ℕ) (c : Dev nD) {t t' : Nat} {Raw Raw' Src Src' Dst Dst' SW SW' RW RW' : Finset Cp} {KS KS' : Finset (Fin 3)}
    (h1 : t' = t) (h2 : Raw' = Raw) (h3 : Src' = Src) (h4 : Dst' = Dst) (h5 : SW' = SW) (h6 : RW' = RW) (h7 : KS' = KS) :
    St m K c t' Raw' Src' Dst' SW' RW' KS' = St m K c t Raw Src Dst SW RW KS := by
  subst h1 h2 h3 h4 h5 h6 h7; rfl

def Same (a b : ℕ) : Prop :=
  tAt b = tAt a ∧ rawAt b = rawAt a ∧ srcAt b = srcAt a ∧ dstAt b = dstAt a ∧ swAt b = swAt a ∧ rwAt b = rwAt a ∧ ksAt b = ksAt a
instance (a b : ℕ) : Decidable (Same a b) := by unfold Same; infer_instance

theorem StAt_same (K : Dev nD × CellIx → ℕ) (c : Dev nD) {a b : ℕ} (h : Same a b) : StAt m K c b = StAt m K c a := by
  obtain ⟨h1, h2, h3, h4, h5, h6, h7⟩ := h
  unfold StAt; exact St_congr m K c h1 h2 h3 h4 h5 h6 h7

def IsWS (a b : ℕ) (k : Cp) : Prop :=
  k.ord < tAt a ∧ k ∉ swAt a ∧ tAt b = tAt a ∧ rawAt b = rawAt a ∧ srcAt b = insert k (srcAt a) ∧ dstAt b = dstAt a
    ∧ swAt b = insert k (swAt a) ∧ rwAt b = rwAt a ∧ ksAt b = ksAt a
instance (a b : ℕ) (k : Cp) : Decidable (IsWS a b k) := by unfold IsWS; infer_instance

def IsWR (a b : ℕ) (k : Cp) : Prop :=
  k.ord < tAt a ∧ k ∉ rwAt a ∧ tAt b = tAt a ∧ rawAt b = rawAt a ∧ srcAt b = srcAt a ∧ dstAt b = insert k (dstAt a)
    ∧ swAt b = swAt a ∧ rwAt b = insert k (rwAt a) ∧ ksAt b = ksAt a
instance (a b : ℕ) (k : Cp) : Decidable (IsWR a b k) := by unfold IsWR; infer_instance

def IsIssue (a b : ℕ) (k : Cp) : Prop :=
  k.ord = tAt a ∧ k ∈ srcAt a ∧ k ∉ swAt a ∧ tAt b = tAt a + 1 ∧ rawAt b = rawAt a ∧ srcAt b = (srcAt a).erase k ∧ dstAt b = dstAt a
    ∧ swAt b = swAt a ∧ rwAt b = rwAt a ∧ ksAt b = ksAt a
instance (a b : ℕ) (k : Cp) : Decidable (IsIssue a b k) := by unfold IsIssue; infer_instance

variable (K : Dev nD × CellIx → ℕ) (c : Dev nD)

theorem ws_at (a b : ℕ) (k : Cp) (h : IsWS a b k) (ms md : Memref sig .tc .vmem S64x1536 .bf16) (hamt : md.view.dmaCredit = NN)
    (q : DmaSem sig) (hq : q = k.sendSem) {h1 : ms.view.WordExact} {h2 : md.view.WordExact}
    {α : Type} {Q : α → sProp 𝕄} {kk : PUnit → Prog (TpuEff nD τ sig (Elt F) Λ₀ .tc) α} :
    StAt m K c a
      ⊢ iprop((StAt m K c b -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q ms md h1 h2) kk) Q) := by
  obtain ⟨hk, hsw, e1, e2, e3, e4, e5, e6, e7⟩ := h
  have e : StAt m K c b = St m K c (tAt a) (rawAt a) (insert k (srcAt a)) (dstAt a) (insert k (swAt a)) (rwAt a) (ksAt a) := by
    unfold StAt; exact St_congr m K c e1 e2 e3 e4 e5 e6 e7
  rw [e]; unfold StAt
  exact step_wait_send_at m K c (tAt a) (rawAt a) (srcAt a) (dstAt a) (swAt a) (rwAt a) (ksAt a) k ms md hamt hk hsw q hq

theorem wr_at (a b : ℕ) (k : Cp) (h : IsWR a b k) (ms md : Memref sig .tc .vmem S64x1536 .bf16) (hamt : md.view.dmaCredit = NN)
    (q : DmaSem sig) (hq : q = k.recvSem) {h1 : ms.view.WordExact} {h2 : md.view.WordExact}
    {α : Type} {Q : α → sProp 𝕄} {kk : PUnit → Prog (TpuEff nD τ sig (Elt F) Λ₀ .tc) α} :
    StAt m K c a
      ⊢ iprop((StAt m K c b -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q ms md h1 h2) kk) Q) := by
  obtain ⟨hk, hrw, e1, e2, e3, e4, e5, e6, e7⟩ := h
  have e : StAt m K c b = St m K c (tAt a) (rawAt a) (srcAt a) (insert k (dstAt a)) (swAt a) (insert k (rwAt a)) (ksAt a) := by
    unfold StAt; exact St_congr m K c e1 e2 e3 e4 e5 e6 e7
  rw [e]; unfold StAt
  exact step_wait_recv_at m K c (tAt a) (rawAt a) (srcAt a) (dstAt a) (swAt a) (rwAt a) (ksAt a) k ms md hamt hk hrw q hq

theorem iss_at (a b : ℕ) (k : Cp) (h : IsIssue a b k) (n : Dev nD) (hn : n = k.peer c)
    (ms md : Memref sig .tc .vmem S64x1536 .bf16) (hms : ms = srcM k c) (hmd : md = dstM k c)
    (qs qr : DmaSem sig) (hqs : qs = k.sendSem) (hqr : qr = k.recvSem)
    {hsc : (md : Memref sig (Dev.tc n : Thread nD τ).2.kind .vmem S64x1536 .bf16).view.ref.isScScratch = false}
    {hsrc : ms.view.WordExact} {hdst : md.view.WordExact}
    {hsem : DmaTarget.Typed .vmem (.dma qr) (.remote (Dev.tc n : Thread nD τ) md (.dma qs) hsc)}
    {α : Type} {Q : α → sProp 𝕄} {kk : PUnit → Prog (TpuEff nD τ sig (Elt F) Λ₀ .tc) α} :
    StAt m K c a
      ⊢ iprop((StAt m K c b -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma ms (.remote (Dev.tc n : Thread nD τ) md (.dma qs) hsc) (.dma qr) hsrc hdst hsem) kk) Q) := by
  obtain ⟨hk, hs, hsw, e1, e2, e3, e4, e5, e6, e7⟩ := h
  have e : StAt m K c b = St m K c (tAt a + 1) (rawAt a) ((srcAt a).erase k) (dstAt a) (swAt a) (rwAt a) (ksAt a) := by
    unfold StAt; exact St_congr m K c e1 e2 e3 e4 e5 e6 e7
  rw [e]; unfold StAt
  exact step_issue_at m K c (tAt a) (rawAt a) (srcAt a) (dstAt a) (swAt a) (rwAt a) (ksAt a) k n hn hk hs hsw ms md hms hmd qs qr hqs hqr

abbrev pc0 (M : Memref sig .tc .vmem S3x256x1536 .bf16) (o : Fin 3 → Nat) (h : ∀ a, o a + S1x64x1536.size a ≤ S3x256x1536.size a) :
    Memref sig .tc .vmem S64x1536 .bf16 :=
  (M.slice (Rect.unit (s := S3x256x1536) o S1x64x1536.size h) (fun _ => rfl)).squeeze S64x1536 squeezes_S1x64x1536_S64x1536
abbrev pc1 (M : Memref sig .tc .vmem S3x128x1536 .bf16) (o : Fin 3 → Nat) (h : ∀ a, o a + S1x64x1536.size a ≤ S3x128x1536.size a) :
    Memref sig .tc .vmem S64x1536 .bf16 :=
  (M.slice (Rect.unit (s := S3x128x1536) o S1x64x1536.size h) (fun _ => rfl)).squeeze S64x1536 squeezes_S1x64x1536_S64x1536
abbrev pc2 (M : Memref sig .tc .vmem S3x64x1536 .bf16) (o : Fin 3 → Nat) (h : ∀ a, o a + S1x64x1536.size a ≤ S3x64x1536.size a) :
    Memref sig .tc .vmem S64x1536 .bf16 :=
  (M.slice (Rect.unit (s := S3x64x1536) o S1x64x1536.size h) (fun _ => rfl)).squeeze S64x1536 squeezes_S1x64x1536_S64x1536
abbrev pcA (o : Fin 2 → Nat) (h : ∀ a, o a + S64x1536.size a ≤ S1536x1536.size a) : Memref sig .tc .vmem S64x1536 .bf16 :=
  outM.slice (Rect.unit (s := S1536x1536) o S64x1536.size h) (fun _ => rfl)

abbrev smq (A : DmaSems sig S7x3) (i j : ℕ) (h : ∀ a, (![i, j] : Fin 2 → ℕ) a + S1x1.size a ≤ S7x3.size a) : DmaSem sig :=
  ((A.slice (Rect.unit (s := S7x3) ![i, j] S1x1.size h)).squeeze S_ squeezes_S1x1_S_).sem

theorem pcA_src (c : Dev nD) (s : Fin 7) (j : Fin 3) (o : Fin 2 → Nat) (h : ∀ a, o a + S64x1536.size a ≤ S1536x1536.size a) (ho : o = oA s j c) :
    pcA o h = srcM (.ag s j) c := Memref.slice_unit_congr outM ho h (oA_inb s j c) (fun _ => rfl) (fun _ => rfl)
theorem pcA_dst (c : Dev nD) (s : Fin 7) (j : Fin 3) (o : Fin 2 → Nat) (h : ∀ a, o a + S64x1536.size a ≤ S1536x1536.size a) (ho : o = oA s j c) :
    pcA o h = dstM (.ag s j) c := Memref.slice_unit_congr outM ho h (oA_inb s j c) (fun _ => rfl) (fun _ => rfl)

def IsStoreSrc (a b : ℕ) (k : Cp) : Prop :=
  k ∈ rawAt a ∧ tAt b = tAt a ∧ rawAt b = (rawAt a).erase k ∧ srcAt b = insert k (srcAt a) ∧ dstAt b = dstAt a
    ∧ swAt b = swAt a ∧ rwAt b = rwAt a ∧ ksAt b = ksAt a
instance (a b : ℕ) (k : Cp) : Decidable (IsStoreSrc a b k) := by unfold IsStoreSrc; infer_instance

theorem ld_ks_at (a : ℕ) (i : Fin 4) (j : Fin 3) (hj : j ∈ ksAt a) (o : Fin 3 → Nat) (ho : o = o0 i j c)
    (h : ∀ a, o a + S1x64x1536.size a ≤ S3x256x1536.size a)
    {hl : (kaccM : Memref sig .tc .vmem S3x256x1536 .f32).view.LoadsAt (Rect.unit (s := S3x256x1536) o S1x64x1536.size h).toLoadRect}
    {α : Type} {Q : α → sProp 𝕄}
    {k : ((Rect.unit (s := S3x256x1536) o S1x64x1536.size h).toLoadRect.shape.Idx → Elt F .f32) → Prog (TpuEff nD τ sig (Elt F) Λ₀ .tc) α} :
    StAt m K c a
      ⊢ iprop((StAt m K c a -∗ wp frame (wpE (defs₀ (F := F)) 𝒱₀ (c : Thread nD τ) none) Set.univ (k (kslice m c j (posF j i c))) Q)
        -∗ wp frame (wpE (defs₀ (F := F)) 𝒱₀ (c : Thread nD τ) none) Set.univ (.op (.load kaccM (Rect.unit (s := S3x256x1536) o S1x64x1536.size h).toLoadRect hl) k) Q) := by
  unfold StAt
  exact step_load_kslice m K c (tAt a) (rawAt a) (srcAt a) (dstAt a) (swAt a) (rwAt a) (ksAt a) i j o ho h hj

theorem ld_dst0_at (a : ℕ) (i : Fin 4) (j : Fin 3) (hk : Cp.rs0 i j ∈ dstAt a) (o : Fin 3 → Nat) (ho : o = o0 i j c)
    (h : ∀ a, o a + S1x64x1536.size a ≤ S3x256x1536.size a)
    {hl : (rb0M : Memref sig .tc .vmem S3x256x1536 .bf16).view.LoadsAt (Rect.unit (s := S3x256x1536) o S1x64x1536.size h).toLoadRect}
    {α : Type} {Q : α → sProp 𝕄}
    {k : ((Rect.unit (s := S3x256x1536) o S1x64x1536.size h).toLoadRect.shape.Idx → Elt F .bf16) → Prog (TpuEff nD τ sig (Elt F) Λ₀ .tc) α} :
    StAt m K c a
      ⊢ iprop((StAt m K c a -∗ wp frame (wpE (defs₀ (F := F)) 𝒱₀ (c : Thread nD τ) none) Set.univ (k (unsq (V m ((Cp.rs0 i j).peer c) (Cp.rs0 i j)))) Q)
        -∗ wp frame (wpE (defs₀ (F := F)) 𝒱₀ (c : Thread nD τ) none) Set.univ (.op (.load rb0M (Rect.unit (s := S3x256x1536) o S1x64x1536.size h).toLoadRect hl) k) Q) := by
  unfold StAt
  exact step_load_dst0 m K c (tAt a) (rawAt a) (srcAt a) (dstAt a) (swAt a) (rwAt a) (ksAt a) i j o ho h hk

theorem ld_dst1_at (a : ℕ) (h' : Fin 2) (j : Fin 3) (hk : Cp.rs1 h' j ∈ dstAt a) (o : Fin 3 → Nat) (ho : o = o1 h' j c)
    (h : ∀ a, o a + S1x64x1536.size a ≤ S3x128x1536.size a)
    {hl : (rb1M : Memref sig .tc .vmem S3x128x1536 .bf16).view.LoadsAt (Rect.unit (s := S3x128x1536) o S1x64x1536.size h).toLoadRect}
    {α : Type} {Q : α → sProp 𝕄}
    {k : ((Rect.unit (s := S3x128x1536) o S1x64x1536.size h).toLoadRect.shape.Idx → Elt F .bf16) → Prog (TpuEff nD τ sig (Elt F) Λ₀ .tc) α} :
    StAt m K c a
      ⊢ iprop((StAt m K c a -∗ wp frame (wpE (defs₀ (F := F)) 𝒱₀ (c : Thread nD τ) none) Set.univ (k (unsq (V m ((Cp.rs1 h' j).peer c) (Cp.rs1 h' j)))) Q)
        -∗ wp frame (wpE (defs₀ (F := F)) 𝒱₀ (c : Thread nD τ) none) Set.univ (.op (.load rb1M (Rect.unit (s := S3x128x1536) o S1x64x1536.size h).toLoadRect hl) k) Q) := by
  unfold StAt
  exact step_load_dst1 m K c (tAt a) (rawAt a) (srcAt a) (dstAt a) (swAt a) (rwAt a) (ksAt a) h' j o ho h hk

theorem ld_dst2_at (a : ℕ) (j : Fin 3) (hk : Cp.rs2 j ∈ dstAt a) (o : Fin 3 → Nat) (ho : o = o2 j)
    (h : ∀ a, o a + S1x64x1536.size a ≤ S3x64x1536.size a)
    {hl : (rb2M : Memref sig .tc .vmem S3x64x1536 .bf16).view.LoadsAt (Rect.unit (s := S3x64x1536) o S1x64x1536.size h).toLoadRect}
    {α : Type} {Q : α → sProp 𝕄}
    {k : ((Rect.unit (s := S3x64x1536) o S1x64x1536.size h).toLoadRect.shape.Idx → Elt F .bf16) → Prog (TpuEff nD τ sig (Elt F) Λ₀ .tc) α} :
    StAt m K c a
      ⊢ iprop((StAt m K c a -∗ wp frame (wpE (defs₀ (F := F)) 𝒱₀ (c : Thread nD τ) none) Set.univ (k (unsq (V m ((Cp.rs2 j).peer c) (Cp.rs2 j)))) Q)
        -∗ wp frame (wpE (defs₀ (F := F)) 𝒱₀ (c : Thread nD τ) none) Set.univ (.op (.load rb2M (Rect.unit (s := S3x64x1536) o S1x64x1536.size h).toLoadRect hl) k) Q) := by
  unfold StAt
  exact step_load_dst2 m K c (tAt a) (rawAt a) (srcAt a) (dstAt a) (swAt a) (rwAt a) (ksAt a) j o ho h hk

theorem ld_raw2_at (a : ℕ) (j : Fin 3) (hk : Cp.rs2 j ∈ rawAt a) (o : Fin 3 → Nat) (ho : o = o2 j)
    (h : ∀ a, o a + S1x64x1536.size a ≤ S3x64x1536.size a)
    {hl : (sb2M : Memref sig .tc .vmem S3x64x1536 .bf16).view.LoadsAt (Rect.unit (s := S3x64x1536) o S1x64x1536.size h).toLoadRect}
    {α : Type} {Q : α → sProp 𝕄}
    {k : ((Rect.unit (s := S3x64x1536) o S1x64x1536.size h).toLoadRect.shape.Idx → Elt F .bf16) → Prog (TpuEff nD τ sig (Elt F) Λ₀ .tc) α} :
    StAt m K c a
      ⊢ iprop((∀ v, StAt m K c a -∗ wp frame (wpE (defs₀ (F := F)) 𝒱₀ (c : Thread nD τ) none) Set.univ (k v) Q)
        -∗ wp frame (wpE (defs₀ (F := F)) 𝒱₀ (c : Thread nD τ) none) Set.univ (.op (.load sb2M (Rect.unit (s := S3x64x1536) o S1x64x1536.size h).toLoadRect hl) k) Q) := by
  unfold StAt
  exact step_load_raw2 m K c (tAt a) (rawAt a) (srcAt a) (dstAt a) (swAt a) (rwAt a) (ksAt a) j o ho h hk

theorem st_src2_at (a b : ℕ) (j : Fin 3) (hab : IsStoreSrc a b (.rs2 j)) (o : Fin 3 → Nat) (ho : o = o2 j)
    (h : ∀ a, o a + S1x64x1536.size a ≤ S3x64x1536.size a) (w : Vec F S1x64x1536 .bf16) (hw : sq w = V m c (Cp.rs2 j))
    {hst : ((sb2M : Memref sig .tc .vmem S3x64x1536 .bf16).access (Rect.unit (s := S3x64x1536) o S1x64x1536.size h)).Stores Finset.univ}
    {hm : (Finset.univ : Finset (Rect.unit (s := S3x64x1536) o S1x64x1536.size h).shape.Idx) = Finset.univ ∨ ∀ a, (Rect.unit (s := S3x64x1536) o S1x64x1536.size h).stride a = 1}
    {α : Type} {Q : α → sProp 𝕄} {kk : PUnit → Prog (TpuEff nD τ sig (Elt F) Λ₀ .tc) α} :
    StAt m K c a
      ⊢ iprop((StAt m K c b -∗ wp frame (wpE (defs₀ (F := F)) 𝒱₀ (c : Thread nD τ) none) Set.univ (kk ⟨⟩) Q)
        -∗ wp frame (wpE (defs₀ (F := F)) 𝒱₀ (c : Thread nD τ) none) Set.univ (.op (.store sb2M (Rect.unit (s := S3x64x1536) o S1x64x1536.size h) w Finset.univ hst hm) kk) Q) := by
  obtain ⟨hk, e1, e2, e3, e4, e5, e6, e7⟩ := hab
  have e : StAt m K c b = St m K c (tAt a) ((rawAt a).erase (.rs2 j)) (insert (.rs2 j) (srcAt a)) (dstAt a) (swAt a) (rwAt a) (ksAt a) := by
    unfold StAt; exact St_congr m K c e1 e2 e3 e4 e5 e6 e7
  rw [e]; unfold StAt
  exact step_store_src2 m K c (tAt a) (rawAt a) (srcAt a) (dstAt a) (swAt a) (rwAt a) (ksAt a) j o ho h w hk hw

def IsStoreOut (a b : ℕ) (j : Fin 3) : Prop :=
  Cp.ag 0 j ∈ rawAt a ∧ tAt b = tAt a ∧ rawAt b = (rawAt a).erase (Cp.ag 0 j) ∧ srcAt b = insert (Cp.ag 0 j) (insert (Cp.ag 1 j) (insert (Cp.ag 3 j) (srcAt a)))
    ∧ dstAt b = dstAt a ∧ swAt b = swAt a ∧ rwAt b = rwAt a ∧ ksAt b = ksAt a
instance (a b : ℕ) (j : Fin 3) : Decidable (IsStoreOut a b j) := by unfold IsStoreOut; infer_instance

theorem ld_out_raw_at (a : ℕ) (j : Fin 3) (hk : Cp.ag 0 j ∈ rawAt a) (o : Fin 2 → Nat) (ho : o = oA 0 j c)
    (h : ∀ a, o a + S64x1536.size a ≤ S1536x1536.size a)
    {hl : (outM : Memref sig .tc .vmem S1536x1536 .bf16).view.LoadsAt (Rect.unit (s := S1536x1536) o S64x1536.size h).toLoadRect}
    {α : Type} {Q : α → sProp 𝕄}
    {k : ((Rect.unit (s := S1536x1536) o S64x1536.size h).toLoadRect.shape.Idx → Elt F .bf16) → Prog (TpuEff nD τ sig (Elt F) Λ₀ .tc) α} :
    StAt m K c a
      ⊢ iprop((∀ v, StAt m K c a -∗ wp frame (wpE (defs₀ (F := F)) 𝒱₀ (c : Thread nD τ) none) Set.univ (k v) Q)
        -∗ wp frame (wpE (defs₀ (F := F)) 𝒱₀ (c : Thread nD τ) none) Set.univ (.op (.load outM (Rect.unit (s := S1536x1536) o S64x1536.size h).toLoadRect hl) k) Q) := by
  unfold StAt
  exact step_load_out_raw m K c (tAt a) (rawAt a) (srcAt a) (dstAt a) (swAt a) (rwAt a) (ksAt a) j o ho h hk

theorem st_out_at (a b : ℕ) (j : Fin 3) (hab : IsStoreOut a b j) (o : Fin 2 → Nat) (ho : o = oA 0 j c)
    (h : ∀ a, o a + S64x1536.size a ≤ S1536x1536.size a) (w : Vec F S64x1536 .bf16) (hw : w = fin m c j)
    {hst : ((outM : Memref sig .tc .vmem S1536x1536 .bf16).access (Rect.unit (s := S1536x1536) o S64x1536.size h)).Stores Finset.univ}
    {hm : (Finset.univ : Finset (Rect.unit (s := S1536x1536) o S64x1536.size h).shape.Idx) = Finset.univ ∨ ∀ a, (Rect.unit (s := S1536x1536) o S64x1536.size h).stride a = 1}
    {α : Type} {Q : α → sProp 𝕄} {kk : PUnit → Prog (TpuEff nD τ sig (Elt F) Λ₀ .tc) α} :
    StAt m K c a
      ⊢ iprop((StAt m K c b -∗ wp frame (wpE (defs₀ (F := F)) 𝒱₀ (c : Thread nD τ) none) Set.univ (kk ⟨⟩) Q)
        -∗ wp frame (wpE (defs₀ (F := F)) 𝒱₀ (c : Thread nD τ) none) Set.univ (.op (.store outM (Rect.unit (s := S1536x1536) o S64x1536.size h) w Finset.univ hst hm) kk) Q) := by
  obtain ⟨hk, e1, e2, e3, e4, e5, e6, e7⟩ := hab
  have e : StAt m K c b = St m K c (tAt a) ((rawAt a).erase (Cp.ag 0 j)) (insert (Cp.ag 0 j) (insert (Cp.ag 1 j) (insert (Cp.ag 3 j) (srcAt a)))) (dstAt a) (swAt a) (rwAt a) (ksAt a) := by
    unfold StAt; exact St_congr m K c e1 e2 e3 e4 e5 e6 e7
  rw [e]; unfold StAt
  exact step_store_out m K c (tAt a) (rawAt a) (srcAt a) (dstAt a) (swAt a) (rwAt a) (ksAt a) j o ho h w hk hw

end Helpers

end PartsS

open PartsS

section Parts

variable {F : FTy → Type} [FloatOps F]
variable (m : (ℓ : Loc nD τ sig) → Buf (Elt F) ℓ)

local notation "𝕄" => MT nD τ sig Unit (Elt F) ℕ UU ℕ

theorem part28 (K : Dev nD × CellIx → ℕ) (c : Dev nD) (v8 v11 v87 : BitVec 32) {Q : (Σ' (_ : FVec F S64x1536 .f32), FVec F S64x1536 .bf16) → sProp 𝕄} :
    iprop(StAt m K c 143 ∗ (StAt m K c 148 -∗ Q ⟨(k0_pay29 (kslice m c 2 (posF 2 2 c)) (unsq (V m ((Cp.rs0 2 2).peer c) (.rs0 2 2)))), (k0_pay30 (unsq (V m ((Cp.rs1 0 2).peer c) (.rs1 0 2))))⟩))
      ⊢ wp frame (wpE (defs₀ (F := F)) 𝒱₀ (c : Thread nD τ) none) Set.univ
          (onBufs k0_part28 c v8 v11 v87) Q := by
  rw [onBufs, k0_part28_eq_skeleton]; unfold k0_part28_skel
  simp only [Prog.lift, Prog.bind_op, Prog.bind_ret, Prog.pure_eq_ret]
  iintro ⟨HS, Hk⟩
  iapply (ws_at m K c 143 144 (.rs1 0 2) (by decide) (pc1 rb1M (k0_off45 c) (k0_off45_inb c)) (pc1 sb1M (k0_off45 c) (k0_off45_inb c)) rfl
    (smq cc0_scratch8 4 2 inb_S7x3_S1x1_4_2) rfl) $$ HS
  iintro HS
  iapply (wr_at m K c 144 145 (.rs1 0 2) (by decide) (pc1 sb1M (k0_off45 c) (k0_off45_inb c)) (pc1 rb1M (k0_off45 c) (k0_off45_inb c)) rfl
    (smq cc0_scratch9 4 2 inb_S7x3_S1x1_4_2) rfl) $$ HS
  iintro HS
  iapply (ld_ks_at m K c 145 2 2 (by decide) (k0_off26 c) ((off_26 c).trans rfl) (k0_off26_inb c)) $$ HS
  iintro HS
  iapply (ld_dst0_at m K c 145 2 2 (by decide) (k0_off26 c) ((off_26 c).trans rfl) (k0_off26_inb c)) $$ HS
  iintro HS
  iapply (ld_dst1_at m K c 145 0 2 (by decide) (k0_off44 c) ((off_44 c).trans rfl) (k0_off44_inb c)) $$ HS
  iintro HS
  rw [wp_ret]; imodintro
  rw [StAt_same m K c (show Same 145 148 by decide)]
  iapply Hk
  iexact HS

theorem part29 (K : Dev nD × CellIx → ℕ) (c : Dev nD) (v11 v12 : BitVec 32) {Q : PUnit → sProp 𝕄} :
    iprop(StAt m K c 148 ∗ (StAt m K c 152 -∗ Q ⟨⟩))
      ⊢ wp frame (wpE (defs₀ (F := F)) 𝒱₀ (c : Thread nD τ) none) Set.univ
          (onBufs k0_part29 c v11 v12 (k0_pay29 (kslice m c 2 (posF 2 2 c)) (unsq (V m ((Cp.rs0 2 2).peer c) (.rs0 2 2)))) (k0_pay30 (unsq (V m ((Cp.rs1 0 2).peer c) (.rs1 0 2))))) Q := by
  rw [onBufs, k0_part29_eq_skeleton]; unfold k0_part29_skel
  simp only [Prog.lift, Prog.bind_op, Prog.bind_ret, Prog.pure_eq_ret]
  iintro ⟨HS, Hk⟩
  iapply (ld_raw2_at m K c 148 2 (by decide) ![2, 0, 0] rfl inb_S3x64x1536_S1x64x1536_2_0_0) $$ HS
  iintro %v854 HS
  iapply (st_src2_at m K c 148 150 2 (by decide) ![2, 0, 0] rfl inb_S3x64x1536_S1x64x1536_2_0_0 _ rfl) $$ HS
  iintro HS
  iapply (iss_at m K c 150 151 (.rs2 2) (by decide) ⟨k0_dev24 c, k0_dev24_lt c⟩ ((dev_24 c).trans rfl)
    (pc2 sb2M ![2, 0, 0] inb_S3x64x1536_S1x64x1536_2_0_0) (pc2 rb2M ![2, 0, 0] inb_S3x64x1536_S1x64x1536_2_0_0) rfl rfl
    (smq cc0_scratch8 6 2 inb_S7x3_S1x1_6_2) (smq cc0_scratch9 6 2 inb_S7x3_S1x1_6_2) rfl rfl) $$ HS
  iintro HS
  iapply (ws_at m K c 151 152 (.rs0 3 0) (by decide) (pc0 rb0M (k0_off30 c) (k0_off30_inb c)) (pc0 sb0M (k0_off30 c) (k0_off30_inb c)) rfl
    (smq cc0_scratch8 3 0 inb_S7x3_S1x1_3_0) rfl) $$ HS
  iintro HS
  rw [wp_ret]; imodintro
  iapply Hk
  iexact HS

theorem part30 (K : Dev nD × CellIx → ℕ) (c : Dev nD) (v12 : BitVec 32) {Q : PUnit → sProp 𝕄} :
    iprop(StAt m K c 152 ∗ (StAt m K c 155 -∗ Q ⟨⟩))
      ⊢ wp frame (wpE (defs₀ (F := F)) 𝒱₀ (c : Thread nD τ) none) Set.univ
          (onBufs k0_part30 c v12) Q := by
  rw [onBufs, k0_part30_eq_skeleton]; unfold k0_part30_skel
  simp only [Prog.lift, Prog.bind_op, Prog.bind_ret, Prog.pure_eq_ret]
  iintro ⟨HS, Hk⟩
  iapply (wr_at m K c 152 153 (.rs0 3 0) (by decide) (pc0 sb0M (k0_off30 c) (k0_off30_inb c)) (pc0 rb0M (k0_off30 c) (k0_off30_inb c)) rfl
    (smq cc0_scratch9 3 0 inb_S7x3_S1x1_3_0) rfl) $$ HS
  iintro HS
  iapply (ws_at m K c 153 154 (.rs1 1 0) (by decide) (pc1 rb1M (k0_off47 c) (k0_off47_inb c)) (pc1 sb1M (k0_off47 c) (k0_off47_inb c)) rfl
    (smq cc0_scratch8 5 0 inb_S7x3_S1x1_5_0) rfl) $$ HS
  iintro HS
  iapply (wr_at m K c 154 155 (.rs1 1 0) (by decide) (pc1 sb1M (k0_off47 c) (k0_off47_inb c)) (pc1 rb1M (k0_off47 c) (k0_off47_inb c)) rfl
    (smq cc0_scratch9 5 0 inb_S7x3_S1x1_5_0) rfl) $$ HS
  iintro HS
  rw [wp_ret]; imodintro
  iapply Hk
  iexact HS

theorem part31 (K : Dev nD × CellIx → ℕ) (c : Dev nD) (v10 v13 v45 v65 : BitVec 32) {Q : PUnit → sProp 𝕄} :
    iprop(StAt m K c 155 ∗ (StAt m K c 163 -∗ Q ⟨⟩))
      ⊢ wp frame (wpE (defs₀ (F := F)) 𝒱₀ (c : Thread nD τ) none) Set.univ
          (onBufs k0_part31 c v10 v13 v45 v65) Q := by
  rw [onBufs, k0_part31_eq_skeleton]; unfold k0_part31_skel
  simp only [Prog.lift, Prog.bind_op, Prog.bind_ret, Prog.pure_eq_ret]
  iintro ⟨HS, Hk⟩
  iapply (ws_at m K c 155 156 (.rs2 0) (by decide) (pc2 rb2M ![0, 0, 0] inb_S3x64x1536_S1x64x1536_0_0_0) (pc2 sb2M ![0, 0, 0] inb_S3x64x1536_S1x64x1536_0_0_0) rfl
    (smq cc0_scratch8 6 0 inb_S7x3_S1x1_6_0) rfl) $$ HS
  iintro HS
  iapply (wr_at m K c 156 157 (.rs2 0) (by decide) (pc2 sb2M ![0, 0, 0] inb_S3x64x1536_S1x64x1536_0_0_0) (pc2 rb2M ![0, 0, 0] inb_S3x64x1536_S1x64x1536_0_0_0) rfl
    (smq cc0_scratch9 6 0 inb_S7x3_S1x1_6_0) rfl) $$ HS
  iintro HS
  iapply (ld_ks_at m K c 157 3 0 (by decide) (k0_off29 c) ((off_29 c).trans rfl) (k0_off29_inb c)) $$ HS
  iintro HS
  iapply (ld_dst0_at m K c 157 3 0 (by decide) (k0_off29 c) ((off_29 c).trans rfl) (k0_off29_inb c)) $$ HS
  iintro HS
  iapply (ld_dst1_at m K c 157 1 0 (by decide) (k0_off46 c) ((off_46 c).trans rfl) (k0_off46_inb c)) $$ HS
  iintro HS
  iapply (ld_dst2_at m K c 157 0 (by decide) ![0, 0, 0] rfl inb_S3x64x1536_S1x64x1536_0_0_0) $$ HS
  iintro HS
  iapply (ld_out_raw_at m K c 157 0 (by decide) (k0_off52 c) ((off_52 c).trans rfl) (k0_off52_inb c)) $$ HS
  iintro %v931 HS
  iapply (st_out_at m K c 157 163 0 (by decide) (k0_off52 c) ((off_52 c).trans rfl) (k0_off52_inb c) _ rfl) $$ HS
  iintro HS
  rw [wp_ret]; imodintro
  iapply Hk
  iexact HS

theorem part32 (K : Dev nD × CellIx → ℕ) (c : Dev nD) (v11 v12 v13 : BitVec 32) {Q : PUnit → sProp 𝕄} :
    iprop(StAt m K c 163 ∗ (StAt m K c 166 -∗ Q ⟨⟩))
      ⊢ wp frame (wpE (defs₀ (F := F)) 𝒱₀ (c : Thread nD τ) none) Set.univ
          (onBufs k0_part32 c v11 v12 v13) Q := by
  rw [onBufs, k0_part32_eq_skeleton]; unfold k0_part32_skel
  simp only [Prog.lift, Prog.bind_op, Prog.bind_ret, Prog.pure_eq_ret]
  iintro ⟨HS, Hk⟩
  iapply (iss_at m K c 163 164 (.ag 0 0) (by decide) ⟨k0_dev25 c, k0_dev25_lt c⟩ ((dev_25 c).trans rfl)
    (pcA (k0_off53 c) (k0_off53_inb c)) (pcA (k0_off53 c) (k0_off53_inb c))
    (pcA_src c 0 0 _ _ ((off_53 c).trans rfl)) (pcA_dst c 0 0 _ _ ((off_53 c).trans rfl))
    (smq cc0_scratch10 0 0 inb_S7x3_S1x1_0_0) (smq cc0_scratch11 0 0 inb_S7x3_S1x1_0_0) rfl rfl) $$ HS
  iintro HS
  iapply (iss_at m K c 164 165 (.ag 1 0) (by decide) ⟨k0_dev26 c, k0_dev26_lt c⟩ ((dev_26 c).trans rfl)
    (pcA (k0_off53 c) (k0_off53_inb c)) (pcA (k0_off53 c) (k0_off53_inb c))
    (pcA_src c 1 0 _ _ ((off_53 c).trans rfl)) (pcA_dst c 1 0 _ _ ((off_53 c).trans rfl))
    (smq cc0_scratch10 1 0 inb_S7x3_S1x1_1_0) (smq cc0_scratch11 1 0 inb_S7x3_S1x1_1_0) rfl rfl) $$ HS
  iintro HS
  iapply (iss_at m K c 165 166 (.ag 3 0) (by decide) ⟨k0_dev27 c, k0_dev27_lt c⟩ ((dev_27 c).trans rfl)
    (pcA (k0_off53 c) (k0_off53_inb c)) (pcA (k0_off53 c) (k0_off53_inb c))
    (pcA_src c 3 0 _ _ ((off_53 c).trans rfl)) (pcA_dst c 3 0 _ _ ((off_53 c).trans rfl))
    (smq cc0_scratch10 3 0 inb_S7x3_S1x1_3_0) (smq cc0_scratch11 3 0 inb_S7x3_S1x1_3_0) rfl rfl) $$ HS
  iintro HS
  rw [wp_ret]; imodintro
  iapply Hk
  iexact HS

theorem part33 (K : Dev nD × CellIx → ℕ) (c : Dev nD) (v12 v13 : BitVec 32) {Q : PUnit → sProp 𝕄} :
    iprop(StAt m K c 166 ∗ (StAt m K c 170 -∗ Q ⟨⟩))
      ⊢ wp frame (wpE (defs₀ (F := F)) 𝒱₀ (c : Thread nD τ) none) Set.univ
          (onBufs k0_part33 c v12 v13) Q := by
  rw [onBufs, k0_part33_eq_skeleton]; unfold k0_part33_skel
  simp only [Prog.lift, Prog.bind_op, Prog.bind_ret, Prog.pure_eq_ret]
  iintro ⟨HS, Hk⟩
  iapply (ws_at m K c 166 167 (.rs0 3 1) (by decide) (pc0 rb0M (k0_off33 c) (k0_off33_inb c)) (pc0 sb0M (k0_off33 c) (k0_off33_inb c)) rfl
    (smq cc0_scratch8 3 1 inb_S7x3_S1x1_3_1) rfl) $$ HS
  iintro HS
  iapply (wr_at m K c 167 168 (.rs0 3 1) (by decide) (pc0 sb0M (k0_off33 c) (k0_off33_inb c)) (pc0 rb0M (k0_off33 c) (k0_off33_inb c)) rfl
    (smq cc0_scratch9 3 1 inb_S7x3_S1x1_3_1) rfl) $$ HS
  iintro HS
  iapply (ws_at m K c 168 169 (.rs1 1 1) (by decide) (pc1 rb1M (k0_off49 c) (k0_off49_inb c)) (pc1 sb1M (k0_off49 c) (k0_off49_inb c)) rfl
    (smq cc0_scratch8 5 1 inb_S7x3_S1x1_5_1) rfl) $$ HS
  iintro HS
  iapply (wr_at m K c 169 170 (.rs1 1 1) (by decide) (pc1 sb1M (k0_off49 c) (k0_off49_inb c)) (pc1 rb1M (k0_off49 c) (k0_off49_inb c)) rfl
    (smq cc0_scratch9 5 1 inb_S7x3_S1x1_5_1) rfl) $$ HS
  iintro HS
  rw [wp_ret]; imodintro
  iapply Hk
  iexact HS

end Parts

end Cert.KernelIdeal.Hand

end
-- ==== Proof.PartsE.lean ====
import proofs.«900886_g7700000000000887_dist_matmul_k_i_m1536_n1536_k768_v7x_i8_bf16_1_alg».proof.Proof.ProgState
import proofs.«900886_g7700000000000887_dist_matmul_k_i_m1536_n1536_k768_v7x_i8_bf16_1_alg».proof.Proof.StepsNet
import proofs.«900886_g7700000000000887_dist_matmul_k_i_m1536_n1536_k768_v7x_i8_bf16_1_alg».proof.Proof.StepsLocal
import proofs.«900886_g7700000000000887_dist_matmul_k_i_m1536_n1536_k768_v7x_i8_bf16_1_alg».proof.Proof.StepsLocal2
import proofs.«900886_g7700000000000887_dist_matmul_k_i_m1536_n1536_k768_v7x_i8_bf16_1_alg».proof.Proof.Tables
import proofs.«900886_g7700000000000887_dist_matmul_k_i_m1536_n1536_k768_v7x_i8_bf16_1_alg».proof.Proof.Gen.KernelIdeal.Skeleton

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

section PartsESec

variable {F : FTy → Type} [FloatOps F]
variable (m : (ℓ : Loc nD τ sig) → Buf (Elt F) ℓ)

local notation "𝕄" => MT nD τ sig Unit (Elt F) ℕ UU ℕ

namespace PartsE

theorem St_at (K : Dev nD × CellIx → ℕ) (c : Dev nD) (n : Nat) {t : Nat} {Raw Src Dst SW RW : Finset Cp} {KS : Finset (Fin 3)}
    (ht : t = tAt n) (hR : Raw = rawAt n) (hS : Src = srcAt n) (hD : Dst = dstAt n) (hsw : SW = swAt n) (hrw : RW = rwAt n)
    (hks : KS = ksAt n) :
    St m K c t Raw Src Dst SW RW KS ⊢ St m K c (tAt n) (rawAt n) (srcAt n) (dstAt n) (swAt n) (rwAt n) (ksAt n) := by
  subst ht hR hS hD hsw hrw hks; exact .rfl

abbrev p2 (M : Memref sig .tc .vmem S3x64x1536 .bf16) (o : Fin 3 → Nat) (h : ∀ a, o a + S1x64x1536.size a ≤ S3x64x1536.size a) :
    Memref sig .tc .vmem S64x1536 .bf16 :=
  (M.slice (Rect.unit (s := S3x64x1536) o S1x64x1536.size h) (fun _ => rfl)).squeeze S64x1536 squeezes_S1x64x1536_S64x1536

abbrev pA (o : Fin 2 → Nat) (h : ∀ a, o a + S64x1536.size a ≤ S1536x1536.size a) : Memref sig .tc .vmem S64x1536 .bf16 :=
  outM.slice (Rect.unit (s := S1536x1536) o S64x1536.size h) (fun _ => rfl)

abbrev sm (A : DmaSems sig S7x3) (i j : ℕ) (h : ∀ a, (![i, j] : Fin 2 → ℕ) a + S1x1.size a ≤ S7x3.size a) : DmaSem sig :=
  ((A.slice (Rect.unit (s := S7x3) ![i, j] S1x1.size h)).squeeze S_ squeezes_S1x1_S_).sem

theorem fin_one (c : Dev nD) :
    k0_pay34 (k0_pay33 (kslice m c 1 (posF 1 3 c)) (unsq (V m ((Cp.rs0 3 1).peer c) (.rs0 3 1))))
        (unsq (V m ((Cp.rs1 1 1).peer c) (.rs1 1 1))) (unsq (V m ((Cp.rs2 1).peer c) (.rs2 1))) = fin m c 1 := rfl

theorem fin_two (c : Dev nD) :
    k0_pay35 (kslice m c 2 (posF 2 3 c)) (unsq (V m ((Cp.rs0 3 2).peer c) (.rs0 3 2)))
        (unsq (V m ((Cp.rs1 1 2).peer c) (.rs1 1 2))) (unsq (V m ((Cp.rs2 2).peer c) (.rs2 2))) = fin m c 2 := rfl

end PartsE

open PartsE

theorem part34 (K : Dev nD × CellIx → ℕ) (c : Dev nD) (v6 v11 v77 : BitVec 32) {Q : (FVec F S64x1536 .f32) → sProp 𝕄} :
    iprop(StAt m K c 170 ∗ (StAt m K c 174 -∗ Q (k0_pay33 (kslice m c 1 (posF 1 3 c)) (unsq (V m ((Cp.rs0 3 1).peer c) (.rs0 3 1))))))
      ⊢ wp frame (wpE (defs₀ (F := F)) 𝒱₀ (c : Thread nD τ) none) Set.univ
          (onBufs k0_part34 c v6 v11 v77) Q := by
  rw [onBufs, k0_part34_eq_skeleton]; unfold k0_part34_skel
  simp only [Prog.lift, Prog.bind_op, Prog.bind_ret, Prog.pure_eq_ret]
  unfold StAt
  iintro ⟨HS, Hk⟩
  iapply (step_wait_send_at m K c _ _ _ _ _ _ _ (.rs2 1) (p2 rb2M ![1, 0, 0] inb_S3x64x1536_S1x64x1536_1_0_0)
    (p2 sb2M ![1, 0, 0] inb_S3x64x1536_S1x64x1536_1_0_0) rfl (by decide) (by decide) (sm cc0_scratch8 6 1 inb_S7x3_S1x1_6_1) rfl) $$ HS
  iintro HS
  iapply (step_wait_recv_at m K c _ _ _ _ _ _ _ (.rs2 1) (p2 sb2M ![1, 0, 0] inb_S3x64x1536_S1x64x1536_1_0_0)
    (p2 rb2M ![1, 0, 0] inb_S3x64x1536_S1x64x1536_1_0_0) rfl (by decide) (by decide) (sm cc0_scratch9 6 1 inb_S7x3_S1x1_6_1) rfl) $$ HS
  iintro HS
  iapply (step_load_kslice m K c _ _ _ _ _ _ _ 3 1 (k0_off32 c) ((off_32 c).trans rfl) (k0_off32_inb c) (by decide)) $$ HS
  iintro HS
  iapply (step_load_dst0 m K c _ _ _ _ _ _ _ 3 1 (k0_off32 c) ((off_32 c).trans rfl) (k0_off32_inb c) (by decide)) $$ HS
  iintro HS
  rw [wp_ret]; imodintro
  iapply Hk
  iapply (St_at m K c 174) $$ HS
  all_goals decide

theorem part35 (K : Dev nD × CellIx → ℕ) (c : Dev nD) (v11 v12 v13 v49 : BitVec 32) {Q : PUnit → sProp 𝕄} :
    iprop(StAt m K c 174 ∗ (StAt m K c 180 -∗ Q ⟨⟩))
      ⊢ wp frame (wpE (defs₀ (F := F)) 𝒱₀ (c : Thread nD τ) none) Set.univ
          (onBufs k0_part35 c v11 v12 v13 v49 (k0_pay33 (kslice m c 1 (posF 1 3 c)) (unsq (V m ((Cp.rs0 3 1).peer c) (.rs0 3 1))))) Q := by
  rw [onBufs, k0_part35_eq_skeleton]; unfold k0_part35_skel
  simp only [Prog.lift, Prog.bind_op, Prog.bind_ret, Prog.pure_eq_ret]
  unfold StAt
  iintro ⟨HS, Hk⟩
  iapply (step_load_dst1 m K c _ _ _ _ _ _ _ 1 1 (k0_off48 c) ((off_48 c).trans rfl) (k0_off48_inb c) (by decide)) $$ HS
  iintro HS
  iapply (step_load_dst2 m K c _ _ _ _ _ _ _ 1 ![1, 0, 0] rfl inb_S3x64x1536_S1x64x1536_1_0_0 (by decide)) $$ HS
  iintro HS
  iapply (step_load_out_raw m K c _ _ _ _ _ _ _ 1 (k0_off54 c) ((off_54 c).trans rfl) (k0_off54_inb c) (by decide)) $$ HS
  iintro %vraw HS
  iapply (step_store_out m K c _ _ _ _ _ _ _ 1 (k0_off54 c) ((off_54 c).trans rfl) (k0_off54_inb c) _ (by decide) (fin_one m c)) $$ HS
  iintro HS
  iapply (step_issue_at m K c _ _ _ _ _ _ _ (.ag 0 1) ⟨k0_dev28 c, k0_dev28_lt c⟩ ((dev_28 c).trans rfl) (by decide) (by decide) (by decide)
    (pA (k0_off55 c) (k0_off55_inb c)) (pA (k0_off55 c) (k0_off55_inb c))
    (srcM_ag 0 1 c _ ((off_55 c).trans rfl) _) (dstM_ag 0 1 c _ ((off_55 c).trans rfl) _)
    (sm cc0_scratch10 0 1 inb_S7x3_S1x1_0_1) (sm cc0_scratch11 0 1 inb_S7x3_S1x1_0_1) rfl rfl) $$ HS
  iintro HS
  iapply (step_issue_at m K c _ _ _ _ _ _ _ (.ag 1 1) ⟨k0_dev29 c, k0_dev29_lt c⟩ ((dev_29 c).trans rfl) (by decide) (by decide) (by decide)
    (pA (k0_off55 c) (k0_off55_inb c)) (pA (k0_off55 c) (k0_off55_inb c))
    (srcM_ag 1 1 c _ ((off_55 c).trans rfl) _) (dstM_ag 1 1 c _ ((off_55 c).trans rfl) _)
    (sm cc0_scratch10 1 1 inb_S7x3_S1x1_1_1) (sm cc0_scratch11 1 1 inb_S7x3_S1x1_1_1) rfl rfl) $$ HS
  iintro HS
  rw [wp_ret]; imodintro
  iapply Hk
  iapply (St_at m K c 180) $$ HS
  all_goals decide

theorem part38 (K : Dev nD × CellIx → ℕ) (c : Dev nD) (v8 v11 v12 v53 v89 : BitVec 32) {Q : PUnit → sProp 𝕄} :
    iprop(StAt m K c 187 ∗ (StAt m K c 194 -∗ Q ⟨⟩))
      ⊢ wp frame (wpE (defs₀ (F := F)) 𝒱₀ (c : Thread nD τ) none) Set.univ
          (onBufs k0_part38 c v8 v11 v12 v53 v89) Q := by
  rw [onBufs, k0_part38_eq_skeleton]; unfold k0_part38_skel
  simp only [Prog.lift, Prog.bind_op, Prog.bind_ret, Prog.pure_eq_ret]
  unfold StAt
  iintro ⟨HS, Hk⟩
  iapply (step_load_kslice m K c _ _ _ _ _ _ _ 3 2 (k0_off35 c) ((off_35 c).trans rfl) (k0_off35_inb c) (by decide)) $$ HS
  iintro HS
  iapply (step_load_dst0 m K c _ _ _ _ _ _ _ 3 2 (k0_off35 c) ((off_35 c).trans rfl) (k0_off35_inb c) (by decide)) $$ HS
  iintro HS
  iapply (step_load_dst1 m K c _ _ _ _ _ _ _ 1 2 (k0_off50 c) ((off_50 c).trans rfl) (k0_off50_inb c) (by decide)) $$ HS
  iintro HS
  iapply (step_load_dst2 m K c _ _ _ _ _ _ _ 2 ![2, 0, 0] rfl inb_S3x64x1536_S1x64x1536_2_0_0 (by decide)) $$ HS
  iintro HS
  iapply (step_load_out_raw m K c _ _ _ _ _ _ _ 2 (k0_off56 c) ((off_56 c).trans rfl) (k0_off56_inb c) (by decide)) $$ HS
  iintro %vraw HS
  iapply (step_store_out m K c _ _ _ _ _ _ _ 2 (k0_off56 c) ((off_56 c).trans rfl) (k0_off56_inb c) _ (by decide) (fin_two m c)) $$ HS
  iintro HS
  iapply (step_issue_at m K c _ _ _ _ _ _ _ (.ag 0 2) ⟨k0_dev31 c, k0_dev31_lt c⟩ ((dev_31 c).trans rfl) (by decide) (by decide) (by decide)
    (pA (k0_off57 c) (k0_off57_inb c)) (pA (k0_off57 c) (k0_off57_inb c))
    (srcM_ag 0 2 c _ ((off_57 c).trans rfl) _) (dstM_ag 0 2 c _ ((off_57 c).trans rfl) _)
    (sm cc0_scratch10 0 2 inb_S7x3_S1x1_0_2) (sm cc0_scratch11 0 2 inb_S7x3_S1x1_0_2) rfl rfl) $$ HS
  iintro HS
  rw [wp_ret]; imodintro
  iapply Hk
  iapply (St_at m K c 194) $$ HS
  all_goals decide

end PartsESec

/-- info: 'Cert.KernelIdeal.Hand.part34' depends on axioms: [propext, Classical.choice, Quot.sound] -/
#guard_msgs in #print axioms Cert.KernelIdeal.Hand.part34

/-- info: 'Cert.KernelIdeal.Hand.part35' depends on axioms: [propext, Classical.choice, Quot.sound] -/
#guard_msgs in #print axioms Cert.KernelIdeal.Hand.part35

/-- info: 'Cert.KernelIdeal.Hand.part38' depends on axioms: [propext, Classical.choice, Quot.sound] -/
#guard_msgs in #print axioms Cert.KernelIdeal.Hand.part38

end Cert.KernelIdeal.Hand

end
-- ==== Proof.PartsT.lean ====
import proofs.«900886_g7700000000000887_dist_matmul_k_i_m1536_n1536_k768_v7x_i8_bf16_1_alg».proof.Proof.ProgState
import proofs.«900886_g7700000000000887_dist_matmul_k_i_m1536_n1536_k768_v7x_i8_bf16_1_alg».proof.Proof.StepsNet
import proofs.«900886_g7700000000000887_dist_matmul_k_i_m1536_n1536_k768_v7x_i8_bf16_1_alg».proof.Proof.StepsLocal2
import proofs.«900886_g7700000000000887_dist_matmul_k_i_m1536_n1536_k768_v7x_i8_bf16_1_alg».proof.Proof.Tables
import proofs.«900886_g7700000000000887_dist_matmul_k_i_m1536_n1536_k768_v7x_i8_bf16_1_alg».proof.Proof.Gen.KernelIdeal.Skeleton

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

namespace PartsT

def IssueOK (n : Nat) (k : Cp) : Prop :=
  k.ord = tAt n ∧ k ∈ srcAt n ∧ k ∉ swAt n ∧ tAt (n + 1) = tAt n + 1 ∧ rawAt (n + 1) = rawAt n
    ∧ srcAt (n + 1) = (srcAt n).erase k ∧ dstAt (n + 1) = dstAt n ∧ swAt (n + 1) = swAt n ∧ rwAt (n + 1) = rwAt n
    ∧ ksAt (n + 1) = ksAt n
instance (n : Nat) (k : Cp) : Decidable (IssueOK n k) := by unfold IssueOK; infer_instance

def WaitSOK (n : Nat) (k : Cp) : Prop :=
  k.ord < tAt n ∧ k ∉ swAt n ∧ tAt (n + 1) = tAt n ∧ rawAt (n + 1) = rawAt n
    ∧ srcAt (n + 1) = insert k (srcAt n) ∧ dstAt (n + 1) = dstAt n ∧ swAt (n + 1) = insert k (swAt n) ∧ rwAt (n + 1) = rwAt n
    ∧ ksAt (n + 1) = ksAt n
instance (n : Nat) (k : Cp) : Decidable (WaitSOK n k) := by unfold WaitSOK; infer_instance

def WaitROK (n : Nat) (k : Cp) : Prop :=
  k.ord < tAt n ∧ k ∉ rwAt n ∧ tAt (n + 1) = tAt n ∧ rawAt (n + 1) = rawAt n
    ∧ srcAt (n + 1) = srcAt n ∧ dstAt (n + 1) = insert k (dstAt n) ∧ swAt (n + 1) = swAt n ∧ rwAt (n + 1) = insert k (rwAt n)
    ∧ ksAt (n + 1) = ksAt n
instance (n : Nat) (k : Cp) : Decidable (WaitROK n k) := by unfold WaitROK; infer_instance

def WaitFOK (n : Nat) (k : Cp) (fw : Finset Cp → Finset Cp) : Prop :=
  k.ord < tAt n ∧ k ∉ rwAt n ∧ tAt (n + 1) = tAt n ∧ rawAt (n + 1) = rawAt n
    ∧ srcAt (n + 1) = fw (srcAt n) ∧ dstAt (n + 1) = (insert k (dstAt n)).erase k ∧ swAt (n + 1) = swAt n
    ∧ rwAt (n + 1) = insert k (rwAt n) ∧ ksAt (n + 1) = ksAt n
instance (n : Nat) (k : Cp) (fw : Finset Cp → Finset Cp) : Decidable (WaitFOK n k fw) := by unfold WaitFOK; infer_instance

theorem peer_eq (k : Cp) (c : Dev nD) : k.peer c = part (k.split.val + k.step) c := rfl

theorem part_congr {a b : Nat} (h : a % 3 = b % 3) (c : Dev nD) : part a c = part b c := by
  apply Fin.ext
  show (c.val ^^^ mask a) % 8 = (c.val ^^^ mask b) % 8
  unfold mask; rw [h]

theorem oA_K : ∀ (s : Fin 7) (j : Fin 3) (c : Dev nD), s.val = 0 ∨ s.val = 1 ∨ s.val = 3 → ![rowK2 j.val c, 0] = oA s j c := by decide
theorem oA_G1 : ∀ (s : Fin 7) (j : Fin 3) (c : Dev nD), s.val = 2 ∨ s.val = 4 → ![rowG j.val false true c, 0] = oA s j c := by decide
theorem oA_G2 : ∀ (j : Fin 3) (c : Dev nD), ![rowG j.val true false c, 0] = oA 5 j c := by decide

theorem ag_src (s : Fin 7) (j : Fin 3) (c : Dev nD) {o : Fin 2 → Nat} (ho : o = oA s j c) {p : ∀ a, o a + S64x1536.size a ≤ S1536x1536.size a} :
    outM.slice (Rect.unit (s := S1536x1536) o S64x1536.size p) (fun _ => rfl) = srcM (Cp.ag s j) c :=
  Memref.slice_unit_congr _ ho _ _ (fun _ => rfl) (fun _ => rfl)
theorem ag_dst (s : Fin 7) (j : Fin 3) (c : Dev nD) {o : Fin 2 → Nat} (ho : o = oA s j c) {p : ∀ a, o a + S64x1536.size a ≤ S1536x1536.size a} :
    outM.slice (Rect.unit (s := S1536x1536) o S64x1536.size p) (fun _ => rfl) = dstM (Cp.ag s j) c :=
  Memref.slice_unit_congr _ ho _ _ (fun _ => rfl) (fun _ => rfl)

section
variable {F : FTy → Type} [FloatOps F]
variable (m : (ℓ : Loc nD τ sig) → Buf (Elt F) ℓ)
local notation "𝕄" => MT nD τ sig Unit (Elt F) ℕ UU ℕ
variable (K : Dev nD × CellIx → ℕ) (c : Dev nD)

omit [FloatOps F] in

theorem chain {A B R W1 W2 : sProp 𝕄} (h1 : A ⊢ iprop((B -∗ W1) -∗ W2)) (h2 : iprop(B ∗ R) ⊢ W1) : iprop(A ∗ R) ⊢ W2 := by
  iintro ⟨HA, HR⟩
  iapply h1 $$ HA
  iintro HB
  iapply h2
  isplitl [HB]
  · iexact HB
  · iexact HR

theorem done {A : sProp 𝕄} {α : Type} (x : α) {Q : α → sProp 𝕄} :
    iprop(A ∗ (A -∗ Q x)) ⊢ wp frame (wpE (defs₀ (F := F)) 𝒱₀ (c : Thread nD τ) none) Set.univ (.ret x) Q := by
  rw [wp_ret]
  iintro ⟨HA, Hk⟩
  imodintro
  iapply Hk $$ HA

theorem at_issue (n : Nat) (k : Cp) (h : IssueOK n k) (a : Nat) (ha : (k.split.val + k.step) % 3 = a % 3) {d : Dev nD} (hd : d = part a c)
    {ms md : Memref sig .tc .vmem S64x1536 .bf16} (hms : ms = srcM k c) (hmd : md = dstM k c)
    {ss rs : DmaSem sig} (hss : ss = k.sendSem) (hrs : rs = k.recvSem)
    {hsc : (md : Memref sig (Dev.tc d : Thread nD τ).2.kind .vmem S64x1536 .bf16).view.ref.isScScratch = false}
    {hsrc : ms.view.WordExact} {hdst : md.view.WordExact}
    {hsem : DmaTarget.Typed .vmem (.dma rs) (.remote (Dev.tc d : Thread nD τ) md (.dma ss) hsc)}
    {α : Type} {Q : α → sProp 𝕄} {kk : PUnit → Prog (TpuEff nD τ sig (Elt F) Λ₀ .tc) α} :
    StAt m K c n ⊢ iprop((StAt m K c (n + 1) -∗ wp frame (wpE (defs₀ (F := F)) 𝒱₀ (c : Thread nD τ) none) Set.univ (kk ⟨⟩) Q)
      -∗ wp frame (wpE (defs₀ (F := F)) 𝒱₀ (c : Thread nD τ) none) Set.univ
        (.op (.enqueueDma ms (.remote (Dev.tc d : Thread nD τ) md (.dma ss) hsc) (.dma rs) hsrc hdst hsem) kk) Q) := by
  obtain ⟨h1, h2, h3, h4, h5, h6, h7, h8, h9, h10⟩ := h
  unfold StAt
  rw [h4, h5, h6, h7, h8, h9, h10]
  exact step_issue_at m K c (tAt n) (rawAt n) (srcAt n) (dstAt n) (swAt n) (rwAt n) (ksAt n) k d
    (hd.trans ((part_congr ha c).symm.trans (peer_eq k c).symm)) h1 h2 h3 ms md hms hmd ss rs hss hrs

theorem at_wait_send (n : Nat) (k : Cp) (h : WaitSOK n k) {ss : DmaSem sig} (hss : ss = k.sendSem)
    {ms md : Memref sig .tc .vmem S64x1536 .bf16} (hamt : md.view.dmaCredit = NN) {h1 : ms.view.WordExact} {h2 : md.view.WordExact}
    {α : Type} {Q : α → sProp 𝕄} {kk : PUnit → Prog (TpuEff nD τ sig (Elt F) Λ₀ .tc) α} :
    StAt m K c n ⊢ iprop((StAt m K c (n + 1) -∗ wp frame (wpE (defs₀ (F := F)) 𝒱₀ (c : Thread nD τ) none) Set.univ (kk ⟨⟩) Q)
      -∗ wp frame (wpE (defs₀ (F := F)) 𝒱₀ (c : Thread nD τ) none) Set.univ (.op (.waitDma2 ss ms md h1 h2) kk) Q) := by
  obtain ⟨g1, g2, g3, g4, g5, g6, g7, g8, g9⟩ := h
  unfold StAt
  rw [g3, g4, g5, g6, g7, g8, g9]
  exact step_wait_send_at m K c (tAt n) (rawAt n) (srcAt n) (dstAt n) (swAt n) (rwAt n) (ksAt n) k ms md hamt g1 g2 ss hss

theorem at_wait_recv (n : Nat) (k : Cp) (h : WaitROK n k) {rs : DmaSem sig} (hrs : rs = k.recvSem)
    {ms md : Memref sig .tc .vmem S64x1536 .bf16} (hamt : md.view.dmaCredit = NN) {h1 : ms.view.WordExact} {h2 : md.view.WordExact}
    {α : Type} {Q : α → sProp 𝕄} {kk : PUnit → Prog (TpuEff nD τ sig (Elt F) Λ₀ .tc) α} :
    StAt m K c n ⊢ iprop((StAt m K c (n + 1) -∗ wp frame (wpE (defs₀ (F := F)) 𝒱₀ (c : Thread nD τ) none) Set.univ (kk ⟨⟩) Q)
      -∗ wp frame (wpE (defs₀ (F := F)) 𝒱₀ (c : Thread nD τ) none) Set.univ (.op (.waitDma2 rs ms md h1 h2) kk) Q) := by
  obtain ⟨g1, g2, g3, g4, g5, g6, g7, g8, g9⟩ := h
  unfold StAt
  rw [g3, g4, g5, g6, g7, g8, g9]
  exact step_wait_recv_at m K c (tAt n) (rawAt n) (srcAt n) (dstAt n) (swAt n) (rwAt n) (ksAt n) k ms md hamt g1 g2 rs hrs

theorem at_wait_recv_ag0 (n : Nat) (j : Fin 3) (h : WaitFOK n (Cp.ag 0 j) fun S => insert (Cp.ag 2 j) (insert (Cp.ag 4 j) S))
    {rs : DmaSem sig} (hrs : rs = (Cp.ag 0 j).recvSem)
    {ms md : Memref sig .tc .vmem S64x1536 .bf16} (hamt : md.view.dmaCredit = NN) {h1 : ms.view.WordExact} {h2 : md.view.WordExact}
    {α : Type} {Q : α → sProp 𝕄} {kk : PUnit → Prog (TpuEff nD τ sig (Elt F) Λ₀ .tc) α} :
    StAt m K c n ⊢ iprop((StAt m K c (n + 1) -∗ wp frame (wpE (defs₀ (F := F)) 𝒱₀ (c : Thread nD τ) none) Set.univ (kk ⟨⟩) Q)
      -∗ wp frame (wpE (defs₀ (F := F)) 𝒱₀ (c : Thread nD τ) none) Set.univ (.op (.waitDma2 rs ms md h1 h2) kk) Q) := by
  obtain ⟨g1, g2, g3, g4, g5, g6, g7, g8, g9⟩ := h
  unfold StAt
  rw [g3, g4, g5, g6, g7, g8, g9]
  iintro H Hk
  iapply (step_wait_recv_at m K c (tAt n) (rawAt n) (srcAt n) (dstAt n) (swAt n) (rwAt n) (ksAt n) (Cp.ag 0 j) ms md hamt g1 g2 rs hrs) $$ H
  iintro H
  iapply Hk
  iapply (conv_ag0 m K c (tAt n) (rawAt n) (srcAt n) (insert (Cp.ag 0 j) (dstAt n)) (swAt n) (insert (Cp.ag 0 j) (rwAt n)) (ksAt n) j
    (Finset.mem_insert_self _ _)) $$ H

theorem at_wait_recv_ag1 (n : Nat) (j : Fin 3) (h : WaitFOK n (Cp.ag 1 j) fun S => insert (Cp.ag 5 j) S)
    {rs : DmaSem sig} (hrs : rs = (Cp.ag 1 j).recvSem)
    {ms md : Memref sig .tc .vmem S64x1536 .bf16} (hamt : md.view.dmaCredit = NN) {h1 : ms.view.WordExact} {h2 : md.view.WordExact}
    {α : Type} {Q : α → sProp 𝕄} {kk : PUnit → Prog (TpuEff nD τ sig (Elt F) Λ₀ .tc) α} :
    StAt m K c n ⊢ iprop((StAt m K c (n + 1) -∗ wp frame (wpE (defs₀ (F := F)) 𝒱₀ (c : Thread nD τ) none) Set.univ (kk ⟨⟩) Q)
      -∗ wp frame (wpE (defs₀ (F := F)) 𝒱₀ (c : Thread nD τ) none) Set.univ (.op (.waitDma2 rs ms md h1 h2) kk) Q) := by
  obtain ⟨g1, g2, g3, g4, g5, g6, g7, g8, g9⟩ := h
  unfold StAt
  rw [g3, g4, g5, g6, g7, g8, g9]
  iintro H Hk
  iapply (step_wait_recv_at m K c (tAt n) (rawAt n) (srcAt n) (dstAt n) (swAt n) (rwAt n) (ksAt n) (Cp.ag 1 j) ms md hamt g1 g2 rs hrs) $$ H
  iintro H
  iapply Hk
  iapply (conv_ag1 m K c (tAt n) (rawAt n) (srcAt n) (insert (Cp.ag 1 j) (dstAt n)) (swAt n) (insert (Cp.ag 1 j) (rwAt n)) (ksAt n) j
    (Finset.mem_insert_self _ _)) $$ H

end

end PartsT

open PartsT

section Parts
variable {F : FTy → Type} [FloatOps F]
variable (m : (ℓ : Loc nD τ sig) → Buf (Elt F) ℓ)
local notation "𝕄" => MT nD τ sig Unit (Elt F) ℕ UU ℕ

set_option maxHeartbeats 1600000 in

theorem part36 (K : Dev nD × CellIx → ℕ) (c : Dev nD) (v13 : BitVec 32) {Q : PUnit → sProp 𝕄} :
    iprop(StAt m K c 180 ∗ (StAt m K c 184 -∗ Q ⟨⟩))
      ⊢ wp frame (wpE (defs₀ (F := F)) 𝒱₀ (c : Thread nD τ) none) Set.univ (onBufs k0_part36 c v13) Q := by
  rw [onBufs, k0_part36_eq_skeleton]; unfold k0_part36_skel
  simp only [Prog.lift, Prog.bind_op, Prog.bind_ret, Prog.pure_eq_ret]
  refine PartsT.chain (PartsT.at_issue m K c 180 (Cp.ag 3 1) (by decide) 1 (by decide) (by exact dev_30 c)
    (by exact PartsT.ag_src 3 1 c ((off_55 c).trans (PartsT.oA_K 3 1 c (by decide)))) (by exact PartsT.ag_dst 3 1 c ((off_55 c).trans (PartsT.oA_K 3 1 c (by decide)))) (by rfl) (by rfl)) ?_
  refine PartsT.chain (PartsT.at_wait_send m K c 181 (Cp.rs0 3 2) (by decide) (by rfl) (by rfl)) ?_
  refine PartsT.chain (PartsT.at_wait_recv m K c 182 (Cp.rs0 3 2) (by decide) (by rfl) (by rfl)) ?_
  refine PartsT.chain (PartsT.at_wait_send m K c 183 (Cp.rs1 1 2) (by decide) (by rfl) (by rfl)) ?_
  exact PartsT.done c PUnit.unit

set_option maxHeartbeats 1600000 in

theorem part37 (K : Dev nD × CellIx → ℕ) (c : Dev nD) (v11 : BitVec 32) (v12 : BitVec 32) (v89 : BitVec 32) {Q : PUnit → sProp 𝕄} :
    iprop(StAt m K c 184 ∗ (StAt m K c 187 -∗ Q ⟨⟩))
      ⊢ wp frame (wpE (defs₀ (F := F)) 𝒱₀ (c : Thread nD τ) none) Set.univ (onBufs k0_part37 c v11 v12 v89) Q := by
  rw [onBufs, k0_part37_eq_skeleton]; unfold k0_part37_skel
  simp only [Prog.lift, Prog.bind_op, Prog.bind_ret, Prog.pure_eq_ret]
  refine PartsT.chain (PartsT.at_wait_recv m K c 184 (Cp.rs1 1 2) (by decide) (by rfl) (by rfl)) ?_
  refine PartsT.chain (PartsT.at_wait_send m K c 185 (Cp.rs2 2) (by decide) (by rfl) (by rfl)) ?_
  refine PartsT.chain (PartsT.at_wait_recv m K c 186 (Cp.rs2 2) (by decide) (by rfl) (by rfl)) ?_
  exact PartsT.done c PUnit.unit

set_option maxHeartbeats 1600000 in

theorem part39 (K : Dev nD × CellIx → ℕ) (c : Dev nD) (v12 : BitVec 32) (v13 : BitVec 32) (v45 : BitVec 32) (v92 : BitVec 32) {Q : PUnit → sProp 𝕄} :
    iprop(StAt m K c 194 ∗ (StAt m K c 198 -∗ Q ⟨⟩))
      ⊢ wp frame (wpE (defs₀ (F := F)) 𝒱₀ (c : Thread nD τ) none) Set.univ (onBufs k0_part39 c v12 v13 v45 v92) Q := by
  rw [onBufs, k0_part39_eq_skeleton]; unfold k0_part39_skel
  simp only [Prog.lift, Prog.bind_op, Prog.bind_ret, Prog.pure_eq_ret]
  refine PartsT.chain (PartsT.at_issue m K c 194 (Cp.ag 1 2) (by decide) 0 (by decide) (by exact dev_32 c)
    (by exact PartsT.ag_src 1 2 c ((off_57 c).trans (PartsT.oA_K 1 2 c (by decide)))) (by exact PartsT.ag_dst 1 2 c ((off_57 c).trans (PartsT.oA_K 1 2 c (by decide)))) (by rfl) (by rfl)) ?_
  refine PartsT.chain (PartsT.at_issue m K c 195 (Cp.ag 3 2) (by decide) 2 (by decide) (by exact dev_33 c)
    (by exact PartsT.ag_src 3 2 c ((off_57 c).trans (PartsT.oA_K 3 2 c (by decide)))) (by exact PartsT.ag_dst 3 2 c ((off_57 c).trans (PartsT.oA_K 3 2 c (by decide)))) (by rfl) (by rfl)) ?_
  refine PartsT.chain (PartsT.at_wait_send m K c 196 (Cp.ag 0 0) (by decide) (by rfl) (by rfl)) ?_
  refine PartsT.chain (PartsT.at_wait_recv_ag0 m K c 197 0 (by decide) (by rfl) (by rfl)) ?_
  exact PartsT.done c PUnit.unit

set_option maxHeartbeats 1600000 in

theorem part40 (K : Dev nD × CellIx → ℕ) (c : Dev nD) (v11 : BitVec 32) (v45 : BitVec 32) (v49 : BitVec 32) (v92 : BitVec 32) (v95 : BitVec 32) {Q : BitVec 32 → sProp 𝕄} :
    iprop(StAt m K c 198 ∗ (StAt m K c 202 -∗ Q (1#32)))
      ⊢ wp frame (wpE (defs₀ (F := F)) 𝒱₀ (c : Thread nD τ) none) Set.univ (onBufs k0_part40 c v11 v45 v49 v92 v95) Q := by
  rw [onBufs, k0_part40_eq_skeleton]; unfold k0_part40_skel
  simp only [Prog.lift, Prog.bind_op, Prog.bind_ret, Prog.pure_eq_ret]
  refine PartsT.chain (PartsT.at_issue m K c 198 (Cp.ag 2 0) (by decide) 1 (by decide) (by exact dev_34 c)
    (by exact PartsT.ag_src 2 0 c ((off_58 c).trans (PartsT.oA_G1 2 0 c (by decide)))) (by exact PartsT.ag_dst 2 0 c ((off_58 c).trans (PartsT.oA_G1 2 0 c (by decide)))) (by rfl) (by rfl)) ?_
  refine PartsT.chain (PartsT.at_issue m K c 199 (Cp.ag 4 0) (by decide) 0 (by decide) (by exact dev_35 c)
    (by exact PartsT.ag_src 4 0 c ((off_58 c).trans (PartsT.oA_G1 4 0 c (by decide)))) (by exact PartsT.ag_dst 4 0 c ((off_58 c).trans (PartsT.oA_G1 4 0 c (by decide)))) (by rfl) (by rfl)) ?_
  refine PartsT.chain (PartsT.at_wait_send m K c 200 (Cp.ag 0 1) (by decide) (by rfl) (by rfl)) ?_
  refine PartsT.chain (PartsT.at_wait_recv_ag0 m K c 201 1 (by decide) (by rfl) (by rfl)) ?_
  exact PartsT.done c (1#32)

set_option maxHeartbeats 1600000 in

theorem part41 (K : Dev nD × CellIx → ℕ) (c : Dev nD) (v12 : BitVec 32) (v13 : BitVec 32) (v49 : BitVec 32) (v53 : BitVec 32) (v95 : BitVec 32) (v98 : BitVec 32) (c1_i32_1097 : BitVec 32) {Q : PUnit → sProp 𝕄} :
    iprop(StAt m K c 202 ∗ (StAt m K c 206 -∗ Q ⟨⟩))
      ⊢ wp frame (wpE (defs₀ (F := F)) 𝒱₀ (c : Thread nD τ) none) Set.univ (onBufs k0_part41 c v12 v13 v49 v53 v95 v98 c1_i32_1097) Q := by
  rw [onBufs, k0_part41_eq_skeleton]; unfold k0_part41_skel
  simp only [Prog.lift, Prog.bind_op, Prog.bind_ret, Prog.pure_eq_ret]
  refine PartsT.chain (PartsT.at_issue m K c 202 (Cp.ag 2 1) (by decide) 2 (by decide) (by exact dev_36 c)
    (by exact PartsT.ag_src 2 1 c ((off_59 c).trans (PartsT.oA_G1 2 1 c (by decide)))) (by exact PartsT.ag_dst 2 1 c ((off_59 c).trans (PartsT.oA_G1 2 1 c (by decide)))) (by rfl) (by rfl)) ?_
  refine PartsT.chain (PartsT.at_issue m K c 203 (Cp.ag 4 1) (by decide) 1 (by decide) (by exact dev_37 c)
    (by exact PartsT.ag_src 4 1 c ((off_59 c).trans (PartsT.oA_G1 4 1 c (by decide)))) (by exact PartsT.ag_dst 4 1 c ((off_59 c).trans (PartsT.oA_G1 4 1 c (by decide)))) (by rfl) (by rfl)) ?_
  refine PartsT.chain (PartsT.at_wait_send m K c 204 (Cp.ag 0 2) (by decide) (by rfl) (by rfl)) ?_
  refine PartsT.chain (PartsT.at_wait_recv_ag0 m K c 205 2 (by decide) (by rfl) (by rfl)) ?_
  exact PartsT.done c PUnit.unit

set_option maxHeartbeats 1600000 in

theorem part42 (K : Dev nD × CellIx → ℕ) (c : Dev nD) (v11 : BitVec 32) (v12 : BitVec 32) (v13 : BitVec 32) (v53 : BitVec 32) (v98 : BitVec 32) {Q : PUnit → sProp 𝕄} :
    iprop(StAt m K c 206 ∗ (StAt m K c 210 -∗ Q ⟨⟩))
      ⊢ wp frame (wpE (defs₀ (F := F)) 𝒱₀ (c : Thread nD τ) none) Set.univ (onBufs k0_part42 c v11 v12 v13 v53 v98) Q := by
  rw [onBufs, k0_part42_eq_skeleton]; unfold k0_part42_skel
  simp only [Prog.lift, Prog.bind_op, Prog.bind_ret, Prog.pure_eq_ret]
  refine PartsT.chain (PartsT.at_issue m K c 206 (Cp.ag 2 2) (by decide) 0 (by decide) (by exact dev_38 c)
    (by exact PartsT.ag_src 2 2 c ((off_60 c).trans (PartsT.oA_G1 2 2 c (by decide)))) (by exact PartsT.ag_dst 2 2 c ((off_60 c).trans (PartsT.oA_G1 2 2 c (by decide)))) (by rfl) (by rfl)) ?_
  refine PartsT.chain (PartsT.at_issue m K c 207 (Cp.ag 4 2) (by decide) 2 (by decide) (by exact dev_39 c)
    (by exact PartsT.ag_src 4 2 c ((off_60 c).trans (PartsT.oA_G1 4 2 c (by decide)))) (by exact PartsT.ag_dst 4 2 c ((off_60 c).trans (PartsT.oA_G1 4 2 c (by decide)))) (by rfl) (by rfl)) ?_
  refine PartsT.chain (PartsT.at_wait_send m K c 208 (Cp.ag 1 0) (by decide) (by rfl) (by rfl)) ?_
  refine PartsT.chain (PartsT.at_wait_recv_ag1 m K c 209 0 (by decide) (by rfl) (by rfl)) ?_
  exact PartsT.done c PUnit.unit

set_option maxHeartbeats 1600000 in

theorem part43 (K : Dev nD × CellIx → ℕ) (c : Dev nD) (v11 : BitVec 32) (v12 : BitVec 32) (v13 : BitVec 32) (v45 : BitVec 32) (v49 : BitVec 32) (v101 : BitVec 32) (v104 : BitVec 32) {Q : PUnit → sProp 𝕄} :
    iprop(StAt m K c 210 ∗ (StAt m K c 213 -∗ Q ⟨⟩))
      ⊢ wp frame (wpE (defs₀ (F := F)) 𝒱₀ (c : Thread nD τ) none) Set.univ (onBufs k0_part43 c v11 v12 v13 v45 v49 v101 v104) Q := by
  rw [onBufs, k0_part43_eq_skeleton]; unfold k0_part43_skel
  simp only [Prog.lift, Prog.bind_op, Prog.bind_ret, Prog.pure_eq_ret]
  refine PartsT.chain (PartsT.at_issue m K c 210 (Cp.ag 5 0) (by decide) 0 (by decide) (by exact dev_40 c)
    (by exact PartsT.ag_src 5 0 c ((off_61 c).trans (PartsT.oA_G2 0 c))) (by exact PartsT.ag_dst 5 0 c ((off_61 c).trans (PartsT.oA_G2 0 c))) (by rfl) (by rfl)) ?_
  refine PartsT.chain (PartsT.at_wait_send m K c 211 (Cp.ag 1 1) (by decide) (by rfl) (by rfl)) ?_
  refine PartsT.chain (PartsT.at_wait_recv_ag1 m K c 212 1 (by decide) (by rfl) (by rfl)) ?_
  exact PartsT.done c PUnit.unit

end Parts

end Cert.KernelIdeal.Hand

end
-- ==== Proof.PartsU.lean ====
import proofs.«900886_g7700000000000887_dist_matmul_k_i_m1536_n1536_k768_v7x_i8_bf16_1_alg».proof.Proof.ProgState
import proofs.«900886_g7700000000000887_dist_matmul_k_i_m1536_n1536_k768_v7x_i8_bf16_1_alg».proof.Proof.StepsNet
import proofs.«900886_g7700000000000887_dist_matmul_k_i_m1536_n1536_k768_v7x_i8_bf16_1_alg».proof.Proof.StepsLocal
import proofs.«900886_g7700000000000887_dist_matmul_k_i_m1536_n1536_k768_v7x_i8_bf16_1_alg».proof.Proof.StepsLocal2
import proofs.«900886_g7700000000000887_dist_matmul_k_i_m1536_n1536_k768_v7x_i8_bf16_1_alg».proof.Proof.Tables
import proofs.«900886_g7700000000000887_dist_matmul_k_i_m1536_n1536_k768_v7x_i8_bf16_1_alg».proof.Proof.Gen.KernelIdeal.Skeleton

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

local notation "𝕄" => MT nD τ sig Unit (Elt F) ℕ UU ℕ

namespace PartsU

section Helpers
variable (K : Dev nD × CellIx → ℕ) (c : Dev nD)

theorem issue_ag (n : ℕ) (s : Fin 7) (j : Fin 3) (o : Fin 2 → ℕ) (hin hin' : ∀ a, o a + S64x1536.size a ≤ S1536x1536.size a)
    (ho : o = oA s j c) (d : Dev nD) (hd : d = (Cp.ag s j).peer c) (ss rs : DmaSem sig)
    (hss : ss = (Cp.ag s j).sendSem) (hrs : rs = (Cp.ag s j).recvSem)
    (hk : (Cp.ag s j).ord = tAt n) (hs : Cp.ag s j ∈ srcAt n) (hsw : Cp.ag s j ∉ swAt n)
    (e0 : tAt (n + 1) = tAt n + 1) (e1 : rawAt (n + 1) = rawAt n) (e2 : srcAt (n + 1) = (srcAt n).erase (.ag s j))
    (e3 : dstAt (n + 1) = dstAt n) (e4 : swAt (n + 1) = swAt n) (e5 : rwAt (n + 1) = rwAt n) (e6 : ksAt (n + 1) = ksAt n)
    {hsc hsrc hdst hsem} {α : Type} {kont : PUnit → Prog (TpuEff nD τ sig (Elt F) Λ₀ .tc) α} {Q : α → sProp 𝕄} :
    StAt m K c n ⊢
      iprop((StAt m K c (n + 1) -∗ wp frame (wpE (defs₀ (F := F)) 𝒱₀ (c : Thread nD τ) none) Set.univ (kont ⟨⟩) Q)
        -∗ wp frame (wpE (defs₀ (F := F)) 𝒱₀ (c : Thread nD τ) none) Set.univ
          (.op (.enqueueDma (outM.slice (Rect.unit (s := S1536x1536) o S64x1536.size hin) (fun _ => rfl))
            (.remote (Dev.tc d) (outM.slice (Rect.unit (s := S1536x1536) o S64x1536.size hin') (fun _ => rfl)) (.dma ss) hsc) (.dma rs)
            hsrc hdst hsem) kont) Q) := by
  subst ho
  unfold StAt; rw [e0, e1, e2, e3, e4, e5, e6]
  exact step_issue_at m K c _ _ _ _ _ _ _ (.ag s j) d hd hk hs hsw _ _ rfl rfl ss rs hss hrs

theorem wait_send (n : ℕ) (k : Cp) (ss : DmaSem sig) (hss : ss = k.sendSem)
    (ms md : Memref sig .tc .vmem S64x1536 .bf16) (hamt : md.view.dmaCredit = NN)
    (hk : k.ord < tAt n) (hsw : k ∉ swAt n)
    (e0 : tAt (n + 1) = tAt n) (e1 : rawAt (n + 1) = rawAt n) (e2 : srcAt (n + 1) = insert k (srcAt n))
    (e3 : dstAt (n + 1) = dstAt n) (e4 : swAt (n + 1) = insert k (swAt n)) (e5 : rwAt (n + 1) = rwAt n) (e6 : ksAt (n + 1) = ksAt n)
    {h1 h2} {α : Type} {kont : PUnit → Prog (TpuEff nD τ sig (Elt F) Λ₀ .tc) α} {Q : α → sProp 𝕄} :
    StAt m K c n ⊢
      iprop((StAt m K c (n + 1) -∗ wp frame (wpE (defs₀ (F := F)) 𝒱₀ (c : Thread nD τ) none) Set.univ (kont ⟨⟩) Q)
        -∗ wp frame (wpE (defs₀ (F := F)) 𝒱₀ (c : Thread nD τ) none) Set.univ (.op (.waitDma2 ss ms md h1 h2) kont) Q) := by
  unfold StAt; rw [e0, e1, e2, e3, e4, e5, e6]
  exact step_wait_send_at m K c _ _ _ _ _ _ _ k ms md hamt hk hsw ss hss

theorem wait_recv (n : ℕ) (k : Cp) (rs : DmaSem sig) (hrs : rs = k.recvSem)
    (ms md : Memref sig .tc .vmem S64x1536 .bf16) (hamt : md.view.dmaCredit = NN)
    (hk : k.ord < tAt n) (hrw : k ∉ rwAt n)
    (e0 : tAt (n + 1) = tAt n) (e1 : rawAt (n + 1) = rawAt n) (e2 : srcAt (n + 1) = srcAt n)
    (e3 : dstAt (n + 1) = insert k (dstAt n)) (e4 : swAt (n + 1) = swAt n) (e5 : rwAt (n + 1) = insert k (rwAt n)) (e6 : ksAt (n + 1) = ksAt n)
    {h1 h2} {α : Type} {kont : PUnit → Prog (TpuEff nD τ sig (Elt F) Λ₀ .tc) α} {Q : α → sProp 𝕄} :
    StAt m K c n ⊢
      iprop((StAt m K c (n + 1) -∗ wp frame (wpE (defs₀ (F := F)) 𝒱₀ (c : Thread nD τ) none) Set.univ (kont ⟨⟩) Q)
        -∗ wp frame (wpE (defs₀ (F := F)) 𝒱₀ (c : Thread nD τ) none) Set.univ (.op (.waitDma2 rs ms md h1 h2) kont) Q) := by
  unfold StAt; rw [e0, e1, e2, e3, e4, e5, e6]
  exact step_wait_recv_at m K c _ _ _ _ _ _ _ k ms md hamt hk hrw rs hrs

theorem wait_recv_ag1 (n : ℕ) (j : Fin 3) (rs : DmaSem sig) (hrs : rs = (Cp.ag 1 j).recvSem)
    (ms md : Memref sig .tc .vmem S64x1536 .bf16) (hamt : md.view.dmaCredit = NN)
    (hk : (Cp.ag 1 j).ord < tAt n) (hrw : Cp.ag 1 j ∉ rwAt n)
    (e0 : tAt (n + 1) = tAt n) (e1 : rawAt (n + 1) = rawAt n) (e2 : srcAt (n + 1) = insert (.ag 5 j) (srcAt n))
    (e3 : dstAt (n + 1) = (insert (.ag 1 j) (dstAt n)).erase (.ag 1 j)) (e4 : swAt (n + 1) = swAt n)
    (e5 : rwAt (n + 1) = insert (.ag 1 j) (rwAt n)) (e6 : ksAt (n + 1) = ksAt n)
    {h1 h2} {α : Type} {kont : PUnit → Prog (TpuEff nD τ sig (Elt F) Λ₀ .tc) α} {Q : α → sProp 𝕄} :
    StAt m K c n ⊢
      iprop((StAt m K c (n + 1) -∗ wp frame (wpE (defs₀ (F := F)) 𝒱₀ (c : Thread nD τ) none) Set.univ (kont ⟨⟩) Q)
        -∗ wp frame (wpE (defs₀ (F := F)) 𝒱₀ (c : Thread nD τ) none) Set.univ (.op (.waitDma2 rs ms md h1 h2) kont) Q) := by
  unfold StAt; rw [e0, e1, e2, e3, e4, e5, e6]
  refine (step_wait_recv_at m K c _ _ _ _ _ _ _ (.ag 1 j) ms md hamt hk hrw rs hrs).trans (wand_mono_left (wand_mono_left ?_))
  exact conv_ag1 m K c _ _ _ _ _ _ _ j (Finset.mem_insert_self _ _)

theorem wait_recv_ag2 (n : ℕ) (j : Fin 3) (rs : DmaSem sig) (hrs : rs = (Cp.ag 2 j).recvSem)
    (ms md : Memref sig .tc .vmem S64x1536 .bf16) (hamt : md.view.dmaCredit = NN)
    (hk : (Cp.ag 2 j).ord < tAt n) (hrw : Cp.ag 2 j ∉ rwAt n)
    (e0 : tAt (n + 1) = tAt n) (e1 : rawAt (n + 1) = rawAt n) (e2 : srcAt (n + 1) = insert (.ag 6 j) (srcAt n))
    (e3 : dstAt (n + 1) = (insert (.ag 2 j) (dstAt n)).erase (.ag 2 j)) (e4 : swAt (n + 1) = swAt n)
    (e5 : rwAt (n + 1) = insert (.ag 2 j) (rwAt n)) (e6 : ksAt (n + 1) = ksAt n)
    {h1 h2} {α : Type} {kont : PUnit → Prog (TpuEff nD τ sig (Elt F) Λ₀ .tc) α} {Q : α → sProp 𝕄} :
    StAt m K c n ⊢
      iprop((StAt m K c (n + 1) -∗ wp frame (wpE (defs₀ (F := F)) 𝒱₀ (c : Thread nD τ) none) Set.univ (kont ⟨⟩) Q)
        -∗ wp frame (wpE (defs₀ (F := F)) 𝒱₀ (c : Thread nD τ) none) Set.univ (.op (.waitDma2 rs ms md h1 h2) kont) Q) := by
  unfold StAt; rw [e0, e1, e2, e3, e4, e5, e6]
  refine (step_wait_recv_at m K c _ _ _ _ _ _ _ (.ag 2 j) ms md hamt hk hrw rs hrs).trans (wand_mono_left (wand_mono_left ?_))
  exact conv_ag2 m K c _ _ _ _ _ _ _ j (Finset.mem_insert_self _ _)

section Glue
variable (K : Dev nD × CellIx → ℕ) (c : Dev nD)

omit [FloatOps F] in

theorem chain {P P' R W W' : sProp 𝕄} (h : P ⊢ iprop((P' -∗ W') -∗ W)) (h' : iprop(P' ∗ R) ⊢ W') : iprop(P ∗ R) ⊢ W := by
  iintro ⟨HP, HR⟩
  iapply h $$ [HP]
  · iexact HP
  iintro HP'
  iapply h'
  isplitl [HP']
  · iexact HP'
  · iexact HR

theorem finish {α : Type} {P : sProp 𝕄} {a : α} {Q : α → sProp 𝕄} :
    iprop(P ∗ (P -∗ Q a)) ⊢ wp frame (wpE (defs₀ (F := F)) 𝒱₀ (c : Thread nD τ) none) Set.univ (.ret a) Q := by
  rw [wp_ret]
  iintro ⟨HP, HQ⟩
  imodintro
  iapply HQ
  iexact HP

end Glue

end Helpers

end PartsU

open PartsU

section Parts
variable (K : Dev nD × CellIx → ℕ) (c : Dev nD)

theorem part44 (v11 v13 v53 v107 : BitVec 32) {Q : PUnit → sProp 𝕄} :
    iprop(StAt m K c 213 ∗ (StAt m K c 218 -∗ Q ⟨⟩)) ⊢
      wp frame (wpE (defs₀ (F := F)) 𝒱₀ (c : Thread nD τ) none) Set.univ
        (onBufs k0_part44 c v11 v13 v53 v107) Q := by
  rw [onBufs, k0_part44_eq_skeleton]; unfold k0_part44_skel
  simp only [Prog.lift, Prog.bind_op, Prog.bind_ret, Prog.pure_eq_ret]
  refine chain (issue_ag m K c 213 5 1 _ _ _ (by rw [off_62]; rfl) _ (by rw [dev_41]; revert c; decide) _ _ (by rfl) (by rfl) (by decide) (by decide) (by decide) (by decide) (by decide) (by decide) (by decide) (by decide) (by decide) (by decide)) ?_
  refine chain (wait_send m K c 214 (.ag 1 2) _ (by rfl) _ _ (by rfl) (by decide) (by decide) (by decide) (by decide) (by decide) (by decide) (by decide) (by decide) (by decide)) ?_
  refine chain (wait_recv_ag1 m K c 215 2 _ (by rfl) _ _ (by rfl) (by decide) (by decide) (by decide) (by decide) (by decide) (by decide) (by decide) (by decide) (by decide)) ?_
  refine chain (issue_ag m K c 216 5 2 _ _ _ (by rw [off_63]; rfl) _ (by rw [dev_42]; revert c; decide) _ _ (by rfl) (by rfl) (by decide) (by decide) (by decide) (by decide) (by decide) (by decide) (by decide) (by decide) (by decide) (by decide)) ?_
  refine chain (wait_send m K c 217 (.ag 2 0) _ (by rfl) _ _ (by rfl) (by decide) (by decide) (by decide) (by decide) (by decide) (by decide) (by decide) (by decide) (by decide)) ?_
  exact finish (F := F) c

theorem part45 (v11 v12 v13 v45 v92 v101 : BitVec 32) {Q : PUnit → sProp 𝕄} :
    iprop(StAt m K c 218 ∗ (StAt m K c 221 -∗ Q ⟨⟩)) ⊢
      wp frame (wpE (defs₀ (F := F)) 𝒱₀ (c : Thread nD τ) none) Set.univ
        (onBufs k0_part45 c v11 v12 v13 v45 v92 v101) Q := by
  rw [onBufs, k0_part45_eq_skeleton]; unfold k0_part45_skel
  simp only [Prog.lift, Prog.bind_op, Prog.bind_ret, Prog.pure_eq_ret]
  refine chain (wait_recv_ag2 m K c 218 0 _ (by rfl) _ _ (by rfl) (by decide) (by decide) (by decide) (by decide) (by decide) (by decide) (by decide) (by decide) (by decide)) ?_
  refine chain (issue_ag m K c 219 6 0 _ _ _ (by rw [off_64]; rfl) _ (by rw [dev_43]; revert c; decide) _ _ (by rfl) (by rfl) (by decide) (by decide) (by decide) (by decide) (by decide) (by decide) (by decide) (by decide) (by decide) (by decide)) ?_
  refine chain (wait_send m K c 220 (.ag 2 1) _ (by rfl) _ _ (by rfl) (by decide) (by decide) (by decide) (by decide) (by decide) (by decide) (by decide) (by decide) (by decide)) ?_
  exact finish (F := F) c

theorem part46 (v11 v12 v13 v49 v53 v95 v98 v104 v107 : BitVec 32) {Q : PUnit → sProp 𝕄} :
    iprop(StAt m K c 221 ∗ (StAt m K c 225 -∗ Q ⟨⟩)) ⊢
      wp frame (wpE (defs₀ (F := F)) 𝒱₀ (c : Thread nD τ) none) Set.univ
        (onBufs k0_part46 c v11 v12 v13 v49 v53 v95 v98 v104 v107) Q := by
  rw [onBufs, k0_part46_eq_skeleton]; unfold k0_part46_skel
  simp only [Prog.lift, Prog.bind_op, Prog.bind_ret, Prog.pure_eq_ret]
  refine chain (wait_recv_ag2 m K c 221 1 _ (by rfl) _ _ (by rfl) (by decide) (by decide) (by decide) (by decide) (by decide) (by decide) (by decide) (by decide) (by decide)) ?_
  refine chain (issue_ag m K c 222 6 1 _ _ _ (by rw [off_65]; rfl) _ (by rw [dev_44]; revert c; decide) _ _ (by rfl) (by rfl) (by decide) (by decide) (by decide) (by decide) (by decide) (by decide) (by decide) (by decide) (by decide) (by decide)) ?_
  refine chain (wait_send m K c 223 (.ag 2 2) _ (by rfl) _ _ (by rfl) (by decide) (by decide) (by decide) (by decide) (by decide) (by decide) (by decide) (by decide) (by decide)) ?_
  refine chain (wait_recv_ag2 m K c 224 2 _ (by rfl) _ _ (by rfl) (by decide) (by decide) (by decide) (by decide) (by decide) (by decide) (by decide) (by decide) (by decide)) ?_
  exact finish (F := F) c

theorem part47 (v11 : BitVec 32) {Q : PUnit → sProp 𝕄} :
    iprop(StAt m K c 225 ∗ (StAt m K c 230 -∗ Q ⟨⟩)) ⊢
      wp frame (wpE (defs₀ (F := F)) 𝒱₀ (c : Thread nD τ) none) Set.univ
        (onBufs k0_part47 c v11) Q := by
  rw [onBufs, k0_part47_eq_skeleton]; unfold k0_part47_skel
  simp only [Prog.lift, Prog.bind_op, Prog.bind_ret, Prog.pure_eq_ret]
  refine chain (issue_ag m K c 225 6 2 _ _ _ (by rw [off_66]; rfl) _ (by rw [dev_45]; revert c; decide) _ _ (by rfl) (by rfl) (by decide) (by decide) (by decide) (by decide) (by decide) (by decide) (by decide) (by decide) (by decide) (by decide)) ?_
  refine chain (wait_send m K c 226 (.ag 3 0) _ (by rfl) _ _ (by rfl) (by decide) (by decide) (by decide) (by decide) (by decide) (by decide) (by decide) (by decide) (by decide)) ?_
  refine chain (wait_recv m K c 227 (.ag 3 0) _ (by rfl) _ _ (by rfl) (by decide) (by decide) (by decide) (by decide) (by decide) (by decide) (by decide) (by decide) (by decide)) ?_
  refine chain (wait_send m K c 228 (.ag 4 0) _ (by rfl) _ _ (by rfl) (by decide) (by decide) (by decide) (by decide) (by decide) (by decide) (by decide) (by decide) (by decide)) ?_
  refine chain (wait_recv m K c 229 (.ag 4 0) _ (by rfl) _ _ (by rfl) (by decide) (by decide) (by decide) (by decide) (by decide) (by decide) (by decide) (by decide) (by decide)) ?_
  exact finish (F := F) c

theorem part48 (v11 : BitVec 32) {Q : PUnit → sProp 𝕄} :
    iprop(StAt m K c 230 ∗ (StAt m K c 234 -∗ Q ⟨⟩)) ⊢
      wp frame (wpE (defs₀ (F := F)) 𝒱₀ (c : Thread nD τ) none) Set.univ
        (onBufs k0_part48 c v11) Q := by
  rw [onBufs, k0_part48_eq_skeleton]; unfold k0_part48_skel
  simp only [Prog.lift, Prog.bind_op, Prog.bind_ret, Prog.pure_eq_ret]
  refine chain (wait_send m K c 230 (.ag 5 0) _ (by rfl) _ _ (by rfl) (by decide) (by decide) (by decide) (by decide) (by decide) (by decide) (by decide) (by decide) (by decide)) ?_
  refine chain (wait_recv m K c 231 (.ag 5 0) _ (by rfl) _ _ (by rfl) (by decide) (by decide) (by decide) (by decide) (by decide) (by decide) (by decide) (by decide) (by decide)) ?_
  refine chain (wait_send m K c 232 (.ag 6 0) _ (by rfl) _ _ (by rfl) (by decide) (by decide) (by decide) (by decide) (by decide) (by decide) (by decide) (by decide) (by decide)) ?_
  refine chain (wait_recv m K c 233 (.ag 6 0) _ (by rfl) _ _ (by rfl) (by decide) (by decide) (by decide) (by decide) (by decide) (by decide) (by decide) (by decide) (by decide)) ?_
  exact finish (F := F) c

theorem part49 (v12 : BitVec 32) {Q : PUnit → sProp 𝕄} :
    iprop(StAt m K c 234 ∗ (StAt m K c 239 -∗ Q ⟨⟩)) ⊢
      wp frame (wpE (defs₀ (F := F)) 𝒱₀ (c : Thread nD τ) none) Set.univ
        (onBufs k0_part49 c v12) Q := by
  rw [onBufs, k0_part49_eq_skeleton]; unfold k0_part49_skel
  simp only [Prog.lift, Prog.bind_op, Prog.bind_ret, Prog.pure_eq_ret]
  refine chain (wait_send m K c 234 (.ag 3 1) _ (by rfl) _ _ (by rfl) (by decide) (by decide) (by decide) (by decide) (by decide) (by decide) (by decide) (by decide) (by decide)) ?_
  refine chain (wait_recv m K c 235 (.ag 3 1) _ (by rfl) _ _ (by rfl) (by decide) (by decide) (by decide) (by decide) (by decide) (by decide) (by decide) (by decide) (by decide)) ?_
  refine chain (wait_send m K c 236 (.ag 4 1) _ (by rfl) _ _ (by rfl) (by decide) (by decide) (by decide) (by decide) (by decide) (by decide) (by decide) (by decide) (by decide)) ?_
  refine chain (wait_recv m K c 237 (.ag 4 1) _ (by rfl) _ _ (by rfl) (by decide) (by decide) (by decide) (by decide) (by decide) (by decide) (by decide) (by decide) (by decide)) ?_
  refine chain (wait_send m K c 238 (.ag 5 1) _ (by rfl) _ _ (by rfl) (by decide) (by decide) (by decide) (by decide) (by decide) (by decide) (by decide) (by decide) (by decide)) ?_
  exact finish (F := F) c

theorem part50 (v12 v13 : BitVec 32) {Q : BitVec 32 → sProp 𝕄} :
    iprop(StAt m K c 239 ∗ (StAt m K c 243 -∗ Q (Scalar.muli v13 1#32))) ⊢
      wp frame (wpE (defs₀ (F := F)) 𝒱₀ (c : Thread nD τ) none) Set.univ
        (onBufs k0_part50 c v12 v13) Q := by
  rw [onBufs, k0_part50_eq_skeleton]; unfold k0_part50_skel
  simp only [Prog.lift, Prog.bind_op, Prog.bind_ret, Prog.pure_eq_ret]
  refine chain (wait_recv m K c 239 (.ag 5 1) _ (by rfl) _ _ (by rfl) (by decide) (by decide) (by decide) (by decide) (by decide) (by decide) (by decide) (by decide) (by decide)) ?_
  refine chain (wait_send m K c 240 (.ag 6 1) _ (by rfl) _ _ (by rfl) (by decide) (by decide) (by decide) (by decide) (by decide) (by decide) (by decide) (by decide) (by decide)) ?_
  refine chain (wait_recv m K c 241 (.ag 6 1) _ (by rfl) _ _ (by rfl) (by decide) (by decide) (by decide) (by decide) (by decide) (by decide) (by decide) (by decide) (by decide)) ?_
  refine chain (wait_send m K c 242 (.ag 3 2) _ (by rfl) _ _ (by rfl) (by decide) (by decide) (by decide) (by decide) (by decide) (by decide) (by decide) (by decide) (by decide)) ?_
  exact finish (F := F) c

theorem part51 (v13 v1419 : BitVec 32) {Q : PUnit → sProp 𝕄} :
    iprop(StAt m K c 243 ∗ (StAt m K c 247 -∗ Q ⟨⟩)) ⊢
      wp frame (wpE (defs₀ (F := F)) 𝒱₀ (c : Thread nD τ) none) Set.univ
        (onBufs k0_part51 c v13 v1419) Q := by
  rw [onBufs, k0_part51_eq_skeleton]; unfold k0_part51_skel
  simp only [Prog.lift, Prog.bind_op, Prog.bind_ret, Prog.pure_eq_ret]
  refine chain (wait_recv m K c 243 (.ag 3 2) _ (by rfl) _ _ (by rfl) (by decide) (by decide) (by decide) (by decide) (by decide) (by decide) (by decide) (by decide) (by decide)) ?_
  refine chain (wait_send m K c 244 (.ag 4 2) _ (by rfl) _ _ (by rfl) (by decide) (by decide) (by decide) (by decide) (by decide) (by decide) (by decide) (by decide) (by decide)) ?_
  refine chain (wait_recv m K c 245 (.ag 4 2) _ (by rfl) _ _ (by rfl) (by decide) (by decide) (by decide) (by decide) (by decide) (by decide) (by decide) (by decide) (by decide)) ?_
  refine chain (wait_send m K c 246 (.ag 5 2) _ (by rfl) _ _ (by rfl) (by decide) (by decide) (by decide) (by decide) (by decide) (by decide) (by decide) (by decide) (by decide)) ?_
  exact finish (F := F) c

end Parts

end Cert.KernelIdeal.Hand

end
-- ==== Proof.Root.lean ====
import proofs.«900886_g7700000000000887_dist_matmul_k_i_m1536_n1536_k768_v7x_i8_bf16_1_alg».proof.Proof.ProgState
import proofs.«900886_g7700000000000887_dist_matmul_k_i_m1536_n1536_k768_v7x_i8_bf16_1_alg».proof.Proof.Dats
import proofs.«900886_g7700000000000887_dist_matmul_k_i_m1536_n1536_k768_v7x_i8_bf16_1_alg».proof.Proof.StepsNet
import proofs.«900886_g7700000000000887_dist_matmul_k_i_m1536_n1536_k768_v7x_i8_bf16_1_alg».proof.Proof.BodyEnds
import proofs.«900886_g7700000000000887_dist_matmul_k_i_m1536_n1536_k768_v7x_i8_bf16_1_alg».proof.Proof.PartsP
import proofs.«900886_g7700000000000887_dist_matmul_k_i_m1536_n1536_k768_v7x_i8_bf16_1_alg».proof.Proof.PartsQ
import proofs.«900886_g7700000000000887_dist_matmul_k_i_m1536_n1536_k768_v7x_i8_bf16_1_alg».proof.Proof.PartsR
import proofs.«900886_g7700000000000887_dist_matmul_k_i_m1536_n1536_k768_v7x_i8_bf16_1_alg».proof.Proof.PartsS
import proofs.«900886_g7700000000000887_dist_matmul_k_i_m1536_n1536_k768_v7x_i8_bf16_1_alg».proof.Proof.PartsE
import proofs.«900886_g7700000000000887_dist_matmul_k_i_m1536_n1536_k768_v7x_i8_bf16_1_alg».proof.Proof.PartsT
import proofs.«900886_g7700000000000887_dist_matmul_k_i_m1536_n1536_k768_v7x_i8_bf16_1_alg».proof.Proof.PartsU
import proofs.«900886_g7700000000000887_dist_matmul_k_i_m1536_n1536_k768_v7x_i8_bf16_1_alg».proof.Proof.Gen.KernelIdeal.Skeleton
import Idealize.ShloMosaic.Lib.Tactic

set_option maxRecDepth 65536

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

section RootSec

variable {F : FTy → Type} [FloatOps F]
variable (m : (ℓ : Loc nD τ sig) → Buf (Elt F) ℓ) (ρ : Dev nD → PrngReg)

local notation "𝕄" => MT nD τ sig Unit (Elt F) ℕ UU ℕ

namespace Root

section Tail
variable (K : Dev nD × CellIx → ℕ) (c : Dev nD)

theorem root_wait_send (n : ℕ) (k : Cp) (ss : DmaSem sig) (hss : ss = k.sendSem)
    (ms md : Memref sig .tc .vmem S64x1536 .bf16) (hamt : md.view.dmaCredit = NN)
    (hk : k.ord < tAt n) (hsw : k ∉ swAt n)
    (e0 : tAt (n + 1) = tAt n) (e1 : rawAt (n + 1) = rawAt n) (e2 : srcAt (n + 1) = insert k (srcAt n))
    (e3 : dstAt (n + 1) = dstAt n) (e4 : swAt (n + 1) = insert k (swAt n)) (e5 : rwAt (n + 1) = rwAt n) (e6 : ksAt (n + 1) = ksAt n)
    {h1 : ms.view.WordExact} {h2 : md.view.WordExact} {Q : PUnit → sProp 𝕄} :
    iprop(StAt m K c n ∗ (StAt m K c (n + 1) -∗ Q ⟨⟩)) ⊢
      wp frame (wpE (defs₀ (F := F)) 𝒱₀ (c : Thread nD τ) none) Set.univ (Prog.lift (.waitDma2 ss ms md h1 h2)) Q := by
  unfold StAt; rw [e0, e1, e2, e3, e4, e5, e6]
  iintro ⟨H, HQ⟩
  iapply (step_wait_send_at m K c _ _ _ _ _ _ _ k ms md hamt hk hsw ss hss (kk := Prog.ret)) $$ [H]
  · iexact H
  iintro H'
  rw [wp_ret]
  imodintro
  iapply HQ
  iexact H'

theorem root_wait_recv (n : ℕ) (k : Cp) (rs : DmaSem sig) (hrs : rs = k.recvSem)
    (ms md : Memref sig .tc .vmem S64x1536 .bf16) (hamt : md.view.dmaCredit = NN)
    (hk : k.ord < tAt n) (hrw : k ∉ rwAt n)
    (e0 : tAt (n + 1) = tAt n) (e1 : rawAt (n + 1) = rawAt n) (e2 : srcAt (n + 1) = srcAt n)
    (e3 : dstAt (n + 1) = insert k (dstAt n)) (e4 : swAt (n + 1) = swAt n) (e5 : rwAt (n + 1) = insert k (rwAt n)) (e6 : ksAt (n + 1) = ksAt n)
    {h1 : ms.view.WordExact} {h2 : md.view.WordExact} {Q : PUnit → sProp 𝕄} :
    iprop(StAt m K c n ∗ (StAt m K c (n + 1) -∗ Q ⟨⟩)) ⊢
      wp frame (wpE (defs₀ (F := F)) 𝒱₀ (c : Thread nD τ) none) Set.univ (Prog.lift (.waitDma2 rs ms md h1 h2)) Q := by
  unfold StAt; rw [e0, e1, e2, e3, e4, e5, e6]
  iintro ⟨H, HQ⟩
  iapply (step_wait_recv_at m K c _ _ _ _ _ _ _ k ms md hamt hk hrw rs hrs (kk := Prog.ret)) $$ [H]
  · iexact H
  iintro H'
  rw [wp_ret]
  imodintro
  iapply HQ
  iexact H'

end Tail

end Root

open Root

set_option maxHeartbeats 4000000 in

theorem body_run (c : Dev nD) :
    bodyPre m ρ c ⊢ wp frame (wpE (defs₀ (F := F)) 𝒱₀ (c : Thread nD τ) none) Set.univ
      (cc0_body aM (Memref.isWhole_whole _) bM (Memref.isWhole_whole _) outM (Memref.isWhole_whole _)
        bbfM (Memref.isWhole_whole _) kaccM (Memref.isWhole_whole _) sb0M (Memref.isWhole_whole _) rb0M (Memref.isWhole_whole _)
        sb1M (Memref.isWhole_whole _) rb1M (Memref.isWhole_whole _) sb2M (Memref.isWhole_whole _) rb2M (Memref.isWhole_whole _)
        cc0_scratch8 cc0_scratch9 cc0_scratch10 cc0_scratch11)
      (fun _ => iprop(∃ K, StAt m K c 250)) := by
  rw [cc0_body_eq_skeleton]; unfold cc0_body_skel
  rw [k0_part52_eq_skeleton]; unfold k0_part52_skel
  simp only [Prog.bind_assoc, wp_bind]
  iintro H
  iapply (part1 m ρ c _)
  isplitl [H]; · iexact H
  iintro %w6 %w8 %w10 %w11 %w12 %w13 ⟨%K, H⟩
  simp only [k0_part2_eq_skeleton, k0_part2_skel, k0_part3_eq_skeleton, k0_part3_skel, Prog.pure_eq_ret, wp_ret]
  imodintro; imodintro
  iapply (part4 m K c _ _ _ _ _ _)
  isplitl [H]; · iexact H
  iintro %w4_1 %w4_2 %w4_3 %w4_4 %w4_5 %w4_6 H
  iapply (part5 m K c _ _ _ _ _)
  isplitl [H]; · iexact H
  iintro H
  iapply (part6 m K c _ _ _ _ _)
  isplitl [H]; · iexact H
  iintro H
  iapply (part7 m K c _ _ _ _)
  isplitl [H]; · iexact H
  iintro %w7_1 H
  iapply (part8 m K c _ _ _ _ _ _)
  isplitl [H]; · iexact H
  iintro %w8_1 %w8_2 H
  iapply (part9 m K c _ _ _ _ _)
  isplitl [H]; · iexact H
  iintro H
  iapply (part10 m K c _ _ _ _ _)
  isplitl [H]; · iexact H
  iintro H
  iapply (part11 m K c _ _ _ _)
  isplitl [H]; · iexact H
  iintro %w11_1 H
  iapply (part12 m K c _ _ _ _ _ _)
  isplitl [H]; · iexact H
  iintro %w12_1 %w12_2 H
  iapply (part13 m K c _ _ _ _ _)
  isplitl [H]; · iexact H
  iintro H
  iapply (part14 m K c _ _ _)
  isplitl [H]; · iexact H
  iintro H
  iapply (part15 m K c _ _ _)
  isplitl [H]; · iexact H
  iintro H
  iapply (part16 m K c _ _ _)
  isplitl [H]; · iexact H
  iintro %w16_1 H
  iapply (part17 m K c _ _ _)
  isplitl [H]; · iexact H
  iintro H
  iapply (part18 m K c _ _ _ _)
  isplitl [H]; · iexact H
  iintro H
  iapply (part19 m K c _ _ _)
  isplitl [H]; · iexact H
  iintro H
  iapply (part20 m K c _)
  isplitl [H]; · iexact H
  iintro H
  iapply (part21 m K c _ _ _)
  isplitl [H]; · iexact H
  iintro H
  iapply (part22 m K c _ _ _ _)
  isplitl [H]; · iexact H
  iintro H
  iapply (part23 m K c _)
  isplitl [H]; · iexact H
  iintro H
  iapply (part24 m K c _ _ _)
  isplitl [H]; · iexact H
  iintro H
  iapply (part25 m K c _ _)
  isplitl [H]; · iexact H
  iintro H
  iapply (part26 m K c _ _ _)
  isplitl [H]; · iexact H
  iintro H
  iapply (part27 m K c _ _)
  isplitl [H]; · iexact H
  iintro H
  iapply (part28 m K c _ _ _)
  isplitl [H]; · iexact H
  iintro H
  iapply (part29 m K c _ _)
  isplitl [H]; · iexact H
  iintro H
  iapply (part30 m K c _)
  isplitl [H]; · iexact H
  iintro H
  iapply (part31 m K c _ _ _ _)
  isplitl [H]; · iexact H
  iintro H
  iapply (part32 m K c _ _ _)
  isplitl [H]; · iexact H
  iintro H
  iapply (part33 m K c _ _)
  isplitl [H]; · iexact H
  iintro H
  iapply (part34 m K c _ _ _)
  isplitl [H]; · iexact H
  iintro H
  iapply (part35 m K c _ _ _ _)
  isplitl [H]; · iexact H
  iintro H
  iapply (part36 m K c _)
  isplitl [H]; · iexact H
  iintro H
  iapply (part37 m K c _ _ _)
  isplitl [H]; · iexact H
  iintro H
  iapply (part38 m K c _ _ _ _ _)
  isplitl [H]; · iexact H
  iintro H
  iapply (part39 m K c _ _ _ _)
  isplitl [H]; · iexact H
  iintro H
  iapply (part40 m K c _ _ _ _ _)
  isplitl [H]; · iexact H
  iintro H
  iapply (part41 m K c _ _ _ _ _ _ _)
  isplitl [H]; · iexact H
  iintro H
  iapply (part42 m K c _ _ _ _ _)
  isplitl [H]; · iexact H
  iintro H
  iapply (part43 m K c _ _ _ _ _ _ _)
  isplitl [H]; · iexact H
  iintro H
  iapply (part44 m K c _ _ _ _)
  isplitl [H]; · iexact H
  iintro H
  iapply (part45 m K c _ _ _ _ _ _)
  isplitl [H]; · iexact H
  iintro H
  iapply (part46 m K c _ _ _ _ _ _ _ _ _)
  isplitl [H]; · iexact H
  iintro H
  iapply (part47 m K c _)
  isplitl [H]; · iexact H
  iintro H
  iapply (part48 m K c _)
  isplitl [H]; · iexact H
  iintro H
  iapply (part49 m K c _)
  isplitl [H]; · iexact H
  iintro H
  iapply (part50 m K c _ _)
  isplitl [H]; · iexact H
  iintro H
  iapply (part51 m K c _ _)
  isplitl [H]; · iexact H
  iintro H
  iapply (root_wait_recv m K c 247 (.ag 5 2) _ (by rfl) _ _ (by rfl) (by decide) (by decide) (by decide) (by decide) (by decide) (by decide) (by decide) (by decide) (by decide))
  isplitl [H]; · iexact H
  iintro H
  imodintro
  iapply (root_wait_send m K c 248 (.ag 6 2) _ (by rfl) _ _ (by rfl) (by decide) (by decide) (by decide) (by decide) (by decide) (by decide) (by decide) (by decide) (by decide))
  isplitl [H]; · iexact H
  iintro H
  iapply (root_wait_recv m K c 249 (.ag 6 2) _ (by rfl) _ _ (by rfl) (by decide) (by decide) (by decide) (by decide) (by decide) (by decide) (by decide) (by decide) (by decide))
  isplitl [H]; · iexact H
  iintro H
  imodintro
  iexists K
  iexact H

/-- info: 'Cert.KernelIdeal.Hand.body_run' depends on axioms: [propext, Classical.choice, Quot.sound] -/
#guard_msgs in #print axioms body_run

end RootSec

end Cert.KernelIdeal.Hand

end
-- ==== Proof.Launch.lean ====
import proofs.«900886_g7700000000000887_dist_matmul_k_i_m1536_n1536_k768_v7x_i8_bf16_1_alg».proof.Proof.Dats
import proofs.«900886_g7700000000000887_dist_matmul_k_i_m1536_n1536_k768_v7x_i8_bf16_1_alg».proof.Proof.SchedTab
import proofs.«900886_g7700000000000887_dist_matmul_k_i_m1536_n1536_k768_v7x_i8_bf16_1_alg».proof.Proof.Gen.KernelIdeal.Frame
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section LaunchSec

variable {F : FTy → Type} [FloatOps F]
variable (m : (ℓ : Loc nD τ sig) → Buf (Elt F) ℓ) (ρ : Dev nD → PrngReg)

local notation "𝕄" => MT nD τ sig Unit (Elt F) ℕ UU ℕ

namespace Launch

theorem part_part : ∀ (a : Fin 3) (c : Dev nD), part a.val (part a.val c) = c := by decide

def partE (a : Fin 3) : Dev nD ≃ Dev nD := ⟨part a.val, part a.val, part_part a, part_part a⟩
def peerE (k : Cp) : Dev nD ≃ Dev nD := ⟨k.peer, k.peer, peer_peer k, peer_peer k⟩

end Launch
open Launch

abbrev osem : Bool × Cp → SemLoc sig
  | (false, k) => .dma k.sendSem
  | (true, k) => .dma k.recvSem

namespace Launch

theorem osem_eq (bk : Bool × Cp) : osem bk = csem (some bk) := by rcases bk with ⟨_ | _, k⟩ <;> rfl

theorem kcell_injective : Function.Injective (kcell : Dev nD × CellIx → GSem nD τ sig) := by
  rintro ⟨c, x⟩ ⟨c', x'⟩ h
  have h1 : c = c' := congrArg (fun g : GSem nD τ sig => g.1.1) h
  subst h1
  have h2 : csem x = csem x' := congrArg Prod.snd h
  rw [csem_injective h2]

def protoCells : Finset (GSem nD τ sig) := Finset.univ.map ⟨kcell, kcell_injective⟩

abbrev tokOf (cj : Dev nD × (Fin 3 ⊕ (Bool × Cp))) : GSem nD τ sig × ℕ × Fin 3 :=
  match cj.2 with
  | .inl a => (barCell cj.1, 0, a)
  | .inr bk => (kcell (cj.1, some bk), 0, 0)

theorem tokOf_injective : Function.Injective tokOf := by
  rintro ⟨c, j⟩ ⟨c', j'⟩ h
  have h1 : c = c' := by
    have := congrArg (fun x : GSem nD τ sig × ℕ × Fin 3 => x.1.1.1) h
    rcases j with a | bk <;> rcases j' with a' | bk' <;> exact this
  subst h1
  rcases j with a | bk <;> rcases j' with a' | bk'
  · have h2 : a = a' := congrArg (fun x : GSem nD τ sig × ℕ × Fin 3 => x.2.2) h
    rw [h2]
  · have h2 : (SemLoc.reg barS : SemLoc sig) = csem (some bk') := congrArg (fun x : GSem nD τ sig × ℕ × Fin 3 => x.1.2) h
    rcases bk' with ⟨_ | _, k⟩ <;> exact absurd h2 (fun h => by cases h)
  · have h2 : csem (some bk) = (SemLoc.reg barS : SemLoc sig) := congrArg (fun x : GSem nD τ sig × ℕ × Fin 3 => x.1.2) h
    rcases bk with ⟨_ | _, k⟩ <;> exact absurd h2 (fun h => by cases h)
  · have h2 := kcell_injective (congrArg (fun x : GSem nD τ sig × ℕ × Fin 3 => x.1) h)
    rw [Option.some.inj (Prod.mk.inj h2).2]

def protoToks : Finset (GSem nD τ sig × ℕ × Fin 3) := Finset.univ.map ⟨tokOf, tokOf_injective⟩

end Launch

def u₀ : UU :=
  (initOf (Pipeline.cells cfgs cellOf_inj) (Pipeline.launchToks cfgs cellOf_inj), initOf protoCells protoToks)

namespace Launch

def toks (c : Dev nD) : sProp 𝕄 :=
  iprop((bigSep (Finset.univ : Finset (Fin 3)) fun a => dutyTok ER (barCell c) 0 a)
    ∗ (bigSep (Finset.univ : Finset Cp) fun k => dutyTok ER (sendCell c k) 0 (0 : Fin 3))
    ∗ (bigSep (Finset.univ : Finset Cp) fun k => dutyTok ER (recvCell c k) 0 (0 : Fin 3)))

def G (c : Dev nD) : sProp 𝕄 :=
  iprop((bigSep Finset.univ fun x : CellIx => roundState ER (Rd (V m)) (kcell (c, x)) 0)
    ∗ (bigSep Finset.univ fun x : CellIx => iprop(atPos ER (kcell (c, x)) 0 ∅ 0 ∗ reached ER (kcell (c, x)) 0)) ∗ toks c)

def G' (c : Dev nD) : sProp 𝕄 := iprop(∃ K, ghost (V m) K c)

omit [FloatOps F] in
theorem bigSep_bool (Φ : Bool → sProp 𝕄) : bigSep Finset.univ Φ = iprop(Φ false ∗ Φ true) := by
  rw [show (Finset.univ : Finset Bool) = {false, true} by decide, BI.bigSep_insert (by decide), BI.bigSep_singleton]; rfl

omit [FloatOps F] in
theorem bigSep_univ_option {α : Type} [Fintype α] [DecidableEq α] (Φ : Option α → sProp 𝕄) :
    bigSep Finset.univ Φ = iprop(Φ none ∗ bigSep Finset.univ fun a => Φ (some a)) := by
  rw [bigSep_univ_at Φ none,
    show (Finset.univ.erase none : Finset (Option α)) = Finset.univ.map Function.Embedding.some from by
      ext x; cases x <;> simp, bigSep_map]
  rfl

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun x : CellIx => Φ (kcell (c, x)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by
      unfold toks
      rw [BI.bigSep_univ_sum, bigSep_univ_prod, bigSep_bool]; rfl
  iintro HX
  imod (Rounds.fund ER (Rd (V m)) protoCells protoToks) $$ HX with ⟨Hst, Hr, Hat, Htok⟩
  imodintro
  ihave Hst' := (Entails.of_eq (hX fun g => roundState ER (Rd (V m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in

theorem ownSems0_eq (c : Dev nD) : (Pipeline.ownSems0 (Ix := Unit) (Name := ℕ) (U := UU) (Lvl := ℕ) (Val := Elt F) (τ := τ) osem c : sProp 𝕄)
    = bigSep Finset.univ fun bk : Bool × Cp => semVal (kcell (c, some bk)) 0 := by
  unfold Pipeline.ownSems0
  exact bigSep_congr fun bk _ => by rw [osem_eq]
omit [FloatOps F] in

theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun x : CellIx => semVal (kcell (c, x)) 0 : sProp 𝕄) := by
  rw [ownSems0_eq, unscopedSems0_eq, bigSep_univ_option]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x : CellIx => iprop(∃ κ : ℕ, cellInv ER (Rd (V m)) κ (kcell (c, x))))
          ∗ (bigSep Finset.univ fun x : CellIx => iprop(atPos ER (kcell (c, x)) 0 ∅ 0 ∗ reached ER (kcell (c, x)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun x : CellIx => semVal (kcell (c, x)) 0) ∗ bigSep Finset.univ fun x : CellIx => roundState ER (Rd (V m)) (kcell (c, x)) 0)
      ⊢ (|={Set.univ}=> bigSep Finset.univ fun x : CellIx => iprop(∃ κ : ℕ, cellInv ER (Rd (V m)) κ (kcell (c, x))) : sProp 𝕄) from by
        rw [← bigSep_sep']
        exact (bigSep_mono fun x _ => (Rounds.body_intro ER (Rd (V m)) (kcell (c, x))).trans inv_alloc).trans (bigSep_fupd _ _)) $$ [Hv Hst] with Hinv
  · isplitl [Hv] <;> iassumption
  imodintro
  isplitl [Hinv]; · iexact Hinv
  isplitl [Hat]; · iexact Hat
  iexact Htok

instance records_persistent (K : Dev nD × CellIx → ℕ) : BI.Persistent (records (V m) K) := by unfold records; infer_instance

omit [FloatOps F] in

theorem bar_around : (bigSep Finset.univ fun c : Dev nD => bigSep Finset.univ fun a : Fin 3 => (dutyTok ER (barCell c) 0 a : sProp 𝕄))
    = bigSep Finset.univ fun c : Dev nD => barToks c := by
  unfold barToks
  rw [BI.bigSep_univ_comm (fun (c : Dev nD) (a : Fin 3) => (dutyTok ER (barCell c) 0 a : sProp 𝕄)),
    BI.bigSep_univ_comm (fun (c : Dev nD) (a : Fin 3) => (dutyTok ER (barCell (part a.val c)) 0 a : sProp 𝕄))]
  exact bigSep_congr fun a _ => bigSep_univ_equiv (partE a) (fun c : Dev nD => (dutyTok ER (barCell c) 0 a : sProp 𝕄))

omit [FloatOps F] in

theorem recv_around : (bigSep Finset.univ fun c : Dev nD => bigSep Finset.univ fun k : Cp => (dutyTok ER (recvCell c k) 0 (0 : Fin 3) : sProp 𝕄))
    = bigSep Finset.univ fun c : Dev nD => bigSep Finset.univ fun k : Cp => (dutyTok ER (recvCell (k.peer c) k) 0 (0 : Fin 3) : sProp 𝕄) := by
  rw [BI.bigSep_univ_comm (fun (c : Dev nD) (k : Cp) => (dutyTok ER (recvCell c k) 0 (0 : Fin 3) : sProp 𝕄)),
    BI.bigSep_univ_comm (fun (c : Dev nD) (k : Cp) => (dutyTok ER (recvCell (k.peer c) k) 0 (0 : Fin 3) : sProp 𝕄))]
  exact bigSep_congr fun k _ => bigSep_univ_equiv (peerE k) (fun c : Dev nD => (dutyTok ER (recvCell c k) 0 (0 : Fin 3) : sProp 𝕄))

omit [FloatOps F] in
theorem toks_around : (bigSep Finset.univ fun c : Dev nD => (toks c : sProp 𝕄))
    ⊢ bigSep Finset.univ fun c : Dev nD => iprop(barToks c ∗ payToks c Finset.univ) := by
  have e1 : (bigSep Finset.univ fun c : Dev nD => (toks c : sProp 𝕄))
      = iprop((bigSep Finset.univ fun c : Dev nD => bigSep Finset.univ fun a : Fin 3 => dutyTok ER (barCell c) 0 a)
        ∗ (bigSep Finset.univ fun c : Dev nD => bigSep Finset.univ fun k : Cp => dutyTok ER (sendCell c k) 0 (0 : Fin 3))
        ∗ (bigSep Finset.univ fun c : Dev nD => bigSep Finset.univ fun k : Cp => dutyTok ER (recvCell c k) 0 (0 : Fin 3))) := by
    unfold toks; rw [bigSep_sep', bigSep_sep']
  have e2 : (bigSep Finset.univ fun c : Dev nD => (iprop(barToks c ∗ payToks c Finset.univ) : sProp 𝕄))
      = iprop((bigSep Finset.univ fun c : Dev nD => barToks c)
        ∗ (bigSep Finset.univ fun c : Dev nD => bigSep Finset.univ fun k : Cp => dutyTok ER (sendCell c k) 0 (0 : Fin 3))
        ∗ (bigSep Finset.univ fun c : Dev nD => bigSep Finset.univ fun k : Cp => dutyTok ER (recvCell (k.peer c) k) 0 (0 : Fin 3))) := by
    unfold payToks
    rw [bigSep_sep',
      bigSep_congr (s := Finset.univ) (fun (c : Dev nD) _ => bigSep_sep' Finset.univ (fun k : Cp => (dutyTok ER (sendCell c k) 0 (0 : Fin 3) : sProp 𝕄))
        (fun k : Cp => dutyTok ER (recvCell (k.peer c) k) 0 (0 : Fin 3))), bigSep_sep']
  rw [e1, e2, bar_around, recv_around]

theorem ghost_intro (K : Dev nD × CellIx → ℕ) (c : Dev nD) :
    iprop(records (V m) K ∗ (positions c ∗ barToks c ∗ payToks c Finset.univ)) ⊢ G' m c := by
  unfold G' ghost
  iintro ⟨HR, HP, HB, HT⟩
  iexists K
  isplitl [HR]; · iexact HR
  isplitl [HP]; · iexact HP
  isplitl [HB]; · iexact HB
  iexact HT

theorem regroup :
    (bigSep Finset.univ fun c : Dev nD => iprop((bigSep Finset.univ fun x : CellIx => iprop(∃ κ : ℕ, cellInv ER (Rd (V m)) κ (kcell (c, x))))
          ∗ (bigSep Finset.univ fun x : CellIx => iprop(atPos ER (kcell (c, x)) 0 ∅ 0 ∗ reached ER (kcell (c, x)) 0)) ∗ toks c) : sProp 𝕄)
      ⊢ bigSep Finset.univ (G' m) := by
  rw [bigSep_sep', bigSep_sep', ← bigSep_univ_prod (fun cx : Dev nD × CellIx => iprop(∃ κ : ℕ, cellInv ER (Rd (V m)) κ (kcell cx))),
    bigSep_congr (s := Finset.univ) (fun (c : Dev nD) _ => bigSep_sep' Finset.univ (fun x : CellIx => (atPos ER (kcell (c, x)) 0 ∅ 0 : sProp 𝕄)) (fun x => reached ER (kcell (c, x)) 0)),
    bigSep_sep', ← bigSep_univ_prod (fun cx : Dev nD × CellIx => (reached ER (kcell cx) 0 : sProp 𝕄))]
  iintro ⟨HI, ⟨Hat, #HR⟩, Htok⟩
  ihave HK := (BI.bigSep_exists_pi Finset.univ (fun (cx : Dev nD × CellIx) (κ : ℕ) => (cellInv ER (Rd (V m)) κ (kcell cx) : sProp 𝕄))) $$ HI
  icases HK with ⟨%K, #HI⟩
  ihave Htk := (toks_around (F := F)) $$ Htok
  iapply (bigSep_with_persistent (R := records (V m) K) fun c _ => ghost_intro m K c)
  isplitr
  · unfold records; isplitl; · iexact HI
    iexact HR
  · iapply (Entails.of_eq (bigSep_sep' Finset.univ (fun c : Dev nD => (positions c : sProp 𝕄)) (fun c => iprop(barToks c ∗ payToks c Finset.univ))).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

def T₀ (c : Dev nD) : CellTallies nD τ sig Unit :=
  (∑ k : Cp, tallyAt (recvCell c k) () NN) + (∑ a : Fin 3, tallyAt (barCell c) () 1)

theorem O₀_sum : (∑ d : Dev nD, O₀ d) = ∑ d : Dev nD, T₀ d := by
  have h1 : (∑ d : Dev nD, ∑ k : Cp, (tallyAt (recvCell (k.peer d) k) () NN : CellTallies nD τ sig Unit))
      = ∑ d : Dev nD, ∑ k : Cp, tallyAt (recvCell d k) () NN := by
    rw [Finset.sum_comm, Finset.sum_comm (f := fun (d : Dev nD) (k : Cp) => (tallyAt (recvCell d k) () NN : CellTallies nD τ sig Unit))]
    exact Finset.sum_congr rfl fun k _ => Equiv.sum_comp (peerE k) (fun d : Dev nD => (tallyAt (recvCell d k) () NN : CellTallies nD τ sig Unit))
  have h2 : (∑ d : Dev nD, ∑ a : Fin 3, (tallyAt (barCell (part a.val d)) () 1 : CellTallies nD τ sig Unit))
      = ∑ d : Dev nD, ∑ a : Fin 3, tallyAt (barCell d) () 1 := by
    rw [Finset.sum_comm, Finset.sum_comm (f := fun (d : Dev nD) (a : Fin 3) => (tallyAt (barCell d) () 1 : CellTallies nD τ sig Unit))]
    exact Finset.sum_congr rfl fun a _ => Equiv.sum_comp (partE a) (fun d : Dev nD => (tallyAt (barCell d) () 1 : CellTallies nD τ sig Unit))
  unfold O₀ T₀
  rw [Finset.sum_add_distrib, Finset.sum_add_distrib, h1, h2]

theorem T₀_own (d : Dev nD) (g : GSem nD τ sig) (h : T₀ d g ≠ 0) : g.1 = (d : Thread nD τ) := by
  by_contra hne
  apply h
  unfold T₀
  rw [Pi.add_apply, Finset.sum_apply, Finset.sum_apply,
    Finset.sum_eq_zero fun k _ => tallyAt_ne_cell (fun e => hne (congrArg Prod.fst e)) () NN,
    Finset.sum_eq_zero fun a _ => tallyAt_ne_cell (fun e => hne (congrArg Prod.fst e)) () 1, add_zero]

omit [FloatOps F] in
theorem creds_intro (c : Dev nD) : (Pipeline.launchCred O₀ c : sProp 𝕄) ⊢ creds c := by
  rw [Pipeline.launchCred_of_sum O₀ T₀ O₀_sum T₀_own c]
  unfold T₀ creds
  rw [show (∑ a : Fin 3, (tallyAt (barCell c) () 1 : CellTallies nD τ sig Unit)) = tallyAt (barCell c) () 3 from by
    rw [Fin.sum_univ_three, tallyAt_add, tallyAt_add]]
  iintro H
  ihave H' := (cred_add _ _).1 $$ H
  icases H' with ⟨Hr, Hb⟩
  isplitl [Hb]; · iexact Hb
  iapply (Entails.of_eq (Pipeline.cred_finsetSum Finset.univ fun k : Cp => (tallyAt (recvCell c k) () NN : CellTallies nD τ sig Unit)))
  iexact Hr

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start (V m) c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start (V m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratchAny
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq, bigSep_univ_prod, bigSep_bool]
  unfold Φ₁ scratchAny
  rw [bigSep_sep']
  iintro ⟨Hr, HzS, HzV⟩
  isplitr; · iempintro
  isplitl [HzS HzV]
  · isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem main_eq (c : Dev nD) :
    main (F := F) c = (.op (.customCall (Pipeline.entry 0) ()) fun _ => .ret ⟨⟩) := (main_chain c).trans rfl

theorem u₀_intro : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_proto m) $$ HX with HG
  imodintro
  isplitl [HP] <;> iassumption

end Launch

def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 16384 in

theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := main_eq)
    (hbody := hbody) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := u₀_intro m)
    (hglob := glob m)
    (hA := fun _ _ => rfl) (hpf := fun _ k => k.elim0)
    (X := start (V m)) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.Hand.run_main' depends on axioms: [propext, Classical.choice, Quot.sound] -/
#guard_msgs in #print axioms run_main

theorem finalA_in0 (c : Dev nD) : (dats m ρ 0 c).arrAt (0 : Fin 3) cfg0.N = m ((c : Thread nD τ).loc main_arg0) :=
  (dats (F := F) m ρ 0 c).arrAt_in (0 : Fin 3) rfl _
theorem finalA_in1 (c : Dev nD) : (dats m ρ 0 c).arrAt (1 : Fin 3) cfg0.N = m ((c : Thread nD τ).loc main_arg1) :=
  (dats (F := F) m ρ 0 c).arrAt_in (1 : Fin 3) rfl _

theorem finalA_out (c : Dev nD) : (dats m ρ 0 c).arrAt (2 : Fin 3) cfg0.N = outFin m := by
  show (dats m ρ 0 c).arrAt (2 : Fin 3) ((t0_0 : Fin cfg0.N).val + 1) = _
  rw [Dat.arrAt_succ, flush0_2, if_pos rfl]
  exact Memref.write_access_unit_zero_univ (Elt F) main_v1 (funext fun a => Nat.zero_mul _) _ _ _

end LaunchSec

end Cert.KernelIdeal.Hand

end
-- ==== Proof.ValPay.lean ====
import proofs.«900886_g7700000000000887_dist_matmul_k_i_m1536_n1536_k768_v7x_i8_bf16_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

theorem lhs64_0 (i : S64x1536.Idx) (q : dot_S64x768_S768x1536_S64x1536_1_0_0_1_n_n.contr.Idx) :
    (dot_S64x768_S768x1536_S64x1536_1_0_0_1_n_n.lhsIdx i q 0).val = (i 0).val := by
  unfold DotDims.lhsIdx
  rw [dif_neg (show ¬(0 : Fin S64x768.rank) ∈ dot_S64x768_S768x1536_S64x1536_1_0_0_1_n_n.lhsBatch by decide), dif_pos (show (0 : Fin S64x768.rank) ∈ dot_S64x768_S768x1536_S64x1536_1_0_0_1_n_n.lhsNonContracting by decide)]
  rfl
theorem lhs64_1 (i : S64x1536.Idx) (q : dot_S64x768_S768x1536_S64x1536_1_0_0_1_n_n.contr.Idx) :
    (dot_S64x768_S768x1536_S64x1536_1_0_0_1_n_n.lhsIdx i q 1).val = (q ⟨0, by decide⟩).val :=
  dot_S64x768_S768x1536_S64x1536_1_0_0_1_n_n.lhsIdx_val_of_single rfl i q
theorem rhs64_0 (i : S64x1536.Idx) (q : dot_S64x768_S768x1536_S64x1536_1_0_0_1_n_n.contr.Idx) :
    (dot_S64x768_S768x1536_S64x1536_1_0_0_1_n_n.rhsIdx i q 0).val = (q ⟨0, by decide⟩).val :=
  dot_S64x768_S768x1536_S64x1536_1_0_0_1_n_n.rhsIdx_val_of_single rfl i q
theorem rhs64_1 (i : S64x1536.Idx) (q : dot_S64x768_S768x1536_S64x1536_1_0_0_1_n_n.contr.Idx) :
    (dot_S64x768_S768x1536_S64x1536_1_0_0_1_n_n.rhsIdx i q 1).val = (i 1).val := by
  unfold DotDims.rhsIdx
  rw [dif_neg (show ¬(1 : Fin S768x1536.rank) ∈ dot_S64x768_S768x1536_S64x1536_1_0_0_1_n_n.rhsBatch by decide), dif_pos (show (1 : Fin S768x1536.rank) ∈ dot_S64x768_S768x1536_S64x1536_1_0_0_1_n_n.rhsNonContracting by decide)]
  rfl

theorem matmul64_apply (a : FVec Ideal S64x768 .bf16) (b : FVec Ideal S768x1536 .bf16) (r : Fin 64) (q : Fin 1536) :
    matmul dot_S64x768_S768x1536_S64x1536_1_0_0_1_n_n none a b (constant S64x1536 .f32 0x00000000#32) (ix2 r q)
      = ∑ k : Fin 768, a (ix2 r k) * b (ix2 k q) := by
  simp only [matmul]
  rw [Ideal.matmul_constant_zero_apply, ← Equiv.sum_comp (ValueIdx.contrEquiv1 dot_S64x768_S768x1536_S64x1536_1_0_0_1_n_n 768 rfl rfl).symm]
  refine Finset.sum_congr rfl fun k _ => ?_
  have hk := ValueIdx.contrEquiv1_symm_val dot_S64x768_S768x1536_S64x1536_1_0_0_1_n_n 768 rfl rfl k
  have el : dot_S64x768_S768x1536_S64x1536_1_0_0_1_n_n.lhsIdx (ix2 r q) ((ValueIdx.contrEquiv1 dot_S64x768_S768x1536_S64x1536_1_0_0_1_n_n 768 rfl rfl).symm k) = ix2 r k := funext fun a => Fin.ext (by
    match a with
    | ⟨0, _⟩ => exact lhs64_0 _ _
    | ⟨1, _⟩ => exact (lhs64_1 _ _).trans hk)
  have er : dot_S64x768_S768x1536_S64x1536_1_0_0_1_n_n.rhsIdx (ix2 r q) ((ValueIdx.contrEquiv1 dot_S64x768_S768x1536_S64x1536_1_0_0_1_n_n 768 rfl rfl).symm k) = ix2 k q := funext fun a => Fin.ext (by
    match a with
    | ⟨0, _⟩ => exact (rhs64_0 _ _).trans hk
    | ⟨1, _⟩ => exact rhs64_1 _ _)
  rw [el, er]

theorem lhs256_0 (i : S256x1536.Idx) (q : dot_S256x768_S768x1536_S256x1536_1_0_0_1_n_n.contr.Idx) :
    (dot_S256x768_S768x1536_S256x1536_1_0_0_1_n_n.lhsIdx i q 0).val = (i 0).val := by
  unfold DotDims.lhsIdx
  rw [dif_neg (show ¬(0 : Fin S256x768.rank) ∈ dot_S256x768_S768x1536_S256x1536_1_0_0_1_n_n.lhsBatch by decide), dif_pos (show (0 : Fin S256x768.rank) ∈ dot_S256x768_S768x1536_S256x1536_1_0_0_1_n_n.lhsNonContracting by decide)]
  rfl
theorem lhs256_1 (i : S256x1536.Idx) (q : dot_S256x768_S768x1536_S256x1536_1_0_0_1_n_n.contr.Idx) :
    (dot_S256x768_S768x1536_S256x1536_1_0_0_1_n_n.lhsIdx i q 1).val = (q ⟨0, by decide⟩).val :=
  dot_S256x768_S768x1536_S256x1536_1_0_0_1_n_n.lhsIdx_val_of_single rfl i q
theorem rhs256_0 (i : S256x1536.Idx) (q : dot_S256x768_S768x1536_S256x1536_1_0_0_1_n_n.contr.Idx) :
    (dot_S256x768_S768x1536_S256x1536_1_0_0_1_n_n.rhsIdx i q 0).val = (q ⟨0, by decide⟩).val :=
  dot_S256x768_S768x1536_S256x1536_1_0_0_1_n_n.rhsIdx_val_of_single rfl i q
theorem rhs256_1 (i : S256x1536.Idx) (q : dot_S256x768_S768x1536_S256x1536_1_0_0_1_n_n.contr.Idx) :
    (dot_S256x768_S768x1536_S256x1536_1_0_0_1_n_n.rhsIdx i q 1).val = (i 1).val := by
  unfold DotDims.rhsIdx
  rw [dif_neg (show ¬(1 : Fin S768x1536.rank) ∈ dot_S256x768_S768x1536_S256x1536_1_0_0_1_n_n.rhsBatch by decide), dif_pos (show (1 : Fin S768x1536.rank) ∈ dot_S256x768_S768x1536_S256x1536_1_0_0_1_n_n.rhsNonContracting by decide)]
  rfl

theorem matmul256_apply (a : FVec Ideal S256x768 .bf16) (b : FVec Ideal S768x1536 .bf16) (r : Fin 256) (q : Fin 1536) :
    matmul dot_S256x768_S768x1536_S256x1536_1_0_0_1_n_n none a b (constant S256x1536 .f32 0x00000000#32) (ix2 r q)
      = ∑ k : Fin 768, a (ix2 r k) * b (ix2 k q) := by
  simp only [matmul]
  rw [Ideal.matmul_constant_zero_apply, ← Equiv.sum_comp (ValueIdx.contrEquiv1 dot_S256x768_S768x1536_S256x1536_1_0_0_1_n_n 768 rfl rfl).symm]
  refine Finset.sum_congr rfl fun k _ => ?_
  have hk := ValueIdx.contrEquiv1_symm_val dot_S256x768_S768x1536_S256x1536_1_0_0_1_n_n 768 rfl rfl k
  have el : dot_S256x768_S768x1536_S256x1536_1_0_0_1_n_n.lhsIdx (ix2 r q) ((ValueIdx.contrEquiv1 dot_S256x768_S768x1536_S256x1536_1_0_0_1_n_n 768 rfl rfl).symm k) = ix2 r k := funext fun a => Fin.ext (by
    match a with
    | ⟨0, _⟩ => exact lhs256_0 _ _
    | ⟨1, _⟩ => exact (lhs256_1 _ _).trans hk)
  have er : dot_S256x768_S768x1536_S256x1536_1_0_0_1_n_n.rhsIdx (ix2 r q) ((ValueIdx.contrEquiv1 dot_S256x768_S768x1536_S256x1536_1_0_0_1_n_n 768 rfl rfl).symm k) = ix2 k q := funext fun a => Fin.ext (by
    match a with
    | ⟨0, _⟩ => exact (rhs256_0 _ _).trans hk
    | ⟨1, _⟩ => exact rhs256_1 _ _)
  rw [el, er]

theorem pay1_apply (v : Vec Ideal S768x1536 .f32) (i : S768x1536.Idx) : (k0_pay1 (F := Ideal) v i : EReal) = v i := by
  unfold k0_pay1
  simp only [shapeCast_self]
  rfl

theorem pay2_apply (a : Vec Ideal S64x768 .f32) (b : Vec Ideal S768x1536 .bf16) (u : Fin 1) (r : Fin 64) (q : Fin 1536) :
    (k0_pay2 (F := Ideal) a b (ix3 u r q) : EReal) = ∑ k : Fin 768, (a (ix2 r k) : EReal) * b (ix2 k q) := by
  unfold k0_pay2
  simp only [shapeCast_self]
  rw [shapeCast_ab_1ab_apply, truncf_apply, matmul64_apply]
  rfl

theorem pay16_apply (a : Vec Ideal S256x768 .f32) (b : Vec Ideal S768x1536 .bf16) (u : Fin 1) (r : Fin 256) (q : Fin 1536) :
    (k0_pay16 (F := Ideal) a b (ix3 u r q) : EReal) = ∑ k : Fin 768, (a (ix2 r k) : EReal) * b (ix2 k q) := by
  unfold k0_pay16
  simp only [shapeCast_self]
  rw [shapeCast_ab_1ab_apply, matmul256_apply]
  rfl

theorem pay19_apply (x : Vec Ideal S1x64x1536 .f32) (y : Vec Ideal S1x64x1536 .bf16) (u : Fin 1) (r : Fin 64) (q : Fin 1536) :
    (k0_pay19 (F := Ideal) x y (ix3 u r q) : EReal) = x (ix3 (0 : Fin 1) r q) + y (ix3 (0 : Fin 1) r q) := by
  unfold k0_pay19
  rw [shapeCast_ab_1ab_apply, truncf_apply, addf_apply, extf_apply, shapeCast_1ab_ab_apply, shapeCast_1ab_ab_apply]

theorem pay26_apply (x : Vec Ideal S1x64x1536 .f32) (y z : Vec Ideal S1x64x1536 .bf16) (u : Fin 1) (r : Fin 64) (q : Fin 1536) :
    (k0_pay26 (F := Ideal) x y z (ix3 u r q) : EReal)
      = x (ix3 (0 : Fin 1) r q) + y (ix3 (0 : Fin 1) r q) + z (ix3 (0 : Fin 1) r q) := by
  unfold k0_pay26
  rw [shapeCast_ab_1ab_apply, truncf_apply, addf_apply, addf_apply, extf_apply, extf_apply, shapeCast_1ab_ab_apply,
    shapeCast_1ab_ab_apply, shapeCast_1ab_ab_apply]

theorem pay32_apply (x : Vec Ideal S1x64x1536 .f32) (y z w : Vec Ideal S1x64x1536 .bf16) (r : Fin 64) (q : Fin 1536) :
    (k0_pay32 (F := Ideal) x y z w (ix2 r q) : EReal)
      = x (ix3 (0 : Fin 1) r q) + y (ix3 (0 : Fin 1) r q) + z (ix3 (0 : Fin 1) r q) + w (ix3 (0 : Fin 1) r q) := by
  unfold k0_pay32
  rw [truncf_apply, addf_apply, addf_apply, addf_apply, extf_apply, extf_apply, extf_apply, shapeCast_1ab_ab_apply,
    shapeCast_1ab_ab_apply, shapeCast_1ab_ab_apply, shapeCast_1ab_ab_apply]

end Cert.KernelIdeal.Hand

end
-- ==== Proof.ValRows.lean ====
import proofs.«900886_g7700000000000887_dist_matmul_k_i_m1536_n1536_k768_v7x_i8_bf16_1_alg».proof.Proof.Vals
import proofs.«900886_g7700000000000887_dist_matmul_k_i_m1536_n1536_k768_v7x_i8_bf16_1_alg».proof.Proof.ValPay

noncomputable section

namespace Cert.KernelIdeal.Hand

open Cert.KernelIdeal Cert.KernelIdeal.Gen
open Idealize.ShloMosaic Idealize.ShloMosaic.ValueIdx
open Idealize.ShloMosaic.TcCoe
open Idealize.SL Idealize.SL.Sem

section Generic

variable {F : FTy → Type} [FloatOps F]
variable (m : (ℓ : Loc nD τ sig) → Buf (Elt F) ℓ)

theorem aBlk_apply (c : Dev nD) (x : S1536x768.Idx) : aBlk m c x = m ((c : Thread nD τ).loc main_arg0) x := by
  unfold aBlk
  rw [View.read_apply]
  show m ((c : Thread nD τ).loc main_arg0) _ = _
  congr 1
  funext a
  apply Fin.ext
  show 0 * _ + 1 * (x a).val = (x a).val
  omega

theorem bBlk_apply (c : Dev nD) (x : S768x1536.Idx) : bBlk m c x = m ((c : Thread nD τ).loc main_arg1) x := by
  unfold bBlk
  rw [View.read_apply]
  show m ((c : Thread nD τ).loc main_arg1) _ = _
  congr 1
  funext a
  apply Fin.ext
  show 0 * _ + 1 * (x a).val = (x a).val
  omega

theorem aRows_apply (c : Dev nD) (ρ0 : Nat) (h : ∀ a, (![ρ0, 0] : Fin 2 → Nat) a + S64x768.size a ≤ S1536x768.size a)
    (r : Fin 64) (k : Fin 768) (hb : ρ0 + r.val < 1536) :
    aRows m c ![ρ0, 0] h (ix2 r k) = aBlk m c (ix2 (⟨ρ0 + r.val, hb⟩ : Fin 1536) k) := by
  unfold aRows
  rw [View.readAt_apply, View.read_apply]
  show aBlk m c _ = _
  congr 1
  funext a
  apply Fin.ext
  match a with
  | ⟨0, _⟩ => show ρ0 + 1 * r.val = ρ0 + r.val; omega
  | ⟨1, _⟩ => show 0 + 1 * k.val = k.val; omega

theorem aRows256_apply (c : Dev nD) (ρ0 : Nat) (h : ∀ a, (![ρ0, 0] : Fin 2 → Nat) a + S256x768.size a ≤ S1536x768.size a)
    (r : Fin 256) (k : Fin 768) (hb : ρ0 + r.val < 1536) :
    aRows256 m c ![ρ0, 0] h (ix2 r k) = aBlk m c (ix2 (⟨ρ0 + r.val, hb⟩ : Fin 1536) k) := by
  unfold aRows256
  rw [View.readAt_apply, View.read_apply]
  show aBlk m c _ = _
  congr 1
  funext a
  apply Fin.ext
  match a with
  | ⟨0, _⟩ => show ρ0 + 1 * r.val = ρ0 + r.val; omega
  | ⟨1, _⟩ => show 0 + 1 * k.val = k.val; omega

theorem sq_apply (v : Vec F S1x64x1536 .bf16) (r : Fin 64) (q : Fin 1536) : sq v (ix2 r q) = v (ix3 (0 : Fin 1) r q) :=
  shapeCast_1ab_ab_apply v _ r q

theorem unsq_apply (x : S64x1536.Idx → Elt F .bf16) (u : Fin 1) (r : Fin 64) (q : Fin 1536) : unsq x (ix3 u r q) = x (ix2 r q) :=
  shapeCast_ab_1ab_apply x _ u r q

end Generic

theorem bbfV_apply (m : (ℓ : Loc nD τ sig) → Buf (Elt Ideal) ℓ) (c : Dev nD) (x : S768x1536.Idx) :
    (bbfV m c x : EReal) = m ((c : Thread nD τ).loc main_arg1) x := by
  unfold bbfV
  rw [pay1_apply, bBlk_apply]

end Cert.KernelIdeal.Hand

end
-- ==== Proof.RefSide.lean ====
import proofs.«900886_g7700000000000887_dist_matmul_k_i_m1536_n1536_k768_v7x_i8_bf16_1_alg».proof.Defs
import proofs.«900886_g7700000000000887_dist_matmul_k_i_m1536_n1536_k768_v7x_i8_bf16_1_alg».proof.Proof.Gen.ReferenceIdeal
import proofs.«900886_g7700000000000887_dist_matmul_k_i_m1536_n1536_k768_v7x_i8_bf16_1_alg».proof.Proof.Gen.ReferenceIdeal.Run
import proofs.«900886_g7700000000000887_dist_matmul_k_i_m1536_n1536_k768_v7x_i8_bf16_1_alg».proof.Proof.Gen.ReferenceIdeal.Read
import proofs.«900886_g7700000000000887_dist_matmul_k_i_m1536_n1536_k768_v7x_i8_bf16_1_alg».proof.Proof.Gen.Pre_finite_inputs_ReferenceIdeal
import Idealize.ShloMosaic.Lib.ValueIdx
import Idealize.ShloMosaic.PureOps.Ideal

noncomputable section

open Idealize.ShloMosaic Idealize.ShloMosaic.TcCoe Idealize.SL.Sem

namespace Cert.ReferenceIdeal.RefValue

open Cert.ReferenceIdeal Cert.ReferenceIdeal.Gen

def refOut (A : S1536x6144.Idx → EReal) (B : S6144x1536.Idx → EReal) : S1536x1536.Idx → EReal :=
  fun i => ∑ k : Fin 6144, A (ValueIdx.ix2 (i 0) k) * B (ValueIdx.ix2 k (i 1))

theorem lidx_eq (i : S1536x1536.Idx) (k : Fin 6144) :
    Read.lidx_main_v0 i k = ValueIdx.ix2 (i 0) k :=
  funext fun a => Fin.ext (by match a with | ⟨0, _⟩ => rfl | ⟨1, _⟩ => rfl)

theorem ridx_eq (i : S1536x1536.Idx) (k : Fin 6144) :
    Read.ridx_main_v0 i k = ValueIdx.ix2 k (i 1) :=
  funext fun a => Fin.ext (by match a with | ⟨0, _⟩ => rfl | ⟨1, _⟩ => rfl)

theorem val_eq (A : S1536x6144.Idx → EReal) (B : S6144x1536.Idx → EReal) :
    Read.val_main_v1 (F := Ideal) A B = refOut A B := by
  funext i
  rw [Read.val_main_v1_apply, Ideal.truncf_def, Read.val_main_v0_apply]
  unfold refOut
  refine Finset.sum_congr rfl fun k _ => ?_
  rw [lidx_eq, ridx_eq]
  rfl

theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r =>
      r.2.mem (((0 : Dev Cert.ReferenceIdeal.nD).tc : Thread Cert.ReferenceIdeal.nD Cert.ReferenceIdeal.τ).loc Cert.ReferenceIdeal.main_v1)
        = refOut (m' (((0 : Dev Cert.ReferenceIdeal.nD).tc : Thread Cert.ReferenceIdeal.nD Cert.ReferenceIdeal.τ).loc Cert.ReferenceIdeal.main_arg0))
            (m' (((0 : Dev Cert.ReferenceIdeal.nD).tc : Thread Cert.ReferenceIdeal.nD Cert.ReferenceIdeal.τ).loc Cert.ReferenceIdeal.main_arg1))
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
      ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) :=
  (θ_run Cert.ReferenceIdeal.defs _ _).mono
    (fun _ h => ⟨(h 0).1.trans (by rw [Read.val_main_v1_eq]; exact val_eq _ _), (h 0).2.1, (h 0).2.2⟩)
    (Cert.ReferenceIdeal.Value.run (F := Ideal) m' ρ')

theorem frame_ri : Cert.frame_ReferenceIdeal := fun m ρ _ =>
  (θ_run Cert.ReferenceIdeal.defs _ _).mono (fun _ h c => (h c).2) (Cert.ReferenceIdeal.Value.run (F := Ideal) m ρ)

/-- info: 'Cert.ReferenceIdeal.RefValue.ref_run' depends on axioms: [propext, Classical.choice, Quot.sound] -/
#guard_msgs in #print axioms ref_run

/-- info: 'Cert.ReferenceIdeal.RefValue.frame_ri' depends on axioms: [propext, Classical.choice, Quot.sound] -/
#guard_msgs in #print axioms frame_ri

end Cert.ReferenceIdeal.RefValue

end
-- ==== Proof.SumBlocks.lean ====
import proofs.«900886_g7700000000000887_dist_matmul_k_i_m1536_n1536_k768_v7x_i8_bf16_1_alg».proof.Proof.RefSide
import Idealize.ShloMosaic.Lib.Layout
import Idealize.ShloMosaic.Lib.ValueIdx
import Idealize.ShloMosaic.PureOps.Ideal
import Mathlib.Algebra.BigOperators.Fin
import Mathlib.Algebra.BigOperators.Group.List.Basic
import Mathlib.Data.Fintype.BigOperators
import Mathlib.Logic.Equiv.Fin.Basic

noncomputable section

open Idealize.ShloMosaic

namespace Cert.KernelIdeal.Hand.Math

open Cert.KernelIdeal

def partialProd (Ac : S1536x768.Idx → EReal) (Bc : S768x1536.Idx → EReal) : S1536x1536.Idx → EReal :=
  fun i => ∑ k : Fin 768, Ac (ValueIdx.ix2 (i 0) k) * Bc (ValueIdx.ix2 k (i 1))

def blockEquiv : Fin 8 × Fin 768 ≃ Fin 6144 := finProdFinEquiv

theorem sum_blocks {M : Type} [AddCommMonoid M] (g : Fin 6144 → M) :
    ∑ j : Fin 6144, g j = ∑ c : Fin 8, ∑ k : Fin 768, g (blockEquiv (c, k)) := by
  rw [← Equiv.sum_comp blockEquiv g, Fintype.sum_prod_type]

theorem colBlock_idx (h : Layout.Tiles ⟨2, ![1536, 768]⟩ ⟨2, ![1536, 6144]⟩ 1 8) (c : Fin 8) (r : Fin 1536) (k : Fin 768) :
    h.idx c (ValueIdx.ix2 r k) = ValueIdx.ix2 r (blockEquiv (c, k)) :=
  funext fun a => Fin.ext (by
    match a with
    | ⟨0, _⟩ => rfl
    | ⟨1, _⟩ => show c.val * 768 + k.val = k.val + 768 * c.val; omega)

theorem rowBlock_idx (h : Layout.Tiles ⟨2, ![768, 1536]⟩ ⟨2, ![6144, 1536]⟩ 0 8) (c : Fin 8) (k : Fin 768) (l : Fin 1536) :
    h.idx c (ValueIdx.ix2 k l) = ValueIdx.ix2 (blockEquiv (c, k)) l :=
  funext fun a => Fin.ext (by
    match a with
    | ⟨0, _⟩ => show c.val * 768 + k.val = k.val + 768 * c.val; omega
    | ⟨1, _⟩ => rfl)

theorem sum_partials (A : Cert.ReferenceIdeal.S1536x6144.Idx → EReal) (B : Cert.ReferenceIdeal.S6144x1536.Idx → EReal)
    (i : S1536x1536.Idx) :
    (∑ c : Fin 8, partialProd (Layout.block ⟨2, ![1536, 768]⟩ ⟨2, ![1536, 6144]⟩ 1 8 c A)
        (Layout.block ⟨2, ![768, 1536]⟩ ⟨2, ![6144, 1536]⟩ 0 8 c B) i)
      = Cert.ReferenceIdeal.RefValue.refOut A B i := by
  unfold partialProd Cert.ReferenceIdeal.RefValue.refOut
  rw [sum_blocks]
  refine Finset.sum_congr rfl fun c _ => Finset.sum_congr rfl fun k _ => ?_
  exact congrArg₂ (· * ·) (congrArg A (colBlock_idx _ c (i 0) k)) (congrArg B (rowBlock_idx _ c k (i 1)))

theorem sum_tree {M : Type} [AddCommMonoid M] (p0 p1 p2 : Fin 8 → Fin 8) (c : Fin 8)
    (h : List.Perm [c, p0 c, p1 c, p0 (p1 c), p2 c, p0 (p2 c), p1 (p2 c), p0 (p1 (p2 c))] (List.finRange 8))
    (f : Fin 8 → M) :
    ((f c + f (p0 c)) + (f (p1 c) + f (p0 (p1 c)))) + ((f (p2 c) + f (p0 (p2 c))) + (f (p1 (p2 c)) + f (p0 (p1 (p2 c)))))
      = ∑ d : Fin 8, f d := by
  rw [Fin.sum_univ_def, ← (h.map f).sum_eq]
  simp only [List.map_cons, List.map_nil, List.sum_cons, List.sum_nil, add_zero, add_assoc]

/-- info: 'Cert.KernelIdeal.Hand.Math.sum_partials' depends on axioms: [propext, Classical.choice, Quot.sound] -/
#guard_msgs in #print axioms sum_partials

/-- info: 'Cert.KernelIdeal.Hand.Math.sum_tree' depends on axioms: [propext, Classical.choice, Quot.sound] -/
#guard_msgs in #print axioms sum_tree

end Cert.KernelIdeal.Hand.Math

end
-- ==== Proof.ValTree.lean ====
import proofs.«900886_g7700000000000887_dist_matmul_k_i_m1536_n1536_k768_v7x_i8_bf16_1_alg».proof.Proof.Vals
import proofs.«900886_g7700000000000887_dist_matmul_k_i_m1536_n1536_k768_v7x_i8_bf16_1_alg».proof.Proof.ValPay
import proofs.«900886_g7700000000000887_dist_matmul_k_i_m1536_n1536_k768_v7x_i8_bf16_1_alg».proof.Proof.ValRows
import proofs.«900886_g7700000000000887_dist_matmul_k_i_m1536_n1536_k768_v7x_i8_bf16_1_alg».proof.Proof.SumBlocks

noncomputable section

namespace Cert.KernelIdeal.Hand

open Cert.KernelIdeal Cert.KernelIdeal.Gen
open Idealize.ShloMosaic Idealize.ShloMosaic.ValueIdx
open Idealize.ShloMosaic.TcCoe
open Idealize.SL Idealize.SL.Sem

theorem rowS_bound : ∀ (j : Fin 3) (i : Fin 4) (c : Dev nD), rowS0 j.val c + pos j.val i.val c * 64 + 64 ≤ 1536 := by decide
theorem rowK_bound : ∀ (j : Fin 3) (c : Dev nD), rowK0 j.val c + 256 ≤ 1536 := by decide

theorem rows_step0 : ∀ (j : Fin 3) (i : Fin 4) (c : Dev nD),
    rowS0 j.val (pt j.val 0 c) + pos j.val i.val (pt j.val 0 c) * 64 = rowK0 j.val c + pos j.val i.val c * 64 := by decide

theorem rows_step1 : ∀ (j : Fin 3) (h : Fin 2) (c : Dev nD),
    rowK0 j.val (pt j.val 1 c) + pos j.val h.val (pt j.val 1 c) * 64 = rowK0 j.val c + pos j.val (h.val + 2) c * 64 := by decide

theorem rows_own : ∀ (j : Fin 3) (c : Dev nD), rowK0 j.val c + (posF j 3 c).val * 64 = rowK2 j.val c := by decide
theorem rows_fin0 : ∀ (j : Fin 3) (c : Dev nD),
    rowS0 j.val (pt j.val 0 c) + pos j.val (3 : Fin 4).val (pt j.val 0 c) * 64 = rowK2 j.val c := by decide
theorem rows_fin1 : ∀ (j : Fin 3) (c : Dev nD),
    rowK0 j.val (pt j.val 1 c) + pos j.val (1 : Fin 2).val (pt j.val 1 c) * 64 = rowK2 j.val c := by decide
theorem rows_fin2 : ∀ (j : Fin 3) (c : Dev nD),
    rowK0 j.val (pt j.val 2 c) + pos j.val 2 (pt j.val 2 c) * 64 = rowK2 j.val c := by decide
theorem leaves (j : Fin 3) : ∀ c : Dev nD, List.Perm [c, pt j.val 0 c, pt j.val 1 c, pt j.val 0 (pt j.val 1 c), pt j.val 2 c, pt j.val 0 (pt j.val 2 c),
    pt j.val 1 (pt j.val 2 c), pt j.val 0 (pt j.val 1 (pt j.val 2 c))] (List.finRange 8) := by
  revert j; decide

variable (m : (ℓ : Loc nD τ sig) → Buf (Elt Ideal) ℓ)

def PP (d : Dev nD) (ρ : Nat) (q : Fin 1536) : EReal :=
  if h : ρ < 1536 then
    Math.partialProd (m ((d : Thread nD τ).loc main_arg0)) (m ((d : Thread nD τ).loc main_arg1)) (ix2 (⟨ρ, h⟩ : Fin 1536) q)
  else 0

theorem prod0_apply (c : Dev nD) (i : Fin 4) (j : Fin 3) (u : Fin 1) (r : Fin 64) (q : Fin 1536) :
    (prod0 m c i j (ix3 u r q) : EReal) = PP m c (rowS0 j.val c + pos j.val i.val c * 64 + r.val) q := by
  have hb : rowS0 j.val c + pos j.val i.val c * 64 + r.val < 1536 := by
    have := rowS_bound j i c; have := r.isLt; omega
  unfold prod0 PP
  rw [pay2_apply, dif_pos hb]
  unfold Math.partialProd
  refine Finset.sum_congr rfl fun k _ => ?_
  rw [aRows_apply m c _ _ r k hb, aBlk_apply, bbfV_apply]

theorem kslice_apply (c : Dev nD) (j : Fin 3) (p : Fin 4) (u : Fin 1) (r : Fin 64) (q : Fin 1536) :
    (kslice m c j p (ix3 u r q) : EReal) = PP m c (rowK0 j.val c + p.val * 64 + r.val) q := by
  have hp : p.val * 64 + r.val < 256 := by have := p.isLt; have := r.isLt; omega
  have hb' : rowK0 j.val c + (⟨p.val * 64 + r.val, hp⟩ : Fin 256).val < 1536 := by
    have := rowK_bound j c; show rowK0 j.val c + (p.val * 64 + r.val) < 1536; omega
  have hb : rowK0 j.val c + p.val * 64 + r.val < 1536 := by
    have := rowK_bound j c; omega
  unfold kslice kaccV PP
  show (k0_pay16 (F := Ideal) _ _ (ix3 (0 : Fin 1) (⟨p.val * 64 + r.val, hp⟩ : Fin 256) q) : EReal) = _
  rw [pay16_apply, dif_pos hb]
  unfold Math.partialProd
  refine Finset.sum_congr rfl fun k _ => ?_
  rw [aRows256_apply m c _ _ _ k hb', aBlk_apply, bbfV_apply]
  have e : (⟨rowK0 j.val c + (⟨p.val * 64 + r.val, hp⟩ : Fin 256).val, hb'⟩ : Fin 1536) = ⟨rowK0 j.val c + p.val * 64 + r.val, hb⟩ :=
    Fin.ext (Nat.add_assoc _ _ _).symm
  rw [e]

theorem V0_apply (c : Dev nD) (i : Fin 4) (j : Fin 3) (r : Fin 64) (q : Fin 1536) :
    (V0 m c i j (ix2 r q) : EReal) = PP m c (rowS0 j.val c + pos j.val i.val c * 64 + r.val) q := by
  unfold V0
  rw [sq_apply, prod0_apply]

theorem V1_apply (c : Dev nD) (h : Fin 2) (j : Fin 3) (r : Fin 64) (q : Fin 1536) :
    (V1 m c h j (ix2 r q) : EReal)
      = PP m c (rowK0 j.val c + pos j.val h.val c * 64 + r.val) q
        + PP m (pt j.val 0 c) (rowK0 j.val c + pos j.val h.val c * 64 + r.val) q := by
  unfold V1
  rw [sq_apply, pay19_apply, kslice_apply, unsq_apply, V0_apply, rows_step0 j _ c]
  rfl

theorem V2_apply (c : Dev nD) (j : Fin 3) (r : Fin 64) (q : Fin 1536) :
    (V2 m c j (ix2 r q) : EReal)
      = (PP m c (rowK0 j.val c + pos j.val 2 c * 64 + r.val) q
          + PP m (pt j.val 0 c) (rowK0 j.val c + pos j.val 2 c * 64 + r.val) q)
        + (PP m (pt j.val 1 c) (rowK0 j.val c + pos j.val 2 c * 64 + r.val) q
          + PP m (pt j.val 0 (pt j.val 1 c)) (rowK0 j.val c + pos j.val 2 c * 64 + r.val) q) := by
  unfold V2
  rw [sq_apply, pay26_apply, kslice_apply, unsq_apply, unsq_apply, V0_apply, V1_apply, rows_step0 j _ c, rows_step1 j _ c]
  rfl

theorem fin_apply (c : Dev nD) (j : Fin 3) (r : Fin 64) (q : Fin 1536) :
    (fin m c j (ix2 r q) : EReal)
      = ((PP m c (rowK2 j.val c + r.val) q + PP m (pt j.val 0 c) (rowK2 j.val c + r.val) q)
          + (PP m (pt j.val 1 c) (rowK2 j.val c + r.val) q + PP m (pt j.val 0 (pt j.val 1 c)) (rowK2 j.val c + r.val) q))
        + ((PP m (pt j.val 2 c) (rowK2 j.val c + r.val) q + PP m (pt j.val 0 (pt j.val 2 c)) (rowK2 j.val c + r.val) q)
          + (PP m (pt j.val 1 (pt j.val 2 c)) (rowK2 j.val c + r.val) q
            + PP m (pt j.val 0 (pt j.val 1 (pt j.val 2 c))) (rowK2 j.val c + r.val) q)) := by
  unfold fin
  rw [pay32_apply, kslice_apply, unsq_apply, unsq_apply, unsq_apply, V0_apply, V1_apply, V2_apply,
    rows_own j c, rows_fin0 j c, rows_fin1 j c, rows_fin2 j c]

theorem fin_sum (c : Dev nD) (j : Fin 3) (r : Fin 64) (q : Fin 1536) :
    (fin m c j (ix2 r q) : EReal) = ∑ d : Fin 8, PP m d (rowK2 j.val c + r.val) q := by
  rw [fin_apply]
  exact Math.sum_tree (pt j.val 0) (pt j.val 1) (pt j.val 2) c (leaves j c) (fun d => PP m d (rowK2 j.val c + r.val) q)

end Cert.KernelIdeal.Hand

end
-- ==== Proof.ValueIdeal.lean ====
import proofs.«900886_g7700000000000887_dist_matmul_k_i_m1536_n1536_k768_v7x_i8_bf16_1_alg».proof.Proof.Vals
import proofs.«900886_g7700000000000887_dist_matmul_k_i_m1536_n1536_k768_v7x_i8_bf16_1_alg».proof.Proof.ValTree
import proofs.«900886_g7700000000000887_dist_matmul_k_i_m1536_n1536_k768_v7x_i8_bf16_1_alg».proof.Proof.SumBlocks
import proofs.«900886_g7700000000000887_dist_matmul_k_i_m1536_n1536_k768_v7x_i8_bf16_1_alg».proof.Proof.RefSide

noncomputable section

namespace Cert.KernelIdeal.Hand

open Cert.KernelIdeal Cert.KernelIdeal.Gen
open Idealize.ShloMosaic Idealize.ShloMosaic.ValueIdx
open Idealize.ShloMosaic.TcCoe
open Idealize.SL Idealize.SL.Sem

theorem owner_row : ∀ p : Fin 24,
    rowK2 (p.val / 8) (((List.finRange 8).find? fun d : Dev nD => rowK2 (p.val / 8) d = p.val * 64).getD 0) = p.val * 64 := by
  decide

theorem ownerOf_row (ρ : Nat) (hρ : ρ < 1536) : rowK2 (ρ / 512) (ownerOf ρ) = ρ / 64 * 64 := by
  have h := owner_row ⟨ρ / 64, by omega⟩
  unfold ownerOf
  rw [show ρ / 512 = ρ / 64 / 8 by omega]
  exact h

variable (m : (ℓ : Loc nD τ sig) → Buf (Elt Ideal) ℓ)
variable (A : Cert.ReferenceIdeal.S1536x6144.Idx → EReal) (B : Cert.ReferenceIdeal.S6144x1536.Idx → EReal)

theorem sum_PP
    (hA : ∀ c : Dev nD, m ((c.tc : Thread nD τ).loc main_arg0) = Layout.block ⟨2, ![1536, 768]⟩ ⟨2, ![1536, 6144]⟩ 1 8 c A)
    (hB : ∀ c : Dev nD, m ((c.tc : Thread nD τ).loc main_arg1) = Layout.block ⟨2, ![768, 1536]⟩ ⟨2, ![6144, 1536]⟩ 0 8 c B)
    (ρ : Nat) (hρ : ρ < 1536) (q : Fin 1536) :
    ∑ d : Fin 8, PP m d ρ q = Cert.ReferenceIdeal.RefValue.refOut A B (ix2 (⟨ρ, hρ⟩ : Fin 1536) q) := by
  rw [← Math.sum_partials A B]
  refine Finset.sum_congr rfl fun d _ => ?_
  unfold PP
  rw [dif_pos hρ, hA d, hB d]

theorem outFin_eq
    (hA : ∀ c : Dev nD, m ((c.tc : Thread nD τ).loc main_arg0) = Layout.block ⟨2, ![1536, 768]⟩ ⟨2, ![1536, 6144]⟩ 1 8 c A)
    (hB : ∀ c : Dev nD, m ((c.tc : Thread nD τ).loc main_arg1) = Layout.block ⟨2, ![768, 1536]⟩ ⟨2, ![6144, 1536]⟩ 0 8 c B) :
    outFin (F := Ideal) m = Cert.ReferenceIdeal.RefValue.refOut A B := by
  funext i
  have hρ : (i 0).val < 1536 := (i 0).isLt
  have hrow : rowK2 ((i 0).val / 512) (ownerOf (i 0).val) + (i 0).val % 64 = (i 0).val := by
    rw [ownerOf_row _ hρ]; omega
  unfold outFin
  refine (fin_sum m _ _ _ _).trans ?_
  show ∑ d : Fin 8, PP m d (rowK2 ((i 0).val / 512) (ownerOf (i 0).val) + (i 0).val % 64) (i 1) = _
  rw [hrow]
  refine (sum_PP m A B hA hB _ hρ (i 1)).trans ?_
  exact congrArg (Cert.ReferenceIdeal.RefValue.refOut A B) (funext fun a => by match a with | ⟨0, _⟩ => rfl | ⟨1, _⟩ => rfl)

/-- info: 'Cert.KernelIdeal.Hand.outFin_eq' depends on axioms: [propext, Classical.choice, Quot.sound] -/
#guard_msgs in #print axioms outFin_eq

end Cert.KernelIdeal.Hand

end
-- ==== Proof.Claims.lean ====
import proofs.«900886_g7700000000000887_dist_matmul_k_i_m1536_n1536_k768_v7x_i8_bf16_1_alg».proof.Proof.Root
import proofs.«900886_g7700000000000887_dist_matmul_k_i_m1536_n1536_k768_v7x_i8_bf16_1_alg».proof.Proof.Launch
import proofs.«900886_g7700000000000887_dist_matmul_k_i_m1536_n1536_k768_v7x_i8_bf16_1_alg».proof.Proof.ValueIdeal
import proofs.«900886_g7700000000000887_dist_matmul_k_i_m1536_n1536_k768_v7x_i8_bf16_1_alg».proof.Proof.RefSide
import proofs.«900886_g7700000000000887_dist_matmul_k_i_m1536_n1536_k768_v7x_i8_bf16_1_alg».proof.Proof.Gen.Kernel
import proofs.«900886_g7700000000000887_dist_matmul_k_i_m1536_n1536_k768_v7x_i8_bf16_1_alg».proof.Proof.Gen.Pre_finite_inputs_Kernel
import proofs.«900886_g7700000000000887_dist_matmul_k_i_m1536_n1536_k768_v7x_i8_bf16_1_alg».proof.Proof.Gen.Pre_finite_inputs_ReferenceIdeal

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem kernel_run : θ_run defs (onTc (τ := τ) (main (F := F))) (s₀ m ρ) (QC m ρ) :=
  run_main m ρ fun c => body_obligation m ρ c (body_run m ρ c)

/-- At every float instance the run ends with both argument blocks as they were. -/
theorem frame_run : θ_run defs (onTc (τ := τ) (main (F := F))) ⟨m, fun _ => 0, ρ⟩ (fun r => ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun r h c => ⟨(h c 0).trans (finalA_in0 m ρ c), (h c 1).trans (finalA_in1 m ρ c)⟩) (kernel_run m ρ)

end Cert.KernelIdeal.Hand

namespace Cert.Proof.Claims

open Idealize.ShloMosaic Idealize.ShloMosaic.TcCoe Idealize.SL.Sem

variable {F : FTy → Type} [FloatOps F]

/-- The two printed programs are one text, so their kernel tables are equal. -/
theorem defs₀_eq : Cert.Kernel.defs₀ (F := F) = Cert.KernelIdeal.defs₀ (F := F) := by
  unfold Cert.Kernel.defs₀ Cert.KernelIdeal.defs₀
  congr 1; funext l a
  match l, a with
  | 0, (t, s) => rfl

theorem defs_eq : Cert.Kernel.defs (F := F) = Cert.KernelIdeal.defs (F := F) := by
  unfold Cert.Kernel.defs Cert.KernelIdeal.defs; rw [defs₀_eq]; rfl

/-- The word-level program is the idealized program's text, so the frame proved at every float instance is its frame too. -/
theorem frame_p : Cert.frame_Kernel := fun m ρ _ => by
  rw [defs_eq]; exact Cert.KernelIdeal.Hand.frame_run (F := Bits) m ρ

theorem frame_pi : Cert.frame_KernelIdeal := fun m ρ _ => Cert.KernelIdeal.Hand.frame_run (F := Ideal) m ρ

theorem preserves : Cert.preserves_Kernel_KernelIdeal := trivial

/-- A finite sum of extended reals does not depend on its order: each device's tree sum of the eight partial products is A · B. -/
theorem algebraic : Cert.algebraic_KernelIdeal_ReferenceIdeal := by
  intro m ρ m' ρ' _ hagree
  refine ⟨Cert.ReferenceIdeal.RefValue.refOut _ _, ?_, Cert.ReferenceIdeal.RefValue.ref_run m' ρ'⟩
  refine (θ_run (Cert.KernelIdeal.defs (F := Ideal)) _ _).mono (fun r h c => ⟨?_, ?_, ?_⟩)
    (Cert.KernelIdeal.Hand.kernel_run (F := Ideal) m ρ)
  · exact ((h c 2).trans (Cert.KernelIdeal.Hand.finalA_out m ρ c)).trans
      (Cert.KernelIdeal.Hand.outFin_eq m _ _ (fun c => (hagree c).1) (fun c => (hagree c).2))
  · exact (h c 0).trans (Cert.KernelIdeal.Hand.finalA_in0 m ρ c)
  · exact (h c 1).trans (Cert.KernelIdeal.Hand.finalA_in1 m ρ c)

end Cert.Proof.Claims

end
-- ==== Proof.lean ====
import proofs.«900886_g7700000000000887_dist_matmul_k_i_m1536_n1536_k768_v7x_i8_bf16_1_alg».proof.Defs
import proofs.«900886_g7700000000000887_dist_matmul_k_i_m1536_n1536_k768_v7x_i8_bf16_1_alg».proof.Proof.Gen.Kernel
import proofs.«900886_g7700000000000887_dist_matmul_k_i_m1536_n1536_k768_v7x_i8_bf16_1_alg».proof.Proof.Gen.KernelIdeal
import proofs.«900886_g7700000000000887_dist_matmul_k_i_m1536_n1536_k768_v7x_i8_bf16_1_alg».proof.Proof.Gen.ReferenceIdeal
import proofs.«900886_g7700000000000887_dist_matmul_k_i_m1536_n1536_k768_v7x_i8_bf16_1_alg».proof.Proof.Gen.Pre_finite_inputs_Kernel
import proofs.«900886_g7700000000000887_dist_matmul_k_i_m1536_n1536_k768_v7x_i8_bf16_1_alg».proof.Proof.Gen.Pre_finite_inputs_ReferenceIdeal
import proofs.«900886_g7700000000000887_dist_matmul_k_i_m1536_n1536_k768_v7x_i8_bf16_1_alg».proof.Proof.Claims

namespace Cert.Proof

/-- Eight devices multiply their blocks of A and B, add the partial products along a hypercube and gather the sum A · B. -/
theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts, Cert.Proof.Claims.frame_p, Cert.Proof.Claims.frame_pi, Cert.ReferenceIdeal.RefValue.frame_ri, Cert.Proof.Claims.preserves,
  Cert.Proof.Claims.algebraic⟩

end Cert.Proof
